-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x2048x512 : Shape := ⟨3, ![4, 2048, 512]⟩
abbrev S4x16 : Shape := ⟨2, ![4, 16]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x16 : S_.BroadcastsInDim S4x16 (![] : Fin 0 → Fin S4x16.rank)
  reducesTo_S4x16_S_d0_1 : S4x16.ReducesTo [0, 1] S_

variable [Facts]

def fn {F : FTy → Type} [FloatOps F] (main_arg0 : FVec F S4x2048x512 .f32) (main_arg1 : IVec S4x16 32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_c_0 : IVec S_ 32 := constantI S_ 32 0#32
  let main_v4 : IVec S4x16 32 := broadcastInDim S4x16 ![] bcast_S_S4x16 main_c_0
  let main_v5 : IVec S4x16 1 := cmpi .sge main_arg1 main_v4
  let main_c_1 : IVec S_ 32 := constantI S_ 32 127#32
  let main_v6 : IVec S4x16 32 := broadcastInDim S4x16 ![] bcast_S_S4x16 main_c_1
  let main_v7 : IVec S4x16 1 := cmpi .sle main_arg1 main_v6
  let main_v8 : IVec S4x16 1 := andi main_v5 main_v7
  let main_c_2 : IVec S_ 1 := constantI S_ 1 1#1
  let main_v9 : IVec S_ 1 := (fun x v => Host.reduce IntOp.andi x v reducesTo_S4x16_S_d0_1 h_S_) main_v8 main_c_2
  let main_v10 : IVec S_ 1 := andi main_v3 main_v9
  main_v10
-- ==== Kernel.lean ====
abbrev S4x2048x512 : Shape := ⟨3, ![4, 2048, 512]⟩
abbrev S4x16 : Shape := ⟨2, ![4, 16]⟩
abbrev S1x16x512 : Shape := ⟨3, ![1, 16, 512]⟩
abbrev S32 : Shape := ⟨1, ![32]⟩
abbrev S144x256 : Shape := ⟨2, ![144, 256]⟩
abbrev S1x256 : Shape := ⟨2, ![1, 256]⟩
abbrev S8x512 : Shape := ⟨2, ![8, 512]⟩
abbrev S_ : Shape := ⟨0, ![]⟩
abbrev S1x16 : Shape := ⟨2, ![1, 16]⟩
abbrev S16 : Shape := ⟨1, ![16]⟩
abbrev S1 : Shape := ⟨1, ![1]⟩
abbrev S72x256 : Shape := ⟨2, ![72, 256]⟩
abbrev S1x72x256 : Shape := ⟨3, ![1, 72, 256]⟩
abbrev S1x8x512 : Shape := ⟨3, ![1, 8, 512]⟩
abbrev S4x1x16 : Shape := ⟨3, ![4, 1, 16]⟩
abbrev S3x16x512 : Shape := ⟨3, ![3, 16, 512]⟩
abbrev S1x1x16 : Shape := ⟨3, ![1, 1, 16]⟩
abbrev S1x2048x512 : Shape := ⟨3, ![1, 2048, 512]⟩
abbrev S1x2048 : Shape := ⟨2, ![1, 2048]⟩
abbrev S1x1 : Shape := ⟨2, ![1, 1]⟩
abbrev S1x1x1 : Shape := ⟨3, ![1, 1, 1]⟩
abbrev S16x2048 : Shape := ⟨2, ![16, 2048]⟩
abbrev S16x1 : Shape := ⟨2, ![16, 1]⟩
abbrev S2048x512 : Shape := ⟨2, ![2048, 512]⟩
abbrev S16x512 : Shape := ⟨2, ![16, 512]⟩
abbrev S4x16x512 : Shape := ⟨3, ![4, 16, 512]⟩

abbrev nBuf : Table → Nat
  | .hbm => 6
  | .local .tc .vmem => 4
  | .local .tc .smem => 2
  | .shared => 1
  | .local .scVector .vmem => 4
  | _ => 0

abbrev bufTy : (tb : Table) → Fin (nBuf tb) → BufTy
  | .hbm, ⟨0, _⟩ => ⟨S4x2048x512, .f32⟩
  | .hbm, ⟨1, _⟩ => ⟨S4x16, .i32⟩
  | .hbm, ⟨2, _⟩ => ⟨S1x16x512, .f32⟩
  | .hbm, ⟨3, _⟩ => ⟨S4x1x16, .i32⟩
  | .hbm, ⟨4, _⟩ => ⟨S3x16x512, .f32⟩
  | .hbm, ⟨5, _⟩ => ⟨S4x16x512, .f32⟩
  | .local .tc .vmem, ⟨0, _⟩ => ⟨S1x2048x512, .f32⟩
  | .local .tc .vmem, ⟨1, _⟩ => ⟨S1x2048x512, .f32⟩
  | .local .tc .vmem, ⟨2, _⟩ => ⟨S1x16x512, .f32⟩
  | .local .tc .vmem, ⟨3, _⟩ => ⟨S1x16x512, .f32⟩
  | .local .tc .smem, ⟨0, _⟩ => ⟨S1x1x16, .i32⟩
  | .local .tc .smem, ⟨1, _⟩ => ⟨S1x1x16, .i32⟩
  | .shared, ⟨0, _⟩ => ⟨S8x512, .f32⟩
  | .local .scVector .vmem, ⟨0, _⟩ => ⟨S4x16, .i32⟩
  | .local .scVector .vmem, ⟨1, _⟩ => ⟨S32, .i32⟩
  | .local .scVector .vmem, ⟨2, _⟩ => ⟨S144x256, .f32⟩
  | .local .scVector .vmem, ⟨3, _⟩ => ⟨S1x256, .f32⟩
  | _, _ => ⟨S4x2048x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg0_0 : Ref sig .tc := ⟨.smem, 0, rfl⟩
abbrev cc1_stg0_1 : Ref sig .tc := ⟨.smem, 1, rfl⟩
abbrev cc0_scratch4 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_12 : BitVec 32 := 0#32
  let arg0 : BitVec 32 := BitVec.ofNat 32 (i 0).val
  let c8_i32 : BitVec 32 := 8#32
  let v17 : BitVec 32 := Scalar.muli arg0 c8_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 32 := Scalar.addi v17 v16
  let v40 : BitVec 32 := Scalar.subi v18 c0_i32_12
  let c1_i32_14 : BitVec 32 := 1#32
  let v42 : BitVec 32 := Scalar.divsi v40 c1_i32_14
  let v43 : BitVec 32 := Scalar.muli v42 c1_i32_14
  let v44 : BitVec 32 := Scalar.addi c0_i32_12 v43
  let c1_i32_15 : BitVec 32 := 1#32
  ⟨c0_i32_12, v44, c1_i32_15⟩
def k0_off1 (i : grid0.Coords) (k0_t1 : Fin (k0_t1_loop i).trips) : Fin 1 → Nat :=
  let c0_i32_12 : BitVec 32 := 0#32
  let c1_i32_15 : BitVec 32 := 1#32
  let arg12 : BitVec 32 := Scf.iv c0_i32_12 c1_i32_15 k0_t1
  let v234 : Index := Scalar.indexCast arg12
  ![v234.toNat]
@[reducible] def k0_t2_loop (i : grid0.Coords) : Scf.Loop 32 :=
  let c0_i32_12 : BitVec 32 := 0#32
  let arg0 : BitVec 32 := BitVec.ofNat 32 (i 0).val
  let c8_i32 : BitVec 32 := 8#32
  let v17 : BitVec 32 := Scalar.muli arg0 c8_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 32 := Scalar.addi v17 v16
  let v40 : BitVec 32 := Scalar.subi v18 c0_i32_12
  let c1_i32_14 : BitVec 32 := 1#32
  let v42 : BitVec 32 := Scalar.divsi v40 c1_i32_14
  let v43 : BitVec 32 := Scalar.muli v42 c1_i32_14
  let v44 : BitVec 32 := Scalar.addi c0_i32_12 v43
  let v41 : BitVec 32 := Scalar.addi c0_i32_12 v40
  let c1_i32_16 : BitVec 32 := 1#32
  ⟨v44, v41, c1_i32_16⟩
def k0_off2 (i : grid0.Coords) (k0_t2 : Fin (k0_t2_loop i).trips) : Fin 1 → Nat :=
  let c0_i32_12 : BitVec 32 := 0#32
  let arg0 : BitVec 32 := BitVec.ofNat 32 (i 0).val
  let c8_i32 : BitVec 32 := 8#32
  let v17 : BitVec 32 := Scalar.muli arg0 c8_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 32 := Scalar.addi v17 v16
  let v40 : BitVec 32 := Scalar.subi v18 c0_i32_12
  let c1_i32_14 : BitVec 32 := 1#32
  let v42 : BitVec 32 := Scalar.divsi v40 c1_i32_14
  let v43 : BitVec 32 := Scalar.muli v42 c1_i32_14
  let v44 : BitVec 32 := Scalar.addi c0_i32_12 v43
  let c1_i32_16 : BitVec 32 := 1#32
  let arg12 : BitVec 32 := Scf.iv v44 c1_i32_16 k0_t2
  let v234 : Index := Scalar.indexCast arg12
  ![v234.toNat]
def k0_off3 (i : grid0.Coords) : Fin 1 → Nat :=
  let arg0 : BitVec 32 := BitVec.ofNat 32 (i 0).val
  let c8_i32 : BitVec 32 := 8#32
  let v17 : BitVec 32 := Scalar.muli arg0 c8_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 32 := Scalar.addi v17 v16
  let v47 : Index := Scalar.indexCast v18
  ![v47.toNat]
def k0_mult1 (v46 : BitVec 32) : BitVec 32 :=
  let c8_i32_17 : BitVec 32 := 8#32
  let v52 : BitVec 32 := Scalar.remsi v46 c8_i32_17
  let v53 : BitVec 32 := Scalar.subi v46 v52
  v53

def k0_off4 (i : grid0.Coords) (v46 : BitVec 32) : Fin 3 → Nat :=
  let c3_i32_18 : BitVec 32 := 3#32
  let c8_i32_17 : BitVec 32 := 8#32
  let v52 : BitVec 32 := Scalar.remsi v46 c8_i32_17
  let v53 : BitVec 32 := Scalar.subi v46 v52
  let v54 : BitVec 32 := v53
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![3, v54.toNat, v29.toNat]
def k0_off5 (i : grid0.Coords) (v46 : BitVec 32) : Fin 3 → Nat :=
  let c3_i32_24 : BitVec 32 := 3#32
  let c8_i32_17 : BitVec 32 := 8#32
  let v52 : BitVec 32 := Scalar.remsi v46 c8_i32_17
  let v53 : BitVec 32 := Scalar.subi v46 v52
  let v54 : BitVec 32 := v53
  let c72_i32 : BitVec 32 := 72#32
  let v56 : BitVec 32 := Scalar.addi v54 c72_i32
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![3, v56.toNat, v29.toNat]
def k0_cond1 (v46 : BitVec 32) (v51 : BitVec 32) : BitVec 1 :=
  let c8_i32_17 : BitVec 32 := 8#32
  let v52 : BitVec 32 := Scalar.remsi v46 c8_i32_17
  let v55 : BitVec 32 := Scalar.addi v52 v51
  let c72_i32_23 : BitVec 32 := 72#32
  let v63 : BitVec 1 := Scalar.cmpi .sgt v55 c72_i32_23
  let v64 : BitVec 32 := Scalar.extui v63
  let c0_i32_25 : BitVec 32 := 0#32
  let v65 : BitVec 1 := Scalar.cmpi .ne v64 c0_i32_25
  v65

def k0_off6 (i : grid0.Coords) (v46 : BitVec 32) : Fin 3 → Nat :=
  let c3_i32_41 : BitVec 32 := 3#32
  let c8_i32_17 : BitVec 32 := 8#32
  let v52 : BitVec 32 := Scalar.remsi v46 c8_i32_17
  let v53 : BitVec 32 := Scalar.subi v46 v52
  let v54 : BitVec 32 := v53
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![3, v54.toNat, v29.toNat]

def k0_chk1 (i : grid0.Coords) (v46 : BitVec 32) : Prop :=
  (8 ∣ (k0_mult1 v46).toNat) ∧
  (∀ a, (k0_off4 i v46) a + S1x72x256.size a ≤ S4x2048x512.size a) ∧
  (∀ a, (k0_off6 i v46) a + S1x72x256.size a ≤ S4x2048x512.size a)
instance k0_chk1.dec : ∀ (i : grid0.Coords) (v46 : BitVec 32), Decidable (k0_chk1 i v46) := fun i v46 => decidable_of_iff' _ (Iff.of_eq (k0_chk1.eq_1 i v46))
theorem k0_mult1_dvd : ∀ (i : grid0.Coords) (v46 : BitVec 32) (k0_hw1 : k0_chk1 i v46), 8 ∣ (k0_mult1 v46).toNat := fun i v46 k0_hw1 => k0_hw1.1
theorem k0_off4_inb : ∀ (i : grid0.Coords) (v46 : BitVec 32) (k0_hw1 : k0_chk1 i v46), ∀ a, (k0_off4 i v46) a + S1x72x256.size a ≤ S4x2048x512.size a := fun i v46 k0_hw1 => k0_hw1.2.1
theorem k0_off6_inb : ∀ (i : grid0.Coords) (v46 : BitVec 32) (k0_hw1 : k0_chk1 i v46), ∀ a, (k0_off6 i v46) a + S1x72x256.size a ≤ S4x2048x512.size a := fun i v46 k0_hw1 => k0_hw1.2.2

@[reducible] def k0_t3_loop (v46 : BitVec 32) (v51 : BitVec 32) : Scf.Loop 32 :=
  let c0_i32_55 : BitVec 32 := 0#32
  let c8_i32_17 : BitVec 32 := 8#32
  let v52 : BitVec 32 := Scalar.remsi v46 c8_i32_17
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_57 : BitVec 32 := 1#32
  ⟨c0_i32_55, v112, c1_i32_57⟩
def k0_off7 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v236 : Index := Scalar.indexCast v235
  let c0_112 : Index := 0#32
  ![v236.toNat, 0]
def k0_off8 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_113 : BitVec 32 := 1#32
  let v240 : BitVec 32 := Scalar.addi v235 c1_i32_113
  let v241 : Index := Scalar.indexCast v240
  let c0_114 : Index := 0#32
  ![v241.toNat, 0]
def k0_off9 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v245 : Index := Scalar.indexCast v235
  let c16_115 : Index := 16#32
  ![v245.toNat, 16]
def k0_off10 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_116 : BitVec 32 := 1#32
  let v249 : BitVec 32 := Scalar.addi v235 c1_i32_116
  let v250 : Index := Scalar.indexCast v249
  let c16_117 : Index := 16#32
  ![v250.toNat, 16]
def k0_off11 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v254 : Index := Scalar.indexCast v235
  let c32_118 : Index := 32#32
  ![v254.toNat, 32]
def k0_off12 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_119 : BitVec 32 := 1#32
  let v258 : BitVec 32 := Scalar.addi v235 c1_i32_119
  let v259 : Index := Scalar.indexCast v258
  let c32_120 : Index := 32#32
  ![v259.toNat, 32]
def k0_off13 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v263 : Index := Scalar.indexCast v235
  let c48_121 : Index := 48#32
  ![v263.toNat, 48]
def k0_off14 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_122 : BitVec 32 := 1#32
  let v267 : BitVec 32 := Scalar.addi v235 c1_i32_122
  let v268 : Index := Scalar.indexCast v267
  let c48_123 : Index := 48#32
  ![v268.toNat, 48]
def k0_off15 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v272 : Index := Scalar.indexCast v235
  let c64_124 : Index := 64#32
  ![v272.toNat, 64]
def k0_off16 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_125 : BitVec 32 := 1#32
  let v276 : BitVec 32 := Scalar.addi v235 c1_i32_125
  let v277 : Index := Scalar.indexCast v276
  let c64_126 : Index := 64#32
  ![v277.toNat, 64]
def k0_off17 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v281 : Index := Scalar.indexCast v235
  let c80_127 : Index := 80#32
  ![v281.toNat, 80]
def k0_off18 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_128 : BitVec 32 := 1#32
  let v285 : BitVec 32 := Scalar.addi v235 c1_i32_128
  let v286 : Index := Scalar.indexCast v285
  let c80_129 : Index := 80#32
  ![v286.toNat, 80]
def k0_off19 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v290 : Index := Scalar.indexCast v235
  let c96_130 : Index := 96#32
  ![v290.toNat, 96]
def k0_off20 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_131 : BitVec 32 := 1#32
  let v294 : BitVec 32 := Scalar.addi v235 c1_i32_131
  let v295 : Index := Scalar.indexCast v294
  let c96_132 : Index := 96#32
  ![v295.toNat, 96]
def k0_off21 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v299 : Index := Scalar.indexCast v235
  let c112_133 : Index := 112#32
  ![v299.toNat, 112]
def k0_off22 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_134 : BitVec 32 := 1#32
  let v303 : BitVec 32 := Scalar.addi v235 c1_i32_134
  let v304 : Index := Scalar.indexCast v303
  let c112_135 : Index := 112#32
  ![v304.toNat, 112]
def k0_off23 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v308 : Index := Scalar.indexCast v235
  let c128_136 : Index := 128#32
  ![v308.toNat, 128]
def k0_off24 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_137 : BitVec 32 := 1#32
  let v312 : BitVec 32 := Scalar.addi v235 c1_i32_137
  let v313 : Index := Scalar.indexCast v312
  let c128_138 : Index := 128#32
  ![v313.toNat, 128]
def k0_off25 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v317 : Index := Scalar.indexCast v235
  let c144_139 : Index := 144#32
  ![v317.toNat, 144]
def k0_off26 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_140 : BitVec 32 := 1#32
  let v321 : BitVec 32 := Scalar.addi v235 c1_i32_140
  let v322 : Index := Scalar.indexCast v321
  let c144_141 : Index := 144#32
  ![v322.toNat, 144]
def k0_off27 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v326 : Index := Scalar.indexCast v235
  let c160_142 : Index := 160#32
  ![v326.toNat, 160]
def k0_off28 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_143 : BitVec 32 := 1#32
  let v330 : BitVec 32 := Scalar.addi v235 c1_i32_143
  let v331 : Index := Scalar.indexCast v330
  let c160_144 : Index := 160#32
  ![v331.toNat, 160]
def k0_off29 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v335 : Index := Scalar.indexCast v235
  let c176_145 : Index := 176#32
  ![v335.toNat, 176]
def k0_off30 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_146 : BitVec 32 := 1#32
  let v339 : BitVec 32 := Scalar.addi v235 c1_i32_146
  let v340 : Index := Scalar.indexCast v339
  let c176_147 : Index := 176#32
  ![v340.toNat, 176]
def k0_off31 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v344 : Index := Scalar.indexCast v235
  let c192_148 : Index := 192#32
  ![v344.toNat, 192]
def k0_off32 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_149 : BitVec 32 := 1#32
  let v348 : BitVec 32 := Scalar.addi v235 c1_i32_149
  let v349 : Index := Scalar.indexCast v348
  let c192_150 : Index := 192#32
  ![v349.toNat, 192]
def k0_off33 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v353 : Index := Scalar.indexCast v235
  let c208_151 : Index := 208#32
  ![v353.toNat, 208]
def k0_off34 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_152 : BitVec 32 := 1#32
  let v357 : BitVec 32 := Scalar.addi v235 c1_i32_152
  let v358 : Index := Scalar.indexCast v357
  let c208_153 : Index := 208#32
  ![v358.toNat, 208]
def k0_off35 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v362 : Index := Scalar.indexCast v235
  let c224_154 : Index := 224#32
  ![v362.toNat, 224]
def k0_off36 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_155 : BitVec 32 := 1#32
  let v366 : BitVec 32 := Scalar.addi v235 c1_i32_155
  let v367 : Index := Scalar.indexCast v366
  let c224_156 : Index := 224#32
  ![v367.toNat, 224]
def k0_off37 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let v371 : Index := Scalar.indexCast v235
  let c240_157 : Index := 240#32
  ![v371.toNat, 240]
def k0_off38 (v46 : BitVec 32) (v51 : BitVec 32) (k0_t3 : Fin (k0_t3_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let c1_i32_57 : BitVec 32 := 1#32
  let arg12 : BitVec 32 := Scf.iv c0_i32_55 c1_i32_57 k0_t3
  let v234 : BitVec 32 := Scalar.muli c2_i32_111 arg12
  let v235 : BitVec 32 := Scalar.addi v52 v234
  let c1_i32_158 : BitVec 32 := 1#32
  let v375 : BitVec 32 := Scalar.addi v235 c1_i32_158
  let v376 : Index := Scalar.indexCast v375
  let c240_159 : Index := 240#32
  ![v376.toNat, 240]
@[reducible] def k0_t4_loop (v46 : BitVec 32) (v51 : BitVec 32) : Scf.Loop 32 :=
  let c0_i32_55 : BitVec 32 := 0#32
  let c8_i32_17 : BitVec 32 := 8#32
  let v52 : BitVec 32 := Scalar.remsi v46 c8_i32_17
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let v109 : BitVec 32 := Scalar.addi c0_i32_55 v108
  let c1_i32_58 : BitVec 32 := 1#32
  ⟨v112, v109, c1_i32_58⟩
def k0_off39 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v236 : Index := Scalar.indexCast v235
  let c0_112 : Index := 0#32
  ![v236.toNat, 0]
def k0_off40 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_113 : BitVec 32 := 1#32
  let v240 : BitVec 32 := Scalar.addi v235 c1_i32_113
  let v241 : Index := Scalar.indexCast v240
  let c0_114 : Index := 0#32
  ![v241.toNat, 0]
def k0_off41 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v245 : Index := Scalar.indexCast v235
  let c16_115 : Index := 16#32
  ![v245.toNat, 16]
def k0_off42 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_116 : BitVec 32 := 1#32
  let v249 : BitVec 32 := Scalar.addi v235 c1_i32_116
  let v250 : Index := Scalar.indexCast v249
  let c16_117 : Index := 16#32
  ![v250.toNat, 16]
def k0_off43 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v254 : Index := Scalar.indexCast v235
  let c32_118 : Index := 32#32
  ![v254.toNat, 32]
def k0_off44 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_119 : BitVec 32 := 1#32
  let v258 : BitVec 32 := Scalar.addi v235 c1_i32_119
  let v259 : Index := Scalar.indexCast v258
  let c32_120 : Index := 32#32
  ![v259.toNat, 32]
def k0_off45 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v263 : Index := Scalar.indexCast v235
  let c48_121 : Index := 48#32
  ![v263.toNat, 48]
def k0_off46 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_122 : BitVec 32 := 1#32
  let v267 : BitVec 32 := Scalar.addi v235 c1_i32_122
  let v268 : Index := Scalar.indexCast v267
  let c48_123 : Index := 48#32
  ![v268.toNat, 48]
def k0_off47 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v272 : Index := Scalar.indexCast v235
  let c64_124 : Index := 64#32
  ![v272.toNat, 64]
def k0_off48 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_125 : BitVec 32 := 1#32
  let v276 : BitVec 32 := Scalar.addi v235 c1_i32_125
  let v277 : Index := Scalar.indexCast v276
  let c64_126 : Index := 64#32
  ![v277.toNat, 64]
def k0_off49 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v281 : Index := Scalar.indexCast v235
  let c80_127 : Index := 80#32
  ![v281.toNat, 80]
def k0_off50 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_128 : BitVec 32 := 1#32
  let v285 : BitVec 32 := Scalar.addi v235 c1_i32_128
  let v286 : Index := Scalar.indexCast v285
  let c80_129 : Index := 80#32
  ![v286.toNat, 80]
def k0_off51 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v290 : Index := Scalar.indexCast v235
  let c96_130 : Index := 96#32
  ![v290.toNat, 96]
def k0_off52 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_131 : BitVec 32 := 1#32
  let v294 : BitVec 32 := Scalar.addi v235 c1_i32_131
  let v295 : Index := Scalar.indexCast v294
  let c96_132 : Index := 96#32
  ![v295.toNat, 96]
def k0_off53 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v299 : Index := Scalar.indexCast v235
  let c112_133 : Index := 112#32
  ![v299.toNat, 112]
def k0_off54 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_134 : BitVec 32 := 1#32
  let v303 : BitVec 32 := Scalar.addi v235 c1_i32_134
  let v304 : Index := Scalar.indexCast v303
  let c112_135 : Index := 112#32
  ![v304.toNat, 112]
def k0_off55 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v308 : Index := Scalar.indexCast v235
  let c128_136 : Index := 128#32
  ![v308.toNat, 128]
def k0_off56 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_137 : BitVec 32 := 1#32
  let v312 : BitVec 32 := Scalar.addi v235 c1_i32_137
  let v313 : Index := Scalar.indexCast v312
  let c128_138 : Index := 128#32
  ![v313.toNat, 128]
def k0_off57 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v317 : Index := Scalar.indexCast v235
  let c144_139 : Index := 144#32
  ![v317.toNat, 144]
def k0_off58 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_140 : BitVec 32 := 1#32
  let v321 : BitVec 32 := Scalar.addi v235 c1_i32_140
  let v322 : Index := Scalar.indexCast v321
  let c144_141 : Index := 144#32
  ![v322.toNat, 144]
def k0_off59 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v326 : Index := Scalar.indexCast v235
  let c160_142 : Index := 160#32
  ![v326.toNat, 160]
def k0_off60 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_143 : BitVec 32 := 1#32
  let v330 : BitVec 32 := Scalar.addi v235 c1_i32_143
  let v331 : Index := Scalar.indexCast v330
  let c160_144 : Index := 160#32
  ![v331.toNat, 160]
def k0_off61 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v335 : Index := Scalar.indexCast v235
  let c176_145 : Index := 176#32
  ![v335.toNat, 176]
def k0_off62 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_146 : BitVec 32 := 1#32
  let v339 : BitVec 32 := Scalar.addi v235 c1_i32_146
  let v340 : Index := Scalar.indexCast v339
  let c176_147 : Index := 176#32
  ![v340.toNat, 176]
def k0_off63 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v344 : Index := Scalar.indexCast v235
  let c192_148 : Index := 192#32
  ![v344.toNat, 192]
def k0_off64 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_149 : BitVec 32 := 1#32
  let v348 : BitVec 32 := Scalar.addi v235 c1_i32_149
  let v349 : Index := Scalar.indexCast v348
  let c192_150 : Index := 192#32
  ![v349.toNat, 192]
def k0_off65 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v353 : Index := Scalar.indexCast v235
  let c208_151 : Index := 208#32
  ![v353.toNat, 208]
def k0_off66 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_152 : BitVec 32 := 1#32
  let v357 : BitVec 32 := Scalar.addi v235 c1_i32_152
  let v358 : Index := Scalar.indexCast v357
  let c208_153 : Index := 208#32
  ![v358.toNat, 208]
def k0_off67 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v362 : Index := Scalar.indexCast v235
  let c224_154 : Index := 224#32
  ![v362.toNat, 224]
def k0_off68 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_155 : BitVec 32 := 1#32
  let v366 : BitVec 32 := Scalar.addi v235 c1_i32_155
  let v367 : Index := Scalar.indexCast v366
  let c224_156 : Index := 224#32
  ![v367.toNat, 224]
def k0_off69 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let v371 : Index := Scalar.indexCast v235
  let c240_157 : Index := 240#32
  ![v371.toNat, 240]
def k0_off70 (v46 : BitVec 32) (v51 : BitVec 32) (k0_t4 : Fin (k0_t4_loop v46 v51).trips) : Fin 2 → Nat :=
  let c8_i32_17 : BitVec 32 := 8#32
  let v52 : BitVec 32 := Scalar.remsi v46 c8_i32_17
  let c2_i32_111 : BitVec 32 := 2#32
  let c0_i32_55 : BitVec 32 := 0#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v108 : BitVec 32 := Scalar.subi v107 c0_i32_55
  let c1_i32_56 : BitVec 32 := 1#32
  let v110 : BitVec 32 := Scalar.divsi v108 c1_i32_56
  let v111 : BitVec 32 := Scalar.muli v110 c1_i32_56
  let v112 : BitVec 32 := Scalar.addi c0_i32_55 v111
  let c1_i32_58 : BitVec 32 := 1#32
  let arg12 : BitVec 32 := Scf.iv v112 c1_i32_58 k0_t4
  let v234 : BitVec 32 := Scalar.muli c2_i32_111 arg12
  let v235 : BitVec 32 := Scalar.addi v52 v234
  let c1_i32_158 : BitVec 32 := 1#32
  let v375 : BitVec 32 := Scalar.addi v235 c1_i32_158
  let v376 : Index := Scalar.indexCast v375
  let c240_159 : Index := 240#32
  ![v376.toNat, 240]
@[reducible] def k0_t5_loop (v46 : BitVec 32) (v51 : BitVec 32) : Scf.Loop 32 :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_61 : BitVec 32 := 1#32
  ⟨v116, v121, c1_i32_61⟩
def k0_off71 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v234 : Index := Scalar.indexCast arg12
  let c0_111 : Index := 0#32
  ![v234.toNat, 0]
def k0_off72 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v238 : Index := Scalar.indexCast arg12
  let c16_112 : Index := 16#32
  ![v238.toNat, 16]
def k0_off73 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v242 : Index := Scalar.indexCast arg12
  let c32_113 : Index := 32#32
  ![v242.toNat, 32]
def k0_off74 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v246 : Index := Scalar.indexCast arg12
  let c48_114 : Index := 48#32
  ![v246.toNat, 48]
def k0_off75 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v250 : Index := Scalar.indexCast arg12
  let c64_115 : Index := 64#32
  ![v250.toNat, 64]
def k0_off76 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v254 : Index := Scalar.indexCast arg12
  let c80_116 : Index := 80#32
  ![v254.toNat, 80]
def k0_off77 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v258 : Index := Scalar.indexCast arg12
  let c96_117 : Index := 96#32
  ![v258.toNat, 96]
def k0_off78 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v262 : Index := Scalar.indexCast arg12
  let c112_118 : Index := 112#32
  ![v262.toNat, 112]
def k0_off79 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v266 : Index := Scalar.indexCast arg12
  let c128_119 : Index := 128#32
  ![v266.toNat, 128]
def k0_off80 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v270 : Index := Scalar.indexCast arg12
  let c144_120 : Index := 144#32
  ![v270.toNat, 144]
def k0_off81 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v274 : Index := Scalar.indexCast arg12
  let c160_121 : Index := 160#32
  ![v274.toNat, 160]
def k0_off82 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v278 : Index := Scalar.indexCast arg12
  let c176_122 : Index := 176#32
  ![v278.toNat, 176]
def k0_off83 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v282 : Index := Scalar.indexCast arg12
  let c192_123 : Index := 192#32
  ![v282.toNat, 192]
def k0_off84 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v286 : Index := Scalar.indexCast arg12
  let c208_124 : Index := 208#32
  ![v286.toNat, 208]
def k0_off85 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v290 : Index := Scalar.indexCast arg12
  let c224_125 : Index := 224#32
  ![v290.toNat, 224]
def k0_off86 (v46 : BitVec 32) (v51 : BitVec 32) (k0_t5 : Fin (k0_t5_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let c1_i32_61 : BitVec 32 := 1#32
  let arg12 : BitVec 32 := Scf.iv v116 c1_i32_61 k0_t5
  let v294 : Index := Scalar.indexCast arg12
  let c240_126 : Index := 240#32
  ![v294.toNat, 240]
@[reducible] def k0_t6_loop (v46 : BitVec 32) (v51 : BitVec 32) : Scf.Loop 32 :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let v118 : BitVec 32 := Scalar.addi v116 v117
  let c1_i32_62 : BitVec 32 := 1#32
  ⟨v121, v118, c1_i32_62⟩
def k0_off87 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v234 : Index := Scalar.indexCast arg12
  let c0_111 : Index := 0#32
  ![v234.toNat, 0]
def k0_off88 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v238 : Index := Scalar.indexCast arg12
  let c16_112 : Index := 16#32
  ![v238.toNat, 16]
def k0_off89 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v242 : Index := Scalar.indexCast arg12
  let c32_113 : Index := 32#32
  ![v242.toNat, 32]
def k0_off90 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v246 : Index := Scalar.indexCast arg12
  let c48_114 : Index := 48#32
  ![v246.toNat, 48]
def k0_off91 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v250 : Index := Scalar.indexCast arg12
  let c64_115 : Index := 64#32
  ![v250.toNat, 64]
def k0_off92 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v254 : Index := Scalar.indexCast arg12
  let c80_116 : Index := 80#32
  ![v254.toNat, 80]
def k0_off93 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v258 : Index := Scalar.indexCast arg12
  let c96_117 : Index := 96#32
  ![v258.toNat, 96]
def k0_off94 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v262 : Index := Scalar.indexCast arg12
  let c112_118 : Index := 112#32
  ![v262.toNat, 112]
def k0_off95 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v266 : Index := Scalar.indexCast arg12
  let c128_119 : Index := 128#32
  ![v266.toNat, 128]
def k0_off96 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v270 : Index := Scalar.indexCast arg12
  let c144_120 : Index := 144#32
  ![v270.toNat, 144]
def k0_off97 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v274 : Index := Scalar.indexCast arg12
  let c160_121 : Index := 160#32
  ![v274.toNat, 160]
def k0_off98 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v278 : Index := Scalar.indexCast arg12
  let c176_122 : Index := 176#32
  ![v278.toNat, 176]
def k0_off99 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v282 : Index := Scalar.indexCast arg12
  let c192_123 : Index := 192#32
  ![v282.toNat, 192]
def k0_off100 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v286 : Index := Scalar.indexCast arg12
  let c208_124 : Index := 208#32
  ![v286.toNat, 208]
def k0_off101 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v290 : Index := Scalar.indexCast arg12
  let c224_125 : Index := 224#32
  ![v290.toNat, 224]
def k0_off102 (v46 : BitVec 32) (v51 : BitVec 32) (k0_t6 : Fin (k0_t6_loop v46 v51).trips) : Fin 2 → Nat :=
  let c8_i32_17 : BitVec 32 := 8#32
  let v52 : BitVec 32 := Scalar.remsi v46 c8_i32_17
  let c2_i32_59 : BitVec 32 := 2#32
  let v55 : BitVec 32 := Scalar.addi v52 v51
  let c72_i32_46 : BitVec 32 := 72#32
  let v88 : BitVec 32 := Scalar.minsi v55 c72_i32_46
  let v89 : BitVec 32 := Scalar.subi v88 v52
  let c0_i32_47 : BitVec 32 := 0#32
  let v90 : BitVec 32 := Scalar.maxsi v89 c0_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c2_i32_48 : BitVec 32 := 2#32
  let c0_i32_51 : BitVec 32 := 0#32
  let v97 : BitVec 1 := Scalar.cmpi .sgt c2_i32_48 c0_i32_51
  let v98 : BitVec 32 := Scalar.extui v97
  let c0_i32_52 : BitVec 32 := 0#32
  let v99 : BitVec 1 := Scalar.cmpi .slt c2_i32_48 c0_i32_52
  let v100 : BitVec 32 := Scalar.extui v99
  let v101 : BitVec 32 := Scalar.subi v98 v100
  let v102 : BitVec 1 := Scalar.cmpi .ne v96 v101
  let v103 : BitVec 32 := Scalar.remsi v90 c2_i32_48
  let c0_i32_53 : BitVec 32 := 0#32
  let v104 : BitVec 1 := Scalar.cmpi .ne v103 c0_i32_53
  let v105 : BitVec 1 := Scalar.andi v102 v104
  let v91 : BitVec 32 := Scalar.divsi v90 c2_i32_48
  let c1_i32_54 : BitVec 32 := 1#32
  let v106 : BitVec 32 := Scalar.subi v91 c1_i32_54
  let v107 : BitVec 32 := Scalar.select v105 v106 v91
  let v115 : BitVec 32 := Scalar.muli c2_i32_59 v107
  let v116 : BitVec 32 := Scalar.addi v52 v115
  let v117 : BitVec 32 := Scalar.subi v88 v116
  let c1_i32_60 : BitVec 32 := 1#32
  let v119 : BitVec 32 := Scalar.divsi v117 c1_i32_60
  let v120 : BitVec 32 := Scalar.muli v119 c1_i32_60
  let v121 : BitVec 32 := Scalar.addi v116 v120
  let c1_i32_62 : BitVec 32 := 1#32
  let arg12 : BitVec 32 := Scf.iv v121 c1_i32_62 k0_t6
  let v294 : Index := Scalar.indexCast arg12
  let c240_126 : Index := 240#32
  ![v294.toNat, 240]
def k0_off103 (i : grid0.Coords) (v46 : BitVec 32) : Fin 3 → Nat :=
  let c3_i32_64 : BitVec 32 := 3#32
  let c8_i32_17 : BitVec 32 := 8#32
  let v52 : BitVec 32 := Scalar.remsi v46 c8_i32_17
  let v53 : BitVec 32 := Scalar.subi v46 v52
  let v54 : BitVec 32 := v53
  let c72_i32 : BitVec 32 := 72#32
  let v56 : BitVec 32 := Scalar.addi v54 c72_i32
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![3, v56.toNat, v29.toNat]
def k0_cond2 (v46 : BitVec 32) (v51 : BitVec 32) : BitVec 1 :=
  let c8_i32_17 : BitVec 32 := 8#32
  let v52 : BitVec 32 := Scalar.remsi v46 c8_i32_17
  let v55 : BitVec 32 := Scalar.addi v52 v51
  let c72_i32_63 : BitVec 32 := 72#32
  let v124 : BitVec 1 := Scalar.cmpi .sgt v55 c72_i32_63
  let v125 : BitVec 32 := Scalar.extui v124
  let c0_i32_65 : BitVec 32 := 0#32
  let v126 : BitVec 1 := Scalar.cmpi .ne v125 c0_i32_65
  v126

@[reducible] def k0_t7_loop (v46 : BitVec 32) (v51 : BitVec 32) : Scf.Loop 32 :=
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_78 : BitVec 32 := 1#32
  ⟨c0_i32_76, v151, c1_i32_78⟩
def k0_off104 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v236 : Index := Scalar.indexCast v235
  let c0_113 : Index := 0#32
  ![v236.toNat, 0]
def k0_off105 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_114 : BitVec 32 := 1#32
  let v240 : BitVec 32 := Scalar.addi v235 c1_i32_114
  let v241 : Index := Scalar.indexCast v240
  let c0_115 : Index := 0#32
  ![v241.toNat, 0]
def k0_off106 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v245 : Index := Scalar.indexCast v235
  let c16_116 : Index := 16#32
  ![v245.toNat, 16]
def k0_off107 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_117 : BitVec 32 := 1#32
  let v249 : BitVec 32 := Scalar.addi v235 c1_i32_117
  let v250 : Index := Scalar.indexCast v249
  let c16_118 : Index := 16#32
  ![v250.toNat, 16]
def k0_off108 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v254 : Index := Scalar.indexCast v235
  let c32_119 : Index := 32#32
  ![v254.toNat, 32]
def k0_off109 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_120 : BitVec 32 := 1#32
  let v258 : BitVec 32 := Scalar.addi v235 c1_i32_120
  let v259 : Index := Scalar.indexCast v258
  let c32_121 : Index := 32#32
  ![v259.toNat, 32]
def k0_off110 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v263 : Index := Scalar.indexCast v235
  let c48_122 : Index := 48#32
  ![v263.toNat, 48]
def k0_off111 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_123 : BitVec 32 := 1#32
  let v267 : BitVec 32 := Scalar.addi v235 c1_i32_123
  let v268 : Index := Scalar.indexCast v267
  let c48_124 : Index := 48#32
  ![v268.toNat, 48]
def k0_off112 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v272 : Index := Scalar.indexCast v235
  let c64_125 : Index := 64#32
  ![v272.toNat, 64]
def k0_off113 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_126 : BitVec 32 := 1#32
  let v276 : BitVec 32 := Scalar.addi v235 c1_i32_126
  let v277 : Index := Scalar.indexCast v276
  let c64_127 : Index := 64#32
  ![v277.toNat, 64]
def k0_off114 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v281 : Index := Scalar.indexCast v235
  let c80_128 : Index := 80#32
  ![v281.toNat, 80]
def k0_off115 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_129 : BitVec 32 := 1#32
  let v285 : BitVec 32 := Scalar.addi v235 c1_i32_129
  let v286 : Index := Scalar.indexCast v285
  let c80_130 : Index := 80#32
  ![v286.toNat, 80]
def k0_off116 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v290 : Index := Scalar.indexCast v235
  let c96_131 : Index := 96#32
  ![v290.toNat, 96]
def k0_off117 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_132 : BitVec 32 := 1#32
  let v294 : BitVec 32 := Scalar.addi v235 c1_i32_132
  let v295 : Index := Scalar.indexCast v294
  let c96_133 : Index := 96#32
  ![v295.toNat, 96]
def k0_off118 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v299 : Index := Scalar.indexCast v235
  let c112_134 : Index := 112#32
  ![v299.toNat, 112]
def k0_off119 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_135 : BitVec 32 := 1#32
  let v303 : BitVec 32 := Scalar.addi v235 c1_i32_135
  let v304 : Index := Scalar.indexCast v303
  let c112_136 : Index := 112#32
  ![v304.toNat, 112]
def k0_off120 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v308 : Index := Scalar.indexCast v235
  let c128_137 : Index := 128#32
  ![v308.toNat, 128]
def k0_off121 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_138 : BitVec 32 := 1#32
  let v312 : BitVec 32 := Scalar.addi v235 c1_i32_138
  let v313 : Index := Scalar.indexCast v312
  let c128_139 : Index := 128#32
  ![v313.toNat, 128]
def k0_off122 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v317 : Index := Scalar.indexCast v235
  let c144_140 : Index := 144#32
  ![v317.toNat, 144]
def k0_off123 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_141 : BitVec 32 := 1#32
  let v321 : BitVec 32 := Scalar.addi v235 c1_i32_141
  let v322 : Index := Scalar.indexCast v321
  let c144_142 : Index := 144#32
  ![v322.toNat, 144]
def k0_off124 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v326 : Index := Scalar.indexCast v235
  let c160_143 : Index := 160#32
  ![v326.toNat, 160]
def k0_off125 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_144 : BitVec 32 := 1#32
  let v330 : BitVec 32 := Scalar.addi v235 c1_i32_144
  let v331 : Index := Scalar.indexCast v330
  let c160_145 : Index := 160#32
  ![v331.toNat, 160]
def k0_off126 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v335 : Index := Scalar.indexCast v235
  let c176_146 : Index := 176#32
  ![v335.toNat, 176]
def k0_off127 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_147 : BitVec 32 := 1#32
  let v339 : BitVec 32 := Scalar.addi v235 c1_i32_147
  let v340 : Index := Scalar.indexCast v339
  let c176_148 : Index := 176#32
  ![v340.toNat, 176]
def k0_off128 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v344 : Index := Scalar.indexCast v235
  let c192_149 : Index := 192#32
  ![v344.toNat, 192]
def k0_off129 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_150 : BitVec 32 := 1#32
  let v348 : BitVec 32 := Scalar.addi v235 c1_i32_150
  let v349 : Index := Scalar.indexCast v348
  let c192_151 : Index := 192#32
  ![v349.toNat, 192]
def k0_off130 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v353 : Index := Scalar.indexCast v235
  let c208_152 : Index := 208#32
  ![v353.toNat, 208]
def k0_off131 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_153 : BitVec 32 := 1#32
  let v357 : BitVec 32 := Scalar.addi v235 c1_i32_153
  let v358 : Index := Scalar.indexCast v357
  let c208_154 : Index := 208#32
  ![v358.toNat, 208]
def k0_off132 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v362 : Index := Scalar.indexCast v235
  let c224_155 : Index := 224#32
  ![v362.toNat, 224]
def k0_off133 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_156 : BitVec 32 := 1#32
  let v366 : BitVec 32 := Scalar.addi v235 c1_i32_156
  let v367 : Index := Scalar.indexCast v366
  let c224_157 : Index := 224#32
  ![v367.toNat, 224]
def k0_off134 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let v371 : Index := Scalar.indexCast v235
  let c240_158 : Index := 240#32
  ![v371.toNat, 240]
def k0_off135 (v46 : BitVec 32) (v51 : BitVec 32) (k0_t7 : Fin (k0_t7_loop v46 v51).trips) : Fin 2 → Nat :=
  let c72_i32_112 : BitVec 32 := 72#32
  let c2_i32_111 : BitVec 32 := 2#32
  let c0_i32_76 : BitVec 32 := 0#32
  let c1_i32_78 : BitVec 32 := 1#32
  let arg12 : BitVec 32 := Scf.iv c0_i32_76 c1_i32_78 k0_t7
  let v234 : BitVec 32 := Scalar.muli c2_i32_111 arg12
  let v235 : BitVec 32 := Scalar.addi c72_i32_112 v234
  let c1_i32_159 : BitVec 32 := 1#32
  let v375 : BitVec 32 := Scalar.addi v235 c1_i32_159
  let v376 : Index := Scalar.indexCast v375
  let c240_160 : Index := 240#32
  ![v376.toNat, 240]
@[reducible] def k0_t8_loop (v46 : BitVec 32) (v51 : BitVec 32) : Scf.Loop 32 :=
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let v148 : BitVec 32 := Scalar.addi c0_i32_76 v147
  let c1_i32_79 : BitVec 32 := 1#32
  ⟨v151, v148, c1_i32_79⟩
def k0_off136 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v236 : Index := Scalar.indexCast v235
  let c0_113 : Index := 0#32
  ![v236.toNat, 0]
def k0_off137 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_114 : BitVec 32 := 1#32
  let v240 : BitVec 32 := Scalar.addi v235 c1_i32_114
  let v241 : Index := Scalar.indexCast v240
  let c0_115 : Index := 0#32
  ![v241.toNat, 0]
def k0_off138 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v245 : Index := Scalar.indexCast v235
  let c16_116 : Index := 16#32
  ![v245.toNat, 16]
def k0_off139 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_117 : BitVec 32 := 1#32
  let v249 : BitVec 32 := Scalar.addi v235 c1_i32_117
  let v250 : Index := Scalar.indexCast v249
  let c16_118 : Index := 16#32
  ![v250.toNat, 16]
def k0_off140 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v254 : Index := Scalar.indexCast v235
  let c32_119 : Index := 32#32
  ![v254.toNat, 32]
def k0_off141 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_120 : BitVec 32 := 1#32
  let v258 : BitVec 32 := Scalar.addi v235 c1_i32_120
  let v259 : Index := Scalar.indexCast v258
  let c32_121 : Index := 32#32
  ![v259.toNat, 32]
def k0_off142 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v263 : Index := Scalar.indexCast v235
  let c48_122 : Index := 48#32
  ![v263.toNat, 48]
def k0_off143 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_123 : BitVec 32 := 1#32
  let v267 : BitVec 32 := Scalar.addi v235 c1_i32_123
  let v268 : Index := Scalar.indexCast v267
  let c48_124 : Index := 48#32
  ![v268.toNat, 48]
def k0_off144 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v272 : Index := Scalar.indexCast v235
  let c64_125 : Index := 64#32
  ![v272.toNat, 64]
def k0_off145 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_126 : BitVec 32 := 1#32
  let v276 : BitVec 32 := Scalar.addi v235 c1_i32_126
  let v277 : Index := Scalar.indexCast v276
  let c64_127 : Index := 64#32
  ![v277.toNat, 64]
def k0_off146 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v281 : Index := Scalar.indexCast v235
  let c80_128 : Index := 80#32
  ![v281.toNat, 80]
def k0_off147 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_129 : BitVec 32 := 1#32
  let v285 : BitVec 32 := Scalar.addi v235 c1_i32_129
  let v286 : Index := Scalar.indexCast v285
  let c80_130 : Index := 80#32
  ![v286.toNat, 80]
def k0_off148 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v290 : Index := Scalar.indexCast v235
  let c96_131 : Index := 96#32
  ![v290.toNat, 96]
def k0_off149 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_132 : BitVec 32 := 1#32
  let v294 : BitVec 32 := Scalar.addi v235 c1_i32_132
  let v295 : Index := Scalar.indexCast v294
  let c96_133 : Index := 96#32
  ![v295.toNat, 96]
def k0_off150 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v299 : Index := Scalar.indexCast v235
  let c112_134 : Index := 112#32
  ![v299.toNat, 112]
def k0_off151 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_135 : BitVec 32 := 1#32
  let v303 : BitVec 32 := Scalar.addi v235 c1_i32_135
  let v304 : Index := Scalar.indexCast v303
  let c112_136 : Index := 112#32
  ![v304.toNat, 112]
def k0_off152 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v308 : Index := Scalar.indexCast v235
  let c128_137 : Index := 128#32
  ![v308.toNat, 128]
def k0_off153 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_138 : BitVec 32 := 1#32
  let v312 : BitVec 32 := Scalar.addi v235 c1_i32_138
  let v313 : Index := Scalar.indexCast v312
  let c128_139 : Index := 128#32
  ![v313.toNat, 128]
def k0_off154 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v317 : Index := Scalar.indexCast v235
  let c144_140 : Index := 144#32
  ![v317.toNat, 144]
def k0_off155 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_141 : BitVec 32 := 1#32
  let v321 : BitVec 32 := Scalar.addi v235 c1_i32_141
  let v322 : Index := Scalar.indexCast v321
  let c144_142 : Index := 144#32
  ![v322.toNat, 144]
def k0_off156 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v326 : Index := Scalar.indexCast v235
  let c160_143 : Index := 160#32
  ![v326.toNat, 160]
def k0_off157 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_144 : BitVec 32 := 1#32
  let v330 : BitVec 32 := Scalar.addi v235 c1_i32_144
  let v331 : Index := Scalar.indexCast v330
  let c160_145 : Index := 160#32
  ![v331.toNat, 160]
def k0_off158 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v335 : Index := Scalar.indexCast v235
  let c176_146 : Index := 176#32
  ![v335.toNat, 176]
def k0_off159 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_147 : BitVec 32 := 1#32
  let v339 : BitVec 32 := Scalar.addi v235 c1_i32_147
  let v340 : Index := Scalar.indexCast v339
  let c176_148 : Index := 176#32
  ![v340.toNat, 176]
def k0_off160 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v344 : Index := Scalar.indexCast v235
  let c192_149 : Index := 192#32
  ![v344.toNat, 192]
def k0_off161 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_150 : BitVec 32 := 1#32
  let v348 : BitVec 32 := Scalar.addi v235 c1_i32_150
  let v349 : Index := Scalar.indexCast v348
  let c192_151 : Index := 192#32
  ![v349.toNat, 192]
def k0_off162 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v353 : Index := Scalar.indexCast v235
  let c208_152 : Index := 208#32
  ![v353.toNat, 208]
def k0_off163 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_153 : BitVec 32 := 1#32
  let v357 : BitVec 32 := Scalar.addi v235 c1_i32_153
  let v358 : Index := Scalar.indexCast v357
  let c208_154 : Index := 208#32
  ![v358.toNat, 208]
def k0_off164 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v362 : Index := Scalar.indexCast v235
  let c224_155 : Index := 224#32
  ![v362.toNat, 224]
def k0_off165 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_156 : BitVec 32 := 1#32
  let v366 : BitVec 32 := Scalar.addi v235 c1_i32_156
  let v367 : Index := Scalar.indexCast v366
  let c224_157 : Index := 224#32
  ![v367.toNat, 224]
def k0_off166 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let v371 : Index := Scalar.indexCast v235
  let c240_158 : Index := 240#32
  ![v371.toNat, 240]
def k0_off167 (v46 : BitVec 32) (v51 : BitVec 32) (k0_t8 : Fin (k0_t8_loop v46 v51).trips) : Fin 2 → Nat :=
  let c72_i32_112 : BitVec 32 := 72#32
  let c2_i32_111 : BitVec 32 := 2#32
  let c0_i32_76 : BitVec 32 := 0#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v147 : BitVec 32 := Scalar.subi v146 c0_i32_76
  let c1_i32_77 : BitVec 32 := 1#32
  let v149 : BitVec 32 := Scalar.divsi v147 c1_i32_77
  let v150 : BitVec 32 := Scalar.muli v149 c1_i32_77
  let v151 : BitVec 32 := Scalar.addi c0_i32_76 v150
  let c1_i32_79 : BitVec 32 := 1#32
  let arg12 : BitVec 32 := Scf.iv v151 c1_i32_79 k0_t8
  let v234 : BitVec 32 := Scalar.muli c2_i32_111 arg12
  let v235 : BitVec 32 := Scalar.addi c72_i32_112 v234
  let c1_i32_159 : BitVec 32 := 1#32
  let v375 : BitVec 32 := Scalar.addi v235 c1_i32_159
  let v376 : Index := Scalar.indexCast v375
  let c240_160 : Index := 240#32
  ![v376.toNat, 240]
@[reducible] def k0_t9_loop (v46 : BitVec 32) (v51 : BitVec 32) : Scf.Loop 32 :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_83 : BitVec 32 := 1#32
  ⟨v155, v160, c1_i32_83⟩
def k0_off168 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v234 : Index := Scalar.indexCast arg12
  let c0_111 : Index := 0#32
  ![v234.toNat, 0]
def k0_off169 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v238 : Index := Scalar.indexCast arg12
  let c16_112 : Index := 16#32
  ![v238.toNat, 16]
def k0_off170 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v242 : Index := Scalar.indexCast arg12
  let c32_113 : Index := 32#32
  ![v242.toNat, 32]
def k0_off171 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v246 : Index := Scalar.indexCast arg12
  let c48_114 : Index := 48#32
  ![v246.toNat, 48]
def k0_off172 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v250 : Index := Scalar.indexCast arg12
  let c64_115 : Index := 64#32
  ![v250.toNat, 64]
def k0_off173 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v254 : Index := Scalar.indexCast arg12
  let c80_116 : Index := 80#32
  ![v254.toNat, 80]
def k0_off174 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v258 : Index := Scalar.indexCast arg12
  let c96_117 : Index := 96#32
  ![v258.toNat, 96]
def k0_off175 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v262 : Index := Scalar.indexCast arg12
  let c112_118 : Index := 112#32
  ![v262.toNat, 112]
def k0_off176 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v266 : Index := Scalar.indexCast arg12
  let c128_119 : Index := 128#32
  ![v266.toNat, 128]
def k0_off177 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v270 : Index := Scalar.indexCast arg12
  let c144_120 : Index := 144#32
  ![v270.toNat, 144]
def k0_off178 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v274 : Index := Scalar.indexCast arg12
  let c160_121 : Index := 160#32
  ![v274.toNat, 160]
def k0_off179 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v278 : Index := Scalar.indexCast arg12
  let c176_122 : Index := 176#32
  ![v278.toNat, 176]
def k0_off180 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v282 : Index := Scalar.indexCast arg12
  let c192_123 : Index := 192#32
  ![v282.toNat, 192]
def k0_off181 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v286 : Index := Scalar.indexCast arg12
  let c208_124 : Index := 208#32
  ![v286.toNat, 208]
def k0_off182 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v290 : Index := Scalar.indexCast arg12
  let c224_125 : Index := 224#32
  ![v290.toNat, 224]
def k0_off183 (v46 : BitVec 32) (v51 : BitVec 32) (k0_t9 : Fin (k0_t9_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let c1_i32_83 : BitVec 32 := 1#32
  let arg12 : BitVec 32 := Scf.iv v155 c1_i32_83 k0_t9
  let v294 : Index := Scalar.indexCast arg12
  let c240_126 : Index := 240#32
  ![v294.toNat, 240]
@[reducible] def k0_t10_loop (v46 : BitVec 32) (v51 : BitVec 32) : Scf.Loop 32 :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let v157 : BitVec 32 := Scalar.addi v155 v156
  let c1_i32_84 : BitVec 32 := 1#32
  ⟨v160, v157, c1_i32_84⟩
def k0_off184 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v234 : Index := Scalar.indexCast arg12
  let c0_111 : Index := 0#32
  ![v234.toNat, 0]
def k0_off185 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v238 : Index := Scalar.indexCast arg12
  let c16_112 : Index := 16#32
  ![v238.toNat, 16]
def k0_off186 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v242 : Index := Scalar.indexCast arg12
  let c32_113 : Index := 32#32
  ![v242.toNat, 32]
def k0_off187 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v246 : Index := Scalar.indexCast arg12
  let c48_114 : Index := 48#32
  ![v246.toNat, 48]
def k0_off188 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v250 : Index := Scalar.indexCast arg12
  let c64_115 : Index := 64#32
  ![v250.toNat, 64]
def k0_off189 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v254 : Index := Scalar.indexCast arg12
  let c80_116 : Index := 80#32
  ![v254.toNat, 80]
def k0_off190 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v258 : Index := Scalar.indexCast arg12
  let c96_117 : Index := 96#32
  ![v258.toNat, 96]
def k0_off191 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v262 : Index := Scalar.indexCast arg12
  let c112_118 : Index := 112#32
  ![v262.toNat, 112]
def k0_off192 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v266 : Index := Scalar.indexCast arg12
  let c128_119 : Index := 128#32
  ![v266.toNat, 128]
def k0_off193 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v270 : Index := Scalar.indexCast arg12
  let c144_120 : Index := 144#32
  ![v270.toNat, 144]
def k0_off194 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v274 : Index := Scalar.indexCast arg12
  let c160_121 : Index := 160#32
  ![v274.toNat, 160]
def k0_off195 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v278 : Index := Scalar.indexCast arg12
  let c176_122 : Index := 176#32
  ![v278.toNat, 176]
def k0_off196 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v282 : Index := Scalar.indexCast arg12
  let c192_123 : Index := 192#32
  ![v282.toNat, 192]
def k0_off197 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v286 : Index := Scalar.indexCast arg12
  let c208_124 : Index := 208#32
  ![v286.toNat, 208]
def k0_off198 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v290 : Index := Scalar.indexCast arg12
  let c224_125 : Index := 224#32
  ![v290.toNat, 224]
def k0_off199 (v46 : BitVec 32) (v51 : BitVec 32) (k0_t10 : Fin (k0_t10_loop v46 v51).trips) : Fin 2 → Nat :=
  let c72_i32_81 : BitVec 32 := 72#32
  let c2_i32_80 : BitVec 32 := 2#32
  let c8_i32_17 : BitVec 32 := 8#32
  let v52 : BitVec 32 := Scalar.remsi v46 c8_i32_17
  let v55 : BitVec 32 := Scalar.addi v52 v51
  let c72_i32_66 : BitVec 32 := 72#32
  let v127 : BitVec 32 := Scalar.maxsi v55 c72_i32_66
  let c72_i32_67 : BitVec 32 := 72#32
  let v128 : BitVec 32 := Scalar.subi v127 c72_i32_67
  let c0_i32_68 : BitVec 32 := 0#32
  let v129 : BitVec 32 := Scalar.maxsi v128 c0_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c2_i32_69 : BitVec 32 := 2#32
  let c0_i32_72 : BitVec 32 := 0#32
  let v136 : BitVec 1 := Scalar.cmpi .sgt c2_i32_69 c0_i32_72
  let v137 : BitVec 32 := Scalar.extui v136
  let c0_i32_73 : BitVec 32 := 0#32
  let v138 : BitVec 1 := Scalar.cmpi .slt c2_i32_69 c0_i32_73
  let v139 : BitVec 32 := Scalar.extui v138
  let v140 : BitVec 32 := Scalar.subi v137 v139
  let v141 : BitVec 1 := Scalar.cmpi .ne v135 v140
  let v142 : BitVec 32 := Scalar.remsi v129 c2_i32_69
  let c0_i32_74 : BitVec 32 := 0#32
  let v143 : BitVec 1 := Scalar.cmpi .ne v142 c0_i32_74
  let v144 : BitVec 1 := Scalar.andi v141 v143
  let v130 : BitVec 32 := Scalar.divsi v129 c2_i32_69
  let c1_i32_75 : BitVec 32 := 1#32
  let v145 : BitVec 32 := Scalar.subi v130 c1_i32_75
  let v146 : BitVec 32 := Scalar.select v144 v145 v130
  let v154 : BitVec 32 := Scalar.muli c2_i32_80 v146
  let v155 : BitVec 32 := Scalar.addi c72_i32_81 v154
  let v156 : BitVec 32 := Scalar.subi v127 v155
  let c1_i32_82 : BitVec 32 := 1#32
  let v158 : BitVec 32 := Scalar.divsi v156 c1_i32_82
  let v159 : BitVec 32 := Scalar.muli v158 c1_i32_82
  let v160 : BitVec 32 := Scalar.addi v155 v159
  let c1_i32_84 : BitVec 32 := 1#32
  let arg12 : BitVec 32 := Scf.iv v160 c1_i32_84 k0_t10
  let v294 : Index := Scalar.indexCast arg12
  let c240_126 : Index := 240#32
  ![v294.toNat, 240]

def k0_chk2_0 (i : grid0.Coords) (v46 : BitVec 32) (v51 : BitVec 32) : Prop :=
  (∀ (k0_h1 : k0_cond1 v46 v51 = 1#1), ∀ a, (k0_off5 i v46) a + S1x72x256.size a ≤ S4x2048x512.size a) ∧
  ((k0_t3_loop v46 v51).OK) ∧
  (∀ k0_t3 : Fin (k0_t3_loop v46 v51).trips, ∀ a, (k0_off7 v46 v51 k0_t3) a + S1x16.size a ≤ S144x256.size a) ∧
  (∀ k0_t3 : Fin (k0_t3_loop v46 v51).trips, ∀ a, (k0_off8 v46 v51 k0_t3) a + S1x16.size a ≤ S144x256.size a) ∧
  (∀ k0_t3 : Fin (k0_t3_loop v46 v51).trips, ∀ a, (k0_off9 v46 v51 k0_t3) a + S1x16.size a ≤ S144x256.size a) ∧
  (∀ k0_t3 : Fin (k0_t3_loop v46 v51).trips, ∀ a, (k0_off10 v46 v51 k0_t3) a + S1x16.size a ≤ S144x256.size a) ∧
  (∀ k0_t3 : Fin (k0_t3_loop v46 v51).trips, ∀ a, (k0_off11 v46 v51 k0_t3) a + S1x16.size a ≤ S144x256.size a) ∧
  (∀ k0_t3 : Fin (k0_t3_loop v46 v51).trips, ∀ a, (k0_off12 v46 v51 k0_t3) a + S1x16.size a ≤ S144x256.size a) ∧
  (∀ k0_t3 : Fin (k0_t3_loop v46 v51).trips, ∀ a, (k0_off13 v46 v51 k0_t3) a + S1x16.size a ≤ S144x256.size a) ∧
  (∀ k0_t3 : Fin (k0_t3_loop v46 v51).trips, ∀ a, (k0_off14 v46 v51 k0_t3) a + S1x16.size a ≤ S144x256.size a) ∧
  (∀ k0_t3 : Fin (k0_t3_loop v46 v51).trips, ∀ a, (k0_off15 v46 v51 k0_t3) a + S1x16.size a ≤ S144x256.size a) ∧
  (∀ k0_t3 : Fin (k0_t3_loop v46 v51).trips, ∀ a, (k0_off16 v46 v51 k0_t3) a + S1x16.size a ≤ S144x256.size a) ∧
  (∀ k0_t3 : Fin (k0_t3_loop v46 v51).trips, ∀ a, (k0_off17 v46 v51 k0_t3) a + S1x16.size a ≤ S144x256.size a) ∧
  (∀ k0_t3 : Fin (k0_t3_loop v46 v51).trips, ∀ a, (k0_off18 v46 v51 k0_t3) a + S1x16.size a ≤ S144x256.size a) ∧
  (∀ k0_t3 : Fin (k0_t3_loop v46 v51).trips, ∀ a, (k0_off19 v46 v51 k0_t3) a + S1x16.size a ≤ S144x256.size a) ∧
  (∀ k0_t3 : Fin (k0_t3_loop v46 v51).trips, ∀ a, (k0_off20 v46 v51 k0_t3) a + S1x16.size a ≤ S144x256.size a) ∧
  (∀ k0_t3 : Fin (k0_t3_loop v46 v51).trips, ∀ a, (k0_off21 v46 v51 k0_t3) a + S1x16.size a ≤ S144x256.size a) ∧
  (∀ k0_t3 : Fin (k0_t3_loop v46 v51).trips, ∀ a, (k0_off22 v46 v51 k0_t3) a + S1x16.size a ≤ S144x256.size a) ∧
  (∀ k0_t3 : Fin (k0_t3_loop v46 v51).trips, ∀ a, (k0_off23 v46 v51 k0_t3) a + S1x16.size a ≤ S144x256.size a) ∧
  (∀ k0_t3 : Fin (k0_t3_loop v46 v51).trips, ∀ a, (k0_off24 v46 v51 k0_t3) a + S1x16.size a ≤ S144x256.size a) ∧
  (∀ k0_t3 : Fin (k0_t3_loop v46 v51).trips, ∀ a, (k0_off25 v46 v51 k0_t3) a + S1x16.size a ≤ S144x256.size a) ∧
  (∀ k0_t3 : Fin (k0_t3_loop v46 v51).trips, ∀ a, (k0_off26 v46 v51 k0_t3) a + S1x16.size a ≤ S144x256.size a) ∧
  (∀ k0_t3 : Fin (k0_t3_loop v46 v51).trips, ∀ a, (k0_off27 v46 v51 k0_t3) a + S1x16.size a ≤ S144x256.size a) ∧
  (∀ k0_t3 : Fin (k0_t3_loop v46 v51).trips, ∀ a, (k0_off28 v46 v51 k0_t3) a + S1x16.size a ≤ S144x256.size a) ∧
  (∀ k0_t3 : Fin (k0_t3_loop v46 v51).trips, ∀ a, (k0_off29 v46 v51 k0_t3) a + S1x16.size a ≤ S144x256.size a) ∧
  (∀ k0_t3 : Fin (k0_t3_loop v46 v51).trips, ∀ a, (k0_off30 v46 v51 k0_t3) a + S1x16.size a ≤ S144x256.size a) ∧
  (∀ k0_t3 : Fin (k0_t3_loop v46 v51).trips, ∀ a, (k0_off31 v46 v51 k0_t3) a + S1x16.size a ≤ S144x256.size a) ∧
  (∀ k0_t3 : Fin (k0_t3_loop v46 v51).trips, ∀ a, (k0_off32 v46 v51 k0_t3) a + S1x16.size a ≤ S144x256.size a) ∧
  (∀ k0_t3 : Fin (k0_t3_loop v46 v51).trips, ∀ a, (k0_off33 v46 v51 k0_t3) a + S1x16.size a ≤ S144x256.size a) ∧
  (∀ k0_t3 : Fin (k0_t3_loop v46 v51).trips, ∀ a, (k0_off34 v46 v51 k0_t3) a + S1x16.size a ≤ S144x256.size a) ∧
  (∀ k0_t3 : Fin (k0_t3_loop v46 v51).trips, ∀ a, (k0_off35 v46 v51 k0_t3) a + S1x16.size a ≤ S144x256.size a) ∧
  (∀ k0_t3 : Fin (k0_t3_loop v46 v51).trips, ∀ a, (k0_off36 v46 v51 k0_t3) a + S1x16.size a ≤ S144x256.size a)
instance k0_chk2_0.dec : ∀ (i : grid0.Coords) (v46 : BitVec 32) (v51 : BitVec 32), Decidable (k0_chk2_0 i v46 v51) := fun i v46 v51 => decidable_of_iff' _ (Iff.of_eq (k0_chk2_0.eq_1 i v46 v51))
def k0_chk2_1 (i : grid0.Coords) (v46 : BitVec 32) (v51 : BitVec 32) : Prop :=
  (∀ k0_t3 : Fin (k0_t3_loop v46 v51).trips, ∀ a, (k0_off37 v46 v51 k0_t3) a + S1x16.size a ≤ S144x256.size a) ∧
  (∀ k0_t3 : Fin (k0_t3_loop v46 v51).trips, ∀ a, (k0_off38 v46 v51 k0_t3) a + S1x16.size a ≤ S144x256.size a) ∧
  ((k0_t4_loop v46 v51).OK) ∧
  (∀ k0_t4 : Fin (k0_t4_loop v46 v51).trips, ∀ a, (k0_off39 v46 v51 k0_t4) a + S1x16.size a ≤ S144x256.size a) ∧
  (∀ k0_t4 : Fin (k0_t4_loop v46 v51).trips, ∀ a, (k0_off40 v46 v51 k0_t4) a + S1x16.size a ≤ S144x256.size a) ∧
  (∀ k0_t4 : Fin (k0_t4_loop v46 v51).trips, ∀ a, (k0_off41 v46 v51 k0_t4) a + S1x16.size a ≤ S144x256.size a) ∧
  (∀ k0_t4 : Fin (k0_t4_loop v46 v51).trips, ∀ a, (k0_off42 v46 v51 k0_t4) a + S1x16.size a ≤ S144x256.size a) ∧
  (∀ k0_t4 : Fin (k0_t4_loop v46 v51).trips, ∀ a, (k0_off43 v46 v51 k0_t4) a + S1x16.size a ≤ S144x256.size a) ∧
  (∀ k0_t4 : Fin (k0_t4_loop v46 v51).trips, ∀ a, (k0_off44 v46 v51 k0_t4) a + S1x16.size a ≤ S144x256.size a) ∧
  (∀ k0_t4 : Fin (k0_t4_loop v46 v51).trips, ∀ a, (k0_off45 v46 v51 k0_t4) a + S1x16.size a ≤ S144x256.size a) ∧
  (∀ k0_t4 : Fin (k0_t4_loop v46 v51).trips, ∀ a, (k0_off46 v46 v51 k0_t4) a + S1x16.size a ≤ S144x256.size a) ∧
  (∀ k0_t4 : Fin (k0_t4_loop v46 v51).trips, ∀ a, (k0_off47 v46 v51 k0_t4) a + S1x16.size a ≤ S144x256.size a) ∧
  (∀ k0_t4 : Fin (k0_t4_loop v46 v51).trips, ∀ a, (k0_off48 v46 v51 k0_t4) a + S1x16.size a ≤ S144x256.size a) ∧
  (∀ k0_t4 : Fin (k0_t4_loop v46 v51).trips, ∀ a, (k0_off49 v46 v51 k0_t4) a + S1x16.size a ≤ S144x256.size a) ∧
  (∀ k0_t4 : Fin (k0_t4_loop v46 v51).trips, ∀ a, (k0_off50 v46 v51 k0_t4) a + S1x16.size a ≤ S144x256.size a) ∧
  (∀ k0_t4 : Fin (k0_t4_loop v46 v51).trips, ∀ a, (k0_off51 v46 v51 k0_t4) a + S1x16.size a ≤ S144x256.size a) ∧
  (∀ k0_t4 : Fin (k0_t4_loop v46 v51).trips, ∀ a, (k0_off52 v46 v51 k0_t4) a + S1x16.size a ≤ S144x256.size a) ∧
  (∀ k0_t4 : Fin (k0_t4_loop v46 v51).trips, ∀ a, (k0_off53 v46 v51 k0_t4) a + S1x16.size a ≤ S144x256.size a) ∧
  (∀ k0_t4 : Fin (k0_t4_loop v46 v51).trips, ∀ a, (k0_off54 v46 v51 k0_t4) a + S1x16.size a ≤ S144x256.size a) ∧
  (∀ k0_t4 : Fin (k0_t4_loop v46 v51).trips, ∀ a, (k0_off55 v46 v51 k0_t4) a + S1x16.size a ≤ S144x256.size a) ∧
  (∀ k0_t4 : Fin (k0_t4_loop v46 v51).trips, ∀ a, (k0_off56 v46 v51 k0_t4) a + S1x16.size a ≤ S144x256.size a) ∧
  (∀ k0_t4 : Fin (k0_t4_loop v46 v51).trips, ∀ a, (k0_off57 v46 v51 k0_t4) a + S1x16.size a ≤ S144x256.size a) ∧
  (∀ k0_t4 : Fin (k0_t4_loop v46 v51).trips, ∀ a, (k0_off58 v46 v51 k0_t4) a + S1x16.size a ≤ S144x256.size a) ∧
  (∀ k0_t4 : Fin (k0_t4_loop v46 v51).trips, ∀ a, (k0_off59 v46 v51 k0_t4) a + S1x16.size a ≤ S144x256.size a) ∧
  (∀ k0_t4 : Fin (k0_t4_loop v46 v51).trips, ∀ a, (k0_off60 v46 v51 k0_t4) a + S1x16.size a ≤ S144x256.size a) ∧
  (∀ k0_t4 : Fin (k0_t4_loop v46 v51).trips, ∀ a, (k0_off61 v46 v51 k0_t4) a + S1x16.size a ≤ S144x256.size a) ∧
  (∀ k0_t4 : Fin (k0_t4_loop v46 v51).trips, ∀ a, (k0_off62 v46 v51 k0_t4) a + S1x16.size a ≤ S144x256.size a) ∧
  (∀ k0_t4 : Fin (k0_t4_loop v46 v51).trips, ∀ a, (k0_off63 v46 v51 k0_t4) a + S1x16.size a ≤ S144x256.size a) ∧
  (∀ k0_t4 : Fin (k0_t4_loop v46 v51).trips, ∀ a, (k0_off64 v46 v51 k0_t4) a + S1x16.size a ≤ S144x256.size a) ∧
  (∀ k0_t4 : Fin (k0_t4_loop v46 v51).trips, ∀ a, (k0_off65 v46 v51 k0_t4) a + S1x16.size a ≤ S144x256.size a) ∧
  (∀ k0_t4 : Fin (k0_t4_loop v46 v51).trips, ∀ a, (k0_off66 v46 v51 k0_t4) a + S1x16.size a ≤ S144x256.size a) ∧
  (∀ k0_t4 : Fin (k0_t4_loop v46 v51).trips, ∀ a, (k0_off67 v46 v51 k0_t4) a + S1x16.size a ≤ S144x256.size a)
instance k0_chk2_1.dec : ∀ (i : grid0.Coords) (v46 : BitVec 32) (v51 : BitVec 32), Decidable (k0_chk2_1 i v46 v51) := fun i v46 v51 => decidable_of_iff' _ (Iff.of_eq (k0_chk2_1.eq_1 i v46 v51))
def k0_chk2_2 (i : grid0.Coords) (v46 : BitVec 32) (v51 : BitVec 32) : Prop :=
  (∀ k0_t4 : Fin (k0_t4_loop v46 v51).trips, ∀ a, (k0_off68 v46 v51 k0_t4) a + S1x16.size a ≤ S144x256.size a) ∧
  (∀ k0_t4 : Fin (k0_t4_loop v46 v51).trips, ∀ a, (k0_off69 v46 v51 k0_t4) a + S1x16.size a ≤ S144x256.size a) ∧
  (∀ k0_t4 : Fin (k0_t4_loop v46 v51).trips, ∀ a, (k0_off70 v46 v51 k0_t4) a + S1x16.size a ≤ S144x256.size a) ∧
  ((k0_t5_loop v46 v51).OK) ∧
  (∀ k0_t5 : Fin (k0_t5_loop v46 v51).trips, ∀ a, (k0_off71 v46 v51 k0_t5) a + S1x16.size a ≤ S144x256.size a) ∧
  (∀ k0_t5 : Fin (k0_t5_loop v46 v51).trips, ∀ a, (k0_off72 v46 v51 k0_t5) a + S1x16.size a ≤ S144x256.size a) ∧
  (∀ k0_t5 : Fin (k0_t5_loop v46 v51).trips, ∀ a, (k0_off73 v46 v51 k0_t5) a + S1x16.size a ≤ S144x256.size a) ∧
  (∀ k0_t5 : Fin (k0_t5_loop v46 v51).trips, ∀ a, (k0_off74 v46 v51 k0_t5) a + S1x16.size a ≤ S144x256.size a) ∧
  (∀ k0_t5 : Fin (k0_t5_loop v46 v51).trips, ∀ a, (k0_off75 v46 v51 k0_t5) a + S1x16.size a ≤ S144x256.size a) ∧
  (∀ k0_t5 : Fin (k0_t5_loop v46 v51).trips, ∀ a, (k0_off76 v46 v51 k0_t5) a + S1x16.size a ≤ S144x256.size a) ∧
  (∀ k0_t5 : Fin (k0_t5_loop v46 v51).trips, ∀ a, (k0_off77 v46 v51 k0_t5) a + S1x16.size a ≤ S144x256.size a) ∧
  (∀ k0_t5 : Fin (k0_t5_loop v46 v51).trips, ∀ a, (k0_off78 v46 v51 k0_t5) a + S1x16.size a ≤ S144x256.size a) ∧
  (∀ k0_t5 : Fin (k0_t5_loop v46 v51).trips, ∀ a, (k0_off79 v46 v51 k0_t5) a + S1x16.size a ≤ S144x256.size a) ∧
  (∀ k0_t5 : Fin (k0_t5_loop v46 v51).trips, ∀ a, (k0_off80 v46 v51 k0_t5) a + S1x16.size a ≤ S144x256.size a) ∧
  (∀ k0_t5 : Fin (k0_t5_loop v46 v51).trips, ∀ a, (k0_off81 v46 v51 k0_t5) a + S1x16.size a ≤ S144x256.size a) ∧
  (∀ k0_t5 : Fin (k0_t5_loop v46 v51).trips, ∀ a, (k0_off82 v46 v51 k0_t5) a + S1x16.size a ≤ S144x256.size a) ∧
  (∀ k0_t5 : Fin (k0_t5_loop v46 v51).trips, ∀ a, (k0_off83 v46 v51 k0_t5) a + S1x16.size a ≤ S144x256.size a) ∧
  (∀ k0_t5 : Fin (k0_t5_loop v46 v51).trips, ∀ a, (k0_off84 v46 v51 k0_t5) a + S1x16.size a ≤ S144x256.size a) ∧
  (∀ k0_t5 : Fin (k0_t5_loop v46 v51).trips, ∀ a, (k0_off85 v46 v51 k0_t5) a + S1x16.size a ≤ S144x256.size a) ∧
  (∀ k0_t5 : Fin (k0_t5_loop v46 v51).trips, ∀ a, (k0_off86 v46 v51 k0_t5) a + S1x16.size a ≤ S144x256.size a) ∧
  ((k0_t6_loop v46 v51).OK) ∧
  (∀ k0_t6 : Fin (k0_t6_loop v46 v51).trips, ∀ a, (k0_off87 v46 v51 k0_t6) a + S1x16.size a ≤ S144x256.size a) ∧
  (∀ k0_t6 : Fin (k0_t6_loop v46 v51).trips, ∀ a, (k0_off88 v46 v51 k0_t6) a + S1x16.size a ≤ S144x256.size a) ∧
  (∀ k0_t6 : Fin (k0_t6_loop v46 v51).trips, ∀ a, (k0_off89 v46 v51 k0_t6) a + S1x16.size a ≤ S144x256.size a) ∧
  (∀ k0_t6 : Fin (k0_t6_loop v46 v51).trips, ∀ a, (k0_off90 v46 v51 k0_t6) a + S1x16.size a ≤ S144x256.size a) ∧
  (∀ k0_t6 : Fin (k0_t6_loop v46 v51).trips, ∀ a, (k0_off91 v46 v51 k0_t6) a + S1x16.size a ≤ S144x256.size a) ∧
  (∀ k0_t6 : Fin (k0_t6_loop v46 v51).trips, ∀ a, (k0_off92 v46 v51 k0_t6) a + S1x16.size a ≤ S144x256.size a) ∧
  (∀ k0_t6 : Fin (k0_t6_loop v46 v51).trips, ∀ a, (k0_off93 v46 v51 k0_t6) a + S1x16.size a ≤ S144x256.size a) ∧
  (∀ k0_t6 : Fin (k0_t6_loop v46 v51).trips, ∀ a, (k0_off94 v46 v51 k0_t6) a + S1x16.size a ≤ S144x256.size a) ∧
  (∀ k0_t6 : Fin (k0_t6_loop v46 v51).trips, ∀ a, (k0_off95 v46 v51 k0_t6) a + S1x16.size a ≤ S144x256.size a) ∧
  (∀ k0_t6 : Fin (k0_t6_loop v46 v51).trips, ∀ a, (k0_off96 v46 v51 k0_t6) a + S1x16.size a ≤ S144x256.size a) ∧
  (∀ k0_t6 : Fin (k0_t6_loop v46 v51).trips, ∀ a, (k0_off97 v46 v51 k0_t6) a + S1x16.size a ≤ S144x256.size a)
instance k0_chk2_2.dec : ∀ (i : grid0.Coords) (v46 : BitVec 32) (v51 : BitVec 32), Decidable (k0_chk2_2 i v46 v51) := fun i v46 v51 => decidable_of_iff' _ (Iff.of_eq (k0_chk2_2.eq_1 i v46 v51))
def k0_chk2_3 (i : grid0.Coords) (v46 : BitVec 32) (v51 : BitVec 32) : Prop :=
  (∀ k0_t6 : Fin (k0_t6_loop v46 v51).trips, ∀ a, (k0_off98 v46 v51 k0_t6) a + S1x16.size a ≤ S144x256.size a) ∧
  (∀ k0_t6 : Fin (k0_t6_loop v46 v51).trips, ∀ a, (k0_off99 v46 v51 k0_t6) a + S1x16.size a ≤ S144x256.size a) ∧
  (∀ k0_t6 : Fin (k0_t6_loop v46 v51).trips, ∀ a, (k0_off100 v46 v51 k0_t6) a + S1x16.size a ≤ S144x256.size a) ∧
  (∀ k0_t6 : Fin (k0_t6_loop v46 v51).trips, ∀ a, (k0_off101 v46 v51 k0_t6) a + S1x16.size a ≤ S144x256.size a) ∧
  (∀ k0_t6 : Fin (k0_t6_loop v46 v51).trips, ∀ a, (k0_off102 v46 v51 k0_t6) a + S1x16.size a ≤ S144x256.size a) ∧
  (∀ (k0_h2 : k0_cond2 v46 v51 = 1#1), ∀ a, (k0_off103 i v46) a + S1x72x256.size a ≤ S4x2048x512.size a) ∧
  ((k0_t7_loop v46 v51).OK) ∧
  (∀ k0_t7 : Fin (k0_t7_loop v46 v51).trips, ∀ a, (k0_off104 v46 v51 k0_t7) a + S1x16.size a ≤ S144x256.size a) ∧
  (∀ k0_t7 : Fin (k0_t7_loop v46 v51).trips, ∀ a, (k0_off105 v46 v51 k0_t7) a + S1x16.size a ≤ S144x256.size a) ∧
  (∀ k0_t7 : Fin (k0_t7_loop v46 v51).trips, ∀ a, (k0_off106 v46 v51 k0_t7) a + S1x16.size a ≤ S144x256.size a) ∧
  (∀ k0_t7 : Fin (k0_t7_loop v46 v51).trips, ∀ a, (k0_off107 v46 v51 k0_t7) a + S1x16.size a ≤ S144x256.size a) ∧
  (∀ k0_t7 : Fin (k0_t7_loop v46 v51).trips, ∀ a, (k0_off108 v46 v51 k0_t7) a + S1x16.size a ≤ S144x256.size a) ∧
  (∀ k0_t7 : Fin (k0_t7_loop v46 v51).trips, ∀ a, (k0_off109 v46 v51 k0_t7) a + S1x16.size a ≤ S144x256.size a) ∧
  (∀ k0_t7 : Fin (k0_t7_loop v46 v51).trips, ∀ a, (k0_off110 v46 v51 k0_t7) a + S1x16.size a ≤ S144x256.size a) ∧
  (∀ k0_t7 : Fin (k0_t7_loop v46 v51).trips, ∀ a, (k0_off111 v46 v51 k0_t7) a + S1x16.size a ≤ S144x256.size a) ∧
  (∀ k0_t7 : Fin (k0_t7_loop v46 v51).trips, ∀ a, (k0_off112 v46 v51 k0_t7) a + S1x16.size a ≤ S144x256.size a) ∧
  (∀ k0_t7 : Fin (k0_t7_loop v46 v51).trips, ∀ a, (k0_off113 v46 v51 k0_t7) a + S1x16.size a ≤ S144x256.size a) ∧
  (∀ k0_t7 : Fin (k0_t7_loop v46 v51).trips, ∀ a, (k0_off114 v46 v51 k0_t7) a + S1x16.size a ≤ S144x256.size a) ∧
  (∀ k0_t7 : Fin (k0_t7_loop v46 v51).trips, ∀ a, (k0_off115 v46 v51 k0_t7) a + S1x16.size a ≤ S144x256.size a) ∧
  (∀ k0_t7 : Fin (k0_t7_loop v46 v51).trips, ∀ a, (k0_off116 v46 v51 k0_t7) a + S1x16.size a ≤ S144x256.size a) ∧
  (∀ k0_t7 : Fin (k0_t7_loop v46 v51).trips, ∀ a, (k0_off117 v46 v51 k0_t7) a + S1x16.size a ≤ S144x256.size a) ∧
  (∀ k0_t7 : Fin (k0_t7_loop v46 v51).trips, ∀ a, (k0_off118 v46 v51 k0_t7) a + S1x16.size a ≤ S144x256.size a) ∧
  (∀ k0_t7 : Fin (k0_t7_loop v46 v51).trips, ∀ a, (k0_off119 v46 v51 k0_t7) a + S1x16.size a ≤ S144x256.size a) ∧
  (∀ k0_t7 : Fin (k0_t7_loop v46 v51).trips, ∀ a, (k0_off120 v46 v51 k0_t7) a + S1x16.size a ≤ S144x256.size a) ∧
  (∀ k0_t7 : Fin (k0_t7_loop v46 v51).trips, ∀ a, (k0_off121 v46 v51 k0_t7) a + S1x16.size a ≤ S144x256.size a) ∧
  (∀ k0_t7 : Fin (k0_t7_loop v46 v51).trips, ∀ a, (k0_off122 v46 v51 k0_t7) a + S1x16.size a ≤ S144x256.size a) ∧
  (∀ k0_t7 : Fin (k0_t7_loop v46 v51).trips, ∀ a, (k0_off123 v46 v51 k0_t7) a + S1x16.size a ≤ S144x256.size a) ∧
  (∀ k0_t7 : Fin (k0_t7_loop v46 v51).trips, ∀ a, (k0_off124 v46 v51 k0_t7) a + S1x16.size a ≤ S144x256.size a) ∧
  (∀ k0_t7 : Fin (k0_t7_loop v46 v51).trips, ∀ a, (k0_off125 v46 v51 k0_t7) a + S1x16.size a ≤ S144x256.size a) ∧
  (∀ k0_t7 : Fin (k0_t7_loop v46 v51).trips, ∀ a, (k0_off126 v46 v51 k0_t7) a + S1x16.size a ≤ S144x256.size a) ∧
  (∀ k0_t7 : Fin (k0_t7_loop v46 v51).trips, ∀ a, (k0_off127 v46 v51 k0_t7) a + S1x16.size a ≤ S144x256.size a) ∧
  (∀ k0_t7 : Fin (k0_t7_loop v46 v51).trips, ∀ a, (k0_off128 v46 v51 k0_t7) a + S1x16.size a ≤ S144x256.size a)
instance k0_chk2_3.dec : ∀ (i : grid0.Coords) (v46 : BitVec 32) (v51 : BitVec 32), Decidable (k0_chk2_3 i v46 v51) := fun i v46 v51 => decidable_of_iff' _ (Iff.of_eq (k0_chk2_3.eq_1 i v46 v51))
def k0_chk2_4 (i : grid0.Coords) (v46 : BitVec 32) (v51 : BitVec 32) : Prop :=
  (∀ k0_t7 : Fin (k0_t7_loop v46 v51).trips, ∀ a, (k0_off129 v46 v51 k0_t7) a + S1x16.size a ≤ S144x256.size a) ∧
  (∀ k0_t7 : Fin (k0_t7_loop v46 v51).trips, ∀ a, (k0_off130 v46 v51 k0_t7) a + S1x16.size a ≤ S144x256.size a) ∧
  (∀ k0_t7 : Fin (k0_t7_loop v46 v51).trips, ∀ a, (k0_off131 v46 v51 k0_t7) a + S1x16.size a ≤ S144x256.size a) ∧
  (∀ k0_t7 : Fin (k0_t7_loop v46 v51).trips, ∀ a, (k0_off132 v46 v51 k0_t7) a + S1x16.size a ≤ S144x256.size a) ∧
  (∀ k0_t7 : Fin (k0_t7_loop v46 v51).trips, ∀ a, (k0_off133 v46 v51 k0_t7) a + S1x16.size a ≤ S144x256.size a) ∧
  (∀ k0_t7 : Fin (k0_t7_loop v46 v51).trips, ∀ a, (k0_off134 v46 v51 k0_t7) a + S1x16.size a ≤ S144x256.size a) ∧
  (∀ k0_t7 : Fin (k0_t7_loop v46 v51).trips, ∀ a, (k0_off135 v46 v51 k0_t7) a + S1x16.size a ≤ S144x256.size a) ∧
  ((k0_t8_loop v46 v51).OK) ∧
  (∀ k0_t8 : Fin (k0_t8_loop v46 v51).trips, ∀ a, (k0_off136 v46 v51 k0_t8) a + S1x16.size a ≤ S144x256.size a) ∧
  (∀ k0_t8 : Fin (k0_t8_loop v46 v51).trips, ∀ a, (k0_off137 v46 v51 k0_t8) a + S1x16.size a ≤ S144x256.size a) ∧
  (∀ k0_t8 : Fin (k0_t8_loop v46 v51).trips, ∀ a, (k0_off138 v46 v51 k0_t8) a + S1x16.size a ≤ S144x256.size a) ∧
  (∀ k0_t8 : Fin (k0_t8_loop v46 v51).trips, ∀ a, (k0_off139 v46 v51 k0_t8) a + S1x16.size a ≤ S144x256.size a) ∧
  (∀ k0_t8 : Fin (k0_t8_loop v46 v51).trips, ∀ a, (k0_off140 v46 v51 k0_t8) a + S1x16.size a ≤ S144x256.size a) ∧
  (∀ k0_t8 : Fin (k0_t8_loop v46 v51).trips, ∀ a, (k0_off141 v46 v51 k0_t8) a + S1x16.size a ≤ S144x256.size a) ∧
  (∀ k0_t8 : Fin (k0_t8_loop v46 v51).trips, ∀ a, (k0_off142 v46 v51 k0_t8) a + S1x16.size a ≤ S144x256.size a) ∧
  (∀ k0_t8 : Fin (k0_t8_loop v46 v51).trips, ∀ a, (k0_off143 v46 v51 k0_t8) a + S1x16.size a ≤ S144x256.size a) ∧
  (∀ k0_t8 : Fin (k0_t8_loop v46 v51).trips, ∀ a, (k0_off144 v46 v51 k0_t8) a + S1x16.size a ≤ S144x256.size a) ∧
  (∀ k0_t8 : Fin (k0_t8_loop v46 v51).trips, ∀ a, (k0_off145 v46 v51 k0_t8) a + S1x16.size a ≤ S144x256.size a) ∧
  (∀ k0_t8 : Fin (k0_t8_loop v46 v51).trips, ∀ a, (k0_off146 v46 v51 k0_t8) a + S1x16.size a ≤ S144x256.size a) ∧
  (∀ k0_t8 : Fin (k0_t8_loop v46 v51).trips, ∀ a, (k0_off147 v46 v51 k0_t8) a + S1x16.size a ≤ S144x256.size a) ∧
  (∀ k0_t8 : Fin (k0_t8_loop v46 v51).trips, ∀ a, (k0_off148 v46 v51 k0_t8) a + S1x16.size a ≤ S144x256.size a) ∧
  (∀ k0_t8 : Fin (k0_t8_loop v46 v51).trips, ∀ a, (k0_off149 v46 v51 k0_t8) a + S1x16.size a ≤ S144x256.size a) ∧
  (∀ k0_t8 : Fin (k0_t8_loop v46 v51).trips, ∀ a, (k0_off150 v46 v51 k0_t8) a + S1x16.size a ≤ S144x256.size a) ∧
  (∀ k0_t8 : Fin (k0_t8_loop v46 v51).trips, ∀ a, (k0_off151 v46 v51 k0_t8) a + S1x16.size a ≤ S144x256.size a) ∧
  (∀ k0_t8 : Fin (k0_t8_loop v46 v51).trips, ∀ a, (k0_off152 v46 v51 k0_t8) a + S1x16.size a ≤ S144x256.size a) ∧
  (∀ k0_t8 : Fin (k0_t8_loop v46 v51).trips, ∀ a, (k0_off153 v46 v51 k0_t8) a + S1x16.size a ≤ S144x256.size a) ∧
  (∀ k0_t8 : Fin (k0_t8_loop v46 v51).trips, ∀ a, (k0_off154 v46 v51 k0_t8) a + S1x16.size a ≤ S144x256.size a) ∧
  (∀ k0_t8 : Fin (k0_t8_loop v46 v51).trips, ∀ a, (k0_off155 v46 v51 k0_t8) a + S1x16.size a ≤ S144x256.size a) ∧
  (∀ k0_t8 : Fin (k0_t8_loop v46 v51).trips, ∀ a, (k0_off156 v46 v51 k0_t8) a + S1x16.size a ≤ S144x256.size a) ∧
  (∀ k0_t8 : Fin (k0_t8_loop v46 v51).trips, ∀ a, (k0_off157 v46 v51 k0_t8) a + S1x16.size a ≤ S144x256.size a) ∧
  (∀ k0_t8 : Fin (k0_t8_loop v46 v51).trips, ∀ a, (k0_off158 v46 v51 k0_t8) a + S1x16.size a ≤ S144x256.size a) ∧
  (∀ k0_t8 : Fin (k0_t8_loop v46 v51).trips, ∀ a, (k0_off159 v46 v51 k0_t8) a + S1x16.size a ≤ S144x256.size a)
instance k0_chk2_4.dec : ∀ (i : grid0.Coords) (v46 : BitVec 32) (v51 : BitVec 32), Decidable (k0_chk2_4 i v46 v51) := fun i v46 v51 => decidable_of_iff' _ (Iff.of_eq (k0_chk2_4.eq_1 i v46 v51))
def k0_chk2_5 (i : grid0.Coords) (v46 : BitVec 32) (v51 : BitVec 32) : Prop :=
  (∀ k0_t8 : Fin (k0_t8_loop v46 v51).trips, ∀ a, (k0_off160 v46 v51 k0_t8) a + S1x16.size a ≤ S144x256.size a) ∧
  (∀ k0_t8 : Fin (k0_t8_loop v46 v51).trips, ∀ a, (k0_off161 v46 v51 k0_t8) a + S1x16.size a ≤ S144x256.size a) ∧
  (∀ k0_t8 : Fin (k0_t8_loop v46 v51).trips, ∀ a, (k0_off162 v46 v51 k0_t8) a + S1x16.size a ≤ S144x256.size a) ∧
  (∀ k0_t8 : Fin (k0_t8_loop v46 v51).trips, ∀ a, (k0_off163 v46 v51 k0_t8) a + S1x16.size a ≤ S144x256.size a) ∧
  (∀ k0_t8 : Fin (k0_t8_loop v46 v51).trips, ∀ a, (k0_off164 v46 v51 k0_t8) a + S1x16.size a ≤ S144x256.size a) ∧
  (∀ k0_t8 : Fin (k0_t8_loop v46 v51).trips, ∀ a, (k0_off165 v46 v51 k0_t8) a + S1x16.size a ≤ S144x256.size a) ∧
  (∀ k0_t8 : Fin (k0_t8_loop v46 v51).trips, ∀ a, (k0_off166 v46 v51 k0_t8) a + S1x16.size a ≤ S144x256.size a) ∧
  (∀ k0_t8 : Fin (k0_t8_loop v46 v51).trips, ∀ a, (k0_off167 v46 v51 k0_t8) a + S1x16.size a ≤ S144x256.size a) ∧
  ((k0_t9_loop v46 v51).OK) ∧
  (∀ k0_t9 : Fin (k0_t9_loop v46 v51).trips, ∀ a, (k0_off168 v46 v51 k0_t9) a + S1x16.size a ≤ S144x256.size a) ∧
  (∀ k0_t9 : Fin (k0_t9_loop v46 v51).trips, ∀ a, (k0_off169 v46 v51 k0_t9) a + S1x16.size a ≤ S144x256.size a) ∧
  (∀ k0_t9 : Fin (k0_t9_loop v46 v51).trips, ∀ a, (k0_off170 v46 v51 k0_t9) a + S1x16.size a ≤ S144x256.size a) ∧
  (∀ k0_t9 : Fin (k0_t9_loop v46 v51).trips, ∀ a, (k0_off171 v46 v51 k0_t9) a + S1x16.size a ≤ S144x256.size a) ∧
  (∀ k0_t9 : Fin (k0_t9_loop v46 v51).trips, ∀ a, (k0_off172 v46 v51 k0_t9) a + S1x16.size a ≤ S144x256.size a) ∧
  (∀ k0_t9 : Fin (k0_t9_loop v46 v51).trips, ∀ a, (k0_off173 v46 v51 k0_t9) a + S1x16.size a ≤ S144x256.size a) ∧
  (∀ k0_t9 : Fin (k0_t9_loop v46 v51).trips, ∀ a, (k0_off174 v46 v51 k0_t9) a + S1x16.size a ≤ S144x256.size a) ∧
  (∀ k0_t9 : Fin (k0_t9_loop v46 v51).trips, ∀ a, (k0_off175 v46 v51 k0_t9) a + S1x16.size a ≤ S144x256.size a) ∧
  (∀ k0_t9 : Fin (k0_t9_loop v46 v51).trips, ∀ a, (k0_off176 v46 v51 k0_t9) a + S1x16.size a ≤ S144x256.size a) ∧
  (∀ k0_t9 : Fin (k0_t9_loop v46 v51).trips, ∀ a, (k0_off177 v46 v51 k0_t9) a + S1x16.size a ≤ S144x256.size a) ∧
  (∀ k0_t9 : Fin (k0_t9_loop v46 v51).trips, ∀ a, (k0_off178 v46 v51 k0_t9) a + S1x16.size a ≤ S144x256.size a) ∧
  (∀ k0_t9 : Fin (k0_t9_loop v46 v51).trips, ∀ a, (k0_off179 v46 v51 k0_t9) a + S1x16.size a ≤ S144x256.size a) ∧
  (∀ k0_t9 : Fin (k0_t9_loop v46 v51).trips, ∀ a, (k0_off180 v46 v51 k0_t9) a + S1x16.size a ≤ S144x256.size a) ∧
  (∀ k0_t9 : Fin (k0_t9_loop v46 v51).trips, ∀ a, (k0_off181 v46 v51 k0_t9) a + S1x16.size a ≤ S144x256.size a) ∧
  (∀ k0_t9 : Fin (k0_t9_loop v46 v51).trips, ∀ a, (k0_off182 v46 v51 k0_t9) a + S1x16.size a ≤ S144x256.size a) ∧
  (∀ k0_t9 : Fin (k0_t9_loop v46 v51).trips, ∀ a, (k0_off183 v46 v51 k0_t9) a + S1x16.size a ≤ S144x256.size a) ∧
  ((k0_t10_loop v46 v51).OK) ∧
  (∀ k0_t10 : Fin (k0_t10_loop v46 v51).trips, ∀ a, (k0_off184 v46 v51 k0_t10) a + S1x16.size a ≤ S144x256.size a) ∧
  (∀ k0_t10 : Fin (k0_t10_loop v46 v51).trips, ∀ a, (k0_off185 v46 v51 k0_t10) a + S1x16.size a ≤ S144x256.size a) ∧
  (∀ k0_t10 : Fin (k0_t10_loop v46 v51).trips, ∀ a, (k0_off186 v46 v51 k0_t10) a + S1x16.size a ≤ S144x256.size a) ∧
  (∀ k0_t10 : Fin (k0_t10_loop v46 v51).trips, ∀ a, (k0_off187 v46 v51 k0_t10) a + S1x16.size a ≤ S144x256.size a) ∧
  (∀ k0_t10 : Fin (k0_t10_loop v46 v51).trips, ∀ a, (k0_off188 v46 v51 k0_t10) a + S1x16.size a ≤ S144x256.size a) ∧
  (∀ k0_t10 : Fin (k0_t10_loop v46 v51).trips, ∀ a, (k0_off189 v46 v51 k0_t10) a + S1x16.size a ≤ S144x256.size a)
instance k0_chk2_5.dec : ∀ (i : grid0.Coords) (v46 : BitVec 32) (v51 : BitVec 32), Decidable (k0_chk2_5 i v46 v51) := fun i v46 v51 => decidable_of_iff' _ (Iff.of_eq (k0_chk2_5.eq_1 i v46 v51))
def k0_chk2_6 (i : grid0.Coords) (v46 : BitVec 32) (v51 : BitVec 32) : Prop :=
  (∀ k0_t10 : Fin (k0_t10_loop v46 v51).trips, ∀ a, (k0_off190 v46 v51 k0_t10) a + S1x16.size a ≤ S144x256.size a) ∧
  (∀ k0_t10 : Fin (k0_t10_loop v46 v51).trips, ∀ a, (k0_off191 v46 v51 k0_t10) a + S1x16.size a ≤ S144x256.size a) ∧
  (∀ k0_t10 : Fin (k0_t10_loop v46 v51).trips, ∀ a, (k0_off192 v46 v51 k0_t10) a + S1x16.size a ≤ S144x256.size a) ∧
  (∀ k0_t10 : Fin (k0_t10_loop v46 v51).trips, ∀ a, (k0_off193 v46 v51 k0_t10) a + S1x16.size a ≤ S144x256.size a) ∧
  (∀ k0_t10 : Fin (k0_t10_loop v46 v51).trips, ∀ a, (k0_off194 v46 v51 k0_t10) a + S1x16.size a ≤ S144x256.size a) ∧
  (∀ k0_t10 : Fin (k0_t10_loop v46 v51).trips, ∀ a, (k0_off195 v46 v51 k0_t10) a + S1x16.size a ≤ S144x256.size a) ∧
  (∀ k0_t10 : Fin (k0_t10_loop v46 v51).trips, ∀ a, (k0_off196 v46 v51 k0_t10) a + S1x16.size a ≤ S144x256.size a) ∧
  (∀ k0_t10 : Fin (k0_t10_loop v46 v51).trips, ∀ a, (k0_off197 v46 v51 k0_t10) a + S1x16.size a ≤ S144x256.size a) ∧
  (∀ k0_t10 : Fin (k0_t10_loop v46 v51).trips, ∀ a, (k0_off198 v46 v51 k0_t10) a + S1x16.size a ≤ S144x256.size a) ∧
  (∀ k0_t10 : Fin (k0_t10_loop v46 v51).trips, ∀ a, (k0_off199 v46 v51 k0_t10) a + S1x16.size a ≤ S144x256.size a)
instance k0_chk2_6.dec : ∀ (i : grid0.Coords) (v46 : BitVec 32) (v51 : BitVec 32), Decidable (k0_chk2_6 i v46 v51) := fun i v46 v51 => decidable_of_iff' _ (Iff.of_eq (k0_chk2_6.eq_1 i v46 v51))
def k0_chk2 (i : grid0.Coords) (v46 : BitVec 32) (v51 : BitVec 32) : Prop :=
  k0_chk2_0 i v46 v51 ∧
  k0_chk2_1 i v46 v51 ∧
  k0_chk2_2 i v46 v51 ∧
  k0_chk2_3 i v46 v51 ∧
  k0_chk2_4 i v46 v51 ∧
  k0_chk2_5 i v46 v51 ∧
  k0_chk2_6 i v46 v51
instance k0_chk2.dec : ∀ (i : grid0.Coords) (v46 : BitVec 32) (v51 : BitVec 32), Decidable (k0_chk2 i v46 v51) := fun i v46 v51 => decidable_of_iff' _ (Iff.of_eq (k0_chk2.eq_1 i v46 v51))
theorem k0_off5_inb : ∀ (i : grid0.Coords) (v46 : BitVec 32) (v51 : BitVec 32) (k0_hw2 : k0_chk2 i v46 v51), ∀ (k0_h1 : k0_cond1 v46 v51 = 1#1), ∀ a, (k0_off5 i v46) a + S1x72x256.size a ≤ S4x2048x512.size a := fun i v46 v51 k0_hw2 k0_h1 => k0_hw2.1.1 k0_h1
theorem k0_t3_ok : ∀ (i : grid0.Coords) (v46 : BitVec 32) (v51 : BitVec 32) (k0_hw2 : k0_chk2 i v46 v51), (k0_t3_loop v46 v51).OK := fun i v46 v51 k0_hw2 => k0_hw2.1.2.1
theorem k0_off7_inb : ∀ (i : grid0.Coords) (v46 : BitVec 32) (v51 : BitVec 32) (k0_hw2 : k0_chk2 i v46 v51) (k0_t3 : Fin (k0_t3_loop v46 v51).trips), ∀ a, (k0_off7 v46 v51 k0_t3) a + S1x16.size a ≤ S144x256.size a := fun i v46 v51 k0_hw2 k0_t3 => k0_hw2.1.2.2.1 k0_t3
theorem k0_off8_inb : ∀ (i : grid0.Coords) (v46 : BitVec 32) (v51 : BitVec 32) (k0_hw2 : k0_chk2 i v46 v51) (k0_t3 : Fin (k0_t3_loop v46 v51).trips), ∀ a, (k0_off8 v46 v51 k0_t3) a + S1x16.size a ≤ S144x256.size a := fun i v46 v51 k0_hw2 k0_t3 => k0_hw2.1.2.2.2.1 k0_t3
theorem k0_off9_inb : ∀ (i : grid0.Coords) (v46 : BitVec 32) (v51 : BitVec 32) (k0_hw2 : k0_chk2 i v46 v51) (k0_t3 : Fin (k0_t3_loop v46 v51).trips), ∀ a, (k0_off9 v46 v51 k0_t3) a + S1x16.size a ≤ S144x256.size a := fun i v46 v51 k0_hw2 k0_t3 => k0_hw2.1.2.2.2.2.1 k0_t3
theorem k0_off10_inb : ∀ (i : grid0.Coords) (v46 : BitVec 32) (v51 : BitVec 32) (k0_hw2 : k0_chk2 i v46 v51) (k0_t3 : Fin (k0_t3_loop v46 v51).trips), ∀ a, (k0_off10 v46 v51 k0_t3) a + S1x16.size a ≤ S144x256.size a := fun i v46 v51 k0_hw2 k0_t3 => k0_hw2.1.2.2.2.2.2.1 k0_t3
theorem k0_off11_inb : ∀ (i : grid0.Coords) (v46 : BitVec 32) (v51 : BitVec 32) (k0_hw2 : k0_chk2 i v46 v51) (k0_t3 : Fin (k0_t3_loop v46 v51).trips), ∀ a, (k0_off11 v46 v51 k0_t3) a + S1x16.size a ≤ S144x256.size a := fun i v46 v51 k0_hw2 k0_t3 => k0_hw2.1.2.2.2.2.2.2.1 k0_t3
theorem k0_off12_inb : ∀ (i : grid0.Coords) (v46 : BitVec 32) (v51 : BitVec 32) (k0_hw2 : k0_chk2 i v46 v51) (k0_t3 : Fin (k0_t3_loop v46 v51).trips), ∀ a, (k0_off12 v46 v51 k0_t3) a + S1x16.size a ≤ S144x256.size a := fun i v46 v51 k0_hw2 k0_t3 => k0_hw2.1.2.2.2.2.2.2.2.1 k0_t3
theorem k0_off13_inb : ∀ (i : grid0.Coords) (v46 : BitVec 32) (v51 : BitVec 32) (k0_hw2 : k0_chk2 i v46 v51) (k0_t3 : Fin (k0_t3_loop v46 v51).trips), ∀ a, (k0_off13 v46 v51 k0_t3) a + S1x16.size a ≤ S144x256.size a := fun i v46 v51 k0_hw2 k0_t3 => k0_hw2.1.2.2.2.2.2.2.2.2.1 k0_t3
theorem k0_off14_inb : ∀ (i : grid0.Coords) (v46 : BitVec 32) (v51 : BitVec 32) (k0_hw2 : k0_chk2 i v46 v51) (k0_t3 : Fin (k0_t3_loop v46 v51).trips), ∀ a, (k0_off14 v46 v51 k0_t3) a + S1x16.size a ≤ S144x256.size a := fun i v46 v51 k0_hw2 k0_t3 => k0_hw2.1.2.2.2.2.2.2.2.2.2.1 k0_t3
theorem k0_off15_inb : ∀ (i : grid0.Coords) (v46 : BitVec 32) (v51 : BitVec 32) (k0_hw2 : k0_chk2 i v46 v51) (k0_t3 : Fin (k0_t3_loop v46 v51).trips), ∀ a, (k0_off15 v46 v51 k0_t3) a + S1x16.size a ≤ S144x256.size a := fun i v46 v51 k0_hw2 k0_t3 => k0_hw2.1.2.2.2.2.2.2.2.2.2.2.1 k0_t3
theorem k0_off16_inb : ∀ (i : grid0.Coords) (v46 : BitVec 32) (v51 : BitVec 32) (k0_hw2 : k0_chk2 i v46 v51) (k0_t3 : Fin (k0_t3_loop v46 v51).trips), ∀ a, (k0_off16 v46 v51 k0_t3) a + S1x16.size a ≤ S144x256.size a := fun i v46 v51 k0_hw2 k0_t3 => k0_hw2.1.2.2.2.2.2.2.2.2.2.2.2.1 k0_t3
theorem k0_off17_inb : ∀ (i : grid0.Coords) (v46 : BitVec 32) (v51 : BitVec 32) (k0_hw2 : k0_chk2 i v46 v51) (k0_t3 : Fin (k0_t3_loop v46 v51).trips), ∀ a, (k0_off17 v46 v51 k0_t3) a + S1x16.size a ≤ S144x256.size a := fun i v46 v51 k0_hw2 k0_t3 => k0_hw2.1.2.2.2.2.2.2.2.2.2.2.2.2.1 k0_t3
theorem k0_off18_inb : ∀ (i : grid0.Coords) (v46 : BitVec 32) (v51 : BitVec 32) (k0_hw2 : k0_chk2 i v46 v51) (k0_t3 : Fin (k0_t3_loop v46 v51).trips), ∀ a, (k0_off18 v46 v51 k0_t3) a + S1x16.size a ≤ S144x256.size a := fun i v46 v51 k0_hw2 k0_t3 => k0_hw2.1.2.2.2.2.2.2.2.2.2.2.2.2.2.1 k0_t3
theorem k0_off19_inb : ∀ (i : grid0.Coords) (v46 : BitVec 32) (v51 : BitVec 32) (k0_hw2 : k0_chk2 i v46 v51) (k0_t3 : Fin (k0_t3_loop v46 v51).trips), ∀ a, (k0_off19 v46 v51 k0_t3) a + S1x16.size a ≤ S144x256.size a := fun i v46 v51 k0_hw2 k0_t3 => k0_hw2.1.2.2.2.2.2.2.2.2.2.2.2.2.2.2.1 k0_t3
theorem k0_off20_inb : ∀ (i : grid0.Coords) (v46 : BitVec 32) (v51 : BitVec 32) (k0_hw2 : k0_chk2 i v46 v51) (k0_t3 : Fin (k0_t3_loop v46 v51).trips), ∀ a, (k0_off20 v46 v51 k0_t3) a + S1x16.size a ≤ S144x256.size a := fun i v46 v51 k0_hw2 k0_t3 => k0_hw2.1.2.2.2.2.2.2.2.2.2.2.2.2.2.2.2.1 k0_t3
theorem k0_off21_inb : ∀ (i : grid0.Coords) (v46 : BitVec 32) (v51 : BitVec 32) (k0_hw2 : k0_chk2 i v46 v51) (k0_t3 : Fin (k0_t3_loop v46 v51).trips), ∀ a, (k0_off21 v46 v51 k0_t3) a + S1x16.size a ≤ S144x256.size a := fun i v46 v51 k0_hw2 k0_t3 => k0_hw2.1.2.2.2.2.2.2.2.2.2.2.2.2.2.2.2.2.1 k0_t3
theorem k0_off22_inb : ∀ (i : grid0.Coords) (v46 : BitVec 32) (v51 : BitVec 32) (k0_hw2 : k0_chk2 i v46 v51) (k0_t3 : Fin (k0_t3_loop v46 v51).trips), ∀ a, (k0_off22 v46 v51 k0_t3) a + S1x16.size a ≤ S144x256.size a := fun i v46 v51 k0_hw2 k0_t3 => k0_hw2.1.2.2.2.2.2.2.2.2.2.2.2.2.2.2.2.2.2.1 k0_t3
theorem k0_off23_inb : ∀ (i : grid0.Coords) (v46 : BitVec 32) (v51 : BitVec 32) (k0_hw2 : k0_chk2 i v46 v51) (k0_t3 : Fin (k0_t3_loop v46 v51).trips), ∀ a, (k0_off23 v46 v51 k0_t3) a + S1x16.size a ≤ S144x256.size a := fun i v46 v51 k0_hw2 k0_t3 => k0_hw2.1.2.2.2.2.2.2.2.2.2.2.2.2.2.2.2.2.2.2.1 k0_t3
theorem k0_off24_inb : ∀ (i : grid0.Coords) (v46 : BitVec 32) (v51 : BitVec 32) (k0_hw2 : k0_chk2 i v46 v51) (k0_t3 : Fin (k0_t3_loop v46 v51).trips), ∀ a, (k0_off24 v46 v51 k0_t3) a + S1x16.size a ≤ S144x256.size a := fun i v46 v51 k0_hw2 k0_t3 => k0_hw2.1.2.2.2.2.2.2.2.2.2.2.2.2.2.2.2.2.2.2.2.1 k0_t3
theorem k0_off25_inb : ∀ (i : grid0.Coords) (v46 : BitVec 32) (v51 : BitVec 32) (k0_hw2 : k0_chk2 i v46 v51) (k0_t3 : Fin (k0_t3_loop v46 v51).trips), ∀ a, (k0_off25 v46 v51 k0_t3) a + S1x16.size a ≤ S144x256.size a := fun i v46 v51 k0_hw2 k0_t3 => k0_hw2.1.2.2.2.2.2.2.2.2.2.2.2.2.2.2.2.2.2.2.2.2.1 k0_t3
theorem k0_off26_inb : ∀ (i : grid0.Coords) (v46 : BitVec 32) (v51 : BitVec 32) (k0_hw2 : k0_chk2 i v46 v51) (k0_t3 : Fin (k0_t3_loop v46 v51).trips), ∀ a, (k0_off26 v46 v51 k0_t3) a + S1x16.size a ≤ S144x256.size a := fun i v46 v51 k0_hw2 k0_t3 => k0_hw2.1.2.2.2.2.2.2.2.2.2.2.2.2.2.2.2.2.2.2.2.2.2.1 k0_t3
theorem k0_off27_inb : ∀ (i : grid0.Coords) (v46 : BitVec 32) (v51 : BitVec 32) (k0_hw2 : k0_chk2 i v46 v51) (k0_t3 : Fin (k0_t3_loop v46 v51).trips), ∀ a, (k0_off27 v46 v51 k0_t3) a + S1x16.size a ≤ S144x256.size a := fun i v46 v51 k0_hw2 k0_t3 => k0_hw2.1.2.2.2.2.2.2.2.2.2.2.2.2.2.2.2.2.2.2.2.2.2.2.1 k0_t3
theorem k0_off28_inb : ∀ (i : grid0.Coords) (v46 : BitVec 32) (v51 : BitVec 32) (k0_hw2 : k0_chk2 i v46 v51) (k0_t3 : Fin (k0_t3_loop v46 v51).trips), ∀ a, (k0_off28 v46 v51 k0_t3) a + S1x16.size a ≤ S144x256.size a := fun i v46 v51 k0_hw2 k0_t3 => k0_hw2.1.2.2.2.2.2.2.2.2.2.2.2.2.2.2.2.2.2.2.2.2.2.2.2.1 k0_t3
theorem k0_off29_inb : ∀ (i : grid0.Coords) (v46 : BitVec 32) (v51 : BitVec 32) (k0_hw2 : k0_chk2 i v46 v51) (k0_t3 : Fin (k0_t3_loop v46 v51).trips), ∀ a, (k0_off29 v46 v51 k0_t3) a + S1x16.size a ≤ S144x256.size a := fun i v46 v51 k0_hw2 k0_t3 => k0_hw2.1.2.2.2.2.2.2.2.2.2.2.2.2.2.2.2.2.2.2.2.2.2.2.2.2.1 k0_t3
theorem k0_off30_inb : ∀ (i : grid0.Coords) (v46 : BitVec 32) (v51 : BitVec 32) (k0_hw2 : k0_chk2 i v46 v51) (k0_t3 : Fin (k0_t3_loop v46 v51).trips), ∀ a, (k0_off30 v46 v51 k0_t3) a + S1x16.size a ≤ S144x256.size a := fun i v46 v51 k0_hw2 k0_t3 => k0_hw2.1.2.2.2.2.2.2.2.2.2.2.2.2.2.2.2.2.2.2.2.2.2.2.2.2.2.1 k0_t3
theorem k0_off31_inb : ∀ (i : grid0.Coords) (v46 : BitVec 32) (v51 : BitVec 32) (k0_hw2 : k0_chk2 i v46 v51) (k0_t3 : Fin (k0_t3_loop v46 v51).trips), ∀ a, (k0_off31 v46 v51 k0_t3) a + S1x16.size a ≤ S144x256.size a := fun i v46 v51 k0_hw2 k0_t3 => k0_hw2.1.2.2.2.2.2.2.2.2.2.2.2.2.2.2.2.2.2.2.2.2.2.2.2.2.2.2.1 k0_t3
theorem k0_off32_inb : ∀ (i : grid0.Coords) (v46 : BitVec 32) (v51 : BitVec 32) (k0_hw2 : k0_chk2 i v46 v51) (k0_t3 : Fin (k0_t3_loop v46 v51).trips), ∀ a, (k0_off32 v46 v51 k0_t3) a + S1x16.size a ≤ S144x256.size a := fun i v46 v51 k0_hw2 k0_t3 => k0_hw2.1.2.2.2.2.2.2.2.2.2.2.2.2.2.2.2.2.2.2.2.2.2.2.2.2.2.2.2.1 k0_t3
theorem k0_off33_inb : ∀ (i : grid0.Coords) (v46 : BitVec 32) (v51 : BitVec 32) (k0_hw2 : k0_chk2 i v46 v51) (k0_t3 : Fin (k0_t3_loop v46 v51).trips), ∀ a, (k0_off33 v46 v51 k0_t3) a + S1x16.size a ≤ S144x256.size a := fun i v46 v51 k0_hw2 k0_t3 => k0_hw2.1.2.2.2.2.2.2.2.2.2.2.2.2.2.2.2.2.2.2.2.2.2.2.2.2.2.2.2.2.1 k0_t3
theorem k0_off34_inb : ∀ (i : grid0.Coords) (v46 : BitVec 32) (v51 : BitVec 32) (k0_hw2 : k0_chk2 i v46 v51) (k0_t3 : Fin (k0_t3_loop v46 v51).trips), ∀ a, (k0_off34 v46 v51 k0_t3) a + S1x16.size a ≤ S144x256.size a := fun i v46 v51 k0_hw2 k0_t3 => k0_hw2.1.2.2.2.2.2.2.2.2.2.2.2.2.2.2.2.2.2.2.2.2.2.2.2.2.2.2.2.2.2.1 k0_t3
theorem k0_off35_inb : ∀ (i : grid0.Coords) (v46 : BitVec 32) (v51 : BitVec 32) (k0_hw2 : k0_chk2 i v46 v51) (k0_t3 : Fin (k0_t3_loop v46 v51).trips), ∀ a, (k0_off35 v46 v51 k0_t3) a + S1x16.size a ≤ S144x256.size a := fun i v46 v51 k0_hw2 k0_t3 => k0_hw2.1.2.2.2.2.2.2.2.2.2.2.2.2.2.2.2.2.2.2.2.2.2.2.2.2.2.2.2.2.2.2.1 k0_t3
theorem k0_off36_inb : ∀ (i : grid0.Coords) (v46 : BitVec 32) (v51 : BitVec 32) (k0_hw2 : k0_chk2 i v46 v51) (k0_t3 : Fin (k0_t3_loop v46 v51).trips), ∀ a, (k0_off36 v46 v51 k0_t3) a + S1x16.size a ≤ S144x256.size a := fun i v46 v51 k0_hw2 k0_t3 => k0_hw2.1.2.2.2.2.2.2.2.2.2.2.2.2.2.2.2.2.2.2.2.2.2.2.2.2.2.2.2.2.2.2.2 k0_t3
theorem k0_off37_inb : ∀ (i : grid0.Coords) (v46 : BitVec 32) (v51 : BitVec 32) (k0_hw2 : k0_chk2 i v46 v51) (k0_t3 : Fin (k0_t3_loop v46 v51).trips), ∀ a, (k0_off37 v46 v51 k0_t3) a + S1x16.size a ≤ S144x256.size a := fun i v46 v51 k0_hw2 k0_t3 => k0_hw2.2.1.1 k0_t3
theorem k0_off38_inb : ∀ (i : grid0.Coords) (v46 : BitVec 32) (v51 : BitVec 32) (k0_hw2 : k0_chk2 i v46 v51) (k0_t3 : Fin (k0_t3_loop v46 v51).trips), ∀ a, (k0_off38 v46 v51 k0_t3) a + S1x16.size a ≤ S144x256.size a := fun i v46 v51 k0_hw2 k0_t3 => k0_hw2.2.1.2.1 k0_t3
theorem k0_t4_ok : ∀ (i : grid0.Coords) (v46 : BitVec 32) (v51 : BitVec 32) (k0_hw2 : k0_chk2 i v46 v51), (k0_t4_loop v46 v51).OK := fun i v46 v51 k0_hw2 => k0_hw2.2.1.2.2.1
theorem k0_off39_inb : ∀ (i : grid0.Coords) (v46 : BitVec 32) (v51 : BitVec 32) (k0_hw2 : k0_chk2 i v46 v51) (k0_t4 : Fin (k0_t4_loop v46 v51).trips), ∀ a, (k0_off39 v46 v51 k0_t4) a + S1x16.size a ≤ S144x256.size a := fun i v46 v51 k0_hw2 k0_t4 => k0_hw2.2.1.2.2.2.1 k0_t4
theorem k0_off40_inb : ∀ (i : grid0.Coords) (v46 : BitVec 32) (v51 : BitVec 32) (k0_hw2 : k0_chk2 i v46 v51) (k0_t4 : Fin (k0_t4_loop v46 v51).trips), ∀ a, (k0_off40 v46 v51 k0_t4) a + S1x16.size a ≤ S144x256.size a := fun i v46 v51 k0_hw2 k0_t4 => k0_hw2.2.1.2.2.2.2.1 k0_t4
theorem k0_off41_inb : ∀ (i : grid0.Coords) (v46 : BitVec 32) (v51 : BitVec 32) (k0_hw2 : k0_chk2 i v46 v51) (k0_t4 : Fin (k0_t4_loop v46 v51).trips), ∀ a, (k0_off41 v46 v51 k0_t4) a + S1x16.size a ≤ S144x256.size a := fun i v46 v51 k0_hw2 k0_t4 => k0_hw2.2.1.2.2.2.2.2.1 k0_t4
theorem k0_off42_inb : ∀ (i : grid0.Coords) (v46 : BitVec 32) (v51 : BitVec 32) (k0_hw2 : k0_chk2 i v46 v51) (k0_t4 : Fin (k0_t4_loop v46 v51).trips), ∀ a, (k0_off42 v46 v51 k0_t4) a + S1x16.size a ≤ S144x256.size a := fun i v46 v51 k0_hw2 k0_t4 => k0_hw2.2.1.2.2.2.2.2.2.1 k0_t4
theorem k0_off43_inb : ∀ (i : grid0.Coords) (v46 : BitVec 32) (v51 : BitVec 32) (k0_hw2 : k0_chk2 i v46 v51) (k0_t4 : Fin (k0_t4_loop v46 v51).trips), ∀ a, (k0_off43 v46 v51 k0_t4) a + S1x16.size a ≤ S144x256.size a := fun i v46 v51 k0_hw2 k0_t4 => k0_hw2.2.1.2.2.2.2.2.2.2.1 k0_t4
theorem k0_off44_inb : ∀ (i : grid0.Coords) (v46 : BitVec 32) (v51 : BitVec 32) (k0_hw2 : k0_chk2 i v46 v51) (k0_t4 : Fin (k0_t4_loop v46 v51).trips), ∀ a, (k0_off44 v46 v51 k0_t4) a + S1x16.size a ≤ S144x256.size a := fun i v46 v51 k0_hw2 k0_t4 => k0_hw2.2.1.2.2.2.2.2.2.2.2.1 k0_t4
theorem k0_off45_inb : ∀ (i : grid0.Coords) (v46 : BitVec 32) (v51 : BitVec 32) (k0_hw2 : k0_chk2 i v46 v51) (k0_t4 : Fin (k0_t4_loop v46 v51).trips), ∀ a, (k0_off45 v46 v51 k0_t4) a + S1x16.size a ≤ S144x256.size a := fun i v46 v51 k0_hw2 k0_t4 => k0_hw2.2.1.2.2.2.2.2.2.2.2.2.1 k0_t4
theorem k0_off46_inb : ∀ (i : grid0.Coords) (v46 : BitVec 32) (v51 : BitVec 32) (k0_hw2 : k0_chk2 i v46 v51) (k0_t4 : Fin (k0_t4_loop v46 v51).trips), ∀ a, (k0_off46 v46 v51 k0_t4) a + S1x16.size a ≤ S144x256.size a := fun i v46 v51 k0_hw2 k0_t4 => k0_hw2.2.1.2.2.2.2.2.2.2.2.2.2.1 k0_t4
theorem k0_off47_inb : ∀ (i : grid0.Coords) (v46 : BitVec 32) (v51 : BitVec 32) (k0_hw2 : k0_chk2 i v46 v51) (k0_t4 : Fin (k0_t4_loop v46 v51).trips), ∀ a, (k0_off47 v46 v51 k0_t4) a + S1x16.size a ≤ S144x256.size a := fun i v46 v51 k0_hw2 k0_t4 => k0_hw2.2.1.2.2.2.2.2.2.2.2.2.2.2.1 k0_t4
theorem k0_off48_inb : ∀ (i : grid0.Coords) (v46 : BitVec 32) (v51 : BitVec 32) (k0_hw2 : k0_chk2 i v46 v51) (k0_t4 : Fin (k0_t4_loop v46 v51).trips), ∀ a, (k0_off48 v46 v51 k0_t4) a + S1x16.size a ≤ S144x256.size a := fun i v46 v51 k0_hw2 k0_t4 => k0_hw2.2.1.2.2.2.2.2.2.2.2.2.2.2.2.1 k0_t4
theorem k0_off49_inb : ∀ (i : grid0.Coords) (v46 : BitVec 32) (v51 : BitVec 32) (k0_hw2 : k0_chk2 i v46 v51) (k0_t4 : Fin (k0_t4_loop v46 v51).trips), ∀ a, (k0_off49 v46 v51 k0_t4) a + S1x16.size a ≤ S144x256.size a := fun i v46 v51 k0_hw2 k0_t4 => k0_hw2.2.1.2.2.2.2.2.2.2.2.2.2.2.2.2.1 k0_t4
theorem k0_off50_inb : ∀ (i : grid0.Coords) (v46 : BitVec 32) (v51 : BitVec 32) (k0_hw2 : k0_chk2 i v46 v51) (k0_t4 : Fin (k0_t4_loop v46 v51).trips), ∀ a, (k0_off50 v46 v51 k0_t4) a + S1x16.size a ≤ S144x256.size a := fun i v46 v51 k0_hw2 k0_t4 => k0_hw2.2.1.2.2.2.2.2.2.2.2.2.2.2.2.2.2.1 k0_t4
theorem k0_off51_inb : ∀ (i : grid0.Coords) (v46 : BitVec 32) (v51 : BitVec 32) (k0_hw2 : k0_chk2 i v46 v51) (k0_t4 : Fin (k0_t4_loop v46 v51).trips), ∀ a, (k0_off51 v46 v51 k0_t4) a + S1x16.size a ≤ S144x256.size a := fun i v46 v51 k0_hw2 k0_t4 => k0_hw2.2.1.2.2.2.2.2.2.2.2.2.2.2.2.2.2.2.1 k0_t4
theorem k0_off52_inb : ∀ (i : grid0.Coords) (v46 : BitVec 32) (v51 : BitVec 32) (k0_hw2 : k0_chk2 i v46 v51) (k0_t4 : Fin (k0_t4_loop v46 v51).trips), ∀ a, (k0_off52 v46 v51 k0_t4) a + S1x16.size a ≤ S144x256.size a := fun i v46 v51 k0_hw2 k0_t4 => k0_hw2.2.1.2.2.2.2.2.2.2.2.2.2.2.2.2.2.2.2.1 k0_t4
theorem k0_off53_inb : ∀ (i : grid0.Coords) (v46 : BitVec 32) (v51 : BitVec 32) (k0_hw2 : k0_chk2 i v46 v51) (k0_t4 : Fin (k0_t4_loop v46 v51).trips), ∀ a, (k0_off53 v46 v51 k0_t4) a + S1x16.size a ≤ S144x256.size a := fun i v46 v51 k0_hw2 k0_t4 => k0_hw2.2.1.2.2.2.2.2.2.2.2.2.2.2.2.2.2.2.2.2.1 k0_t4
theorem k0_off54_inb : ∀ (i : grid0.Coords) (v46 : BitVec 32) (v51 : BitVec 32) (k0_hw2 : k0_chk2 i v46 v51) (k0_t4 : Fin (k0_t4_loop v46 v51).trips), ∀ a, (k0_off54 v46 v51 k0_t4) a + S1x16.size a ≤ S144x256.size a := fun i v46 v51 k0_hw2 k0_t4 => k0_hw2.2.1.2.2.2.2.2.2.2.2.2.2.2.2.2.2.2.2.2.2.1 k0_t4
theorem k0_off55_inb : ∀ (i : grid0.Coords) (v46 : BitVec 32) (v51 : BitVec 32) (k0_hw2 : k0_chk2 i v46 v51) (k0_t4 : Fin (k0_t4_loop v46 v51).trips), ∀ a, (k0_off55 v46 v51 k0_t4) a + S1x16.size a ≤ S144x256.size a := fun i v46 v51 k0_hw2 k0_t4 => k0_hw2.2.1.2.2.2.2.2.2.2.2.2.2.2.2.2.2.2.2.2.2.2.1 k0_t4
theorem k0_off56_inb : ∀ (i : grid0.Coords) (v46 : BitVec 32) (v51 : BitVec 32) (k0_hw2 : k0_chk2 i v46 v51) (k0_t4 : Fin (k0_t4_loop v46 v51).trips), ∀ a, (k0_off56 v46 v51 k0_t4) a + S1x16.size a ≤ S144x256.size a := fun i v46 v51 k0_hw2 k0_t4 => k0_hw2.2.1.2.2.2.2.2.2.2.2.2.2.2.2.2.2.2.2.2.2.2.2.1 k0_t4
theorem k0_off57_inb : ∀ (i : grid0.Coords) (v46 : BitVec 32) (v51 : BitVec 32) (k0_hw2 : k0_chk2 i v46 v51) (k0_t4 : Fin (k0_t4_loop v46 v51).trips), ∀ a, (k0_off57 v46 v51 k0_t4) a + S1x16.size a ≤ S144x256.size a := fun i v46 v51 k0_hw2 k0_t4 => k0_hw2.2.1.2.2.2.2.2.2.2.2.2.2.2.2.2.2.2.2.2.2.2.2.2.1 k0_t4
theorem k0_off58_inb : ∀ (i : grid0.Coords) (v46 : BitVec 32) (v51 : BitVec 32) (k0_hw2 : k0_chk2 i v46 v51) (k0_t4 : Fin (k0_t4_loop v46 v51).trips), ∀ a, (k0_off58 v46 v51 k0_t4) a + S1x16.size a ≤ S144x256.size a := fun i v46 v51 k0_hw2 k0_t4 => k0_hw2.2.1.2.2.2.2.2.2.2.2.2.2.2.2.2.2.2.2.2.2.2.2.2.2.1 k0_t4
theorem k0_off59_inb : ∀ (i : grid0.Coords) (v46 : BitVec 32) (v51 : BitVec 32) (k0_hw2 : k0_chk2 i v46 v51) (k0_t4 : Fin (k0_t4_loop v46 v51).trips), ∀ a, (k0_off59 v46 v51 k0_t4) a + S1x16.size a ≤ S144x256.size a := fun i v46 v51 k0_hw2 k0_t4 => k0_hw2.2.1.2.2.2.2.2.2.2.2.2.2.2.2.2.2.2.2.2.2.2.2.2.2.2.1 k0_t4
theorem k0_off60_inb : ∀ (i : grid0.Coords) (v46 : BitVec 32) (v51 : BitVec 32) (k0_hw2 : k0_chk2 i v46 v51) (k0_t4 : Fin (k0_t4_loop v46 v51).trips), ∀ a, (k0_off60 v46 v51 k0_t4) a + S1x16.size a ≤ S144x256.size a := fun i v46 v51 k0_hw2 k0_t4 => k0_hw2.2.1.2.2.2.2.2.2.2.2.2.2.2.2.2.2.2.2.2.2.2.2.2.2.2.2.1 k0_t4
theorem k0_off61_inb : ∀ (i : grid0.Coords) (v46 : BitVec 32) (v51 : BitVec 32) (k0_hw2 : k0_chk2 i v46 v51) (k0_t4 : Fin (k0_t4_loop v46 v51).trips), ∀ a, (k0_off61 v46 v51 k0_t4) a + S1x16.size a ≤ S144x256.size a := fun i v46 v51 k0_hw2 k0_t4 => k0_hw2.2.1.2.2.2.2.2.2.2.2.2.2.2.2.2.2.2.2.2.2.2.2.2.2.2.2.2.1 k0_t4
theorem k0_off62_inb : ∀ (i : grid0.Coords) (v46 : BitVec 32) (v51 : BitVec 32) (k0_hw2 : k0_chk2 i v46 v51) (k0_t4 : Fin (k0_t4_loop v46 v51).trips), ∀ a, (k0_off62 v46 v51 k0_t4) a + S1x16.size a ≤ S144x256.size a := fun i v46 v51 k0_hw2 k0_t4 => k0_hw2.2.1.2.2.2.2.2.2.2.2.2.2.2.2.2.2.2.2.2.2.2.2.2.2.2.2.2.2.1 k0_t4
theorem k0_off63_inb : ∀ (i : grid0.Coords) (v46 : BitVec 32) (v51 : BitVec 32) (k0_hw2 : k0_chk2 i v46 v51) (k0_t4 : Fin (k0_t4_loop v46 v51).trips), ∀ a, (k0_off63 v46 v51 k0_t4) a + S1x16.size a ≤ S144x256.size a := fun i v46 v51 k0_hw2 k0_t4 => k0_hw2.2.1.2.2.2.2.2.2.2.2.2.2.2.2.2.2.2.2.2.2.2.2.2.2.2.2.2.2.2.1 k0_t4
theorem k0_off64_inb : ∀ (i : grid0.Coords) (v46 : BitVec 32) (v51 : BitVec 32) (k0_hw2 : k0_chk2 i v46 v51) (k0_t4 : Fin (k0_t4_loop v46 v51).trips), ∀ a, (k0_off64 v46 v51 k0_t4) a + S1x16.size a ≤ S144x256.size a := fun i v46 v51 k0_hw2 k0_t4 => k0_hw2.2.1.2.2.2.2.2.2.2.2.2.2.2.2.2.2.2.2.2.2.2.2.2.2.2.2.2.2.2.2.1 k0_t4
theorem k0_off65_inb : ∀ (i : grid0.Coords) (v46 : BitVec 32) (v51 : BitVec 32) (k0_hw2 : k0_chk2 i v46 v51) (k0_t4 : Fin (k0_t4_loop v46 v51).trips), ∀ a, (k0_off65 v46 v51 k0_t4) a + S1x16.size a ≤ S144x256.size a := fun i v46 v51 k0_hw2 k0_t4 => k0_hw2.2.1.2.2.2.2.2.2.2.2.2.2.2.2.2.2.2.2.2.2.2.2.2.2.2.2.2.2.2.2.2.1 k0_t4
theorem k0_off66_inb : ∀ (i : grid0.Coords) (v46 : BitVec 32) (v51 : BitVec 32) (k0_hw2 : k0_chk2 i v46 v51) (k0_t4 : Fin (k0_t4_loop v46 v51).trips), ∀ a, (k0_off66 v46 v51 k0_t4) a + S1x16.size a ≤ S144x256.size a := fun i v46 v51 k0_hw2 k0_t4 => k0_hw2.2.1.2.2.2.2.2.2.2.2.2.2.2.2.2.2.2.2.2.2.2.2.2.2.2.2.2.2.2.2.2.2.1 k0_t4
theorem k0_off67_inb : ∀ (i : grid0.Coords) (v46 : BitVec 32) (v51 : BitVec 32) (k0_hw2 : k0_chk2 i v46 v51) (k0_t4 : Fin (k0_t4_loop v46 v51).trips), ∀ a, (k0_off67 v46 v51 k0_t4) a + S1x16.size a ≤ S144x256.size a := fun i v46 v51 k0_hw2 k0_t4 => k0_hw2.2.1.2.2.2.2.2.2.2.2.2.2.2.2.2.2.2.2.2.2.2.2.2.2.2.2.2.2.2.2.2.2.2 k0_t4
theorem k0_off68_inb : ∀ (i : grid0.Coords) (v46 : BitVec 32) (v51 : BitVec 32) (k0_hw2 : k0_chk2 i v46 v51) (k0_t4 : Fin (k0_t4_loop v46 v51).trips), ∀ a, (k0_off68 v46 v51 k0_t4) a + S1x16.size a ≤ S144x256.size a := fun i v46 v51 k0_hw2 k0_t4 => k0_hw2.2.2.1.1 k0_t4
theorem k0_off69_inb : ∀ (i : grid0.Coords) (v46 : BitVec 32) (v51 : BitVec 32) (k0_hw2 : k0_chk2 i v46 v51) (k0_t4 : Fin (k0_t4_loop v46 v51).trips), ∀ a, (k0_off69 v46 v51 k0_t4) a + S1x16.size a ≤ S144x256.size a := fun i v46 v51 k0_hw2 k0_t4 => k0_hw2.2.2.1.2.1 k0_t4
theorem k0_off70_inb : ∀ (i : grid0.Coords) (v46 : BitVec 32) (v51 : BitVec 32) (k0_hw2 : k0_chk2 i v46 v51) (k0_t4 : Fin (k0_t4_loop v46 v51).trips), ∀ a, (k0_off70 v46 v51 k0_t4) a + S1x16.size a ≤ S144x256.size a := fun i v46 v51 k0_hw2 k0_t4 => k0_hw2.2.2.1.2.2.1 k0_t4
theorem k0_t5_ok : ∀ (i : grid0.Coords) (v46 : BitVec 32) (v51 : BitVec 32) (k0_hw2 : k0_chk2 i v46 v51), (k0_t5_loop v46 v51).OK := fun i v46 v51 k0_hw2 => k0_hw2.2.2.1.2.2.2.1
theorem k0_off71_inb : ∀ (i : grid0.Coords) (v46 : BitVec 32) (v51 : BitVec 32) (k0_hw2 : k0_chk2 i v46 v51) (k0_t5 : Fin (k0_t5_loop v46 v51).trips), ∀ a, (k0_off71 v46 v51 k0_t5) a + S1x16.size a ≤ S144x256.size a := fun i v46 v51 k0_hw2 k0_t5 => k0_hw2.2.2.1.2.2.2.2.1 k0_t5
theorem k0_off72_inb : ∀ (i : grid0.Coords) (v46 : BitVec 32) (v51 : BitVec 32) (k0_hw2 : k0_chk2 i v46 v51) (k0_t5 : Fin (k0_t5_loop v46 v51).trips), ∀ a, (k0_off72 v46 v51 k0_t5) a + S1x16.size a ≤ S144x256.size a := fun i v46 v51 k0_hw2 k0_t5 => k0_hw2.2.2.1.2.2.2.2.2.1 k0_t5
theorem k0_off73_inb : ∀ (i : grid0.Coords) (v46 : BitVec 32) (v51 : BitVec 32) (k0_hw2 : k0_chk2 i v46 v51) (k0_t5 : Fin (k0_t5_loop v46 v51).trips), ∀ a, (k0_off73 v46 v51 k0_t5) a + S1x16.size a ≤ S144x256.size a := fun i v46 v51 k0_hw2 k0_t5 => k0_hw2.2.2.1.2.2.2.2.2.2.1 k0_t5
theorem k0_off74_inb : ∀ (i : grid0.Coords) (v46 : BitVec 32) (v51 : BitVec 32) (k0_hw2 : k0_chk2 i v46 v51) (k0_t5 : Fin (k0_t5_loop v46 v51).trips), ∀ a, (k0_off74 v46 v51 k0_t5) a + S1x16.size a ≤ S144x256.size a := fun i v46 v51 k0_hw2 k0_t5 => k0_hw2.2.2.1.2.2.2.2.2.2.2.1 k0_t5
theorem k0_off75_inb : ∀ (i : grid0.Coords) (v46 : BitVec 32) (v51 : BitVec 32) (k0_hw2 : k0_chk2 i v46 v51) (k0_t5 : Fin (k0_t5_loop v46 v51).trips), ∀ a, (k0_off75 v46 v51 k0_t5) a + S1x16.size a ≤ S144x256.size a := fun i v46 v51 k0_hw2 k0_t5 => k0_hw2.2.2.1.2.2.2.2.2.2.2.2.1 k0_t5
theorem k0_off76_inb : ∀ (i : grid0.Coords) (v46 : BitVec 32) (v51 : BitVec 32) (k0_hw2 : k0_chk2 i v46 v51) (k0_t5 : Fin (k0_t5_loop v46 v51).trips), ∀ a, (k0_off76 v46 v51 k0_t5) a + S1x16.size a ≤ S144x256.size a := fun i v46 v51 k0_hw2 k0_t5 => k0_hw2.2.2.1.2.2.2.2.2.2.2.2.2.1 k0_t5
theorem k0_off77_inb : ∀ (i : grid0.Coords) (v46 : BitVec 32) (v51 : BitVec 32) (k0_hw2 : k0_chk2 i v46 v51) (k0_t5 : Fin (k0_t5_loop v46 v51).trips), ∀ a, (k0_off77 v46 v51 k0_t5) a + S1x16.size a ≤ S144x256.size a := fun i v46 v51 k0_hw2 k0_t5 => k0_hw2.2.2.1.2.2.2.2.2.2.2.2.2.2.1 k0_t5
theorem k0_off78_inb : ∀ (i : grid0.Coords) (v46 : BitVec 32) (v51 : BitVec 32) (k0_hw2 : k0_chk2 i v46 v51) (k0_t5 : Fin (k0_t5_loop v46 v51).trips), ∀ a, (k0_off78 v46 v51 k0_t5) a + S1x16.size a ≤ S144x256.size a := fun i v46 v51 k0_hw2 k0_t5 => k0_hw2.2.2.1.2.2.2.2.2.2.2.2.2.2.2.1 k0_t5
theorem k0_off79_inb : ∀ (i : grid0.Coords) (v46 : BitVec 32) (v51 : BitVec 32) (k0_hw2 : k0_chk2 i v46 v51) (k0_t5 : Fin (k0_t5_loop v46 v51).trips), ∀ a, (k0_off79 v46 v51 k0_t5) a + S1x16.size a ≤ S144x256.size a := fun i v46 v51 k0_hw2 k0_t5 => k0_hw2.2.2.1.2.2.2.2.2.2.2.2.2.2.2.2.1 k0_t5
theorem k0_off80_inb : ∀ (i : grid0.Coords) (v46 : BitVec 32) (v51 : BitVec 32) (k0_hw2 : k0_chk2 i v46 v51) (k0_t5 : Fin (k0_t5_loop v46 v51).trips), ∀ a, (k0_off80 v46 v51 k0_t5) a + S1x16.size a ≤ S144x256.size a := fun i v46 v51 k0_hw2 k0_t5 => k0_hw2.2.2.1.2.2.2.2.2.2.2.2.2.2.2.2.2.1 k0_t5
theorem k0_off81_inb : ∀ (i : grid0.Coords) (v46 : BitVec 32) (v51 : BitVec 32) (k0_hw2 : k0_chk2 i v46 v51) (k0_t5 : Fin (k0_t5_loop v46 v51).trips), ∀ a, (k0_off81 v46 v51 k0_t5) a + S1x16.size a ≤ S144x256.size a := fun i v46 v51 k0_hw2 k0_t5 => k0_hw2.2.2.1.2.2.2.2.2.2.2.2.2.2.2.2.2.2.1 k0_t5
theorem k0_off82_inb : ∀ (i : grid0.Coords) (v46 : BitVec 32) (v51 : BitVec 32) (k0_hw2 : k0_chk2 i v46 v51) (k0_t5 : Fin (k0_t5_loop v46 v51).trips), ∀ a, (k0_off82 v46 v51 k0_t5) a + S1x16.size a ≤ S144x256.size a := fun i v46 v51 k0_hw2 k0_t5 => k0_hw2.2.2.1.2.2.2.2.2.2.2.2.2.2.2.2.2.2.2.1 k0_t5
theorem k0_off83_inb : ∀ (i : grid0.Coords) (v46 : BitVec 32) (v51 : BitVec 32) (k0_hw2 : k0_chk2 i v46 v51) (k0_t5 : Fin (k0_t5_loop v46 v51).trips), ∀ a, (k0_off83 v46 v51 k0_t5) a + S1x16.size a ≤ S144x256.size a := fun i v46 v51 k0_hw2 k0_t5 => k0_hw2.2.2.1.2.2.2.2.2.2.2.2.2.2.2.2.2.2.2.2.1 k0_t5
theorem k0_off84_inb : ∀ (i : grid0.Coords) (v46 : BitVec 32) (v51 : BitVec 32) (k0_hw2 : k0_chk2 i v46 v51) (k0_t5 : Fin (k0_t5_loop v46 v51).trips), ∀ a, (k0_off84 v46 v51 k0_t5) a + S1x16.size a ≤ S144x256.size a := fun i v46 v51 k0_hw2 k0_t5 => k0_hw2.2.2.1.2.2.2.2.2.2.2.2.2.2.2.2.2.2.2.2.2.1 k0_t5
theorem k0_off85_inb : ∀ (i : grid0.Coords) (v46 : BitVec 32) (v51 : BitVec 32) (k0_hw2 : k0_chk2 i v46 v51) (k0_t5 : Fin (k0_t5_loop v46 v51).trips), ∀ a, (k0_off85 v46 v51 k0_t5) a + S1x16.size a ≤ S144x256.size a := fun i v46 v51 k0_hw2 k0_t5 => k0_hw2.2.2.1.2.2.2.2.2.2.2.2.2.2.2.2.2.2.2.2.2.2.1 k0_t5
theorem k0_off86_inb : ∀ (i : grid0.Coords) (v46 : BitVec 32) (v51 : BitVec 32) (k0_hw2 : k0_chk2 i v46 v51) (k0_t5 : Fin (k0_t5_loop v46 v51).trips), ∀ a, (k0_off86 v46 v51 k0_t5) a + S1x16.size a ≤ S144x256.size a := fun i v46 v51 k0_hw2 k0_t5 => k0_hw2.2.2.1.2.2.2.2.2.2.2.2.2.2.2.2.2.2.2.2.2.2.2.1 k0_t5
theorem k0_t6_ok : ∀ (i : grid0.Coords) (v46 : BitVec 32) (v51 : BitVec 32) (k0_hw2 : k0_chk2 i v46 v51), (k0_t6_loop v46 v51).OK := fun i v46 v51 k0_hw2 => k0_hw2.2.2.1.2.2.2.2.2.2.2.2.2.2.2.2.2.2.2.2.2.2.2.2.1
theorem k0_off87_inb : ∀ (i : grid0.Coords) (v46 : BitVec 32) (v51 : BitVec 32) (k0_hw2 : k0_chk2 i v46 v51) (k0_t6 : Fin (k0_t6_loop v46 v51).trips), ∀ a, (k0_off87 v46 v51 k0_t6) a + S1x16.size a ≤ S144x256.size a := fun i v46 v51 k0_hw2 k0_t6 => k0_hw2.2.2.1.2.2.2.2.2.2.2.2.2.2.2.2.2.2.2.2.2.2.2.2.2.1 k0_t6
theorem k0_off88_inb : ∀ (i : grid0.Coords) (v46 : BitVec 32) (v51 : BitVec 32) (k0_hw2 : k0_chk2 i v46 v51) (k0_t6 : Fin (k0_t6_loop v46 v51).trips), ∀ a, (k0_off88 v46 v51 k0_t6) a + S1x16.size a ≤ S144x256.size a := fun i v46 v51 k0_hw2 k0_t6 => k0_hw2.2.2.1.2.2.2.2.2.2.2.2.2.2.2.2.2.2.2.2.2.2.2.2.2.2.1 k0_t6
theorem k0_off89_inb : ∀ (i : grid0.Coords) (v46 : BitVec 32) (v51 : BitVec 32) (k0_hw2 : k0_chk2 i v46 v51) (k0_t6 : Fin (k0_t6_loop v46 v51).trips), ∀ a, (k0_off89 v46 v51 k0_t6) a + S1x16.size a ≤ S144x256.size a := fun i v46 v51 k0_hw2 k0_t6 => k0_hw2.2.2.1.2.2.2.2.2.2.2.2.2.2.2.2.2.2.2.2.2.2.2.2.2.2.2.1 k0_t6
theorem k0_off90_inb : ∀ (i : grid0.Coords) (v46 : BitVec 32) (v51 : BitVec 32) (k0_hw2 : k0_chk2 i v46 v51) (k0_t6 : Fin (k0_t6_loop v46 v51).trips), ∀ a, (k0_off90 v46 v51 k0_t6) a + S1x16.size a ≤ S144x256.size a := fun i v46 v51 k0_hw2 k0_t6 => k0_hw2.2.2.1.2.2.2.2.2.2.2.2.2.2.2.2.2.2.2.2.2.2.2.2.2.2.2.2.1 k0_t6
theorem k0_off91_inb : ∀ (i : grid0.Coords) (v46 : BitVec 32) (v51 : BitVec 32) (k0_hw2 : k0_chk2 i v46 v51) (k0_t6 : Fin (k0_t6_loop v46 v51).trips), ∀ a, (k0_off91 v46 v51 k0_t6) a + S1x16.size a ≤ S144x256.size a := fun i v46 v51 k0_hw2 k0_t6 => k0_hw2.2.2.1.2.2.2.2.2.2.2.2.2.2.2.2.2.2.2.2.2.2.2.2.2.2.2.2.2.1 k0_t6
theorem k0_off92_inb : ∀ (i : grid0.Coords) (v46 : BitVec 32) (v51 : BitVec 32) (k0_hw2 : k0_chk2 i v46 v51) (k0_t6 : Fin (k0_t6_loop v46 v51).trips), ∀ a, (k0_off92 v46 v51 k0_t6) a + S1x16.size a ≤ S144x256.size a := fun i v46 v51 k0_hw2 k0_t6 => k0_hw2.2.2.1.2.2.2.2.2.2.2.2.2.2.2.2.2.2.2.2.2.2.2.2.2.2.2.2.2.2.1 k0_t6
theorem k0_off93_inb : ∀ (i : grid0.Coords) (v46 : BitVec 32) (v51 : BitVec 32) (k0_hw2 : k0_chk2 i v46 v51) (k0_t6 : Fin (k0_t6_loop v46 v51).trips), ∀ a, (k0_off93 v46 v51 k0_t6) a + S1x16.size a ≤ S144x256.size a := fun i v46 v51 k0_hw2 k0_t6 => k0_hw2.2.2.1.2.2.2.2.2.2.2.2.2.2.2.2.2.2.2.2.2.2.2.2.2.2.2.2.2.2.2.1 k0_t6
theorem k0_off94_inb : ∀ (i : grid0.Coords) (v46 : BitVec 32) (v51 : BitVec 32) (k0_hw2 : k0_chk2 i v46 v51) (k0_t6 : Fin (k0_t6_loop v46 v51).trips), ∀ a, (k0_off94 v46 v51 k0_t6) a + S1x16.size a ≤ S144x256.size a := fun i v46 v51 k0_hw2 k0_t6 => k0_hw2.2.2.1.2.2.2.2.2.2.2.2.2.2.2.2.2.2.2.2.2.2.2.2.2.2.2.2.2.2.2.2.1 k0_t6
theorem k0_off95_inb : ∀ (i : grid0.Coords) (v46 : BitVec 32) (v51 : BitVec 32) (k0_hw2 : k0_chk2 i v46 v51) (k0_t6 : Fin (k0_t6_loop v46 v51).trips), ∀ a, (k0_off95 v46 v51 k0_t6) a + S1x16.size a ≤ S144x256.size a := fun i v46 v51 k0_hw2 k0_t6 => k0_hw2.2.2.1.2.2.2.2.2.2.2.2.2.2.2.2.2.2.2.2.2.2.2.2.2.2.2.2.2.2.2.2.2.1 k0_t6
theorem k0_off96_inb : ∀ (i : grid0.Coords) (v46 : BitVec 32) (v51 : BitVec 32) (k0_hw2 : k0_chk2 i v46 v51) (k0_t6 : Fin (k0_t6_loop v46 v51).trips), ∀ a, (k0_off96 v46 v51 k0_t6) a + S1x16.size a ≤ S144x256.size a := fun i v46 v51 k0_hw2 k0_t6 => k0_hw2.2.2.1.2.2.2.2.2.2.2.2.2.2.2.2.2.2.2.2.2.2.2.2.2.2.2.2.2.2.2.2.2.2.1 k0_t6
theorem k0_off97_inb : ∀ (i : grid0.Coords) (v46 : BitVec 32) (v51 : BitVec 32) (k0_hw2 : k0_chk2 i v46 v51) (k0_t6 : Fin (k0_t6_loop v46 v51).trips), ∀ a, (k0_off97 v46 v51 k0_t6) a + S1x16.size a ≤ S144x256.size a := fun i v46 v51 k0_hw2 k0_t6 => k0_hw2.2.2.1.2.2.2.2.2.2.2.2.2.2.2.2.2.2.2.2.2.2.2.2.2.2.2.2.2.2.2.2.2.2.2 k0_t6
theorem k0_off98_inb : ∀ (i : grid0.Coords) (v46 : BitVec 32) (v51 : BitVec 32) (k0_hw2 : k0_chk2 i v46 v51) (k0_t6 : Fin (k0_t6_loop v46 v51).trips), ∀ a, (k0_off98 v46 v51 k0_t6) a + S1x16.size a ≤ S144x256.size a := fun i v46 v51 k0_hw2 k0_t6 => k0_hw2.2.2.2.1.1 k0_t6
theorem k0_off99_inb : ∀ (i : grid0.Coords) (v46 : BitVec 32) (v51 : BitVec 32) (k0_hw2 : k0_chk2 i v46 v51) (k0_t6 : Fin (k0_t6_loop v46 v51).trips), ∀ a, (k0_off99 v46 v51 k0_t6) a + S1x16.size a ≤ S144x256.size a := fun i v46 v51 k0_hw2 k0_t6 => k0_hw2.2.2.2.1.2.1 k0_t6
theorem k0_off100_inb : ∀ (i : grid0.Coords) (v46 : BitVec 32) (v51 : BitVec 32) (k0_hw2 : k0_chk2 i v46 v51) (k0_t6 : Fin (k0_t6_loop v46 v51).trips), ∀ a, (k0_off100 v46 v51 k0_t6) a + S1x16.size a ≤ S144x256.size a := fun i v46 v51 k0_hw2 k0_t6 => k0_hw2.2.2.2.1.2.2.1 k0_t6
theorem k0_off101_inb : ∀ (i : grid0.Coords) (v46 : BitVec 32) (v51 : BitVec 32) (k0_hw2 : k0_chk2 i v46 v51) (k0_t6 : Fin (k0_t6_loop v46 v51).trips), ∀ a, (k0_off101 v46 v51 k0_t6) a + S1x16.size a ≤ S144x256.size a := fun i v46 v51 k0_hw2 k0_t6 => k0_hw2.2.2.2.1.2.2.2.1 k0_t6
theorem k0_off102_inb : ∀ (i : grid0.Coords) (v46 : BitVec 32) (v51 : BitVec 32) (k0_hw2 : k0_chk2 i v46 v51) (k0_t6 : Fin (k0_t6_loop v46 v51).trips), ∀ a, (k0_off102 v46 v51 k0_t6) a + S1x16.size a ≤ S144x256.size a := fun i v46 v51 k0_hw2 k0_t6 => k0_hw2.2.2.2.1.2.2.2.2.1 k0_t6
theorem k0_off103_inb : ∀ (i : grid0.Coords) (v46 : BitVec 32) (v51 : BitVec 32) (k0_hw2 : k0_chk2 i v46 v51), ∀ (k0_h2 : k0_cond2 v46 v51 = 1#1), ∀ a, (k0_off103 i v46) a + S1x72x256.size a ≤ S4x2048x512.size a := fun i v46 v51 k0_hw2 k0_h2 => k0_hw2.2.2.2.1.2.2.2.2.2.1 k0_h2
theorem k0_t7_ok : ∀ (i : grid0.Coords) (v46 : BitVec 32) (v51 : BitVec 32) (k0_hw2 : k0_chk2 i v46 v51), (k0_t7_loop v46 v51).OK := fun i v46 v51 k0_hw2 => k0_hw2.2.2.2.1.2.2.2.2.2.2.1
theorem k0_off104_inb : ∀ (i : grid0.Coords) (v46 : BitVec 32) (v51 : BitVec 32) (k0_hw2 : k0_chk2 i v46 v51) (k0_t7 : Fin (k0_t7_loop v46 v51).trips), ∀ a, (k0_off104 v46 v51 k0_t7) a + S1x16.size a ≤ S144x256.size a := fun i v46 v51 k0_hw2 k0_t7 => k0_hw2.2.2.2.1.2.2.2.2.2.2.2.1 k0_t7
theorem k0_off105_inb : ∀ (i : grid0.Coords) (v46 : BitVec 32) (v51 : BitVec 32) (k0_hw2 : k0_chk2 i v46 v51) (k0_t7 : Fin (k0_t7_loop v46 v51).trips), ∀ a, (k0_off105 v46 v51 k0_t7) a + S1x16.size a ≤ S144x256.size a := fun i v46 v51 k0_hw2 k0_t7 => k0_hw2.2.2.2.1.2.2.2.2.2.2.2.2.1 k0_t7
theorem k0_off106_inb : ∀ (i : grid0.Coords) (v46 : BitVec 32) (v51 : BitVec 32) (k0_hw2 : k0_chk2 i v46 v51) (k0_t7 : Fin (k0_t7_loop v46 v51).trips), ∀ a, (k0_off106 v46 v51 k0_t7) a + S1x16.size a ≤ S144x256.size a := fun i v46 v51 k0_hw2 k0_t7 => k0_hw2.2.2.2.1.2.2.2.2.2.2.2.2.2.1 k0_t7
theorem k0_off107_inb : ∀ (i : grid0.Coords) (v46 : BitVec 32) (v51 : BitVec 32) (k0_hw2 : k0_chk2 i v46 v51) (k0_t7 : Fin (k0_t7_loop v46 v51).trips), ∀ a, (k0_off107 v46 v51 k0_t7) a + S1x16.size a ≤ S144x256.size a := fun i v46 v51 k0_hw2 k0_t7 => k0_hw2.2.2.2.1.2.2.2.2.2.2.2.2.2.2.1 k0_t7
theorem k0_off108_inb : ∀ (i : grid0.Coords) (v46 : BitVec 32) (v51 : BitVec 32) (k0_hw2 : k0_chk2 i v46 v51) (k0_t7 : Fin (k0_t7_loop v46 v51).trips), ∀ a, (k0_off108 v46 v51 k0_t7) a + S1x16.size a ≤ S144x256.size a := fun i v46 v51 k0_hw2 k0_t7 => k0_hw2.2.2.2.1.2.2.2.2.2.2.2.2.2.2.2.1 k0_t7
theorem k0_off109_inb : ∀ (i : grid0.Coords) (v46 : BitVec 32) (v51 : BitVec 32) (k0_hw2 : k0_chk2 i v46 v51) (k0_t7 : Fin (k0_t7_loop v46 v51).trips), ∀ a, (k0_off109 v46 v51 k0_t7) a + S1x16.size a ≤ S144x256.size a := fun i v46 v51 k0_hw2 k0_t7 => k0_hw2.2.2.2.1.2.2.2.2.2.2.2.2.2.2.2.2.1 k0_t7
theorem k0_off110_inb : ∀ (i : grid0.Coords) (v46 : BitVec 32) (v51 : BitVec 32) (k0_hw2 : k0_chk2 i v46 v51) (k0_t7 : Fin (k0_t7_loop v46 v51).trips), ∀ a, (k0_off110 v46 v51 k0_t7) a + S1x16.size a ≤ S144x256.size a := fun i v46 v51 k0_hw2 k0_t7 => k0_hw2.2.2.2.1.2.2.2.2.2.2.2.2.2.2.2.2.2.1 k0_t7
theorem k0_off111_inb : ∀ (i : grid0.Coords) (v46 : BitVec 32) (v51 : BitVec 32) (k0_hw2 : k0_chk2 i v46 v51) (k0_t7 : Fin (k0_t7_loop v46 v51).trips), ∀ a, (k0_off111 v46 v51 k0_t7) a + S1x16.size a ≤ S144x256.size a := fun i v46 v51 k0_hw2 k0_t7 => k0_hw2.2.2.2.1.2.2.2.2.2.2.2.2.2.2.2.2.2.2.1 k0_t7
theorem k0_off112_inb : ∀ (i : grid0.Coords) (v46 : BitVec 32) (v51 : BitVec 32) (k0_hw2 : k0_chk2 i v46 v51) (k0_t7 : Fin (k0_t7_loop v46 v51).trips), ∀ a, (k0_off112 v46 v51 k0_t7) a + S1x16.size a ≤ S144x256.size a := fun i v46 v51 k0_hw2 k0_t7 => k0_hw2.2.2.2.1.2.2.2.2.2.2.2.2.2.2.2.2.2.2.2.1 k0_t7
theorem k0_off113_inb : ∀ (i : grid0.Coords) (v46 : BitVec 32) (v51 : BitVec 32) (k0_hw2 : k0_chk2 i v46 v51) (k0_t7 : Fin (k0_t7_loop v46 v51).trips), ∀ a, (k0_off113 v46 v51 k0_t7) a + S1x16.size a ≤ S144x256.size a := fun i v46 v51 k0_hw2 k0_t7 => k0_hw2.2.2.2.1.2.2.2.2.2.2.2.2.2.2.2.2.2.2.2.2.1 k0_t7
theorem k0_off114_inb : ∀ (i : grid0.Coords) (v46 : BitVec 32) (v51 : BitVec 32) (k0_hw2 : k0_chk2 i v46 v51) (k0_t7 : Fin (k0_t7_loop v46 v51).trips), ∀ a, (k0_off114 v46 v51 k0_t7) a + S1x16.size a ≤ S144x256.size a := fun i v46 v51 k0_hw2 k0_t7 => k0_hw2.2.2.2.1.2.2.2.2.2.2.2.2.2.2.2.2.2.2.2.2.2.1 k0_t7
theorem k0_off115_inb : ∀ (i : grid0.Coords) (v46 : BitVec 32) (v51 : BitVec 32) (k0_hw2 : k0_chk2 i v46 v51) (k0_t7 : Fin (k0_t7_loop v46 v51).trips), ∀ a, (k0_off115 v46 v51 k0_t7) a + S1x16.size a ≤ S144x256.size a := fun i v46 v51 k0_hw2 k0_t7 => k0_hw2.2.2.2.1.2.2.2.2.2.2.2.2.2.2.2.2.2.2.2.2.2.2.1 k0_t7
theorem k0_off116_inb : ∀ (i : grid0.Coords) (v46 : BitVec 32) (v51 : BitVec 32) (k0_hw2 : k0_chk2 i v46 v51) (k0_t7 : Fin (k0_t7_loop v46 v51).trips), ∀ a, (k0_off116 v46 v51 k0_t7) a + S1x16.size a ≤ S144x256.size a := fun i v46 v51 k0_hw2 k0_t7 => k0_hw2.2.2.2.1.2.2.2.2.2.2.2.2.2.2.2.2.2.2.2.2.2.2.2.1 k0_t7
theorem k0_off117_inb : ∀ (i : grid0.Coords) (v46 : BitVec 32) (v51 : BitVec 32) (k0_hw2 : k0_chk2 i v46 v51) (k0_t7 : Fin (k0_t7_loop v46 v51).trips), ∀ a, (k0_off117 v46 v51 k0_t7) a + S1x16.size a ≤ S144x256.size a := fun i v46 v51 k0_hw2 k0_t7 => k0_hw2.2.2.2.1.2.2.2.2.2.2.2.2.2.2.2.2.2.2.2.2.2.2.2.2.1 k0_t7
theorem k0_off118_inb : ∀ (i : grid0.Coords) (v46 : BitVec 32) (v51 : BitVec 32) (k0_hw2 : k0_chk2 i v46 v51) (k0_t7 : Fin (k0_t7_loop v46 v51).trips), ∀ a, (k0_off118 v46 v51 k0_t7) a + S1x16.size a ≤ S144x256.size a := fun i v46 v51 k0_hw2 k0_t7 => k0_hw2.2.2.2.1.2.2.2.2.2.2.2.2.2.2.2.2.2.2.2.2.2.2.2.2.2.1 k0_t7
theorem k0_off119_inb : ∀ (i : grid0.Coords) (v46 : BitVec 32) (v51 : BitVec 32) (k0_hw2 : k0_chk2 i v46 v51) (k0_t7 : Fin (k0_t7_loop v46 v51).trips), ∀ a, (k0_off119 v46 v51 k0_t7) a + S1x16.size a ≤ S144x256.size a := fun i v46 v51 k0_hw2 k0_t7 => k0_hw2.2.2.2.1.2.2.2.2.2.2.2.2.2.2.2.2.2.2.2.2.2.2.2.2.2.2.1 k0_t7
theorem k0_off120_inb : ∀ (i : grid0.Coords) (v46 : BitVec 32) (v51 : BitVec 32) (k0_hw2 : k0_chk2 i v46 v51) (k0_t7 : Fin (k0_t7_loop v46 v51).trips), ∀ a, (k0_off120 v46 v51 k0_t7) a + S1x16.size a ≤ S144x256.size a := fun i v46 v51 k0_hw2 k0_t7 => k0_hw2.2.2.2.1.2.2.2.2.2.2.2.2.2.2.2.2.2.2.2.2.2.2.2.2.2.2.2.1 k0_t7
theorem k0_off121_inb : ∀ (i : grid0.Coords) (v46 : BitVec 32) (v51 : BitVec 32) (k0_hw2 : k0_chk2 i v46 v51) (k0_t7 : Fin (k0_t7_loop v46 v51).trips), ∀ a, (k0_off121 v46 v51 k0_t7) a + S1x16.size a ≤ S144x256.size a := fun i v46 v51 k0_hw2 k0_t7 => k0_hw2.2.2.2.1.2.2.2.2.2.2.2.2.2.2.2.2.2.2.2.2.2.2.2.2.2.2.2.2.1 k0_t7
theorem k0_off122_inb : ∀ (i : grid0.Coords) (v46 : BitVec 32) (v51 : BitVec 32) (k0_hw2 : k0_chk2 i v46 v51) (k0_t7 : Fin (k0_t7_loop v46 v51).trips), ∀ a, (k0_off122 v46 v51 k0_t7) a + S1x16.size a ≤ S144x256.size a := fun i v46 v51 k0_hw2 k0_t7 => k0_hw2.2.2.2.1.2.2.2.2.2.2.2.2.2.2.2.2.2.2.2.2.2.2.2.2.2.2.2.2.2.1 k0_t7
theorem k0_off123_inb : ∀ (i : grid0.Coords) (v46 : BitVec 32) (v51 : BitVec 32) (k0_hw2 : k0_chk2 i v46 v51) (k0_t7 : Fin (k0_t7_loop v46 v51).trips), ∀ a, (k0_off123 v46 v51 k0_t7) a + S1x16.size a ≤ S144x256.size a := fun i v46 v51 k0_hw2 k0_t7 => k0_hw2.2.2.2.1.2.2.2.2.2.2.2.2.2.2.2.2.2.2.2.2.2.2.2.2.2.2.2.2.2.2.1 k0_t7
theorem k0_off124_inb : ∀ (i : grid0.Coords) (v46 : BitVec 32) (v51 : BitVec 32) (k0_hw2 : k0_chk2 i v46 v51) (k0_t7 : Fin (k0_t7_loop v46 v51).trips), ∀ a, (k0_off124 v46 v51 k0_t7) a + S1x16.size a ≤ S144x256.size a := fun i v46 v51 k0_hw2 k0_t7 => k0_hw2.2.2.2.1.2.2.2.2.2.2.2.2.2.2.2.2.2.2.2.2.2.2.2.2.2.2.2.2.2.2.2.1 k0_t7
theorem k0_off125_inb : ∀ (i : grid0.Coords) (v46 : BitVec 32) (v51 : BitVec 32) (k0_hw2 : k0_chk2 i v46 v51) (k0_t7 : Fin (k0_t7_loop v46 v51).trips), ∀ a, (k0_off125 v46 v51 k0_t7) a + S1x16.size a ≤ S144x256.size a := fun i v46 v51 k0_hw2 k0_t7 => k0_hw2.2.2.2.1.2.2.2.2.2.2.2.2.2.2.2.2.2.2.2.2.2.2.2.2.2.2.2.2.2.2.2.2.1 k0_t7
theorem k0_off126_inb : ∀ (i : grid0.Coords) (v46 : BitVec 32) (v51 : BitVec 32) (k0_hw2 : k0_chk2 i v46 v51) (k0_t7 : Fin (k0_t7_loop v46 v51).trips), ∀ a, (k0_off126 v46 v51 k0_t7) a + S1x16.size a ≤ S144x256.size a := fun i v46 v51 k0_hw2 k0_t7 => k0_hw2.2.2.2.1.2.2.2.2.2.2.2.2.2.2.2.2.2.2.2.2.2.2.2.2.2.2.2.2.2.2.2.2.2.1 k0_t7
theorem k0_off127_inb : ∀ (i : grid0.Coords) (v46 : BitVec 32) (v51 : BitVec 32) (k0_hw2 : k0_chk2 i v46 v51) (k0_t7 : Fin (k0_t7_loop v46 v51).trips), ∀ a, (k0_off127 v46 v51 k0_t7) a + S1x16.size a ≤ S144x256.size a := fun i v46 v51 k0_hw2 k0_t7 => k0_hw2.2.2.2.1.2.2.2.2.2.2.2.2.2.2.2.2.2.2.2.2.2.2.2.2.2.2.2.2.2.2.2.2.2.2.1 k0_t7
theorem k0_off128_inb : ∀ (i : grid0.Coords) (v46 : BitVec 32) (v51 : BitVec 32) (k0_hw2 : k0_chk2 i v46 v51) (k0_t7 : Fin (k0_t7_loop v46 v51).trips), ∀ a, (k0_off128 v46 v51 k0_t7) a + S1x16.size a ≤ S144x256.size a := fun i v46 v51 k0_hw2 k0_t7 => k0_hw2.2.2.2.1.2.2.2.2.2.2.2.2.2.2.2.2.2.2.2.2.2.2.2.2.2.2.2.2.2.2.2.2.2.2.2 k0_t7
theorem k0_off129_inb : ∀ (i : grid0.Coords) (v46 : BitVec 32) (v51 : BitVec 32) (k0_hw2 : k0_chk2 i v46 v51) (k0_t7 : Fin (k0_t7_loop v46 v51).trips), ∀ a, (k0_off129 v46 v51 k0_t7) a + S1x16.size a ≤ S144x256.size a := fun i v46 v51 k0_hw2 k0_t7 => k0_hw2.2.2.2.2.1.1 k0_t7
theorem k0_off130_inb : ∀ (i : grid0.Coords) (v46 : BitVec 32) (v51 : BitVec 32) (k0_hw2 : k0_chk2 i v46 v51) (k0_t7 : Fin (k0_t7_loop v46 v51).trips), ∀ a, (k0_off130 v46 v51 k0_t7) a + S1x16.size a ≤ S144x256.size a := fun i v46 v51 k0_hw2 k0_t7 => k0_hw2.2.2.2.2.1.2.1 k0_t7
theorem k0_off131_inb : ∀ (i : grid0.Coords) (v46 : BitVec 32) (v51 : BitVec 32) (k0_hw2 : k0_chk2 i v46 v51) (k0_t7 : Fin (k0_t7_loop v46 v51).trips), ∀ a, (k0_off131 v46 v51 k0_t7) a + S1x16.size a ≤ S144x256.size a := fun i v46 v51 k0_hw2 k0_t7 => k0_hw2.2.2.2.2.1.2.2.1 k0_t7
theorem k0_off132_inb : ∀ (i : grid0.Coords) (v46 : BitVec 32) (v51 : BitVec 32) (k0_hw2 : k0_chk2 i v46 v51) (k0_t7 : Fin (k0_t7_loop v46 v51).trips), ∀ a, (k0_off132 v46 v51 k0_t7) a + S1x16.size a ≤ S144x256.size a := fun i v46 v51 k0_hw2 k0_t7 => k0_hw2.2.2.2.2.1.2.2.2.1 k0_t7
theorem k0_off133_inb : ∀ (i : grid0.Coords) (v46 : BitVec 32) (v51 : BitVec 32) (k0_hw2 : k0_chk2 i v46 v51) (k0_t7 : Fin (k0_t7_loop v46 v51).trips), ∀ a, (k0_off133 v46 v51 k0_t7) a + S1x16.size a ≤ S144x256.size a := fun i v46 v51 k0_hw2 k0_t7 => k0_hw2.2.2.2.2.1.2.2.2.2.1 k0_t7
theorem k0_off134_inb : ∀ (i : grid0.Coords) (v46 : BitVec 32) (v51 : BitVec 32) (k0_hw2 : k0_chk2 i v46 v51) (k0_t7 : Fin (k0_t7_loop v46 v51).trips), ∀ a, (k0_off134 v46 v51 k0_t7) a + S1x16.size a ≤ S144x256.size a := fun i v46 v51 k0_hw2 k0_t7 => k0_hw2.2.2.2.2.1.2.2.2.2.2.1 k0_t7
theorem k0_off135_inb : ∀ (i : grid0.Coords) (v46 : BitVec 32) (v51 : BitVec 32) (k0_hw2 : k0_chk2 i v46 v51) (k0_t7 : Fin (k0_t7_loop v46 v51).trips), ∀ a, (k0_off135 v46 v51 k0_t7) a + S1x16.size a ≤ S144x256.size a := fun i v46 v51 k0_hw2 k0_t7 => k0_hw2.2.2.2.2.1.2.2.2.2.2.2.1 k0_t7
theorem k0_t8_ok : ∀ (i : grid0.Coords) (v46 : BitVec 32) (v51 : BitVec 32) (k0_hw2 : k0_chk2 i v46 v51), (k0_t8_loop v46 v51).OK := fun i v46 v51 k0_hw2 => k0_hw2.2.2.2.2.1.2.2.2.2.2.2.2.1
theorem k0_off136_inb : ∀ (i : grid0.Coords) (v46 : BitVec 32) (v51 : BitVec 32) (k0_hw2 : k0_chk2 i v46 v51) (k0_t8 : Fin (k0_t8_loop v46 v51).trips), ∀ a, (k0_off136 v46 v51 k0_t8) a + S1x16.size a ≤ S144x256.size a := fun i v46 v51 k0_hw2 k0_t8 => k0_hw2.2.2.2.2.1.2.2.2.2.2.2.2.2.1 k0_t8
theorem k0_off137_inb : ∀ (i : grid0.Coords) (v46 : BitVec 32) (v51 : BitVec 32) (k0_hw2 : k0_chk2 i v46 v51) (k0_t8 : Fin (k0_t8_loop v46 v51).trips), ∀ a, (k0_off137 v46 v51 k0_t8) a + S1x16.size a ≤ S144x256.size a := fun i v46 v51 k0_hw2 k0_t8 => k0_hw2.2.2.2.2.1.2.2.2.2.2.2.2.2.2.1 k0_t8
theorem k0_off138_inb : ∀ (i : grid0.Coords) (v46 : BitVec 32) (v51 : BitVec 32) (k0_hw2 : k0_chk2 i v46 v51) (k0_t8 : Fin (k0_t8_loop v46 v51).trips), ∀ a, (k0_off138 v46 v51 k0_t8) a + S1x16.size a ≤ S144x256.size a := fun i v46 v51 k0_hw2 k0_t8 => k0_hw2.2.2.2.2.1.2.2.2.2.2.2.2.2.2.2.1 k0_t8
theorem k0_off139_inb : ∀ (i : grid0.Coords) (v46 : BitVec 32) (v51 : BitVec 32) (k0_hw2 : k0_chk2 i v46 v51) (k0_t8 : Fin (k0_t8_loop v46 v51).trips), ∀ a, (k0_off139 v46 v51 k0_t8) a + S1x16.size a ≤ S144x256.size a := fun i v46 v51 k0_hw2 k0_t8 => k0_hw2.2.2.2.2.1.2.2.2.2.2.2.2.2.2.2.2.1 k0_t8
theorem k0_off140_inb : ∀ (i : grid0.Coords) (v46 : BitVec 32) (v51 : BitVec 32) (k0_hw2 : k0_chk2 i v46 v51) (k0_t8 : Fin (k0_t8_loop v46 v51).trips), ∀ a, (k0_off140 v46 v51 k0_t8) a + S1x16.size a ≤ S144x256.size a := fun i v46 v51 k0_hw2 k0_t8 => k0_hw2.2.2.2.2.1.2.2.2.2.2.2.2.2.2.2.2.2.1 k0_t8
theorem k0_off141_inb : ∀ (i : grid0.Coords) (v46 : BitVec 32) (v51 : BitVec 32) (k0_hw2 : k0_chk2 i v46 v51) (k0_t8 : Fin (k0_t8_loop v46 v51).trips), ∀ a, (k0_off141 v46 v51 k0_t8) a + S1x16.size a ≤ S144x256.size a := fun i v46 v51 k0_hw2 k0_t8 => k0_hw2.2.2.2.2.1.2.2.2.2.2.2.2.2.2.2.2.2.2.1 k0_t8
theorem k0_off142_inb : ∀ (i : grid0.Coords) (v46 : BitVec 32) (v51 : BitVec 32) (k0_hw2 : k0_chk2 i v46 v51) (k0_t8 : Fin (k0_t8_loop v46 v51).trips), ∀ a, (k0_off142 v46 v51 k0_t8) a + S1x16.size a ≤ S144x256.size a := fun i v46 v51 k0_hw2 k0_t8 => k0_hw2.2.2.2.2.1.2.2.2.2.2.2.2.2.2.2.2.2.2.2.1 k0_t8
theorem k0_off143_inb : ∀ (i : grid0.Coords) (v46 : BitVec 32) (v51 : BitVec 32) (k0_hw2 : k0_chk2 i v46 v51) (k0_t8 : Fin (k0_t8_loop v46 v51).trips), ∀ a, (k0_off143 v46 v51 k0_t8) a + S1x16.size a ≤ S144x256.size a := fun i v46 v51 k0_hw2 k0_t8 => k0_hw2.2.2.2.2.1.2.2.2.2.2.2.2.2.2.2.2.2.2.2.2.1 k0_t8
theorem k0_off144_inb : ∀ (i : grid0.Coords) (v46 : BitVec 32) (v51 : BitVec 32) (k0_hw2 : k0_chk2 i v46 v51) (k0_t8 : Fin (k0_t8_loop v46 v51).trips), ∀ a, (k0_off144 v46 v51 k0_t8) a + S1x16.size a ≤ S144x256.size a := fun i v46 v51 k0_hw2 k0_t8 => k0_hw2.2.2.2.2.1.2.2.2.2.2.2.2.2.2.2.2.2.2.2.2.2.1 k0_t8
theorem k0_off145_inb : ∀ (i : grid0.Coords) (v46 : BitVec 32) (v51 : BitVec 32) (k0_hw2 : k0_chk2 i v46 v51) (k0_t8 : Fin (k0_t8_loop v46 v51).trips), ∀ a, (k0_off145 v46 v51 k0_t8) a + S1x16.size a ≤ S144x256.size a := fun i v46 v51 k0_hw2 k0_t8 => k0_hw2.2.2.2.2.1.2.2.2.2.2.2.2.2.2.2.2.2.2.2.2.2.2.1 k0_t8
theorem k0_off146_inb : ∀ (i : grid0.Coords) (v46 : BitVec 32) (v51 : BitVec 32) (k0_hw2 : k0_chk2 i v46 v51) (k0_t8 : Fin (k0_t8_loop v46 v51).trips), ∀ a, (k0_off146 v46 v51 k0_t8) a + S1x16.size a ≤ S144x256.size a := fun i v46 v51 k0_hw2 k0_t8 => k0_hw2.2.2.2.2.1.2.2.2.2.2.2.2.2.2.2.2.2.2.2.2.2.2.2.1 k0_t8
theorem k0_off147_inb : ∀ (i : grid0.Coords) (v46 : BitVec 32) (v51 : BitVec 32) (k0_hw2 : k0_chk2 i v46 v51) (k0_t8 : Fin (k0_t8_loop v46 v51).trips), ∀ a, (k0_off147 v46 v51 k0_t8) a + S1x16.size a ≤ S144x256.size a := fun i v46 v51 k0_hw2 k0_t8 => k0_hw2.2.2.2.2.1.2.2.2.2.2.2.2.2.2.2.2.2.2.2.2.2.2.2.2.1 k0_t8
theorem k0_off148_inb : ∀ (i : grid0.Coords) (v46 : BitVec 32) (v51 : BitVec 32) (k0_hw2 : k0_chk2 i v46 v51) (k0_t8 : Fin (k0_t8_loop v46 v51).trips), ∀ a, (k0_off148 v46 v51 k0_t8) a + S1x16.size a ≤ S144x256.size a := fun i v46 v51 k0_hw2 k0_t8 => k0_hw2.2.2.2.2.1.2.2.2.2.2.2.2.2.2.2.2.2.2.2.2.2.2.2.2.2.1 k0_t8
theorem k0_off149_inb : ∀ (i : grid0.Coords) (v46 : BitVec 32) (v51 : BitVec 32) (k0_hw2 : k0_chk2 i v46 v51) (k0_t8 : Fin (k0_t8_loop v46 v51).trips), ∀ a, (k0_off149 v46 v51 k0_t8) a + S1x16.size a ≤ S144x256.size a := fun i v46 v51 k0_hw2 k0_t8 => k0_hw2.2.2.2.2.1.2.2.2.2.2.2.2.2.2.2.2.2.2.2.2.2.2.2.2.2.2.1 k0_t8
theorem k0_off150_inb : ∀ (i : grid0.Coords) (v46 : BitVec 32) (v51 : BitVec 32) (k0_hw2 : k0_chk2 i v46 v51) (k0_t8 : Fin (k0_t8_loop v46 v51).trips), ∀ a, (k0_off150 v46 v51 k0_t8) a + S1x16.size a ≤ S144x256.size a := fun i v46 v51 k0_hw2 k0_t8 => k0_hw2.2.2.2.2.1.2.2.2.2.2.2.2.2.2.2.2.2.2.2.2.2.2.2.2.2.2.2.1 k0_t8
theorem k0_off151_inb : ∀ (i : grid0.Coords) (v46 : BitVec 32) (v51 : BitVec 32) (k0_hw2 : k0_chk2 i v46 v51) (k0_t8 : Fin (k0_t8_loop v46 v51).trips), ∀ a, (k0_off151 v46 v51 k0_t8) a + S1x16.size a ≤ S144x256.size a := fun i v46 v51 k0_hw2 k0_t8 => k0_hw2.2.2.2.2.1.2.2.2.2.2.2.2.2.2.2.2.2.2.2.2.2.2.2.2.2.2.2.2.1 k0_t8
theorem k0_off152_inb : ∀ (i : grid0.Coords) (v46 : BitVec 32) (v51 : BitVec 32) (k0_hw2 : k0_chk2 i v46 v51) (k0_t8 : Fin (k0_t8_loop v46 v51).trips), ∀ a, (k0_off152 v46 v51 k0_t8) a + S1x16.size a ≤ S144x256.size a := fun i v46 v51 k0_hw2 k0_t8 => k0_hw2.2.2.2.2.1.2.2.2.2.2.2.2.2.2.2.2.2.2.2.2.2.2.2.2.2.2.2.2.2.1 k0_t8
theorem k0_off153_inb : ∀ (i : grid0.Coords) (v46 : BitVec 32) (v51 : BitVec 32) (k0_hw2 : k0_chk2 i v46 v51) (k0_t8 : Fin (k0_t8_loop v46 v51).trips), ∀ a, (k0_off153 v46 v51 k0_t8) a + S1x16.size a ≤ S144x256.size a := fun i v46 v51 k0_hw2 k0_t8 => k0_hw2.2.2.2.2.1.2.2.2.2.2.2.2.2.2.2.2.2.2.2.2.2.2.2.2.2.2.2.2.2.2.1 k0_t8
theorem k0_off154_inb : ∀ (i : grid0.Coords) (v46 : BitVec 32) (v51 : BitVec 32) (k0_hw2 : k0_chk2 i v46 v51) (k0_t8 : Fin (k0_t8_loop v46 v51).trips), ∀ a, (k0_off154 v46 v51 k0_t8) a + S1x16.size a ≤ S144x256.size a := fun i v46 v51 k0_hw2 k0_t8 => k0_hw2.2.2.2.2.1.2.2.2.2.2.2.2.2.2.2.2.2.2.2.2.2.2.2.2.2.2.2.2.2.2.2.1 k0_t8
theorem k0_off155_inb : ∀ (i : grid0.Coords) (v46 : BitVec 32) (v51 : BitVec 32) (k0_hw2 : k0_chk2 i v46 v51) (k0_t8 : Fin (k0_t8_loop v46 v51).trips), ∀ a, (k0_off155 v46 v51 k0_t8) a + S1x16.size a ≤ S144x256.size a := fun i v46 v51 k0_hw2 k0_t8 => k0_hw2.2.2.2.2.1.2.2.2.2.2.2.2.2.2.2.2.2.2.2.2.2.2.2.2.2.2.2.2.2.2.2.2.1 k0_t8
theorem k0_off156_inb : ∀ (i : grid0.Coords) (v46 : BitVec 32) (v51 : BitVec 32) (k0_hw2 : k0_chk2 i v46 v51) (k0_t8 : Fin (k0_t8_loop v46 v51).trips), ∀ a, (k0_off156 v46 v51 k0_t8) a + S1x16.size a ≤ S144x256.size a := fun i v46 v51 k0_hw2 k0_t8 => k0_hw2.2.2.2.2.1.2.2.2.2.2.2.2.2.2.2.2.2.2.2.2.2.2.2.2.2.2.2.2.2.2.2.2.2.1 k0_t8
theorem k0_off157_inb : ∀ (i : grid0.Coords) (v46 : BitVec 32) (v51 : BitVec 32) (k0_hw2 : k0_chk2 i v46 v51) (k0_t8 : Fin (k0_t8_loop v46 v51).trips), ∀ a, (k0_off157 v46 v51 k0_t8) a + S1x16.size a ≤ S144x256.size a := fun i v46 v51 k0_hw2 k0_t8 => k0_hw2.2.2.2.2.1.2.2.2.2.2.2.2.2.2.2.2.2.2.2.2.2.2.2.2.2.2.2.2.2.2.2.2.2.2.1 k0_t8
theorem k0_off158_inb : ∀ (i : grid0.Coords) (v46 : BitVec 32) (v51 : BitVec 32) (k0_hw2 : k0_chk2 i v46 v51) (k0_t8 : Fin (k0_t8_loop v46 v51).trips), ∀ a, (k0_off158 v46 v51 k0_t8) a + S1x16.size a ≤ S144x256.size a := fun i v46 v51 k0_hw2 k0_t8 => k0_hw2.2.2.2.2.1.2.2.2.2.2.2.2.2.2.2.2.2.2.2.2.2.2.2.2.2.2.2.2.2.2.2.2.2.2.2.1 k0_t8
theorem k0_off159_inb : ∀ (i : grid0.Coords) (v46 : BitVec 32) (v51 : BitVec 32) (k0_hw2 : k0_chk2 i v46 v51) (k0_t8 : Fin (k0_t8_loop v46 v51).trips), ∀ a, (k0_off159 v46 v51 k0_t8) a + S1x16.size a ≤ S144x256.size a := fun i v46 v51 k0_hw2 k0_t8 => k0_hw2.2.2.2.2.1.2.2.2.2.2.2.2.2.2.2.2.2.2.2.2.2.2.2.2.2.2.2.2.2.2.2.2.2.2.2.2 k0_t8
theorem k0_off160_inb : ∀ (i : grid0.Coords) (v46 : BitVec 32) (v51 : BitVec 32) (k0_hw2 : k0_chk2 i v46 v51) (k0_t8 : Fin (k0_t8_loop v46 v51).trips), ∀ a, (k0_off160 v46 v51 k0_t8) a + S1x16.size a ≤ S144x256.size a := fun i v46 v51 k0_hw2 k0_t8 => k0_hw2.2.2.2.2.2.1.1 k0_t8
theorem k0_off161_inb : ∀ (i : grid0.Coords) (v46 : BitVec 32) (v51 : BitVec 32) (k0_hw2 : k0_chk2 i v46 v51) (k0_t8 : Fin (k0_t8_loop v46 v51).trips), ∀ a, (k0_off161 v46 v51 k0_t8) a + S1x16.size a ≤ S144x256.size a := fun i v46 v51 k0_hw2 k0_t8 => k0_hw2.2.2.2.2.2.1.2.1 k0_t8
theorem k0_off162_inb : ∀ (i : grid0.Coords) (v46 : BitVec 32) (v51 : BitVec 32) (k0_hw2 : k0_chk2 i v46 v51) (k0_t8 : Fin (k0_t8_loop v46 v51).trips), ∀ a, (k0_off162 v46 v51 k0_t8) a + S1x16.size a ≤ S144x256.size a := fun i v46 v51 k0_hw2 k0_t8 => k0_hw2.2.2.2.2.2.1.2.2.1 k0_t8
theorem k0_off163_inb : ∀ (i : grid0.Coords) (v46 : BitVec 32) (v51 : BitVec 32) (k0_hw2 : k0_chk2 i v46 v51) (k0_t8 : Fin (k0_t8_loop v46 v51).trips), ∀ a, (k0_off163 v46 v51 k0_t8) a + S1x16.size a ≤ S144x256.size a := fun i v46 v51 k0_hw2 k0_t8 => k0_hw2.2.2.2.2.2.1.2.2.2.1 k0_t8
theorem k0_off164_inb : ∀ (i : grid0.Coords) (v46 : BitVec 32) (v51 : BitVec 32) (k0_hw2 : k0_chk2 i v46 v51) (k0_t8 : Fin (k0_t8_loop v46 v51).trips), ∀ a, (k0_off164 v46 v51 k0_t8) a + S1x16.size a ≤ S144x256.size a := fun i v46 v51 k0_hw2 k0_t8 => k0_hw2.2.2.2.2.2.1.2.2.2.2.1 k0_t8
theorem k0_off165_inb : ∀ (i : grid0.Coords) (v46 : BitVec 32) (v51 : BitVec 32) (k0_hw2 : k0_chk2 i v46 v51) (k0_t8 : Fin (k0_t8_loop v46 v51).trips), ∀ a, (k0_off165 v46 v51 k0_t8) a + S1x16.size a ≤ S144x256.size a := fun i v46 v51 k0_hw2 k0_t8 => k0_hw2.2.2.2.2.2.1.2.2.2.2.2.1 k0_t8
theorem k0_off166_inb : ∀ (i : grid0.Coords) (v46 : BitVec 32) (v51 : BitVec 32) (k0_hw2 : k0_chk2 i v46 v51) (k0_t8 : Fin (k0_t8_loop v46 v51).trips), ∀ a, (k0_off166 v46 v51 k0_t8) a + S1x16.size a ≤ S144x256.size a := fun i v46 v51 k0_hw2 k0_t8 => k0_hw2.2.2.2.2.2.1.2.2.2.2.2.2.1 k0_t8
theorem k0_off167_inb : ∀ (i : grid0.Coords) (v46 : BitVec 32) (v51 : BitVec 32) (k0_hw2 : k0_chk2 i v46 v51) (k0_t8 : Fin (k0_t8_loop v46 v51).trips), ∀ a, (k0_off167 v46 v51 k0_t8) a + S1x16.size a ≤ S144x256.size a := fun i v46 v51 k0_hw2 k0_t8 => k0_hw2.2.2.2.2.2.1.2.2.2.2.2.2.2.1 k0_t8
theorem k0_t9_ok : ∀ (i : grid0.Coords) (v46 : BitVec 32) (v51 : BitVec 32) (k0_hw2 : k0_chk2 i v46 v51), (k0_t9_loop v46 v51).OK := fun i v46 v51 k0_hw2 => k0_hw2.2.2.2.2.2.1.2.2.2.2.2.2.2.2.1
theorem k0_off168_inb : ∀ (i : grid0.Coords) (v46 : BitVec 32) (v51 : BitVec 32) (k0_hw2 : k0_chk2 i v46 v51) (k0_t9 : Fin (k0_t9_loop v46 v51).trips), ∀ a, (k0_off168 v46 v51 k0_t9) a + S1x16.size a ≤ S144x256.size a := fun i v46 v51 k0_hw2 k0_t9 => k0_hw2.2.2.2.2.2.1.2.2.2.2.2.2.2.2.2.1 k0_t9
theorem k0_off169_inb : ∀ (i : grid0.Coords) (v46 : BitVec 32) (v51 : BitVec 32) (k0_hw2 : k0_chk2 i v46 v51) (k0_t9 : Fin (k0_t9_loop v46 v51).trips), ∀ a, (k0_off169 v46 v51 k0_t9) a + S1x16.size a ≤ S144x256.size a := fun i v46 v51 k0_hw2 k0_t9 => k0_hw2.2.2.2.2.2.1.2.2.2.2.2.2.2.2.2.2.1 k0_t9
theorem k0_off170_inb : ∀ (i : grid0.Coords) (v46 : BitVec 32) (v51 : BitVec 32) (k0_hw2 : k0_chk2 i v46 v51) (k0_t9 : Fin (k0_t9_loop v46 v51).trips), ∀ a, (k0_off170 v46 v51 k0_t9) a + S1x16.size a ≤ S144x256.size a := fun i v46 v51 k0_hw2 k0_t9 => k0_hw2.2.2.2.2.2.1.2.2.2.2.2.2.2.2.2.2.2.1 k0_t9
theorem k0_off171_inb : ∀ (i : grid0.Coords) (v46 : BitVec 32) (v51 : BitVec 32) (k0_hw2 : k0_chk2 i v46 v51) (k0_t9 : Fin (k0_t9_loop v46 v51).trips), ∀ a, (k0_off171 v46 v51 k0_t9) a + S1x16.size a ≤ S144x256.size a := fun i v46 v51 k0_hw2 k0_t9 => k0_hw2.2.2.2.2.2.1.2.2.2.2.2.2.2.2.2.2.2.2.1 k0_t9
theorem k0_off172_inb : ∀ (i : grid0.Coords) (v46 : BitVec 32) (v51 : BitVec 32) (k0_hw2 : k0_chk2 i v46 v51) (k0_t9 : Fin (k0_t9_loop v46 v51).trips), ∀ a, (k0_off172 v46 v51 k0_t9) a + S1x16.size a ≤ S144x256.size a := fun i v46 v51 k0_hw2 k0_t9 => k0_hw2.2.2.2.2.2.1.2.2.2.2.2.2.2.2.2.2.2.2.2.1 k0_t9
theorem k0_off173_inb : ∀ (i : grid0.Coords) (v46 : BitVec 32) (v51 : BitVec 32) (k0_hw2 : k0_chk2 i v46 v51) (k0_t9 : Fin (k0_t9_loop v46 v51).trips), ∀ a, (k0_off173 v46 v51 k0_t9) a + S1x16.size a ≤ S144x256.size a := fun i v46 v51 k0_hw2 k0_t9 => k0_hw2.2.2.2.2.2.1.2.2.2.2.2.2.2.2.2.2.2.2.2.2.1 k0_t9
theorem k0_off174_inb : ∀ (i : grid0.Coords) (v46 : BitVec 32) (v51 : BitVec 32) (k0_hw2 : k0_chk2 i v46 v51) (k0_t9 : Fin (k0_t9_loop v46 v51).trips), ∀ a, (k0_off174 v46 v51 k0_t9) a + S1x16.size a ≤ S144x256.size a := fun i v46 v51 k0_hw2 k0_t9 => k0_hw2.2.2.2.2.2.1.2.2.2.2.2.2.2.2.2.2.2.2.2.2.2.1 k0_t9
theorem k0_off175_inb : ∀ (i : grid0.Coords) (v46 : BitVec 32) (v51 : BitVec 32) (k0_hw2 : k0_chk2 i v46 v51) (k0_t9 : Fin (k0_t9_loop v46 v51).trips), ∀ a, (k0_off175 v46 v51 k0_t9) a + S1x16.size a ≤ S144x256.size a := fun i v46 v51 k0_hw2 k0_t9 => k0_hw2.2.2.2.2.2.1.2.2.2.2.2.2.2.2.2.2.2.2.2.2.2.2.1 k0_t9
theorem k0_off176_inb : ∀ (i : grid0.Coords) (v46 : BitVec 32) (v51 : BitVec 32) (k0_hw2 : k0_chk2 i v46 v51) (k0_t9 : Fin (k0_t9_loop v46 v51).trips), ∀ a, (k0_off176 v46 v51 k0_t9) a + S1x16.size a ≤ S144x256.size a := fun i v46 v51 k0_hw2 k0_t9 => k0_hw2.2.2.2.2.2.1.2.2.2.2.2.2.2.2.2.2.2.2.2.2.2.2.2.1 k0_t9
theorem k0_off177_inb : ∀ (i : grid0.Coords) (v46 : BitVec 32) (v51 : BitVec 32) (k0_hw2 : k0_chk2 i v46 v51) (k0_t9 : Fin (k0_t9_loop v46 v51).trips), ∀ a, (k0_off177 v46 v51 k0_t9) a + S1x16.size a ≤ S144x256.size a := fun i v46 v51 k0_hw2 k0_t9 => k0_hw2.2.2.2.2.2.1.2.2.2.2.2.2.2.2.2.2.2.2.2.2.2.2.2.2.1 k0_t9
theorem k0_off178_inb : ∀ (i : grid0.Coords) (v46 : BitVec 32) (v51 : BitVec 32) (k0_hw2 : k0_chk2 i v46 v51) (k0_t9 : Fin (k0_t9_loop v46 v51).trips), ∀ a, (k0_off178 v46 v51 k0_t9) a + S1x16.size a ≤ S144x256.size a := fun i v46 v51 k0_hw2 k0_t9 => k0_hw2.2.2.2.2.2.1.2.2.2.2.2.2.2.2.2.2.2.2.2.2.2.2.2.2.2.1 k0_t9
theorem k0_off179_inb : ∀ (i : grid0.Coords) (v46 : BitVec 32) (v51 : BitVec 32) (k0_hw2 : k0_chk2 i v46 v51) (k0_t9 : Fin (k0_t9_loop v46 v51).trips), ∀ a, (k0_off179 v46 v51 k0_t9) a + S1x16.size a ≤ S144x256.size a := fun i v46 v51 k0_hw2 k0_t9 => k0_hw2.2.2.2.2.2.1.2.2.2.2.2.2.2.2.2.2.2.2.2.2.2.2.2.2.2.2.1 k0_t9
theorem k0_off180_inb : ∀ (i : grid0.Coords) (v46 : BitVec 32) (v51 : BitVec 32) (k0_hw2 : k0_chk2 i v46 v51) (k0_t9 : Fin (k0_t9_loop v46 v51).trips), ∀ a, (k0_off180 v46 v51 k0_t9) a + S1x16.size a ≤ S144x256.size a := fun i v46 v51 k0_hw2 k0_t9 => k0_hw2.2.2.2.2.2.1.2.2.2.2.2.2.2.2.2.2.2.2.2.2.2.2.2.2.2.2.2.1 k0_t9
theorem k0_off181_inb : ∀ (i : grid0.Coords) (v46 : BitVec 32) (v51 : BitVec 32) (k0_hw2 : k0_chk2 i v46 v51) (k0_t9 : Fin (k0_t9_loop v46 v51).trips), ∀ a, (k0_off181 v46 v51 k0_t9) a + S1x16.size a ≤ S144x256.size a := fun i v46 v51 k0_hw2 k0_t9 => k0_hw2.2.2.2.2.2.1.2.2.2.2.2.2.2.2.2.2.2.2.2.2.2.2.2.2.2.2.2.2.1 k0_t9
theorem k0_off182_inb : ∀ (i : grid0.Coords) (v46 : BitVec 32) (v51 : BitVec 32) (k0_hw2 : k0_chk2 i v46 v51) (k0_t9 : Fin (k0_t9_loop v46 v51).trips), ∀ a, (k0_off182 v46 v51 k0_t9) a + S1x16.size a ≤ S144x256.size a := fun i v46 v51 k0_hw2 k0_t9 => k0_hw2.2.2.2.2.2.1.2.2.2.2.2.2.2.2.2.2.2.2.2.2.2.2.2.2.2.2.2.2.2.1 k0_t9
theorem k0_off183_inb : ∀ (i : grid0.Coords) (v46 : BitVec 32) (v51 : BitVec 32) (k0_hw2 : k0_chk2 i v46 v51) (k0_t9 : Fin (k0_t9_loop v46 v51).trips), ∀ a, (k0_off183 v46 v51 k0_t9) a + S1x16.size a ≤ S144x256.size a := fun i v46 v51 k0_hw2 k0_t9 => k0_hw2.2.2.2.2.2.1.2.2.2.2.2.2.2.2.2.2.2.2.2.2.2.2.2.2.2.2.2.2.2.2.1 k0_t9
theorem k0_t10_ok : ∀ (i : grid0.Coords) (v46 : BitVec 32) (v51 : BitVec 32) (k0_hw2 : k0_chk2 i v46 v51), (k0_t10_loop v46 v51).OK := fun i v46 v51 k0_hw2 => k0_hw2.2.2.2.2.2.1.2.2.2.2.2.2.2.2.2.2.2.2.2.2.2.2.2.2.2.2.2.2.2.2.2.1
theorem k0_off184_inb : ∀ (i : grid0.Coords) (v46 : BitVec 32) (v51 : BitVec 32) (k0_hw2 : k0_chk2 i v46 v51) (k0_t10 : Fin (k0_t10_loop v46 v51).trips), ∀ a, (k0_off184 v46 v51 k0_t10) a + S1x16.size a ≤ S144x256.size a := fun i v46 v51 k0_hw2 k0_t10 => k0_hw2.2.2.2.2.2.1.2.2.2.2.2.2.2.2.2.2.2.2.2.2.2.2.2.2.2.2.2.2.2.2.2.2.1 k0_t10
theorem k0_off185_inb : ∀ (i : grid0.Coords) (v46 : BitVec 32) (v51 : BitVec 32) (k0_hw2 : k0_chk2 i v46 v51) (k0_t10 : Fin (k0_t10_loop v46 v51).trips), ∀ a, (k0_off185 v46 v51 k0_t10) a + S1x16.size a ≤ S144x256.size a := fun i v46 v51 k0_hw2 k0_t10 => k0_hw2.2.2.2.2.2.1.2.2.2.2.2.2.2.2.2.2.2.2.2.2.2.2.2.2.2.2.2.2.2.2.2.2.2.1 k0_t10
theorem k0_off186_inb : ∀ (i : grid0.Coords) (v46 : BitVec 32) (v51 : BitVec 32) (k0_hw2 : k0_chk2 i v46 v51) (k0_t10 : Fin (k0_t10_loop v46 v51).trips), ∀ a, (k0_off186 v46 v51 k0_t10) a + S1x16.size a ≤ S144x256.size a := fun i v46 v51 k0_hw2 k0_t10 => k0_hw2.2.2.2.2.2.1.2.2.2.2.2.2.2.2.2.2.2.2.2.2.2.2.2.2.2.2.2.2.2.2.2.2.2.2.1 k0_t10
theorem k0_off187_inb : ∀ (i : grid0.Coords) (v46 : BitVec 32) (v51 : BitVec 32) (k0_hw2 : k0_chk2 i v46 v51) (k0_t10 : Fin (k0_t10_loop v46 v51).trips), ∀ a, (k0_off187 v46 v51 k0_t10) a + S1x16.size a ≤ S144x256.size a := fun i v46 v51 k0_hw2 k0_t10 => k0_hw2.2.2.2.2.2.1.2.2.2.2.2.2.2.2.2.2.2.2.2.2.2.2.2.2.2.2.2.2.2.2.2.2.2.2.2.1 k0_t10
theorem k0_off188_inb : ∀ (i : grid0.Coords) (v46 : BitVec 32) (v51 : BitVec 32) (k0_hw2 : k0_chk2 i v46 v51) (k0_t10 : Fin (k0_t10_loop v46 v51).trips), ∀ a, (k0_off188 v46 v51 k0_t10) a + S1x16.size a ≤ S144x256.size a := fun i v46 v51 k0_hw2 k0_t10 => k0_hw2.2.2.2.2.2.1.2.2.2.2.2.2.2.2.2.2.2.2.2.2.2.2.2.2.2.2.2.2.2.2.2.2.2.2.2.2.1 k0_t10
theorem k0_off189_inb : ∀ (i : grid0.Coords) (v46 : BitVec 32) (v51 : BitVec 32) (k0_hw2 : k0_chk2 i v46 v51) (k0_t10 : Fin (k0_t10_loop v46 v51).trips), ∀ a, (k0_off189 v46 v51 k0_t10) a + S1x16.size a ≤ S144x256.size a := fun i v46 v51 k0_hw2 k0_t10 => k0_hw2.2.2.2.2.2.1.2.2.2.2.2.2.2.2.2.2.2.2.2.2.2.2.2.2.2.2.2.2.2.2.2.2.2.2.2.2.2 k0_t10
theorem k0_off190_inb : ∀ (i : grid0.Coords) (v46 : BitVec 32) (v51 : BitVec 32) (k0_hw2 : k0_chk2 i v46 v51) (k0_t10 : Fin (k0_t10_loop v46 v51).trips), ∀ a, (k0_off190 v46 v51 k0_t10) a + S1x16.size a ≤ S144x256.size a := fun i v46 v51 k0_hw2 k0_t10 => k0_hw2.2.2.2.2.2.2.1 k0_t10
theorem k0_off191_inb : ∀ (i : grid0.Coords) (v46 : BitVec 32) (v51 : BitVec 32) (k0_hw2 : k0_chk2 i v46 v51) (k0_t10 : Fin (k0_t10_loop v46 v51).trips), ∀ a, (k0_off191 v46 v51 k0_t10) a + S1x16.size a ≤ S144x256.size a := fun i v46 v51 k0_hw2 k0_t10 => k0_hw2.2.2.2.2.2.2.2.1 k0_t10
theorem k0_off192_inb : ∀ (i : grid0.Coords) (v46 : BitVec 32) (v51 : BitVec 32) (k0_hw2 : k0_chk2 i v46 v51) (k0_t10 : Fin (k0_t10_loop v46 v51).trips), ∀ a, (k0_off192 v46 v51 k0_t10) a + S1x16.size a ≤ S144x256.size a := fun i v46 v51 k0_hw2 k0_t10 => k0_hw2.2.2.2.2.2.2.2.2.1 k0_t10
theorem k0_off193_inb : ∀ (i : grid0.Coords) (v46 : BitVec 32) (v51 : BitVec 32) (k0_hw2 : k0_chk2 i v46 v51) (k0_t10 : Fin (k0_t10_loop v46 v51).trips), ∀ a, (k0_off193 v46 v51 k0_t10) a + S1x16.size a ≤ S144x256.size a := fun i v46 v51 k0_hw2 k0_t10 => k0_hw2.2.2.2.2.2.2.2.2.2.1 k0_t10
theorem k0_off194_inb : ∀ (i : grid0.Coords) (v46 : BitVec 32) (v51 : BitVec 32) (k0_hw2 : k0_chk2 i v46 v51) (k0_t10 : Fin (k0_t10_loop v46 v51).trips), ∀ a, (k0_off194 v46 v51 k0_t10) a + S1x16.size a ≤ S144x256.size a := fun i v46 v51 k0_hw2 k0_t10 => k0_hw2.2.2.2.2.2.2.2.2.2.2.1 k0_t10
theorem k0_off195_inb : ∀ (i : grid0.Coords) (v46 : BitVec 32) (v51 : BitVec 32) (k0_hw2 : k0_chk2 i v46 v51) (k0_t10 : Fin (k0_t10_loop v46 v51).trips), ∀ a, (k0_off195 v46 v51 k0_t10) a + S1x16.size a ≤ S144x256.size a := fun i v46 v51 k0_hw2 k0_t10 => k0_hw2.2.2.2.2.2.2.2.2.2.2.2.1 k0_t10
theorem k0_off196_inb : ∀ (i : grid0.Coords) (v46 : BitVec 32) (v51 : BitVec 32) (k0_hw2 : k0_chk2 i v46 v51) (k0_t10 : Fin (k0_t10_loop v46 v51).trips), ∀ a, (k0_off196 v46 v51 k0_t10) a + S1x16.size a ≤ S144x256.size a := fun i v46 v51 k0_hw2 k0_t10 => k0_hw2.2.2.2.2.2.2.2.2.2.2.2.2.1 k0_t10
theorem k0_off197_inb : ∀ (i : grid0.Coords) (v46 : BitVec 32) (v51 : BitVec 32) (k0_hw2 : k0_chk2 i v46 v51) (k0_t10 : Fin (k0_t10_loop v46 v51).trips), ∀ a, (k0_off197 v46 v51 k0_t10) a + S1x16.size a ≤ S144x256.size a := fun i v46 v51 k0_hw2 k0_t10 => k0_hw2.2.2.2.2.2.2.2.2.2.2.2.2.2.1 k0_t10
theorem k0_off198_inb : ∀ (i : grid0.Coords) (v46 : BitVec 32) (v51 : BitVec 32) (k0_hw2 : k0_chk2 i v46 v51) (k0_t10 : Fin (k0_t10_loop v46 v51).trips), ∀ a, (k0_off198 v46 v51 k0_t10) a + S1x16.size a ≤ S144x256.size a := fun i v46 v51 k0_hw2 k0_t10 => k0_hw2.2.2.2.2.2.2.2.2.2.2.2.2.2.2.1 k0_t10
theorem k0_off199_inb : ∀ (i : grid0.Coords) (v46 : BitVec 32) (v51 : BitVec 32) (k0_hw2 : k0_chk2 i v46 v51) (k0_t10 : Fin (k0_t10_loop v46 v51).trips), ∀ a, (k0_off199 v46 v51 k0_t10) a + S1x16.size a ≤ S144x256.size a := fun i v46 v51 k0_hw2 k0_t10 => k0_hw2.2.2.2.2.2.2.2.2.2.2.2.2.2.2.2 k0_t10

@[reducible] def k0_t11_loop : Scf.Loop 32 :=
  let c0_i32_105 : BitVec 32 := 0#32
  let c16_i32 : BitVec 32 := 16#32
  let v229 : BitVec 32 := Scalar.addi c0_i32_105 c16_i32
  let c1_i32_106 : BitVec 32 := 1#32
  ⟨c0_i32_105, v229, c1_i32_106⟩
def k0_off200 (k0_t11 : Fin k0_t11_loop.trips) : Fin 2 → Nat :=
  let c0_i32_112 : BitVec 32 := 0#32
  let v235 : Index := Scalar.indexCast c0_i32_112
  let c0_i32_105 : BitVec 32 := 0#32
  let c1_i32_106 : BitVec 32 := 1#32
  let arg12 : BitVec 32 := Scf.iv c0_i32_105 c1_i32_106 k0_t11
  let c16_i32_111 : BitVec 32 := 16#32
  let v234 : BitVec 32 := Scalar.muli arg12 c16_i32_111
  let v236 : Index := Scalar.indexCast v234
  ![0, v236.toNat]
def k0_off201 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v16.toNat, v29.toNat]
def k0_cond3 (i : grid0.Coords) : BitVec 1 :=
  let arg1 : BitVec 32 := BitVec.ofNat 32 (i 1).val
  let c0_i32_109 : BitVec 32 := 0#32
  let v231 : BitVec 1 := Scalar.cmpi .eq arg1 c0_i32_109
  let v232 : BitVec 32 := Scalar.extui v231
  let c0_i32_110 : BitVec 32 := 0#32
  let v233 : BitVec 1 := Scalar.cmpi .ne v232 c0_i32_110
  v233

def k0_mult2 (i : grid0.Coords) : BitVec 32 :=
  let arg0 : BitVec 32 := BitVec.ofNat 32 (i 0).val
  let c8_i32_111 : BitVec 32 := 8#32
  let v234 : BitVec 32 := Scalar.muli arg0 c8_i32_111
  v234
def k0_off202 (i : grid0.Coords) : Fin 3 → Nat :=
  let c0_i32_112 : BitVec 32 := 0#32
  let arg0 : BitVec 32 := BitVec.ofNat 32 (i 0).val
  let c8_i32_111 : BitVec 32 := 8#32
  let v234 : BitVec 32 := Scalar.muli arg0 c8_i32_111
  let v235 : BitVec 32 := v234
  let c0_i32_113_r2 : BitVec 32 := 0#32
  ![0, v235.toNat, 0]
abbrev grid1 : Pipeline.Grid := ⟨1, ![3], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .smem S1x1x16 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S4x16_S1x16_3_0 : ∀ a, (![3, 0] : Fin 2 → Nat) a + S1x16.size a ≤ S4x16.size a
  h_S1x16 : 0 < S1x16.numel
  shapeCasts_S1x16_S16 : S1x16.ShapeCasts S16
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  slices_S16_o0_S1 : S16.Slices ![0] S1
  inpos_S1_p0 : ∀ a, (![0] : Fin 1 → Nat) a < S1.size a
  inb_S144x256_S72x256_0_0 : ∀ a, (![0, 0] : Fin 2 → Nat) a + S72x256.size a ≤ S144x256.size a
  squeezes_S1x72x256_S72x256 : S1x72x256.Squeezes S72x256
  inb_S144x256_S72x256_72_0 : ∀ a, (![72, 0] : Fin 2 → Nat) a + S72x256.size a ≤ S144x256.size a
  inb_S1x256_S1x16_0_0 : ∀ a, (![0, 0] : Fin 2 → Nat) a + S1x16.size a ≤ S1x256.size a
  shapeCasts_S16_S1x16 : S16.ShapeCasts S1x16
  inb_S1x256_S1x16_0_16 : ∀ a, (![0, 16] : Fin 2 → Nat) a + S1x16.size a ≤ S1x256.size a
  inb_S1x256_S1x16_0_32 : ∀ a, (![0, 32] : Fin 2 → Nat) a + S1x16.size a ≤ S1x256.size a
  inb_S1x256_S1x16_0_48 : ∀ a, (![0, 48] : Fin 2 → Nat) a + S1x16.size a ≤ S1x256.size a
  inb_S1x256_S1x16_0_64 : ∀ a, (![0, 64] : Fin 2 → Nat) a + S1x16.size a ≤ S1x256.size a
  inb_S1x256_S1x16_0_80 : ∀ a, (![0, 80] : Fin 2 → Nat) a + S1x16.size a ≤ S1x256.size a
  inb_S1x256_S1x16_0_96 : ∀ a, (![0, 96] : Fin 2 → Nat) a + S1x16.size a ≤ S1x256.size a
  inb_S1x256_S1x16_0_112 : ∀ a, (![0, 112] : Fin 2 → Nat) a + S1x16.size a ≤ S1x256.size a
  inb_S1x256_S1x16_0_128 : ∀ a, (![0, 128] : Fin 2 → Nat) a + S1x16.size a ≤ S1x256.size a
  inb_S1x256_S1x16_0_144 : ∀ a, (![0, 144] : Fin 2 → Nat) a + S1x16.size a ≤ S1x256.size a
  inb_S1x256_S1x16_0_160 : ∀ a, (![0, 160] : Fin 2 → Nat) a + S1x16.size a ≤ S1x256.size a
  inb_S1x256_S1x16_0_176 : ∀ a, (![0, 176] : Fin 2 → Nat) a + S1x16.size a ≤ S1x256.size a
  inb_S1x256_S1x16_0_192 : ∀ a, (![0, 192] : Fin 2 → Nat) a + S1x16.size a ≤ S1x256.size a
  inb_S1x256_S1x16_0_208 : ∀ a, (![0, 208] : Fin 2 → Nat) a + S1x16.size a ≤ S1x256.size a
  inb_S1x256_S1x16_0_224 : ∀ a, (![0, 224] : Fin 2 → Nat) a + S1x16.size a ≤ S1x256.size a
  inb_S1x256_S1x16_0_240 : ∀ a, (![0, 240] : Fin 2 → Nat) a + S1x16.size a ≤ S1x256.size a
  squeezes_S1x8x512_S8x512 : S1x8x512.Squeezes S8x512
  shapeCasts_S4x16_S4x1x16 : S4x16.ShapeCasts S4x1x16
  iota_S1x2048_d1_w32 : S1x2048.Iotas .tc 32 [1]
  inb_S1x1x16_S1x1x1_0_0_0 : ∀ a, (![0, 0, 0] : Fin 3 → Nat) a + S1x1x1.size a ≤ S1x1x16.size a
  numel1_S1x1x1 : S1x1x1.numel = 1
  natLt_1_32 : 1 < 32
  inb_S1x1x16_S1x1x1_0_0_1 : ∀ a, (![0, 0, 1] : Fin 3 → Nat) a + S1x1x1.size a ≤ S1x1x16.size a
  inb_S1x1x16_S1x1x1_0_0_2 : ∀ a, (![0, 0, 2] : Fin 3 → Nat) a + S1x1x1.size a ≤ S1x1x16.size a
  inb_S1x1x16_S1x1x1_0_0_3 : ∀ a, (![0, 0, 3] : Fin 3 → Nat) a + S1x1x1.size a ≤ S1x1x16.size a
  inb_S1x1x16_S1x1x1_0_0_4 : ∀ a, (![0, 0, 4] : Fin 3 → Nat) a + S1x1x1.size a ≤ S1x1x16.size a
  inb_S1x1x16_S1x1x1_0_0_5 : ∀ a, (![0, 0, 5] : Fin 3 → Nat) a + S1x1x1.size a ≤ S1x1x16.size a
  inb_S1x1x16_S1x1x1_0_0_6 : ∀ a, (![0, 0, 6] : Fin 3 → Nat) a + S1x1x1.size a ≤ S1x1x16.size a
  inb_S1x1x16_S1x1x1_0_0_7 : ∀ a, (![0, 0, 7] : Fin 3 → Nat) a + S1x1x1.size a ≤ S1x1x16.size a
  inb_S1x1x16_S1x1x1_0_0_8 : ∀ a, (![0, 0, 8] : Fin 3 → Nat) a + S1x1x1.size a ≤ S1x1x16.size a
  inb_S1x1x16_S1x1x1_0_0_9 : ∀ a, (![0, 0, 9] : Fin 3 → Nat) a + S1x1x1.size a ≤ S1x1x16.size a
  inb_S1x1x16_S1x1x1_0_0_10 : ∀ a, (![0, 0, 10] : Fin 3 → Nat) a + S1x1x1.size a ≤ S1x1x16.size a
  inb_S1x1x16_S1x1x1_0_0_11 : ∀ a, (![0, 0, 11] : Fin 3 → Nat) a + S1x1x1.size a ≤ S1x1x16.size a
  inb_S1x1x16_S1x1x1_0_0_12 : ∀ a, (![0, 0, 12] : Fin 3 → Nat) a + S1x1x1.size a ≤ S1x1x16.size a
  inb_S1x1x16_S1x1x1_0_0_13 : ∀ a, (![0, 0, 13] : Fin 3 → Nat) a + S1x1x1.size a ≤ S1x1x16.size a
  inb_S1x1x16_S1x1x1_0_0_14 : ∀ a, (![0, 0, 14] : Fin 3 → Nat) a + S1x1x1.size a ≤ S1x1x16.size a
  inb_S1x1x16_S1x1x1_0_0_15 : ∀ a, (![0, 0, 15] : Fin 3 → Nat) a + S1x1x1.size a ≤ S1x1x16.size a
  concatenates_S1x2048_S1x2048_S1x2048_S1x2048_S1x2048_S1x2048_S1x2048_S1x2048_S1x2048_S1x2048_S1x2048_S1x2048_S1x2048_S1x2048_S1x2048_S1x2048_S16x2048_d0 : Shape.Concatenates [S1x2048, S1x2048, S1x2048, S1x2048, S1x2048, S1x2048, S1x2048, S1x2048, S1x2048, S1x2048, S1x2048, S1x2048, S1x2048, S1x2048, S1x2048, S1x2048] S16x2048 0
  concatenates_S1x1_S1x1_S1x1_S1x1_S1x1_S1x1_S1x1_S1x1_S1x1_S1x1_S1x1_S1x1_S1x1_S1x1_S1x1_S1x1_S16x1_d0 : Shape.Concatenates [S1x1, S1x1, S1x1, S1x1, S1x1, S1x1, S1x1, S1x1, S1x1, S1x1, S1x1, S1x1, S1x1, S1x1, S1x1, S1x1] S16x1 0
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S16x1_S16x512 : S16x1.Broadcasts S16x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  concatenates_S3x16x512_S1x16x512_S4x16x512_d0 : Shape.Concatenates [S3x16x512, S1x16x512] S4x16x512 0
  dot_S16x2048_S2048x512_S16x512_1_0_0_1_n_n_wf : DotDims.WF S16x2048 S2048x512 S16x512 [1] [0] [0] [1] [] []
  hcc0_scratch5 : 0 + S_.numel ≤ 11
  hcc0_scratch6 : 1 + S_.numel ≤ 11
  hcc0_scoped0 : 2 + S_.numel ≤ 11
  hcc0_scoped1 : 3 + S_.numel ≤ 11
  hcc0_scoped2 : 4 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, (k0_t1_loop i).OK
  k0_off1_inb : ∀ (i : grid0.Coords) (k0_t1 : Fin (k0_t1_loop i).trips), ∀ a, (k0_off1 i k0_t1) a + S16.size a ≤ S32.size a
  k0_t2_ok : ∀ i : grid0.Coords, (k0_t2_loop i).OK
  k0_off2_inb : ∀ (i : grid0.Coords) (k0_t2 : Fin (k0_t2_loop i).trips), ∀ a, (k0_off2 i k0_t2) a + S16.size a ≤ S32.size a
  k0_off3_inb : ∀ i : grid0.Coords, ∀ a, (k0_off3 i) a + S16.size a ≤ S32.size a
  k0_t11_ok : k0_t11_loop.OK
  k0_off200_inb : ∀ k0_t11 : Fin k0_t11_loop.trips, ∀ a, (k0_off200 k0_t11) a + S1x16.size a ≤ S1x256.size a
  k0_off201_inb : ∀ i : grid0.Coords, ∀ a, (k0_off201 i) a + S1x256.size a ≤ S8x512.size a
  k0_mult2_dvd : ∀ i : grid0.Coords, ∀ (k0_h3 : k0_cond3 i = 1#1), 8 ∣ (k0_mult2 i).toNat
  k0_off202_inb : ∀ i : grid0.Coords, ∀ (k0_h3 : k0_cond3 i = 1#1), ∀ a, (k0_off202 i) a + S1x8x512.size a ≤ S1x16x512.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x16.size a ≤ S4x1x16.size a
  hwx1_0 : ∀ i : grid1.Coords, EltTy.bits .i32 = 32 ∨ (Rect.block (s := S4x1x16) S1x1x16.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S4x2048x512.size a
  hwx1_1 : ∀ i : grid1.Coords, EltTy.bits .f32 = 32 ∨ (Rect.block (s := S4x2048x512) S1x2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x512.size a ≤ S3x16x512.size a
  hwx1_2 : ∀ i : grid1.Coords, EltTy.bits .f32 = 32 ∨ (Rect.block (s := S3x16x512) S1x16x512.size (cc1_transform_2 i) (hinb1_2 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
def dot_S16x2048_S2048x512_S16x512_1_0_0_1_n_n : DotDims S16x2048 S2048x512 S16x512 where
  lhsContracting := [1]
  rhsContracting := [0]
  lhsNonContracting := [0]
  rhsNonContracting := [1]
  lhsBatch := []
  rhsBatch := []
  wf := dot_S16x2048_S2048x512_S16x512_1_0_0_1_n_n_wf

abbrev win1_0 : Pipeline.Window sig grid1 :=
  Pipeline.Window.ofSpec (Memref.whole main_v1) S1x1x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x16x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x512 : Shape := ⟨3, ![4, 2048, 512]⟩
abbrev S4x16 : Shape := ⟨2, ![4, 16]⟩
abbrev S_ : Shape := ⟨0, ![]⟩
abbrev S2048 : Shape := ⟨1, ![2048]⟩
abbrev S1x1x2048 : Shape := ⟨3, ![1, 1, 2048]⟩
abbrev S4x16x1 : Shape := ⟨3, ![4, 16, 1]⟩
abbrev S4x16x2048 : Shape := ⟨3, ![4, 16, 2048]⟩
abbrev S4x16x2048x1 : Shape := ⟨4, ![4, 16, 2048, 1]⟩
abbrev S4x1x2048x512 : Shape := ⟨4, ![4, 1, 2048, 512]⟩
abbrev S512 : Shape := ⟨1, ![512]⟩
abbrev S4x16x2048x512 : Shape := ⟨4, ![4, 16, 2048, 512]⟩
abbrev S4x16x512 : Shape := ⟨3, ![4, 16, 512]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x16, .i32⟩
  | .hbm, ⟨2, _⟩ => ⟨S_, .i32⟩
  | .hbm, ⟨3, _⟩ => ⟨S_, .i32⟩
  | .hbm, ⟨4, _⟩ => ⟨S4x16, .i32⟩
  | .hbm, ⟨5, _⟩ => ⟨S4x16, .i32⟩
  | .hbm, ⟨6, _⟩ => ⟨S2048, .i32⟩
  | .hbm, ⟨7, _⟩ => ⟨S1x1x2048, .i32⟩
  | .hbm, ⟨8, _⟩ => ⟨S4x16x1, .i32⟩
  | .hbm, ⟨9, _⟩ => ⟨S4x16x2048, .i32⟩
  | .hbm, ⟨10, _⟩ => ⟨S4x16x2048, .i32⟩
  | .hbm, ⟨11, _⟩ => ⟨S4x16x2048, .i1⟩
  | .hbm, ⟨12, _⟩ => ⟨S1x1x2048, .i32⟩
  | .hbm, ⟨13, _⟩ => ⟨S4x16x1, .i32⟩
  | .hbm, ⟨14, _⟩ => ⟨S4x16x2048, .i32⟩
  | .hbm, ⟨15, _⟩ => ⟨S4x16x2048, .i32⟩
  | .hbm, ⟨16, _⟩ => ⟨S4x16x2048, .i1⟩
  | .hbm, ⟨17, _⟩ => ⟨S4x16x2048, .i1⟩
  | .hbm, ⟨18, _⟩ => ⟨S4x16x2048x1, .i1⟩
  | .hbm, ⟨19, _⟩ => ⟨S4x1x2048x512, .f32⟩
  | .hbm, ⟨20, _⟩ => ⟨S_, .f32⟩
  | .hbm, ⟨21, _⟩ => ⟨S512, .f32⟩
  | .hbm, ⟨22, _⟩ => ⟨S4x16x2048x512, .i1⟩
  | .hbm, ⟨23, _⟩ => ⟨S4x16x2048x512, .f32⟩
  | .hbm, ⟨24, _⟩ => ⟨S4x16x2048x512, .f32⟩
  | .hbm, ⟨25, _⟩ => ⟨S4x16x2048x512, .f32⟩
  | .hbm, ⟨26, _⟩ => ⟨S_, .i32⟩
  | .hbm, ⟨27, _⟩ => ⟨S4x16, .i32⟩
  | .hbm, ⟨28, _⟩ => ⟨S4x16, .i1⟩
  | .hbm, ⟨29, _⟩ => ⟨S_, .i32⟩
  | .hbm, ⟨30, _⟩ => ⟨S_, .i32⟩
  | .hbm, ⟨31, _⟩ => ⟨S4x16, .i32⟩
  | .hbm, ⟨32, _⟩ => ⟨S4x16, .i32⟩
  | .hbm, ⟨33, _⟩ => ⟨S_, .f32⟩
  | .hbm, ⟨34, _⟩ => ⟨S4x16x512, .f32⟩
  | .hbm, ⟨35, _⟩ => ⟨S4x16x1, .i32⟩
  | .hbm, ⟨36, _⟩ => ⟨S4x16x1, .f32⟩
  | .hbm, ⟨37, _⟩ => ⟨S4x16x512, .f32⟩
  | .hbm, ⟨38, _⟩ => ⟨S4x16x512, .f32⟩
  | .hbm, ⟨39, _⟩ => ⟨S_, .f32⟩
  | .hbm, ⟨40, _⟩ => ⟨S4x16x512, .f32⟩
  | .hbm, ⟨41, _⟩ => ⟨S4x16x512, .i1⟩
  | .hbm, ⟨42, _⟩ => ⟨S4x16x512, .i1⟩
  | .hbm, ⟨43, _⟩ => ⟨S_, .f32⟩
  | .hbm, ⟨44, _⟩ => ⟨S4x16x512, .f32⟩
  | .hbm, ⟨45, _⟩ => ⟨S4x16x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_call2_v0 : Ref sig .tc := ⟨.hbm, 30, rfl⟩
abbrev main_call2_v1 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_call3_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S4x16_S4x16_w1s1p0_0_w16s1p15_0 : S4x16.ReduceWindows (![1, 16] : Fin 2 → Nat) ![1, 1] ![0, 15] ![0, 0] S4x16
  h_S_ : 0 < S_.numel
  shapeCasts_S2048_S1x1x2048 : S2048.ShapeCasts S1x1x2048
  shapeCasts_S4x16_S4x16x1 : S4x16.ShapeCasts S4x16x1
  bcast_S1x1x2048_S4x16x2048_0_1_2 : S1x1x2048.BroadcastsInDim S4x16x2048 (![0, 1, 2] : Fin 3 → Fin S4x16x2048.rank)
  bcast_S4x16x1_S4x16x2048_0_1_2 : S4x16x1.BroadcastsInDim S4x16x2048 (![0, 1, 2] : Fin 3 → Fin S4x16x2048.rank)
  shapeCasts_S4x16x2048_S4x16x2048x1 : S4x16x2048.ShapeCasts S4x16x2048x1
  shapeCasts_S4x2048x512_S4x1x2048x512 : S4x2048x512.ShapeCasts S4x1x2048x512
  bcast_S_S512 : S_.BroadcastsInDim S512 (![] : Fin 0 → Fin S512.rank)
  bcast_S4x16x2048x1_S4x16x2048x512_0_1_2_3 : S4x16x2048x1.BroadcastsInDim S4x16x2048x512 (![0, 1, 2, 3] : Fin 4 → Fin S4x16x2048x512.rank)
  bcast_S4x1x2048x512_S4x16x2048x512_0_1_2_3 : S4x1x2048x512.BroadcastsInDim S4x16x2048x512 (![0, 1, 2, 3] : Fin 4 → Fin S4x16x2048x512.rank)
  bcast_S512_S4x16x2048x512_3 : S512.BroadcastsInDim S4x16x2048x512 (![3] : Fin 1 → Fin S4x16x2048x512.rank)
  bcast_S_S4x16 : S_.BroadcastsInDim S4x16 (![] : Fin 0 → Fin S4x16.rank)
  reducesTo_S4x16x2048x512_S4x16x512_d2 : S4x16x2048x512.ReducesTo [2] S4x16x512
  bcast_S4x16x1_S4x16x512_0_1_2 : S4x16x1.BroadcastsInDim S4x16x512 (![0, 1, 2] : Fin 3 → Fin S4x16x512.rank)
  bcast_S_S4x16x512 : S_.BroadcastsInDim S4x16x512 (![] : Fin 0 → Fin S4x16x512.rank)

variable [Facts₀]

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev S4x2048x512 : Shape := ⟨3, ![4, 2048, 512]⟩
abbrev S4x16 : Shape := ⟨2, ![4, 16]⟩
abbrev S4x16x512 : Shape := ⟨3, ![4, 16, 512]⟩

def lenAt (l : IVec S4x16 32) (b : Fin 4) (p : Fin 16) : ℕ := (l (ix2 b p)).toNat

def beginAt (l : IVec S4x16 32) (b : Fin 4) (p : Fin 16) : ℕ :=
  ∑ j : Fin 16, if j < p then lenAt l b j else 0

def InRange (l : IVec S4x16 32) : Prop := ∀ b p, lenAt l b p ≤ 127

def Finite (x : FVec Ideal S4x2048x512 .f32) : Prop := ∀ i, ∃ r : ℝ, x i = (r : EReal)

def patchSum (x : FVec Ideal S4x2048x512 .f32) (l : IVec S4x16 32) (b : Fin 4) (p : Fin 16) (d : Fin 512) : EReal :=
  ∑ t : Fin 2048, if beginAt l b p ≤ t.val ∧ t.val < beginAt l b p + lenAt l b p then x (ix3 b t d) else 0

def G (x : FVec Ideal S4x2048x512 .f32) (l : IVec S4x16 32) : FVec Ideal S4x16x512 .f32 := fun i =>
  let q : EReal := Ideal.div (patchSum x l (i 0) (i 1) (i 2)) (((max (lenAt l (i 0) (i 1)) 1 : ℕ) : ℝ) : EReal)
  if q = 0 then (-1 : EReal) else q

end Cert.Spec

end
-- ==== Proof.RefRun.lean ====
import proofs.«212945_g29746943492489_cont_sun_c4_499_28_alg».proof.ReferenceIdeal
import proofs.«212945_g29746943492489_cont_sun_c4_499_28_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ends (l : IVec S4x16 32) : IVec S4x16 32 :=
  Host.reduceWindow IntOp.addi ![1, 16] ![1, 1] ![0, 15] ![0, 0] l
    (broadcastInDim S_ ![] bcast_S_S_ (constantI S_ 32 0#32)) reduceWindows_S4x16_S4x16_w1s1p0_0_w16s1p15_0 h_S_

def begins (l : IVec S4x16 32) : IVec S4x16 32 := subi (ends l) l

def pos : IVec S4x16x2048 32 :=
  broadcastInDim S4x16x2048 ![0, 1, 2] bcast_S1x1x2048_S4x16x2048_0_1_2
    (shapeCast S1x1x2048 (iotaInDim S2048 32 0) shapeCasts_S2048_S1x1x2048)

def col (v : IVec S4x16 32) : IVec S4x16x2048 32 :=
  broadcastInDim S4x16x2048 ![0, 1, 2] bcast_S4x16x1_S4x16x2048_0_1_2 (shapeCast S4x16x1 v shapeCasts_S4x16_S4x16x1)

def mask (l : IVec S4x16 32) : IVec S4x16x2048 1 :=
  andi (cmpi .slt pos (col (ends l))) (cmpi .sge pos (col (begins l)))

def masked (x : FVec F S4x2048x512 .f32) (l : IVec S4x16 32) : FVec F S4x16x2048x512 .f32 :=
  select
    (broadcastInDim S4x16x2048x512 ![0, 1, 2, 3] bcast_S4x16x2048x1_S4x16x2048x512_0_1_2_3
      (shapeCast S4x16x2048x1 (mask l) shapeCasts_S4x16x2048_S4x16x2048x1))
    (broadcastInDim S4x16x2048x512 ![0, 1, 2, 3] bcast_S4x1x2048x512_S4x16x2048x512_0_1_2_3
      (shapeCast S4x1x2048x512 x shapeCasts_S4x2048x512_S4x1x2048x512))
    (broadcastInDim S4x16x2048x512 ![3] bcast_S512_S4x16x2048x512_3
      (broadcastInDim S512 ![] bcast_S_S512 (constant S_ .f32 0x00000000#32)))

def sums (x : FVec F S4x2048x512 .f32) (l : IVec S4x16 32) : FVec F S4x16x512 .f32 :=
  Host.reduceAdd (masked x l) (constant S_ .f32 0x00000000#32) reducesTo_S4x16x2048x512_S4x16x512_d2 h_S_

def pl (l : IVec S4x16 32) : IVec S4x16 32 :=
  select (cmpi .eq l (broadcastInDim S4x16 ![] bcast_S_S4x16 (constantI S_ 32 0#32)))
    (broadcastInDim S4x16 ![] bcast_S_S4x16 (id (constantI S_ 32 1#32))) l

def denom (l : IVec S4x16 32) : FVec F S4x16x512 .f32 :=
  broadcastInDim S4x16x512 ![0, 1, 2] bcast_S4x16x1_S4x16x512_0_1_2
    (sitofp .f32 (shapeCast S4x16x1 (pl l) shapeCasts_S4x16_S4x16x1))

def quot (x : FVec F S4x2048x512 .f32) (l : IVec S4x16 32) : FVec F S4x16x512 .f32 :=
  Host.divf (sums x l) (denom l)

def refTerm (x : FVec F S4x2048x512 .f32) (l : IVec S4x16 32) : FVec F S4x16x512 .f32 :=
  select (id (cmpf .une (quot x l) (broadcastInDim S4x16x512 ![] bcast_S_S4x16x512 (constant S_ .f32 0x00000000#32))))
    (quot x l) (broadcastInDim S4x16x512 ![] bcast_S_S4x16x512 (constant S_ .f32 0xBF800000#32))

abbrev ops : List (HloOp τ sig (Elt F)) :=
  [ TRef.nullary main_call0.call0.c (constantI S_ 32 0#32),
    TRef.unary main_call0.call0.c main_call0.call0.v0 (broadcastInDim S_ ![] bcast_S_S_),
    TRef.binary (.of main_arg1 : TRef sig ⟨S4x16, .i32⟩) main_call0.call0.v0 main_call0.call0.v1 (fun x v => Host.reduceWindow IntOp.addi ![1, 16] ![1, 1] ![0, 15] ![0, 0] x v reduceWindows_S4x16_S4x16_w1s1p0_0_w16s1p15_0 h_S_),
    binary main_v0 main_arg1 main_v1 (subi : (⟨S4x16, .i32⟩ : BufTy).Contents (Elt F) → (⟨S4x16, .i32⟩ : BufTy).Contents (Elt F) → (⟨S4x16, .i32⟩ : BufTy).Contents (Elt F)),
    nullary main_v2 (iotaInDim S2048 32 0),
    reshape main_v2 main_v3 rfl shapeCasts_S2048_S1x1x2048,
    reshape main_v0 main_v4 rfl shapeCasts_S4x16_S4x16x1,
    unary main_v3 main_v5 (broadcastInDim S4x16x2048 ![0, 1, 2] bcast_S1x1x2048_S4x16x2048_0_1_2 : (⟨S1x1x2048, .i32⟩ : BufTy).Contents (Elt F) → (⟨S4x16x2048, .i32⟩ : BufTy).Contents (Elt F)),
    unary main_v4 main_v6 (broadcastInDim S4x16x2048 ![0, 1, 2] bcast_S4x16x1_S4x16x2048_0_1_2 : (⟨S4x16x1, .i32⟩ : BufTy).Contents (Elt F) → (⟨S4x16x2048, .i32⟩ : BufTy).Contents (Elt F)),
    binary main_v5 main_v6 main_v7 (cmpi .slt : (⟨S4x16x2048, .i32⟩ : BufTy).Contents (Elt F) → (⟨S4x16x2048, .i32⟩ : BufTy).Contents (Elt F) → (⟨S4x16x2048, .i1⟩ : BufTy).Contents (Elt F)),
    reshape main_v2 main_v8 rfl shapeCasts_S2048_S1x1x2048,
    reshape main_v1 main_v9 rfl shapeCasts_S4x16_S4x16x1,
    unary main_v8 main_v10 (broadcastInDim S4x16x2048 ![0, 1, 2] bcast_S1x1x2048_S4x16x2048_0_1_2 : (⟨S1x1x2048, .i32⟩ : BufTy).Contents (Elt F) → (⟨S4x16x2048, .i32⟩ : BufTy).Contents (Elt F)),
    unary main_v9 main_v11 (broadcastInDim S4x16x2048 ![0, 1, 2] bcast_S4x16x1_S4x16x2048_0_1_2 : (⟨S4x16x1, .i32⟩ : BufTy).Contents (Elt F) → (⟨S4x16x2048, .i32⟩ : BufTy).Contents (Elt F)),
    binary main_v10 main_v11 main_v12 (cmpi .sge : (⟨S4x16x2048, .i32⟩ : BufTy).Contents (Elt F) → (⟨S4x16x2048, .i32⟩ : BufTy).Contents (Elt F) → (⟨S4x16x2048, .i1⟩ : BufTy).Contents (Elt F)),
    binary main_v7 main_v12 main_v13 (andi : (⟨S4x16x2048, .i1⟩ : BufTy).Contents (Elt F) → (⟨S4x16x2048, .i1⟩ : BufTy).Contents (Elt F) → (⟨S4x16x2048, .i1⟩ : BufTy).Contents (Elt F)),
    reshape main_v13 main_v14 rfl shapeCasts_S4x16x2048_S4x16x2048x1,
    reshape main_arg0 main_v15 rfl shapeCasts_S4x2048x512_S4x1x2048x512,
    nullary main_cst (constant S_ .f32 0x00000000#32),
    unary main_cst main_v16 (broadcastInDim S512 ![] bcast_S_S512 : (⟨S_, .f32⟩ : BufTy).Contents (Elt F) → (⟨S512, .f32⟩ : BufTy).Contents (Elt F)),
    TRef.unary (.of main_v14 : TRef sig ⟨S4x16x2048x1, .i1⟩) main_call1.v0 (broadcastInDim S4x16x2048x512 ![0, 1, 2, 3] bcast_S4x16x2048x1_S4x16x2048x512_0_1_2_3),
    TRef.unary (.of main_v15 : TRef sig ⟨S4x1x2048x512, .f32⟩) main_call1.v1 (broadcastInDim S4x16x2048x512 ![0, 1, 2, 3] bcast_S4x1x2048x512_S4x16x2048x512_0_1_2_3),
    TRef.unary (.of main_v16 : TRef sig ⟨S512, .f32⟩) main_call1.v2 (broadcastInDim S4x16x2048x512 ![3] bcast_S512_S4x16x2048x512_3),
    TRef.ternary main_call1.v0 main_call1.v1 main_call1.v2 main_call1.v3 select,
    nullary main_c (constantI S_ 32 0#32),
    unary main_c main_v18 (broadcastInDim S4x16 ![] bcast_S_S4x16 : (⟨S_, .i32⟩ : BufTy).Contents (Elt F) → (⟨S4x16, .i32⟩ : BufTy).Contents (Elt F)),
    binary main_arg1 main_v18 main_v19 (cmpi .eq : (⟨S4x16, .i32⟩ : BufTy).Contents (Elt F) → (⟨S4x16, .i32⟩ : BufTy).Contents (Elt F) → (⟨S4x16, .i1⟩ : BufTy).Contents (Elt F)),
    nullary main_c_0 (constantI S_ 32 1#32),
    TRef.unary (.of main_c_0 : TRef sig ⟨S_, .i32⟩) main_call2.v0 id,
    TRef.unary main_call2.v0 main_call2.v1 (broadcastInDim S4x16 ![] bcast_S_S4x16),
    TRef.ternary (.of main_v19 : TRef sig ⟨S4x16, .i1⟩) main_call2.v1 (.of main_arg1 : TRef sig ⟨S4x16, .i32⟩) main_call2.v2 select,
    nullary main_cst_1 (constant S_ .f32 0x00000000#32),
    binary main_v17 main_cst_1 main_v21 ((fun x v => Host.reduceAdd x v reducesTo_S4x16x2048x512_S4x16x512_d2 h_S_) : (⟨S4x16x2048x512, .f32⟩ : BufTy).Contents (Elt F) → (⟨S_, .f32⟩ : BufTy).Contents (Elt F) → (⟨S4x16x512, .f32⟩ : BufTy).Contents (Elt F)),
    reshape main_v20 main_v22 rfl shapeCasts_S4x16_S4x16x1,
    unary main_v22 main_v23 (sitofp .f32 : (⟨S4x16x1, .i32⟩ : BufTy).Contents (Elt F) → (⟨S4x16x1, .f32⟩ : BufTy).Contents (Elt F)),
    unary main_v23 main_v24 (broadcastInDim S4x16x512 ![0, 1, 2] bcast_S4x16x1_S4x16x512_0_1_2 : (⟨S4x16x1, .f32⟩ : BufTy).Contents (Elt F) → (⟨S4x16x512, .f32⟩ : BufTy).Contents (Elt F)),
    binary main_v21 main_v24 main_v25 (Host.divf : (⟨S4x16x512, .f32⟩ : BufTy).Contents (Elt F) → (⟨S4x16x512, .f32⟩ : BufTy).Contents (Elt F) → (⟨S4x16x512, .f32⟩ : BufTy).Contents (Elt F)),
    nullary main_cst_2 (constant S_ .f32 0x00000000#32),
    unary main_cst_2 main_v26 (broadcastInDim S4x16x512 ![] bcast_S_S4x16x512 : (⟨S_, .f32⟩ : BufTy).Contents (Elt F) → (⟨S4x16x512, .f32⟩ : BufTy).Contents (Elt F)),
    binary main_v25 main_v26 main_v27 (cmpf .une : (⟨S4x16x512, .f32⟩ : BufTy).Contents (Elt F) → (⟨S4x16x512, .f32⟩ : BufTy).Contents (Elt F) → (⟨S4x16x512, .i1⟩ : BufTy).Contents (Elt F)),
    unary main_v27 main_v28 (id : (⟨S4x16x512, .i1⟩ : BufTy).Contents (Elt F) → (⟨S4x16x512, .i1⟩ : BufTy).Contents (Elt F)),
    nullary main_cst_3 (constant S_ .f32 0xBF800000#32),
    TRef.unary (.of main_cst_3 : TRef sig ⟨S_, .f32⟩) main_call3.v0 (broadcastInDim S4x16x512 ![] bcast_S_S4x16x512),
    TRef.ternary (.of main_v28 : TRef sig ⟨S4x16x512, .i1⟩) (.of main_v25 : TRef sig ⟨S4x16x512, .f32⟩) main_call3.v0 main_call3.v1 select ]

set_option maxRecDepth 1024 in

theorem main_eq (c : Dev nD) : main (F := F) c = seq ops := by
  simp only [main, fn_cumsum.body, fn_cumsum_0.body, fn_where.body, fn_where_1.body, fn_where_2.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., binary_bufs_sub .., nullary_bufs_sub .., reshape_bufs_sub .., reshape_bufs_sub .., unary_bufs_sub .., unary_bufs_sub .., binary_bufs_sub .., reshape_bufs_sub .., reshape_bufs_sub .., unary_bufs_sub .., unary_bufs_sub .., binary_bufs_sub .., binary_bufs_sub .., reshape_bufs_sub .., reshape_bufs_sub .., nullary_bufs_sub .., unary_bufs_sub .., unary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., reshape_bufs_sub .., unary_bufs_sub .., unary_bufs_sub .., binary_bufs_sub .., nullary_bufs_sub .., unary_bufs_sub .., binary_bufs_sub .., unary_bufs_sub .., nullary_bufs_sub .., unary_bufs_sub .., ternary_bufs_sub ..⟩

attribute [local irreducible] Host.reduceWindow Host.reduceAdd in
set_option maxRecDepth 8192 in

theorem out_eq (V : Valuation τ sig (Elt F)) :
    after ops V (main_v29 : DevRef τ sig) = refTerm (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v29) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v29).trans (out_eq _), (h c main_arg0).trans (arg0_eq _),
      (h c main_arg1).trans (arg1_eq _)⟩)
    (run_seq scopedRefs_eq scopedSems_eq defs main (fun _ => ops) main_eq (fun _ => ops_sub) m g)

end Cert.ReferenceIdeal.RefRun

end
-- ==== Proof.RefValue.lean ====
import proofs.«212945_g29746943492489_cont_sun_c4_499_28_alg».proof.Proof.Spec
import proofs.«212945_g29746943492489_cont_sun_c4_499_28_alg».proof.Proof.RefRun
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.Spec (lenAt beginAt InRange patchSum G)

theorem foldl_addi_toNat {ι : Type} (L : List ι) (g : ι → BitVec 32) (r : BitVec 32) :
    (L.foldl (fun r n => IntOp.addi r (g n)) r).toNat = (r.toNat + (L.map fun n => (g n).toNat).sum) % 2 ^ 32 := by
  induction L generalizing r with
  | nil => simp [Nat.mod_eq_of_lt r.isLt]
  | cons a L ih =>
    rw [List.foldl_cons, ih, List.map_cons, List.sum_cons, show IntOp.addi r (g a) = r + g a from rfl, BitVec.toNat_add]
    omega

abbrev W16 : Shape := ⟨2, ![1, 16]⟩

theorem W16_numel : W16.numel = 16 := by decide

theorem W16_symm (n : Fin W16.numel) : (W16.rowMajor.symm n 0).val = 0 ∧ (W16.rowMajor.symm n 1).val = n.val := by
  have h := Shape.rowMajor_val_two (d := ![1, 16]) (W16.rowMajor.symm n)
  rw [Equiv.apply_symm_apply] at h
  have h0 : (W16.rowMajor.symm n 0).val < 1 := (W16.rowMajor.symm n 0).isLt
  simp at h
  omega

theorem ends_toNat (l : IVec S4x16 32) (b : Fin 4) (p : Fin 16) :
    (ends l (ix2 b p)).toNat = (∑ j : Fin 16, if j ≤ p then lenAt l b j else 0) % 2 ^ 32 := by
  unfold ends Host.reduceWindow
  simp only []
  rw [foldl_addi_toNat, ← Fin.sum_univ_def]
  have hv : broadcastInDim S_ ![] bcast_S_S_ (constantI S_ 32 0#32) (Shape.Idx.first h_S_) = 0#32 := rfl
  rw [hv]
  simp only [BitVec.toNat_zero, zero_add]
  refine congrArg (· % 2 ^ 32) ?_
  refine Fintype.sum_equiv ((finCongr W16_numel).trans (Equiv.addRight (p + 1))) _ _ (fun n => ?_)
  obtain ⟨h0, h1⟩ := W16_symm n
  have hn : n.val < 16 := lt_of_lt_of_eq n.isLt W16_numel
  have he : (((finCongr W16_numel).trans (Equiv.addRight (p + 1))) n).val = (n.val + (p.val + 1) % 16) % 16 := by
    simp [Fin.val_add]; omega
  generalize ((finCongr W16_numel).trans (Equiv.addRight (p + 1))) n = j at he ⊢
  have hp := p.isLt
  have hb := b.isLt
  split
  · rename_i hin
    have hin1 : 15 ≤ p.val * 1 + (W16.rowMajor.symm n 1).val ∧ p.val * 1 + (W16.rowMajor.symm n 1).val - 15 < 16 := hin 1
    rw [h1] at hin1
    have hj : j ≤ p := Fin.le_def.mpr (by omega)
    rw [if_pos hj]
    unfold lenAt
    refine congrArg (fun i => (l i).toNat) (funext fun a => ?_)
    match a with
    | ⟨0, _⟩ => exact Fin.ext (show b.val * 1 + (W16.rowMajor.symm n 0).val - 0 = b.val by rw [h0]; omega)
    | ⟨1, _⟩ => exact Fin.ext (show p.val * 1 + (W16.rowMajor.symm n 1).val - 15 = j.val by rw [h1]; omega)
  · rename_i hin
    have hc : ¬ 15 ≤ p.val + n.val := by
      intro hc
      apply hin
      intro a
      match a with
      | ⟨0, _⟩ =>
        exact (show 0 ≤ b.val * 1 + (W16.rowMajor.symm n 0).val ∧ b.val * 1 + (W16.rowMajor.symm n 0).val - 0 < 4 from
          ⟨by omega, by rw [h0]; omega⟩)
      | ⟨1, _⟩ =>
        exact (show 15 ≤ p.val * 1 + (W16.rowMajor.symm n 1).val ∧ p.val * 1 + (W16.rowMajor.symm n 1).val - 15 < 16 from
          ⟨by rw [h1]; omega, by rw [h1]; omega⟩)
    have hj : ¬ j ≤ p := by rw [Fin.le_def]; omega
    rw [if_neg hj]
    rfl

theorem sum_le_split (f : Fin 16 → ℕ) (p : Fin 16) :
    (∑ j : Fin 16, if j ≤ p then f j else 0) = (∑ j : Fin 16, if j < p then f j else 0) + f p := by
  have h : ∀ j : Fin 16, (if j ≤ p then f j else 0) = (if j < p then f j else 0) + (if j = p then f j else 0) := by
    intro j
    rcases lt_trichotomy j p with h | h | h
    · simp [h, h.le, h.ne]
    · subst h; simp
    · simp [not_le.mpr h, not_lt.mpr h.le, h.ne']
  simp_rw [h]
  rw [Finset.sum_add_distrib, Finset.sum_ite_eq']
  simp

theorem sum_le_bound (l : IVec S4x16 32) (hl : InRange l) (b : Fin 4) (p : Fin 16) :
    (∑ j : Fin 16, if j ≤ p then lenAt l b j else 0) ≤ 2032 := by
  calc (∑ j : Fin 16, if j ≤ p then lenAt l b j else 0) ≤ ∑ _j : Fin 16, 127 :=
        Finset.sum_le_sum (fun j _ => by split; exact hl b j; omega)
    _ = 2032 := by simp

theorem ends_val (l : IVec S4x16 32) (hl : InRange l) (b : Fin 4) (p : Fin 16) :
    (ends l (ix2 b p)).toNat = beginAt l b p + lenAt l b p := by
  rw [ends_toNat, Nat.mod_eq_of_lt (by have := sum_le_bound l hl b p; omega), sum_le_split]
  rfl

theorem ends_le (l : IVec S4x16 32) (hl : InRange l) (b : Fin 4) (p : Fin 16) : beginAt l b p + lenAt l b p ≤ 2032 := by
  have h := sum_le_bound l hl b p
  rw [sum_le_split] at h
  exact h

theorem begins_val (l : IVec S4x16 32) (hl : InRange l) (b : Fin 4) (p : Fin 16) :
    (begins l (ix2 b p)).toNat = beginAt l b p := by
  have he := ends_val l hl b p
  show (ends l (ix2 b p) - l (ix2 b p)).toNat = _
  rw [BitVec.toNat_sub_of_le (by rw [BitVec.le_def, he]; unfold lenAt; omega), he]
  unfold lenAt
  omega

theorem pos_apply (b : Fin 4) (p : Fin 16) (t : Fin 2048) : pos (ix3 b p t) = BitVec.ofNat 32 t.val := by
  unfold pos
  rw [broadcastInDim_apply _ _ _ (ix3 b p t) (ix3 (0 : Fin 1) (0 : Fin 1) t)
    (fun a => match a with | ⟨0, _⟩ => rfl | ⟨1, _⟩ => rfl | ⟨2, _⟩ => rfl)]
  rw [shapeCast_apply _ _ (ix3 (0 : Fin 1) (0 : Fin 1) t) (ix1 t)
    (by rw [Shape.rowMajor_val_one, Shape.rowMajor_val_three]; show t.val = (0 * 1 + 0) * 2048 + t.val; omega)]
  rfl

theorem col_apply (v : IVec S4x16 32) (b : Fin 4) (p : Fin 16) (t : Fin 2048) : col v (ix3 b p t) = v (ix2 b p) := by
  unfold col
  rw [broadcastInDim_apply _ _ _ (ix3 b p t) (ix3 b p (0 : Fin 1))
    (fun a => match a with | ⟨0, _⟩ => rfl | ⟨1, _⟩ => rfl | ⟨2, _⟩ => rfl)]
  rw [shapeCast_apply _ _ (ix3 b p (0 : Fin 1)) (ix2 b p)
    (by rw [Shape.rowMajor_val_two, Shape.rowMajor_val_three]; show b.val * 16 + p.val = (b.val * 16 + p.val) * 1 + 0; omega)]

theorem and_bit : ∀ u w : BitVec 1, IntOp.andi u w = 1#1 ↔ u = 1#1 ∧ w = 1#1 := by decide

theorem mask_apply (l : IVec S4x16 32) (hl : InRange l) (b : Fin 4) (p : Fin 16) (t : Fin 2048) :
    mask l (ix3 b p t) = 1#1 ↔ beginAt l b p ≤ t.val ∧ t.val < beginAt l b p + lenAt l b p := by
  show IntOp.andi (IntOp.cmpi .slt (pos (ix3 b p t)) (col (ends l) (ix3 b p t)))
      (IntOp.cmpi .sge (pos (ix3 b p t)) (col (begins l) (ix3 b p t))) = 1#1 ↔ _
  rw [pos_apply, col_apply, col_apply, and_bit]
  have hE := ends_val l hl b p
  have hB := begins_val l hl b p
  have hle := ends_le l hl b p
  have ht : (BitVec.ofNat 32 t.val).toNat = t.val := by
    rw [BitVec.toNat_ofNat]; exact Nat.mod_eq_of_lt (by have := t.isLt; omega)
  rw [StableHlo.Predicate.slt_iff_toNat (by rw [ht]; have := t.isLt; omega) (by rw [hE]; omega),
    StableHlo.Predicate.sge_iff_toNat (by rw [ht]; have := t.isLt; omega) (by rw [hB]; omega), ht, hE, hB]
  exact and_comm

theorem masked_apply (x : FVec Ideal S4x2048x512 .f32) (l : IVec S4x16 32) (b : Fin 4) (p : Fin 16) (t : Fin 2048)
    (d : Fin 512) :
    masked (F := Ideal) x l (ix4 b p t d) = Scalar.select (mask l (ix3 b p t)) (x (ix3 b t d)) 0 := by
  unfold masked
  rw [select_apply]
  rw [broadcastInDim_apply ![0, 1, 2, 3] bcast_S4x16x2048x1_S4x16x2048x512_0_1_2_3 _ (ix4 b p t d) (ix4 b p t (0 : Fin 1))
    (fun a => match a with | ⟨0, _⟩ => rfl | ⟨1, _⟩ => rfl | ⟨2, _⟩ => rfl | ⟨3, _⟩ => rfl)]
  rw [shapeCast_apply _ shapeCasts_S4x16x2048_S4x16x2048x1 (ix4 b p t (0 : Fin 1)) (ix3 b p t)
    (by rw [Shape.rowMajor_val_three, Shape.rowMajor_val_four]
        show (b.val * 16 + p.val) * 2048 + t.val = ((b.val * 16 + p.val) * 2048 + t.val) * 1 + 0; omega)]
  rw [broadcastInDim_apply ![0, 1, 2, 3] bcast_S4x1x2048x512_S4x16x2048x512_0_1_2_3 _ (ix4 b p t d) (ix4 b (0 : Fin 1) t d)
    (fun a => match a with | ⟨0, _⟩ => rfl | ⟨1, _⟩ => rfl | ⟨2, _⟩ => rfl | ⟨3, _⟩ => rfl)]
  rw [shapeCast_apply _ shapeCasts_S4x2048x512_S4x1x2048x512 (ix4 b (0 : Fin 1) t d) (ix3 b t d)
    (by rw [Shape.rowMajor_val_three, Shape.rowMajor_val_four]
        show (b.val * 2048 + t.val) * 512 + d.val = ((b.val * 1 + 0) * 2048 + t.val) * 512 + d.val; omega)]
  rw [broadcastInDim_apply ![3] bcast_S512_S4x16x2048x512_3 _ (ix4 b p t d) (ix1 d) (fun a => match a with | ⟨0, _⟩ => rfl)]
  rw [broadcastInDim_scalar_apply, constant_apply, Ideal.ofBits_zero_f32]

theorem sums_apply (x : FVec Ideal S4x2048x512 .f32) (l : IVec S4x16 32) (hl : InRange l) (b : Fin 4) (p : Fin 16)
    (d : Fin 512) : sums (F := Ideal) x l (ix3 b p d) = patchSum x l b p d := by
  unfold sums
  rw [hostReduceAdd_apply, Ideal.hostReduceAdd_single _ (by decide : Shape.Reduces S4x16x2048x512 [2] S4x16x512)]
  rw [constant_apply, Ideal.ofBits_zero_f32, zero_add]
  unfold patchSum
  refine Finset.sum_congr rfl (fun (t : Fin 2048) _ => ?_)
  have hlift : ∀ h : Shape.Reduces S4x16x2048x512 [2] S4x16x512, h.lift (ix3 b p d) t = ix4 b p t d := fun h =>
    funext fun a => match a with | ⟨0, _⟩ => rfl | ⟨1, _⟩ => rfl | ⟨2, _⟩ => rfl | ⟨3, _⟩ => rfl
  rw [hlift, masked_apply]
  by_cases hm : beginAt l b p ≤ t.val ∧ t.val < beginAt l b p + lenAt l b p
  · rw [if_pos hm, (mask_apply l hl b p t).mpr hm, select_one]
  · rw [if_neg hm, eq_zero_of_ne_one (mt (mask_apply l hl b p t).mp hm), select_zero]

theorem pl_toInt (l : IVec S4x16 32) (hl : InRange l) (b : Fin 4) (p : Fin 16) :
    (pl l (ix2 b p)).toInt = ((max (lenAt l b p) 1 : ℕ) : ℤ) := by
  have hlen := hl b p
  show (Scalar.select (IntOp.cmpi .eq (l (ix2 b p)) 0#32) 1#32 (l (ix2 b p))).toInt = _
  by_cases h : l (ix2 b p) = 0#32
  · have h0 : lenAt l b p = 0 := by unfold lenAt; rw [h]; rfl
    rw [StableHlo.Predicate.cmpi_eq_iff.mpr h, select_one, h0]
    rfl
  · have hne : lenAt l b p ≠ 0 := fun h0 => h (BitVec.eq_of_toNat_eq h0)
    rw [eq_zero_of_ne_one (mt StableHlo.Predicate.cmpi_eq_iff.mp h), select_zero,
      StableHlo.Predicate.toInt_eq_toNat_of_lt (by unfold lenAt at hlen; omega)]
    unfold lenAt at hne ⊢
    rw [Nat.max_eq_left (by omega)]

theorem denom_apply (l : IVec S4x16 32) (hl : InRange l) (b : Fin 4) (p : Fin 16) (d : Fin 512) :
    denom (F := Ideal) l (ix3 b p d) = (((max (lenAt l b p) 1 : ℕ) : ℝ) : EReal) := by
  unfold denom
  rw [broadcastInDim_apply ![0, 1, 2] bcast_S4x16x1_S4x16x512_0_1_2 _ (ix3 b p d) (ix3 b p (0 : Fin 1))
    (fun a => match a with | ⟨0, _⟩ => rfl | ⟨1, _⟩ => rfl | ⟨2, _⟩ => rfl)]
  rw [sitofp_apply]
  rw [shapeCast_apply _ shapeCasts_S4x16_S4x16x1 (ix3 b p (0 : Fin 1)) (ix2 b p)
    (by rw [Shape.rowMajor_val_two, Shape.rowMajor_val_three]; show b.val * 16 + p.val = (b.val * 16 + p.val) * 1 + 0; omega)]
  show (((pl l (ix2 b p)).toInt : ℝ) : EReal) = _
  rw [pl_toInt l hl b p, Int.cast_natCast]

theorem neg_one_f32 : Ideal.ofBits .f32 0xBF800000#32 = -1 := IdealRules.sign_bit.ideal_negOnePat .f32

theorem refTerm_eq (x : FVec Ideal S4x2048x512 .f32) (l : IVec S4x16 32) (hl : InRange l) :
    refTerm (F := Ideal) x l = G x l := by
  funext i
  obtain ⟨b, p, d, rfl⟩ : ∃ b p d, i = ix3 b p d := ⟨i 0, i 1, i 2, eq_ix3 i⟩
  have hq : quot (F := Ideal) x l (ix3 b p d)
      = Ideal.div (patchSum x l b p d) (((max (lenAt l b p) 1 : ℕ) : ℝ) : EReal) := by
    unfold quot
    rw [hostDivf_apply, sums_apply x l hl, denom_apply l hl]
  show Scalar.select (Ideal.cmp .une (quot (F := Ideal) x l (ix3 b p d)) (Ideal.ofBits .f32 0x00000000#32))
      (quot (F := Ideal) x l (ix3 b p d)) (Ideal.ofBits .f32 0xBF800000#32)
    = (if Ideal.div (patchSum x l b p d) (((max (lenAt l b p) 1 : ℕ) : ℝ) : EReal) = 0 then (-1 : EReal)
        else Ideal.div (patchSum x l b p d) (((max (lenAt l b p) 1 : ℕ) : ℝ) : EReal))
  rw [hq, Ideal.ofBits_zero_f32, neg_one_f32]
  generalize Ideal.div (patchSum x l b p d) (((max (lenAt l b p) 1 : ℕ) : ℝ) : EReal) = Q
  unfold Ideal.cmp Scalar.select
  by_cases h : Q = 0 <;> simp [h]

end Cert.ReferenceIdeal.RefValue

end
-- ==== Proof.PreFacts.lean ====
import proofs.«212945_g29746943492489_cont_sun_c4_499_28_alg».proof.Pre_input_domain
import Idealize.ShloMosaic.Lib.ReduceAll
import Idealize.ShloMosaic.Lib.ValueIdx
import Idealize.ShloMosaic.Lib.StableHlo.Predicate
import Idealize.ShloMosaic.PureOps.Ideal
import proofs.«212945_g29746943492489_cont_sun_c4_499_28_alg».proof.Proof.Spec

noncomputable section

namespace Cert.PreFacts

open Idealize.ShloMosaic Idealize.ShloMosaic.ValueIdx Cert.Pre_input_domain

instance : Subsingleton S_.Idx := ⟨fun a b => funext fun d => d.elim0⟩

variable [hP : Cert.Pre_input_domain.Facts]

theorem split {F : FTy → Type} [FloatOps F] (x : FVec F S4x2048x512 .f32) (l : IVec S4x16 32)
    (h : Cert.Pre_input_domain.fn (F := F) x l = fun _ => 1#1) :
    (∀ i : S4x2048x512.Idx,
        FloatOps.cmpf .olt (FloatOps.hostAbsf (x i)) (FloatOps.ofBits (F := F) .f32 0x7F800000#32) = 1#1)
    ∧ (∀ j : S4x16.Idx, IntOp.cmpi .sge (l j) 0#32 = 1#1 ∧ IntOp.cmpi .sle (l j) 127#32 = 1#1) := by
  have h0 := congrFun h ix0
  dsimp only [Cert.Pre_input_domain.fn] at h0
  obtain ⟨h1, h2⟩ := IntOp.andi_eq_one.1 h0
  refine ⟨fun i => ?_, fun j => ?_⟩
  · exact Host.reduce_andi_all _ _ _ _ ix0 h1 i
  · exact IntOp.andi_eq_one.1 (Host.reduce_andi_all _ _ _ _ ix0 h2 j)

theorem toNat_le_of_signed (w : BitVec 32) (h0 : IntOp.cmpi .sge w 0#32 = 1#1)
    (h127 : IntOp.cmpi .sle w 127#32 = 1#1) : w.toNat ≤ 127 := by
  rw [IntOp.cmpi_sge] at h0
  rw [IntOp.cmpi_sle] at h127
  have e0 : (0#32 : BitVec 32).toInt = 0 := by decide
  have e127 : (127#32 : BitVec 32).toInt = 127 := by decide
  rw [e0] at h0
  rw [e127] at h127
  have := BitVec.toInt_eq_toNat_cond w
  split at this <;> omega

theorem len_le {F : FTy → Type} [FloatOps F] (x : FVec F S4x2048x512 .f32) (l : IVec S4x16 32)
    (h : Cert.Pre_input_domain.fn (F := F) x l = fun _ => 1#1) (b : Fin 4) (p : Fin 16) :
    (l (ix2 b p)).toNat ≤ 127 := by
  obtain ⟨h0, h127⟩ := (split x l h).2 (ix2 b p)
  exact toNat_le_of_signed _ h0 h127

theorem finite (x : FVec Ideal S4x2048x512 .f32) (l : IVec S4x16 32)
    (h : Cert.Pre_input_domain.fn (F := Ideal) x l = fun _ => 1#1) (i : S4x2048x512.Idx) :
    ∃ r : ℝ, x i = (r : EReal) := by
  have e := (split x l h).1 i
  have htop : Ideal.ofBits .f32 0x7F800000#32 = (⊤ : EReal) := by simp [Ideal.ofBits, Ideal.ieee]
  generalize x i = y at e
  change Ideal.cmp .olt (max (y : EReal) (-y)) (Ideal.ofBits .f32 0x7F800000#32) = 1#1 at e
  rw [htop] at e
  induction y using EReal.rec with
  | bot => exact absurd e (by simp [Ideal.cmp])
  | coe r => exact ⟨r, rfl⟩
  | top => exact absurd e (by simp [Ideal.cmp])

theorem inRange {F : FTy → Type} [FloatOps F] (x : FVec F S4x2048x512 .f32) (l : IVec S4x16 32)
    (h : Cert.Pre_input_domain.fn (F := F) x l = fun _ => 1#1) : Cert.Spec.InRange l :=
  fun b p => len_le x l h b p

theorem finite' (x : FVec Ideal S4x2048x512 .f32) (l : IVec S4x16 32)
    (h : Cert.Pre_input_domain.fn (F := Ideal) x l = fun _ => 1#1) : Cert.Spec.Finite x :=
  fun i => finite x l h i

end Cert.PreFacts

end
-- ==== Proof.ClaimsRef.lean ====
import proofs.«212945_g29746943492489_cont_sun_c4_499_28_alg».proof.Defs
import proofs.«212945_g29746943492489_cont_sun_c4_499_28_alg».proof.Proof.Gen.ReferenceIdeal
import proofs.«212945_g29746943492489_cont_sun_c4_499_28_alg».proof.Proof.Gen.Pre_input_domain
import proofs.«212945_g29746943492489_cont_sun_c4_499_28_alg».proof.Proof.Spec
import proofs.«212945_g29746943492489_cont_sun_c4_499_28_alg».proof.Proof.RefRun
import proofs.«212945_g29746943492489_cont_sun_c4_499_28_alg».proof.Proof.RefValue
import proofs.«212945_g29746943492489_cont_sun_c4_499_28_alg».proof.Proof.PreFacts
import Idealize.ShloMosaic.PureOps.IdealRules

noncomputable section

namespace Cert.Proof.Ref

open Idealize.ShloMosaic Idealize.SL.Sem

theorem frame_ri : Cert.frame_ReferenceIdeal (hReferenceIdeal := Cert.ReferenceIdeal.Gen.facts)
    (hPre_input_domain := Cert.Pre_input_domain.Gen.facts) :=
  fun m g _ => (θ_run _ _ _).mono (fun _ h c => (h c).2) (Cert.ReferenceIdeal.RefRun.run (F := Ideal) m g)

theorem preserves : Cert.preserves_Kernel_KernelIdeal := IdealRules.truncf_extf.statement _ .f32 .bf16

theorem alg_ref_of_agree
    (m' : (ℓ : Loc Cert.ReferenceIdeal.nD Cert.ReferenceIdeal.τ Cert.ReferenceIdeal.sig) → Buf (Elt Ideal) ℓ)
    (g' : Dev Cert.ReferenceIdeal.nD → PrngReg)
    (X : Dev Cert.ReferenceIdeal.nD → FVec Ideal Cert.Spec.S4x2048x512 .f32)
    (L : Dev Cert.ReferenceIdeal.nD → IVec Cert.Spec.S4x16 32)
    (hX : ∀ c : Dev Cert.ReferenceIdeal.nD,
      m' ((c.tc : Thread Cert.ReferenceIdeal.nD Cert.ReferenceIdeal.τ).loc Cert.ReferenceIdeal.main_arg0) = X c)
    (hL : ∀ c : Dev Cert.ReferenceIdeal.nD,
      m' ((c.tc : Thread Cert.ReferenceIdeal.nD Cert.ReferenceIdeal.τ).loc Cert.ReferenceIdeal.main_arg1) = L c)
    (hl : ∀ c, Cert.Spec.InRange (L c)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = Cert.Spec.G (X c) (L c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run _ _ _).mono
    (fun _ h c => ⟨(h c).1.trans (by rw [hX c, hL c]; exact Cert.ReferenceIdeal.RefValue.refTerm_eq (X c) (L c) (hl c)),
      (h c).2⟩)
    (Cert.ReferenceIdeal.RefRun.run (F := Ideal) m' g')

end Cert.Proof.Ref

end
-- ==== Proof.KISetup.lean ====
import proofs.«212945_g29746943492489_cont_sun_c4_499_28_alg».proof.KernelIdeal
import proofs.«212945_g29746943492489_cont_sun_c4_499_28_alg».proof.Proof.Gen.KernelIdeal
import proofs.«212945_g29746943492489_cont_sun_c4_499_28_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The table of bodies as a parameter: the two printed programs differ in one entry of it and in nothing else. -/
class TileDefs (F : FTy → Type) where
  D₀ : Defs nD τ sig (Elt F) Λ₀
export TileDefs (D₀)

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl

abbrev coreOf (c : Fin ((K (F := F)).nCore 0)) : Fin τ.nSC := (K (F := F)).core 0 c
abbrev D [FloatOps F] [TileDefs F] : Defs nD τ sig (Elt F) (ΛP (F := F)) := Pipeline.defs pcfgs (D₀ (F := F))
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL

def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

def ER : Emb UR (MT nD τ sig (HIx 1) (Elt F) ℕ UU ℕ) :=
  (((Emb.inl : Emb UR (UR × Counters)).trans (Emb.inr : Emb (UR × Counters) (UB × (UR × Counters)))).trans (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

abbrev xLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0

abbrev shRef (c : Fin τ.nSC) : DevRef τ sig := ⟨.shared, ⟨0, by decide⟩, c⟩
abbrev shLoc (d : Dev nD) (c : Fin τ.nSC) : Loc nD τ sig := (d, shRef c)

theorem nSC_eq : τ.nSC = 2 := rfl

def shBlk (j : Fin 16) : Finset S8x512.Idx := Finset.univ.filter fun x => (x 0).val = j.val / 2 ∧ (x 1).val / 256 = j.val % 2

def oRows (c : Fin 2) : Finset S1x16x512.Idx := Finset.univ.filter fun x => (x 1).val / 8 = c.val

theorem shBlk_disjoint : ∀ i ∈ (Finset.univ : Finset (Fin 16)), ∀ j ∈ (Finset.univ : Finset (Fin 16)), i ≠ j → Disjoint (shBlk i) (shBlk j) := by
  intro i _ j _ h
  refine Finset.disjoint_left.mpr fun x hi hj => h (Fin.ext ?_)
  have h1 := (Finset.mem_filter.mp hi).2; have h2 := (Finset.mem_filter.mp hj).2
  omega
theorem shBlk_cover : (Finset.univ : Finset (Fin 16)).biUnion shBlk = Finset.univ := by
  ext x
  simp only [Finset.mem_biUnion, Finset.mem_univ, true_and, iff_true]
  have h0 : (x 0).val < 8 := (x 0).isLt
  have h1 : (x 1).val < 512 := (x 1).isLt
  refine ⟨⟨2 * (x 0).val + (x 1).val / 256, by omega⟩, Finset.mem_filter.mpr ⟨Finset.mem_univ _, ?_, ?_⟩⟩ <;> dsimp only <;> omega
theorem oRows_disjoint : ∀ i ∈ (Finset.univ : Finset (Fin 2)), ∀ j ∈ (Finset.univ : Finset (Fin 2)), i ≠ j → Disjoint (oRows i) (oRows j) := by
  intro i _ j _ h
  refine Finset.disjoint_left.mpr fun x hi hj => h (Fin.ext ?_)
  have h1 := (Finset.mem_filter.mp hi).2; have h2 := (Finset.mem_filter.mp hj).2
  omega
theorem oRows_cover : (Finset.univ : Finset (Fin 2)).biUnion oRows = Finset.univ := by
  ext x
  simp only [Finset.mem_biUnion, Finset.mem_univ, true_and, iff_true]
  have h1 : (x 1).val < 16 := (x 1).isLt
  exact ⟨⟨(x 1).val / 8, by omega⟩, Finset.mem_filter.mpr ⟨Finset.mem_univ _, rfl⟩⟩

abbrev shC (c : Fin 2) : PosShare TreeShare := Transfers.shareTok fullShare 2 c
abbrev shT (c : Fin 2) (i : Fin 16) : PosShare TreeShare := Transfers.shareTok (shC c) 16 i

variable [FloatOps F]

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

variable (SH : (d : Dev nD) → (c : Fin τ.nSC) → Buf (Elt F) (shLoc d c))

abbrev shBlkPts (d : Dev nD) (c : Fin τ.nSC) (j : Fin 16) (f : Buf (Elt F) (shLoc d c)) : sProp 𝕄 := shLoc d c ↦[shBlk j]{fullShare} f

def bPay (g : GSem nD τ sig) (n : ℕ) : sProp 𝕄 :=
  match g with
  | ((d, .scVector c j), _) => if j.val = 0 then (if h : n < 16 then shBlkPts d c ⟨n, h⟩ (SH d c) else iprop(emp)) else iprop(emp)
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay SH g n
  amount_pos _ _ _ _ := Nat.one_pos

instance bRd_payload_storable (g : GSem nD τ sig) (r n : ℕ) : BI.Storable (upEmb : UEmb _ 𝕄) ((bRd (F := F) SH).payload g r n) := by
  show BI.Storable upEmb (bPay SH g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) SH).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) SH).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) SH).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

def bkit (d : Dev nD) (c : Fin τ.nSC) (i : Fin τ.nSub) : sProp 𝕄 :=
  iprop((∃ κ : GSem nD τ sig → ℕ, bigSep Finset.univ fun j : Fin (grid0.bound 1) =>
      cellInv EB (bRd (F := F) SH) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

variable (m : (ℓ : Loc nD τ sig) → Buf (Elt F) ℓ) (ρ : Dev nD → PrngReg)

variable (OV : (d : Dev nD) → Buf (Elt F) (oLoc d))

abbrev xSh (d : Dev nD) (q : PosShare TreeShare) : sProp 𝕄 := xLoc d ↦{q} m (xLoc d)
abbrev lSh (d : Dev nD) (q : PosShare TreeShare) : sProp 𝕄 := lLoc d ↦{q} m (lLoc d)
abbrev oRowsPts (d : Dev nD) (c : Fin 2) (f : Buf (Elt F) (oLoc d)) : sProp 𝕄 := oLoc d ↦[oRows c]{fullShare} f

abbrev c2 (c : Fin ((K (F := F)).nCore 0)) : Fin 2 := Fin.cast nCore_zero c
abbrev i16 (i : Fin ((K (F := F)).nSub 0)) : Fin 16 := Fin.cast nSub_zero i

def P : (K (F := F)).Pay (nD := nD) (Val := Elt F) (Name := ℕ) (U := UU) where
  st := fun q d c => match q with | 0 => iprop(xSh m d (shC (c2 c)) ∗ lSh m d (shC (c2 c)) ∗ oRowsPts d (c2 c) (m (oLoc d)))
  dn := fun q d c => match q with | 0 => iprop(xSh m d (shC (c2 c)) ∗ lSh m d (shC (c2 c)) ∗ oRowsPts d (c2 c) (OV d))
  go := fun q d c i => match q with
    | 0 => iprop(xSh m d (shT (c2 c) (i16 i)) ∗ lSh m d (shT (c2 c) (i16 i)) ∗ (∃ f, shBlkPts d (coreOf c) (i16 i) f)
        ∗ (if i.val = 0 then oRowsPts d (c2 c) (m (oLoc d)) else iprop(emp)))
  td := fun q d c i => match q with
    | 0 => iprop(xSh m d (shT (c2 c) (i16 i)) ∗ lSh m d (shT (c2 c) (i16 i))
        ∗ (if i.val = 0 then iprop((∃ f, shLoc d (coreOf c) ↦{fullShare} f) ∗ oRowsPts d (c2 c) (OV d)) else iprop(emp)))
  x := fun _ thr => match thr with
    | (d, .scVector c i) => bkit SH d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) SH m OV).IsStorable where
  st q d c := match q with
    | 0 => (inferInstance : BI.Storable (upEmb : UEmb _ 𝕄) iprop(xSh m d (shC (c2 c)) ∗ lSh m d (shC (c2 c)) ∗ oRowsPts d (c2 c) (m (oLoc d))))
  dn q d c := match q with
    | 0 => (inferInstance : BI.Storable (upEmb : UEmb _ 𝕄) iprop(xSh m d (shC (c2 c)) ∗ lSh m d (shC (c2 c)) ∗ oRowsPts d (c2 c) (OV d)))
  go q d c i := match q with
    | 0 => by
      show BI.Storable (upEmb : UEmb _ 𝕄) iprop(xSh m d (shT (c2 c) (i16 i)) ∗ lSh m d (shT (c2 c) (i16 i)) ∗ (∃ f, shBlkPts d (coreOf c) (i16 i) f)
        ∗ (if i.val = 0 then oRowsPts d (c2 c) (m (oLoc d)) else iprop(emp)))
      split <;> infer_instance
  td q d c i := match q with
    | 0 => by
      show BI.Storable (upEmb : UEmb _ 𝕄) iprop(xSh m d (shT (c2 c) (i16 i)) ∗ lSh m d (shT (c2 c) (i16 i))
        ∗ (if i.val = 0 then iprop((∃ f, shLoc d (coreOf c) ↦{fullShare} f) ∗ oRowsPts d (c2 c) (OV d)) else iprop(emp)))
      split <;> infer_instance

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

variable [TileDefs F]

def TileBody : Prop :=
  ∀ (d : Dev nD) (L : grid0.Coords) (O : CellTallies nD τ sig (HIx 1)) (W : Waits sig (HIx 1)), (∀ g, O g none = 0) →
    (∀ g ι, 0 < O g ι → 8 * (0 : Fin 1).val + 6 ≤ (K (F := F)).lev g ι) →
    iprop(levAts (K (F := F)).L (K (F := F)).lev ∗ bkit SH d (cV L) (jV L)
        ∗ (xSh m d (shT (cL L) (jL L)) ∗ lSh m d (shT (cL L) (jL L)) ∗ (∃ f, shBlkPts d (cV L) (jL L) f)
            ∗ (if (L 1).val = 0 then oRowsPts d (cL L) (m (oLoc d)) else iprop(emp)))
        ∗ scopedBufs (V d (cV L) (jV L)) ∗ scopedSems0 (V d (cV L) (jV L)) ∗ owes (V d (cV L) (jV L)) (O + oxV d (cV L)) W)
      ⊢ wp frame (wpE (D₀ (F := F)) 𝒱₀ (V d (cV L) (jV L)) none) Set.univ
          (cc0__sc_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2)
          fun _ => iprop((xSh m d (shT (cL L) (jL L)) ∗ lSh m d (shT (cL L) (jL L))
              ∗ (if (L 1).val = 0 then iprop((∃ f, shLoc d (cV L) ↦{fullShare} f) ∗ oRowsPts d (cL L) (OV d)) else iprop(emp)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.KernelIdeal.Sc

end
-- ==== Proof.KIPipe.lean ====
import proofs.«212945_g29746943492489_cont_sun_c4_499_28_alg».proof.Proof.KISetup
import proofs.«212945_g29746943492489_cont_sun_c4_499_28_alg».proof.Proof.Gen.KernelIdeal.Launch
import Idealize.ShloMosaic.Lib.Pipeline.Sound
import Idealize.ShloMosaic.Lib.Pipeline.Regions

noncomputable section

namespace Cert.KernelIdeal.Sc

open Cert.KernelIdeal Cert.KernelIdeal.Gen
open Idealize.ShloMosaic

variable {F : FTy → Type} [FloatOps F]

abbrev adm : (p : Fin 1) → (pcfgs (F := F) p).Adm := fun p => (cfgs p).toPCfg_adm

abbrev pcs : Fin 1 → Pipeline.Cfg sig Λ₀ := Pipeline.pin (pcfgs (F := F)) adm

theorem cellOf_inj' : Function.Injective (Pipeline.cellOf (nD := nD) (τ := τ) (pcs (F := F))) := Gen.cellOf_inj

end Cert.KernelIdeal.Sc

end
-- ==== Proof.KIGhost.lean ====
import proofs.«212945_g29746943492489_cont_sun_c4_499_28_alg».proof.Proof.KISetup
import proofs.«212945_g29746943492489_cont_sun_c4_499_28_alg».proof.Proof.KIPipe

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev DCI : Type := Dev nD × Fin τ.nSC × Fin τ.nSub
abbrev bcell₃ (x : DCI) : GSem nD τ sig := bcell x.1 x.2.1 x.2.2

def bCells : Finset (GSem nD τ sig) := Finset.univ.image bcell₃

def bToks : Finset (GSem nD τ sig × ℕ × ℕ) :=
  Finset.univ.image fun x : DCI × Fin (grid0.bound 1) => (bcell x.1.1 x.1.2.1 (x.2.castLE hsub0), 0, x.1.2.2.val)

def u₀ : UU := (initOf (K (F := F)).hsCells (K (F := F)).hsToks, (initOf bCells bToks,
  (initOf (Pipeline.cells (pcs (F := F)) cellOf_inj') (Pipeline.launchToks (pcs (F := F)) cellOf_inj'), 1)))

abbrev G (d : Dev nD) : sProp 𝕄 :=
  iprop((bigSep Finset.univ fun p : Fin 1 => Pipeline.cellsGhost (pcs (F := F)) ER p d)
    ∗ bigSep Finset.univ fun p : Fin 1 => Pipeline.toksInit (pcs (F := F)) ER p d)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in

theorem ownU_split (a : UH) (b : UB) (r : UR) :
    (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a)
      ∗ BI.own ((uEmb (nD := nD) (sig := sig) (Ix := HIx 1) (Val := Elt F) (Name := ℕ) (U := UU) (Lvl := ℕ)).toEmb ((1, (b, (r, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((r, 1) : UR × Counters)))))
  have h2 : (BI.own ((uEmb (nD := nD) (sig := sig) (Ix := HIx 1) (Val := Elt F) (Name := ℕ) (U := UU) (Lvl := ℕ)).toEmb ((1, (b, (r, 1))) : UU)) : sProp 𝕄)
      ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op ((r, 1) : UR × Counters)))))
  exact h1.trans (sep_mono_r h2)

theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

variable (SH : (d : Dev nD) → (c : Fin τ.nSC) → Buf (Elt F) (shLoc d c))

theorem invs_b : iprop((bigSep bCells fun g => (semVal g 0 : sProp 𝕄)) ∗ bigSep bCells fun g => roundState EB (bRd (F := F) SH) g 0)
    ⊢ |={Set.univ}=> iprop(∃ κ : GSem nD τ sig → ℕ, bigSep bCells fun g => cellInv EB (bRd (F := F) SH) (κ g) g) := by
  refine (Rounds.bodies_intro EB (bRd (F := F) SH) bCells).trans ((inv_alloc_family bCells (Rounds.body EB (bRd (F := F) SH)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

variable (m : (ℓ : Loc nD τ sig) → Buf (Elt F) ℓ)
variable (OV : (d : Dev nD) → Buf (Elt F) (oLoc d))

theorem creds_b : ((P (F := F) SH m OV).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) SH m OV).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) SH m OV).oxFrom 0 (V d c i) = oxV d c := fun i => by
    rw [show (0 : ℕ) = (0 : Fin 1).val from rfl, (P SH m OV).oxFrom_step, (P SH m OV).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in

theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) SH m OV).x q (SparseCore.T d)) = iprop(emp) :=
  bigSep_univ_of_subsingleton (0 : Fin 1)
theorem Px_S (d : Dev nD) (c : Fin τ.nSC) : (bigSep Finset.univ fun q : Fin 1 => (P (F := F) SH m OV).x q (S d c)) = iprop(emp) :=
  bigSep_univ_of_subsingleton (0 : Fin 1)
theorem Px_V (d : Dev nD) (c : Fin τ.nSC) (i : Fin τ.nSub) :
    (bigSep Finset.univ fun q : Fin 1 => (P (F := F) SH m OV).x q (V d c i)) = bkit SH d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

abbrev shared : sProp 𝕄 :=
  iprop((∃ κ : GSem nD τ sig → ℕ, bigSep Finset.univ fun x : DCI => cellInv EB (bRd (F := F) SH) (κ (bcell₃ x)) (bcell₃ x))
    ∗ bigSep Finset.univ fun x : DCI => reached EB (bcell₃ x) 0)

abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

theorem kit_intro (dci : DCI) : iprop(shared (F := F) SH ∗ mine (F := F) dci) ⊢ (bkit (F := F) SH dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) SH) (κ (bcell₃ x)) (bcell₃ x)) fun j _ =>
        sep_elim_left.trans (bigSep_elim (Φ := fun x : DCI => (cellInv EB (bRd (F := F) SH) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

theorem kits_deal :
    iprop(shared (F := F) SH ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) SH m OV).x q thr : sProp 𝕄) := by
  rw [SparseCore.Cfg.bigSep_threads (fun thr : Thread nD τ => bigSep Finset.univ fun q : Fin 1 => (P SH m OV).x q thr)]
  simp only [Px_T, Px_S, Px_V, bigSep_emp']
  iintro ⟨#Hsh, Hat, Htok, Hcred⟩
  isplitr; · iempintro
  isplitr; · iempintro
  iapply (bigSep_mono_frame (R := shared (F := F) SH) (Φ := mine (F := F)) fun dci _ => kit_intro (F := F) SH dci)
  isplitr; · iexact Hsh
  unfold mine
  rw [bigSep_sep', bigSep_sep']
  isplitl [Hat]; · iexact Hat
  isplitl [Htok]; · iexact Htok
  iexact Hcred

theorem fund_G : (BI.own (ER (initOf (Pipeline.cells (pcs (F := F)) cellOf_inj') (Pipeline.launchToks (pcs (F := F)) cellOf_inj'))) : sProp 𝕄)
    ⊢ iprop(|==> bigSep Finset.univ fun d : Dev nD => G (F := F) d) := by
  refine (Pipeline.fund_ghost (pcs (F := F)) ER cellOf_inj').trans ?_
  rw [bigSep_sep']

theorem hu₀ : iprop(ownU (u₀ (F := F)) ∗ (P (F := F) SH m OV).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P SH m OV).x q thr) : sProp 𝕄) := by
  unfold u₀
  iintro ⟨Hu, Hcred, Hfree⟩
  ihave H := (ownU_split _ _ _) $$ Hu
  icases H with ⟨HH, HB, HR⟩
  imod (Rounds.fund EB (bRd (F := F) SH) bCells bToks) $$ HB with ⟨Hst, #Hr, Hat, Htok⟩
  imod (fund_G (F := F)) $$ HR with HG
  ihave Hsems := (sems_b (F := F)) $$ Hfree
  imod (invs_b (F := F) SH) $$ [Hsems Hst] with ⟨%κ, #Hinv⟩
  · isplitl [Hsems] <;> iassumption
  ihave Hcred' := (creds_b SH m OV) $$ Hcred
  ihave Hinv' := (Entails.of_eq (bCells_eq (F := F) fun g => cellInv EB (bRd (F := F) SH) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal SH m OV)
  isplitr
  · isplitl; · iexists κ; iexact Hinv'
    iexact Hr'
  isplitl [Hat']; · iexact Hat'
  isplitl [Htok']; · iexact Htok'
  iexact Hcred'

end Cert.KernelIdeal.Sc

end
-- ==== Proof.KILaunch1.lean ====
import proofs.«212945_g29746943492489_cont_sun_c4_499_28_alg».proof.Proof.KISetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [TileDefs F]
variable (SH : (d : Dev nD) → (c : Fin τ.nSC) → Buf (Elt F) (shLoc d c))
variable (m : (ℓ : Loc nD τ sig) → Buf (Elt F) ℓ) (ρ : Dev nD → PrngReg)
variable (OV : (d : Dev nD) → Buf (Elt F) (oLoc d))

def coordsV (c : Fin (grid0.bound 0)) (s : Fin (grid0.bound 1)) : grid0.Coords :=
  fun | 0 => c | 1 => s | ⟨_ + 2, h⟩ => absurd h (Nat.not_lt.2 (Nat.le_add_left _ _))

/-- The table's entry on subcore `(c, s)` is the kernel's task there. -/
def VecEntry : Prop := ∀ (c : Fin τ.nSC) (s : Fin τ.nSub),
    D₀ (F := F) (.scVector c s) 0 ()
      = SparseCore.onTile hcore0 hsub0 (fun c s => cc0__sc_body (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scoped0 cc0_scoped1 cc0_scoped2) ⟨⟩ c s

set_option maxRecDepth 16384 in
theorem tileObl (hvec : VecEntry (F := F)) (hbody : TileBody (F := F) SH m OV) : (K (F := F)).TileObl (D (F := F)) 𝒱 (P SH m OV) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (D₀ (F := F) (.scVector ((K (F := F)).core 0 c) ((K (F := F)).sub 0 i)) 0 ())) _
  refine BI.Entails.trans ?_ (Pipeline.wp_liftProg (D (F := F)) (Pipeline.defs_kernel pcfgs D₀) 𝒱₀ _ Set.univ none _ _)
  rw [hvec]; simp only [SparseCore.onTile, hci, and_self, ↓reduceDIte]
  exact hbody d (coordsV ⟨_, hci.1⟩ ⟨_, hci.2⟩) O W hO hOlev

omit [FloatOps F] in
theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

omit [FloatOps F] in

theorem first_eq (A : sProp 𝕄) : (bigSep Finset.univ fun i : Fin 16 => if i.val = 0 then A else iprop(emp)) = iprop(A ∗ emp) := by
  rw [SparseCore.bigSep_erase' (Finset.mem_univ (0 : Fin 16)),
    show (bigSep (Finset.univ.erase (0 : Fin 16)) fun i : Fin 16 => if i.val = 0 then A else iprop(emp)) = bigSep (Finset.univ.erase (0 : Fin 16)) fun _ => (iprop(emp) : sProp 𝕄) from
      bigSep_congr fun j hj => if_neg fun h => (Finset.mem_erase.mp hj).1 (Fin.ext h), bigSep_emp']
  rfl

omit [FloatOps F] in
theorem shPts_blks (d : Dev nD) (c : Fin τ.nSC) (f : Buf (Elt F) (shLoc d c)) :
    (shLoc d c ↦{fullShare} f : sProp 𝕄) = bigSep Finset.univ fun j : Fin 16 => shBlkPts d c j f := by
  unfold shBlkPts
  rw [← pointsTo_biUnion Finset.univ (ℓ := shLoc d c) shBlk shBlk_disjoint, shBlk_cover]; try rfl

omit [FloatOps F] in

theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

abbrev goOf (d : Dev nD) (c : Fin 2) (cc : Fin τ.nSC) (j : Fin 16) : sProp 𝕄 :=
  iprop(xSh m d (shT c j) ∗ lSh m d (shT c j) ∗ (∃ f, shBlkPts d cc j f) ∗ (if j.val = 0 then oRowsPts d c (m (oLoc d)) else iprop(emp)))
abbrev tdOf (d : Dev nD) (c : Fin 2) (cc : Fin τ.nSC) (j : Fin 16) : sProp 𝕄 :=
  iprop(xSh m d (shT c j) ∗ lSh m d (shT c j) ∗ (if j.val = 0 then iprop((∃ f, shLoc d cc ↦{fullShare} f) ∗ oRowsPts d c (OV d)) else iprop(emp)))

theorem vecSplit : (K (F := F)).VecSplit (P SH m OV) 0 := by
  intro d c
  show iprop(iprop(xSh m d (shC (c2 c)) ∗ lSh m d (shC (c2 c)) ∗ oRowsPts d (c2 c) (m (oLoc d))) ∗ ownBufs (S d (coreOf c))) ⊢ |={Set.univ}=> iprop(
      (bigSep Finset.univ fun i : Fin ((K (F := F)).nSub 0) => goOf m d (c2 c) (coreOf c) (i16 i))
      ∗ ((bigSep Finset.univ fun i : Fin ((K (F := F)).nSub 0) => tdOf m OV d (c2 c) (coreOf c) (i16 i))
          -∗ iprop(iprop(xSh m d (shC (c2 c)) ∗ lSh m d (shC (c2 c)) ∗ oRowsPts d (c2 c) (OV d)) ∗ ownBufs (S d (coreOf c)))))
  rw [bigSep_tasks (F := F) (goOf m d (c2 c) (coreOf c)), bigSep_tasks (F := F) (tdOf m OV d (c2 c) (coreOf c)),
    bigSep_sep', bigSep_sep', bigSep_sep', bigSep_sep', bigSep_sep', first_eq, first_eq, ownBufs_S]
  iintro ⟨⟨Hx, Hl, Ho⟩, ⟨%fsh, Hsh⟩, Hrest⟩
  ihave Hx' := (Transfers.pointsTo_toks (shC (c2 c)) 16).1 $$ Hx
  icases Hx' with ⟨Hxd, Hxs⟩
  ihave Hl' := (Transfers.pointsTo_toks (shC (c2 c)) 16).1 $$ Hl
  icases Hl' with ⟨Hld, Hls⟩
  imodintro
  isplitl [Hxs Hls Hsh Ho]
  · isplitl [Hxs]; · iexact Hxs
    isplitl [Hls]; · iexact Hls
    isplitl [Hsh]
    · ihave Hsh' := ((Entails.of_eq (shPts_blks d (coreOf c) fsh)).trans (SparseCore.ent (bigSep_mono (Φ := fun j => shBlkPts (F := F) d (coreOf c) j fsh)
        (Ψ := fun j => iprop(∃ f, shBlkPts (F := F) d (coreOf c) j f))
        fun j _ => BI.BIClass.exists_intro (Φ := fun f => shBlkPts (F := F) d (coreOf c) j f) fsh))) $$ Hsh
      iexact Hsh'
    · isplitl [Ho]; · iexact Ho
      iempintro
  iintro ⟨Hxs, Hls, ⟨Hsh, Ho⟩, -⟩
  isplitl [Hxd Hxs Hld Hls Ho]
  · isplitl [Hxd Hxs]
    · iapply (Transfers.pointsTo_toks (shC (c2 c)) 16).2
      isplitl [Hxd]; · iexact Hxd
      iexact Hxs
    isplitl [Hld Hls]
    · iapply (Transfers.pointsTo_toks (shC (c2 c)) 16).2
      isplitl [Hld]; · iexact Hld
      iexact Hls
    iexact Ho
  isplitl [Hsh]; · iexact Hsh
  iexact Hrest

end Cert.KernelIdeal.Sc

end
-- ==== Proof.KILaunch3.lean ====
import proofs.«212945_g29746943492489_cont_sun_c4_499_28_alg».proof.Proof.KISetup
import proofs.«212945_g29746943492489_cont_sun_c4_499_28_alg».proof.Proof.KIPipe
import proofs.«212945_g29746943492489_cont_sun_c4_499_28_alg».proof.Proof.KIGhost
import proofs.«212945_g29746943492489_cont_sun_c4_499_28_alg».proof.Proof.KILaunch1

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [TileDefs F]
variable (SH : (d : Dev nD) → (c : Fin τ.nSC) → Buf (Elt F) (shLoc d c))
variable (m : (ℓ : Loc nD τ sig) → Buf (Elt F) ℓ) (ρ : Dev nD → PrngReg)
variable (OV : (d : Dev nD) → Buf (Elt F) (oLoc d))

open Idealize.ShloMosaic.StableHlo (held held_split held_sdiff_result wp_hlo_within)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (oLoc d ↦{fullShare} W main_v0)
      ∗ (v1Loc d ↦{fullShare} W main_v1) ∗ (v2Loc d ↦{fullShare} W main_v2) ∗ (v3Loc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

def V0 (d : Dev nD) : Valuation τ sig (Elt F) := fun b => m (d, b)

abbrev opR : HloOp τ sig (Elt F) := StableHlo.reshape main_arg1 main_v1 rfl shapeCasts_S4x16_S4x1x16
abbrev catFn : (⟨S3x16x512, .f32⟩ : BufTy).Contents (Elt F) → (⟨S1x16x512, .f32⟩ : BufTy).Contents (Elt F) → (⟨S4x16x512, .f32⟩ : BufTy).Contents (Elt F) :=
  fun a b => concatenate S4x16x512 0 [⟨S3x16x512, a⟩, ⟨S1x16x512, b⟩] concatenates_S3x16x512_S1x16x512_S4x16x512_d0
abbrev opC : HloOp τ sig (Elt F) := StableHlo.binary main_v2 main_v0 main_v3 (catFn (F := F))

abbrev SR : Finset (DevRef τ sig) := {a1', v1'}
abbrev SC : Finset (DevRef τ sig) := {v2', v0', v3'}

omit [FloatOps F] in
theorem held_SR (d : Dev nD) (W : Valuation τ sig (Elt F)) :
    (held (T d) SR W : sProp 𝕄) = iprop((lLoc d ↦{fullShare} W a1') ∗ v1Loc d ↦{fullShare} W v1') := by
  unfold held SR
  rw [SparseCore.bigSep_insert' (by decide), bigSep_singleton]
omit [FloatOps F] in
theorem held_SC (d : Dev nD) (W : Valuation τ sig (Elt F)) :
    (held (T d) SC W : sProp 𝕄) = iprop((v2Loc d ↦{fullShare} W v2') ∗ (oLoc d ↦{fullShare} W v0') ∗ v3Loc d ↦{fullShare} W v3') := by
  unfold held SC
  rw [SparseCore.bigSep_insert' (by decide), SparseCore.bigSep_insert' (by decide), bigSep_singleton]

theorem hR : (opR (F := F)).bufs ⊆ SR := show ({a1', v1'} : Finset (DevRef τ sig)) ⊆ SR by decide
theorem hC : (opC (F := F)).bufs ⊆ SC := show ({v2', v0', v3'} : Finset (DevRef τ sig)) ⊆ SC by decide

def lrOf (d : Dev nD) : Buf (Elt F) (v1Loc d) := (opR (F := F)).result (V0 m d) v1'

def TcRegionAt (tcV : (d : Dev nD) → Buf (Elt F) (xLoc d) → Buf (Elt F) (v1Loc d) → Buf (Elt F) (v2Loc d)) : Prop :=
  ∀ (L : GSem nD τ sig → Finset (HIx 1)) (lv : GSem nD τ sig → HIx 1 → ℕ) (ι : HIx 1) (c : Dev nD) (W : Waits sig (HIx 1))
    (lr : Buf (Elt F) (v1Loc c)) (x : Buf (Elt F) (xLoc c)) (y0 : Buf (Elt F) (v2Loc c))
    {α : Type} (k : PUnit → Prog (TpuEff nD τ sig (Elt F) (ΛP (F := F)) .tc) α) (Q : α → sProp 𝕄),
    iprop((iprop(boundary (T c) ∗ (v1Loc c ↦{fullShare} lr) ∗ (xLoc c ↦{fullShare} x) ∗ (v2Loc c ↦{fullShare} tcV c x lr)
                ∗ ∃ W', ⌜∀ p ∈ W', p ∈ W ∨ p.2 = ι⌝ ∗ owes (T c) 0 W')
              -∗ wp frame (wpE (D (F := F)) 𝒱 (T c) none) Set.univ (k ⟨⟩) Q)
         ∗ boundary (T c) ∗ (v1Loc c ↦{fullShare} lr) ∗ (xLoc c ↦{fullShare} x) ∗ (v2Loc c ↦{fullShare} y0)
         ∗ owes (T c) 0 W ∗ levAts L lv
         ∗ Pipeline.cellsGhost (pcs (F := F)) ER 0 c ∗ Pipeline.toksInit (pcs (F := F)) ER 0 c)
      ⊢ wp frame (wpE (D (F := F)) 𝒱 (T c) none) Set.univ (.op (.customCall (Pipeline.entry 0) ()) k) Q

abbrev stOf (d : Dev nD) (c : Fin 2) : sProp 𝕄 := iprop(xSh m d (shC c) ∗ lSh m d (shC c) ∗ oRowsPts d c (m (oLoc d)))
abbrev dnOf (d : Dev nD) (c : Fin 2) : sProp 𝕄 := iprop(xSh m d (shC c) ∗ lSh m d (shC c) ∗ oRowsPts d c (OV d))

theorem st0_eq (d : Dev nD) : (bigSep Finset.univ fun c : Fin ((K (F := F)).nCore 0) => (P SH m OV).st 0 d c) = bigSep Finset.univ (stOf m d) :=
  bigSep_congr fun _ _ => rfl
theorem dn0_eq (d : Dev nD) : (bigSep Finset.univ fun c : Fin ((K (F := F)).nCore 0) => (P SH m OV).dn 0 d c) = bigSep Finset.univ (dnOf m OV d) :=
  bigSep_congr fun _ _ => rfl

omit [FloatOps F] in
theorem oPts_rows (d : Dev nD) (f : Buf (Elt F) (oLoc d)) :
    (oLoc d ↦{fullShare} f : sProp 𝕄) = bigSep Finset.univ fun c : Fin 2 => oRowsPts d c f := by
  unfold oRowsPts
  rw [← pointsTo_biUnion Finset.univ (ℓ := oLoc d) oRows oRows_disjoint, oRows_cover]; try rfl

variable (tcV : (d : Dev nD) → Buf (Elt F) (xLoc d) → Buf (Elt F) (v1Loc d) → Buf (Elt F) (v2Loc d))

def RES (d : Dev nD) : Buf (Elt F) (v3Loc d) := catFn (F := F) (tcV d (m (xLoc d)) (lrOf m d)) (OV d)

abbrev FIN (d : Dev nD) : sProp 𝕄 := iprop((v3Loc d ↦{fullShare} RES m OV tcV d) ∗ (xLoc d ↦{fullShare} m (xLoc d)) ∗ lLoc d ↦{fullShare} m (lLoc d))

theorem call_lift : (Prog.lift (.customCall (SparseCore.inner (Pipeline.entry 0)) ()) : Prog (TpuEff nD τ sig (Elt F) (SparseCore.Sig (ΛP (F := F)) 1) .tc) PUnit)
    = SparseCore.liftProg (Q := 1) (.op (.customCall (Pipeline.entry 0) ()) fun _ => .ret ⟨⟩) := rfl

def V3 (d : Dev nD) : Valuation τ sig (Elt F) :=
  Function.update (Function.update (V0 m d) v2' (tcV d (m (xLoc d)) (lrOf m d))) v0' (OV d)
theorem V3_v0 (d : Dev nD) : V3 m OV tcV d v0' = OV d := Function.update_self _ _ _
theorem V3_v2 (d : Dev nD) : V3 m OV tcV d v2' = tcV d (m (xLoc d)) (lrOf m d) :=
  (Function.update_of_ne (show v2' ≠ v0' by decide) _ _).trans (Function.update_self _ _ _)
theorem V3_v3 (d : Dev nD) : V3 m OV tcV d v3' = m (v3Loc d) :=
  (Function.update_of_ne (show v3' ≠ v0' by decide) _ _).trans (Function.update_of_ne (show v3' ≠ v2' by decide) _ _)

set_option maxHeartbeats 800000 in
theorem hmain (htc : TcRegionAt (F := F) tcV) (κ : GSem nD τ sig → ℕ) (d : Dev nD) :
    iprop((K (F := F)).ctx EH (P SH m OV) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m OV tcV d) := by
  unfold SparseCore.Cfg.tcRes
  rw [unscopedBufs_eq]
  simp only [main, wp_bind, wp_pure]
  iintro ⟨#Hctx, Hst, ⟨Hb, ⟨Hx, Hl, Ho, Hv1, Hv2, Hv3⟩, -, -⟩, ⟨Hcg, Htk⟩⟩
  ihave Hx' := (Transfers.pointsTo_toks fullShare 2).1 $$ Hx
  icases Hx' with ⟨Hxd, Hxs⟩
  ihave Hl' := (Transfers.pointsTo_toks fullShare 2).1 $$ Hl
  icases Hl' with ⟨Hld, Hls⟩
  ihave Ho' := (Entails.of_eq (oPts_rows (F := F) d _)) $$ Ho
  iapply ((K (F := F)).wp_run (D (F := F)) 𝒱 (EH := EH) (P := P SH m OV) κ d 0) $$ [Hst Hxs Hls Ho' Hb Hxd Hld Hv1 Hv2 Hv3 Hcg Htk]
  isplitr; · iexact Hctx
  isplitl [Hst]; · iexact Hst
  isplitl [Hxs Hls Ho']
  · rw [st0_eq, bigSep_sep', bigSep_sep']
    isplitl [Hxs]; · iexact Hxs
    isplitl [Hls]; · iexact Hls
    iexact Ho'
  iintro ⟨Hst, Hdn⟩
  ihave Hdn' := (Entails.of_eq ((dn0_eq SH m OV d).trans (by rw [bigSep_sep', bigSep_sep']))) $$ Hdn
  icases Hdn' with ⟨Hxs, Hls, Ho'⟩
  ihave Hx := (Transfers.pointsTo_toks fullShare 2).2 $$ [Hxd Hxs]
  · isplitl [Hxd]; · iexact Hxd
    iexact Hxs
  ihave Hl := (Transfers.pointsTo_toks fullShare 2).2 $$ [Hld Hls]
  · isplitl [Hld]; · iexact Hld
    iexact Hls
  ihave Ho := (Entails.of_eq (oPts_rows (F := F) d (OV d)).symm) $$ Ho'

  iapply (wp_hlo_within 𝒱 (SparseCore.T d) none Set.univ (op := opR) (S := SR) hR (V := V0 m d)) $$ [Hb Hl Hv1]
  · isplitl [Hb]; · iexact Hb
    rw [held_SR]
    isplitl [Hl]; · iexact Hl
    iexact Hv1
  iintro ⟨Hb, Hheld⟩
  ihave Hh := (Entails.of_eq (held_SR (F := F) d _)) $$ Hheld
  icases Hh with ⟨Hl, Hv1⟩
  have e_a1 : (opR (F := F)).result (V0 m d) a1' = m (lLoc d) :=
    (opR (F := F)).result_of_not_mem (V0 m d) (b := a1') (show a1' ∉ ({v1'} : Finset (DevRef τ sig)) by decide)
  ihave Hl := (Entails.of_eq (congrArg (fun f => (lLoc d ↦{fullShare} f : sProp 𝕄)) e_a1)) $$ Hl
  rw [wp_ret]; imodintro

  unfold SparseCore.Cfg.tcSt
  icases Hst with ⟨⟨%W, %hW, HO⟩, Hstr⟩
  have hO0 : (K (F := F)).Otc d ((0 : Fin 1).val + 1) = 0 := (K (F := F)).Otc_end d le_rfl
  ihave HO := (Entails.of_eq (congrArg (fun o => (owes (SparseCore.T d) o W : sProp 𝕄)) hO0)) $$ HO
  ihave Hlv := (SparseCore.Cfg.ctx_levAts (K := K (F := F)) (EH := EH) (P := P SH m OV) κ) $$ Hctx
  ihave Hcg := (Entails.of_eq (bigSep_univ_of_subsingleton (0 : Fin 1))) $$ Hcg
  ihave Htk := (Entails.of_eq (bigSep_univ_of_subsingleton (0 : Fin 1))) $$ Htk
  rw [call_lift]
  iapply ((K (F := F)).wp_liftProg (D (F := F)) 𝒱 (SparseCore.T d) Set.univ none _ _)
  iapply (htc (K (F := F)).L (K (F := F)).lev none d W (lrOf m d) (m (xLoc d)) (m (v2Loc d)) (fun _ => .ret ⟨⟩) _) $$ [Hb Hv1 Hx Hv2 HO Hlv Hcg Htk Hl Ho Hv3 Hstr]
  isplitr [Hb Hv1 Hx Hv2 HO Hlv Hcg Htk]
  swap
  · isplitl [Hb]; · iexact Hb
    isplitl [Hv1]; · iexact Hv1
    isplitl [Hx]; · iexact Hx
    isplitl [Hv2]; · iexact Hv2
    isplitl [HO]; · iexact HO
    isplitr [Hcg Htk]; · iexact Hlv
    isplitl [Hcg]; · iexact Hcg
    iexact Htk
  iintro ⟨Hb, Hv1, Hx, Hv2, %W', %hW', HO⟩
  rw [wp_ret]; imodintro

  iapply (wp_hlo_within 𝒱 (SparseCore.T d) none Set.univ (op := opC) (S := SC) hC (V := V3 m OV tcV d)) $$ [Hb Hv2 Ho Hv3]
  · isplitl [Hb]; · iexact Hb
    rw [held_SC, V3_v2, V3_v0, V3_v3]
    isplitl [Hv2]; · iexact Hv2
    isplitl [Ho]; · iexact Ho
    iexact Hv3
  iintro ⟨Hb, Hheld⟩
  ihave Hh := (Entails.of_eq (held_SC (F := F) d _)) $$ Hheld
  icases Hh with ⟨Hv2, Ho, Hv3⟩
  have e_v3 : (opC (F := F)).result (V3 m OV tcV d) v3' = RES m OV tcV d := by
    refine (StableHlo.binary_result main_v2 main_v0 main_v3 (catFn (F := F)) _ _ _ (V3 m OV tcV d)).trans ?_
    show catFn (F := F) (V3 m OV tcV d v2') (V3 m OV tcV d v0') = _
    rw [V3_v2, V3_v0]; rfl
  ihave Hv3 := (Entails.of_eq (congrArg (fun f => (v3Loc d ↦{fullShare} f : sProp 𝕄)) e_v3)) $$ Hv3
  rw [wp_ret]; imodintro; imodintro
  isplitl [HO Hstr]
  · isplitl [HO]
    · iexists W'
      isplitr
      · ipureintro
        intro p hp
        rcases hW' p hp with h | h
        · exact hW p h
        · show (K (F := F)).lev (SparseCore.T d, p.1) p.2 ≤ 8 * 1
          rw [h]; exact le_of_eq_of_le ((K (F := F)).lev_none _) (Nat.zero_le _)
      · iapply (Entails.of_eq (congrArg (fun o => (owes (SparseCore.T d) o W' : sProp 𝕄)) hO0.symm)); iexact HO
    · iexact Hstr
  isplitl [Hv3]; · iexact Hv3
  isplitl [Hx]; · iexact Hx
  iexact Hl

def fq (d : Dev nD) (s' : Phys nD τ sig (Elt F)) : Prop :=
  s'.mem.mem (v3Loc d) = RES m OV tcV d ∧ s'.mem.mem (xLoc d) = m (xLoc d) ∧ s'.mem.mem (lLoc d) = m (lLoc d)

theorem hfin (d : Dev nD) (s' : Phys nD τ sig (Elt F)) : iprop(FIN m OV tcV d ∗ SI s') ⊢ (⌜fq m OV tcV d s'⌝ : sProp 𝕄) := by
  iintro ⟨⟨Hv3, Hx, Hl⟩, HSI⟩
  ihave H := (persistent_entails_right (SI_pointsTo_agree (st := s') (ℓ := v3Loc d) (I := Finset.univ) (q := fullShare) (f := RES m OV tcV d))) $$ [HSI Hv3]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := lLoc d) (I := Finset.univ) (q := fullShare) (f := m (lLoc d))) $$ [HSI Hl]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  ∀ c : Dev nD, r.2.mem (v3Loc c) = RES m OV tcV c ∧ r.2.mem (xLoc c) = m (xLoc c) ∧ r.2.mem (lLoc c) = m (lLoc c)

theorem run_main [∀ e, Nonempty (Elt F e)] (hvec : VecEntry (F := F)) (hbody : TileBody (F := F) SH m OV) (htc : TcRegionAt (F := F) tcV) :
    θ_run ((K (F := F)).defs (D (F := F))) (Cert.KernelIdeal.threads (F := F)) ⟨m, fun _ => 0, ρ⟩ (QC m OV tcV) :=
  SparseCore.Cfg.θ_run_sc (K := K (F := F)) (D := D (F := F)) (𝒱 := 𝒱) (EH := EH) (P := P SH m OV) facts v₀
    (fun q hq => match q with | 0 => nomatch hq)
    (fun q _ => match q with | 0 => tileObl SH m OV hvec hbody)
    (fun q _ => match q with | 0 => vecSplit SH m OV)
    m ρ main (G (F := F)) (FIN m OV tcV) (u₀ (F := F)) (hu₀ SH m OV) (hmain SH m ρ OV tcV htc) (fq m OV tcV) (hfin m OV tcV) (QC m OV tcV) (fun _ h => h)

end Cert.KernelIdeal.Sc

end
-- ==== Proof.KIScVal.lean ====
import proofs.«212945_g29746943492489_cont_sun_c4_499_28_alg».proof.Proof.KISetup
import Idealize.ShloMosaic.Lib.ValueIdx

noncomputable section

namespace Cert.KernelIdeal.Sc

open Cert.KernelIdeal Cert.KernelIdeal.Gen
open Idealize.ShloMosaic
open Idealize.ShloMosaic.SparseCore (S V T)

variable {F : FTy → Type} [FloatOps F]

def pOf (c s : ℕ) : ℕ := 8 * c + s / 2

def colOf (s : ℕ) : ℕ := 256 * (s % 2)

def lenW (l : IVec S4x16 32) (j : ℕ) : BitVec 32 := l (ValueIdx.ix2 (3 : Fin 4) (Fin.ofNat 16 j))

def lenN (l : IVec S4x16 32) (j : ℕ) : ℕ := (lenW l j).toNat

def beginN (l : IVec S4x16 32) (p : ℕ) : ℕ := ∑ j ∈ Finset.range p, lenN l j

def xPiece (x : FVec F S4x2048x512 .f32) (t col : ℕ) : FVec F S16 .f32 := fun k =>
  x (ValueIdx.ix3 (3 : Fin 4) (Fin.ofNat 2048 t) (Fin.ofNat 512 (col + (k 0).val)))

def zeroPiece : FVec F S16 .f32 := broadcast S16 (Scalar.ofBits .f32 0x00000000#32)

def sumRows (x : FVec F S4x2048x512 .f32) (col : ℕ) (a : FVec F S16 .f32) (t0 n : ℕ) : FVec F S16 .f32 :=
  (List.range' t0 n).foldl (fun a t => addf a (xPiece x t col)) a

def accVal (x : FVec F S4x2048x512 .f32) (l : IVec S4x16 32) (c s g : ℕ) : FVec F S16 .f32 :=
  sumRows x (colOf s + 16 * g) zeroPiece (beginN l (pOf c s)) (lenN l (pOf c s))

def fixPiece (len : BitVec 32) (v : FVec F S16 .f32) : FVec F S16 .f32 :=
  select (cmpf .oeq (divf v (broadcast S16 (Scalar.sitofp .f32 (Scalar.maxsi len 1#32)))) (broadcast S16 (Scalar.ofBits .f32 0x00000000#32)))
    (broadcast S16 (Scalar.ofBits .f32 0xBF800000#32)) (divf v (broadcast S16 (Scalar.sitofp .f32 (Scalar.maxsi len 1#32))))

def rowValN (x : FVec F S4x2048x512 .f32) (l : IVec S4x16 32) (c s : ℕ) : FVec F S1x256 .f32 := fun i =>
  fixPiece (lenW l (pOf c s)) (accVal x l c s ((i 1).val / 16)) (ValueIdx.ix1 (Fin.ofNat 16 ((i 1).val % 16)))

def rowVal (x : FVec F S4x2048x512 .f32) (l : IVec S4x16 32) (L : grid0.Coords) : FVec F S1x256 .f32 :=
  rowValN x l (L 0).val (L 1).val

variable (m : (ℓ : Loc nD τ sig) → Buf (Elt F) ℓ)

def scSH (d : Dev nD) (c : Fin τ.nSC) : Buf (Elt F) (shLoc d c) := fun i =>
  rowValN (m (xLoc d)) (m (lLoc d)) c.val (2 * (i 0).val + (i 1).val / 256) (ValueIdx.ix2 (0 : Fin 1) (Fin.ofNat 256 ((i 1).val % 256)))

def scOV (d : Dev nD) : Buf (Elt F) (oLoc d) := fun i =>
  scSH m d (Fin.cast nSC_eq.symm (Fin.ofNat 2 ((i 1).val / 8))) (ValueIdx.ix2 (Fin.ofNat 8 ((i 1).val % 8)) (i 2))

end Cert.KernelIdeal.Sc

end
-- ==== Proof.KITile.lean ====
import proofs.«212945_g29746943492489_cont_sun_c4_499_28_alg».proof.Proof.KIScVal

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

abbrev cS5 (d : Dev nD) (c : Fin τ.nSC) (i : Fin τ.nSub) : GSem nD τ sig := (V d c i, .dma cc0_scratch5.sem)
abbrev cS6 (d : Dev nD) (c : Fin τ.nSC) (i : Fin τ.nSub) : GSem nD τ sig := (V d c i, .dma cc0_scratch6.sem)
abbrev cP0 (d : Dev nD) (c : Fin τ.nSC) (i : Fin τ.nSub) : GSem nD τ sig := (V d c i, .dma cc0_scoped0.sem)
abbrev cP1 (d : Dev nD) (c : Fin τ.nSC) (i : Fin τ.nSub) : GSem nD τ sig := (V d c i, .dma cc0_scoped1.sem)
abbrev cP2 (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cS5 d (cV L) (jV L)) 0 ∗ semVal (cS6 d (cV L) (jV L)) 0 ∗ semVal (cP0 d (cV L) (jV L)) 0
          ∗ semVal (cP1 d (cV L) (jV L)) 0 ∗ semVal (cP2 d (cV L) (jV L)) 0
          ∗ bigSep (((((ownCells (V d (cV L) (jV L))).erase (cS5 d (cV L) (jV L))).erase (cS6 d (cV L) (jV L))).erase (cP0 d (cV L) (jV L))).erase (cP1 d (cV L) (jV L)) |>.erase (cP2 d (cV L) (jV L))) fun g => semVal g 0) := by
  unfold SparseCore.Cfg.ownSems0
  have h5 : cS5 d (cV L) (jV L) ∈ ownCells (V d (cV L) (jV L)) := (mem_ownCells (g := cS5 d (cV L) (jV L))).mpr ⟨rfl, by
      show (SemLoc.dma cc0_scratch5.sem : SemLoc sig).isScoped .scVector = true; decide⟩
  have h6 : cS6 d (cV L) (jV L) ∈ ownCells (V d (cV L) (jV L)) := (mem_ownCells (g := cS6 d (cV L) (jV L))).mpr ⟨rfl, by
      show (SemLoc.dma cc0_scratch6.sem : SemLoc sig).isScoped .scVector = true; decide⟩
  have h0 : cP0 d (cV L) (jV L) ∈ ownCells (V d (cV L) (jV L)) := (mem_ownCells (g := cP0 d (cV L) (jV L))).mpr ⟨rfl, by
      show (SemLoc.dma cc0_scoped0.sem : SemLoc sig).isScoped .scVector = true; decide⟩
  have h1 : cP1 d (cV L) (jV L) ∈ ownCells (V d (cV L) (jV L)) := (mem_ownCells (g := cP1 d (cV L) (jV L))).mpr ⟨rfl, by
      show (SemLoc.dma cc0_scoped1.sem : SemLoc sig).isScoped .scVector = true; decide⟩
  have h2 : cP2 d (cV L) (jV L) ∈ ownCells (V d (cV L) (jV L)) := (mem_ownCells (g := cP2 d (cV L) (jV L))).mpr ⟨rfl, by
      show (SemLoc.dma cc0_scoped2.sem : SemLoc sig).isScoped .scVector = true; decide⟩
  have n65 : cS6 d (cV L) (jV L) ≠ cS5 d (cV L) (jV L) := by simp [cS5, cS6]; decide
  have n05 : cP0 d (cV L) (jV L) ≠ cS5 d (cV L) (jV L) := by simp [cS5, cP0]; decide
  have n06 : cP0 d (cV L) (jV L) ≠ cS6 d (cV L) (jV L) := by simp [cS6, cP0]; decide
  have n15 : cP1 d (cV L) (jV L) ≠ cS5 d (cV L) (jV L) := by simp [cS5, cP1]; decide
  have n16 : cP1 d (cV L) (jV L) ≠ cS6 d (cV L) (jV L) := by simp [cS6, cP1]; decide
  have n10 : cP1 d (cV L) (jV L) ≠ cP0 d (cV L) (jV L) := by simp [cP0, cP1]; decide
  have n25 : cP2 d (cV L) (jV L) ≠ cS5 d (cV L) (jV L) := by simp [cS5, cP2]; decide
  have n26 : cP2 d (cV L) (jV L) ≠ cS6 d (cV L) (jV L) := by simp [cS6, cP2]; decide
  have n20 : cP2 d (cV L) (jV L) ≠ cP0 d (cV L) (jV L) := by simp [cP0, cP2]; decide
  have n21 : cP2 d (cV L) (jV L) ≠ cP1 d (cV L) (jV L) := by simp [cP1, cP2]; decide
  rw [SparseCore.bigSep_erase' h5,
    SparseCore.bigSep_erase' (Finset.mem_erase.mpr ⟨n65, h6⟩),
    SparseCore.bigSep_erase' (Finset.mem_erase.mpr ⟨n06, Finset.mem_erase.mpr ⟨n05, h0⟩⟩),
    SparseCore.bigSep_erase' (Finset.mem_erase.mpr ⟨n10, Finset.mem_erase.mpr ⟨n16, Finset.mem_erase.mpr ⟨n15, h1⟩⟩⟩),
    SparseCore.bigSep_erase' (Finset.mem_erase.mpr ⟨n21, Finset.mem_erase.mpr ⟨n20, Finset.mem_erase.mpr ⟨n26, Finset.mem_erase.mpr ⟨n25, h2⟩⟩⟩⟩)]

abbrev rB0 (c : Fin τ.nSC) (i : Fin τ.nSub) : DevRef τ sig := (Proc.scVector c i).devRef cc0_scratch0
abbrev rB1 (c : Fin τ.nSC) (i : Fin τ.nSub) : DevRef τ sig := (Proc.scVector c i).devRef cc0_scratch1
abbrev rB2 (c : Fin τ.nSC) (i : Fin τ.nSub) : DevRef τ sig := (Proc.scVector c i).devRef cc0_scratch2
abbrev rB3 (c : Fin τ.nSC) (i : Fin τ.nSub) : DevRef τ sig := (Proc.scVector c i).devRef cc0_scratch3

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (rB0 (cV L) (jV L))).erase (rB1 (cV L) (jV L))).erase (rB2 (cV L) (jV L))).erase (rB3 (cV L) (jV L)))
              fun b => iprop(∃ f, ((d, b) : Loc nD τ sig) ↦{fullShare} f)) := by
  unfold SparseCore.Cfg.ownBufs
  have h0 : rB0 (cV L) (jV L) ∈ ownRefs (τ := τ) (.scVector (cV L) (jV L)) := SparseCore.Cfg.mem_ownRefs_of_owner rfl
  have h1 : rB1 (cV L) (jV L) ∈ ownRefs (τ := τ) (.scVector (cV L) (jV L)) := SparseCore.Cfg.mem_ownRefs_of_owner rfl
  have h2 : rB2 (cV L) (jV L) ∈ ownRefs (τ := τ) (.scVector (cV L) (jV L)) := SparseCore.Cfg.mem_ownRefs_of_owner rfl
  have h3 : rB3 (cV L) (jV L) ∈ ownRefs (τ := τ) (.scVector (cV L) (jV L)) := SparseCore.Cfg.mem_ownRefs_of_owner rfl
  have n10 : rB1 (cV L) (jV L) ≠ rB0 (cV L) (jV L) := by simp [rB0, rB1, Proc.devRef]
  have n20 : rB2 (cV L) (jV L) ≠ rB0 (cV L) (jV L) := by simp [rB0, rB2, Proc.devRef]
  have n21 : rB2 (cV L) (jV L) ≠ rB1 (cV L) (jV L) := by simp [rB1, rB2, Proc.devRef]
  have n30 : rB3 (cV L) (jV L) ≠ rB0 (cV L) (jV L) := by simp [rB0, rB3, Proc.devRef]
  have n31 : rB3 (cV L) (jV L) ≠ rB1 (cV L) (jV L) := by simp [rB1, rB3, Proc.devRef]
  have n32 : rB3 (cV L) (jV L) ≠ rB2 (cV L) (jV L) := by simp [rB2, rB3, Proc.devRef]
  rw [SparseCore.bigSep_erase' h0,
    SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

end Cert.KernelIdeal.Sc

end
-- ==== Proof.KITileSpec.lean ====
import proofs.«212945_g29746943492489_cont_sun_c4_499_28_alg».proof.Proof.KITile
import Idealize.ShloMosaic.Lib.ValueIdx

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

abbrev thrV (d : Dev nD) (L : grid0.Coords) : Thread nD τ := V d (cV L) (jV L)

abbrev b0Loc (d : Dev nD) (L : grid0.Coords) : Loc nD τ sig := (thrV d L).loc cc0_scratch0
abbrev b1Loc (d : Dev nD) (L : grid0.Coords) : Loc nD τ sig := (thrV d L).loc cc0_scratch1
abbrev b2Loc (d : Dev nD) (L : grid0.Coords) : Loc nD τ sig := (thrV d L).loc cc0_scratch2
abbrev b3Loc (d : Dev nD) (L : grid0.Coords) : Loc nD τ sig := (thrV d L).loc cc0_scratch3

def owesW (thr : Thread nD τ) (O : CellTallies nD τ sig (HIx 1)) (W : Waits sig (HIx 1)) : sProp 𝕄 :=
  iprop(∃ W', ⌜∀ p ∈ W', p ∈ W ∨ p.2 = none⌝ ∗ owes thr O W')

def owesW2 (thr : Thread nD τ) (O : CellTallies nD τ sig (HIx 1)) (W : Waits sig (HIx 1)) : sProp 𝕄 :=
  iprop(∃ W', ⌜∀ p ∈ W', p ∈ W ∨ p.2 = none ∨ p.2 = some (0 : Fin 1)⌝ ∗ owes thr O W')

def LenLo (l : IVec S4x16 32) (w : IVec S32 32) : Prop :=
  ∀ k (hk : k < 16), w (ValueIdx.ix1 ⟨k, Nat.lt_of_lt_of_le hk (by decide)⟩) = l (ValueIdx.ix2 (3 : Fin 4) ⟨k, hk⟩)

def preN (l : IVec S4x16 32) (k : ℕ) : ℕ := ∑ j ∈ Finset.range k, lenN l j

variable (m : (ℓ : Loc nD τ sig) → Buf (Elt F) ℓ)

def Stretch17 : Prop :=
  ∀ (d : Dev nD) (L : grid0.Coords) (q : PosShare TreeShare) (O : CellTallies nD τ sig (HIx 1)) (W : Waits sig (HIx 1))
    (f0 : Buf (Elt F) (b0Loc d L)) (f1 : Buf (Elt F) (b1Loc d L)),
    iprop(Transfers.MayWaits (thrV d L) (default : HIx 1) O
        ∗ ((Memref.whole main_arg1_scv).view.loc (thrV d L) ↦{q} m (lLoc d))
        ∗ (b0Loc d L ↦{fullShare} f0) ∗ (b1Loc d L ↦{fullShare} f1)
        ∗ semVal (cP0 d (cV L) (jV L)) 0 ∗ owesW (thrV d L) O W)
      ⊢ wp frame (wpE (D₀ (F := F)) 𝒱₀ (thrV d L) none) Set.univ
          (k0_part17 L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2)
          fun _ => iprop(((Memref.whole main_arg1_scv).view.loc (thrV d L) ↦{q} m (lLoc d))
            ∗ (∃ f0', b0Loc d L ↦{fullShare} f0')
            ∗ (∃ f1', ⌜∀ k (hk : k < 16), f1' (ValueIdx.ix1 ⟨k, Nat.lt_of_lt_of_le hk (by decide)⟩) = m (lLoc d) (ValueIdx.ix2 (3 : Fin 4) ⟨k, hk⟩)⌝
                ∗ (b1Loc d L ↦{fullShare} f1'))
            ∗ semVal (cP0 d (cV L) (jV L)) 0 ∗ owesW (thrV d L) O W)

def inv1 (d : Dev nD) (L : grid0.Coords) (w : Buf (Elt F) (b1Loc d L)) (k : ℕ) (acc : BitVec 32) : sProp 𝕄 :=
  iprop((b1Loc d L ↦{fullShare} w) ∗ ⌜acc = BitVec.ofNat 32 (preN (m (lLoc d)) k)⌝)

def RegionT1 : Prop :=
  ∀ (d : Dev nD) (L : grid0.Coords) (w : Buf (Elt F) (b1Loc d L))
    (hw : ∀ k (hk : k < 16), w (ValueIdx.ix1 ⟨k, Nat.lt_of_lt_of_le hk (by decide)⟩) = m (lLoc d) (ValueIdx.ix2 (3 : Fin 4) ⟨k, hk⟩))
    (v18 c0 : BitVec 32) (k : Fin (k0_t1_loop L).trips) (acc : BitVec 32),
    inv1 m d L w k.val acc
      ⊢ wp frame (wpE (D₀ (F := F)) 𝒱₀ (thrV d L) none) Set.univ
          (k0_t1_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v18 c0 k acc)
          (inv1 m d L w (k.val + 1))

abbrev Acc16 (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

def accs16 (f : ℕ → FVec F S16 .f32) : Acc16 F := (f 0, f 1, f 2, f 3, f 4, f 5, f 6, f 7, f 8, f 9, f 10, f 11, f 12, f 13, f 14, f 15)

def loSet : Finset S144x256.Idx := Finset.univ.filter fun x => (x 0).val < 72
def hiSet : Finset S144x256.Idx := Finset.univ.filter fun x => 72 ≤ (x 0).val

def bufPiece (B : S144x256.Idx → F .f32) (r c : ℕ) : FVec F S16 .f32 := fun k =>
  B (ValueIdx.ix2 (Fin.ofNat 144 r) (Fin.ofNat 256 (c + (k 0).val)))

def sumBuf (B : S144x256.Idx → F .f32) (c : ℕ) (a : FVec F S16 .f32) (r0 n : ℕ) : FVec F S16 .f32 :=
  (List.range' r0 n).foldl (fun a r => addf a (bufPiece B r c)) a

def accInv (d : Dev nD) (L : grid0.Coords) (S : Finset S144x256.Idx) (B : Buf (Elt F) (b2Loc d L)) (a0 : ℕ → FVec F S16 .f32)
    (r0 w : ℕ) (k : ℕ) (acc : Acc16 F) : sProp 𝕄 :=
  iprop((b2Loc d L ↦[S]{fullShare} B) ∗ ⌜acc = accs16 fun g => sumBuf B (16 * g) (a0 g) r0 (w * k)⌝)

def cnt1 (v46 v51 : BitVec 32) : ℕ := min (v46.toNat % 8 + v51.toNat) 72 - v46.toNat % 8
def cnt2 (v46 v51 : BitVec 32) : ℕ := max (v46.toNat % 8 + v51.toNat) 72 - 72

def RegionT3 : Prop :=
  ∀ (d : Dev nD) (L : grid0.Coords) (v46 v51 : BitVec 32) (hw2 : k0_chk2 L v46 v51) (hb : v46.toNat ≤ 1905) (hl : v51.toNat ≤ 127)
    (B : Buf (Elt F) (b2Loc d L)) (a0 : ℕ → FVec F S16 .f32) (v52 v55 : BitVec 32)
    (u0 u1 u2 u3 u4 u5 u6 u7 u8 u9 u10 u11 u12 u13 u14 u15 : FVec F S16 .f32) (v88 v91 : BitVec 32) (v102 v104 : BitVec 1)
    (k : Fin (k0_t3_loop v46 v51).trips) (acc : Acc16 F),
    accInv d L loSet B a0 (v46.toNat % 8) 2 k.val acc
      ⊢ wp frame (wpE (D₀ (F := F)) 𝒱₀ (thrV d L) none) Set.univ
          (k0_t3_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 v51 hw2 v52 v55
            u0 u1 u2 u3 u4 u5 u6 u7 u8 u9 u10 u11 u12 u13 u14 u15 v88 v91 v102 v104 k acc)
          (accInv d L loSet B a0 (v46.toNat % 8) 2 (k.val + 1))

def RegionT5 : Prop :=
  ∀ (d : Dev nD) (L : grid0.Coords) (v46 v51 : BitVec 32) (hw2 : k0_chk2 L v46 v51) (hb : v46.toNat ≤ 1905) (hl : v51.toNat ≤ 127)
    (B : Buf (Elt F) (b2Loc d L)) (a0 : ℕ → FVec F S16 .f32) (v52 v55 : BitVec 32)
    (u0 u1 u2 u3 u4 u5 u6 u7 u8 u9 u10 u11 u12 u13 u14 u15 : FVec F S16 .f32) (v88 v91 : BitVec 32) (v102 v104 : BitVec 1) (v116 : BitVec 32)
    (k : Fin (k0_t5_loop v46 v51).trips) (acc : Acc16 F),
    accInv d L loSet B a0 (v46.toNat % 8 + 2 * (cnt1 v46 v51 / 2)) 1 k.val acc
      ⊢ wp frame (wpE (D₀ (F := F)) 𝒱₀ (thrV d L) none) Set.univ
          (k0_t5_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 v51 hw2 v52 v55
            u0 u1 u2 u3 u4 u5 u6 u7 u8 u9 u10 u11 u12 u13 u14 u15 v88 v91 v102 v104 v116 k acc)
          (accInv d L loSet B a0 (v46.toNat % 8 + 2 * (cnt1 v46 v51 / 2)) 1 (k.val + 1))

def RegionT7 : Prop :=
  ∀ (d : Dev nD) (L : grid0.Coords) (v46 v51 : BitVec 32) (hw2 : k0_chk2 L v46 v51) (hb : v46.toNat ≤ 1905) (hl : v51.toNat ≤ 127)
    (B : Buf (Elt F) (b2Loc d L)) (a0 : ℕ → FVec F S16 .f32)
    (u0 u1 u2 u3 u4 u5 u6 u7 u8 u9 u10 u11 u12 u13 u14 u15 : FVec F S16 .f32) (v127 v130 : BitVec 32) (v141 : BitVec 1) (v142 c0 : BitVec 32)
    (k : Fin (k0_t7_loop v46 v51).trips) (acc : Acc16 F),
    accInv d L hiSet B a0 72 2 k.val acc
      ⊢ wp frame (wpE (D₀ (F := F)) 𝒱₀ (thrV d L) none) Set.univ
          (k0_t7_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 v51 hw2
            u0 u1 u2 u3 u4 u5 u6 u7 u8 u9 u10 u11 u12 u13 u14 u15 v127 v130 v141 v142 c0 k acc)
          (accInv d L hiSet B a0 72 2 (k.val + 1))

def RegionT9 : Prop :=
  ∀ (d : Dev nD) (L : grid0.Coords) (v46 v51 : BitVec 32) (hw2 : k0_chk2 L v46 v51) (hb : v46.toNat ≤ 1905) (hl : v51.toNat ≤ 127)
    (B : Buf (Elt F) (b2Loc d L)) (a0 : ℕ → FVec F S16 .f32)
    (u0 u1 u2 u3 u4 u5 u6 u7 u8 u9 u10 u11 u12 u13 u14 u15 : FVec F S16 .f32) (v127 v130 : BitVec 32) (v141 : BitVec 1) (v142 c0 v155 : BitVec 32)
    (k : Fin (k0_t9_loop v46 v51).trips) (acc : Acc16 F),
    accInv d L hiSet B a0 (72 + 2 * (cnt2 v46 v51 / 2)) 1 k.val acc
      ⊢ wp frame (wpE (D₀ (F := F)) 𝒱₀ (thrV d L) none) Set.univ
          (k0_t9_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 v51 hw2
            u0 u1 u2 u3 u4 u5 u6 u7 u8 u9 u10 u11 u12 u13 u14 u15 v127 v130 v141 v142 c0 v155 k acc)
          (accInv d L hiSet B a0 (72 + 2 * (cnt2 v46 v51 / 2)) 1 (k.val + 1))

def fixS (den : F .f32) (v : FVec F S16 .f32) : FVec F S16 .f32 :=
  select (cmpf .oeq (divf v (broadcast S16 den)) (broadcast S16 (Scalar.ofBits .f32 0x00000000#32)))
    (broadcast S16 (Scalar.ofBits .f32 0xBF800000#32)) (divf v (broadcast S16 den))

def rowPiece (R : S1x256.Idx → F .f32) (g : ℕ) : FVec F S16 .f32 := fun k =>
  R (ValueIdx.ix2 (0 : Fin 1) (Fin.ofNat 256 (16 * g + (k 0).val)))

def fixRow (den : F .f32) (R0 : S1x256.Idx → F .f32) (k : ℕ) : S1x256.Idx → F .f32 := fun i =>
  if (i 1).val / 16 < k then fixS den (rowPiece R0 ((i 1).val / 16)) (ValueIdx.ix1 (Fin.ofNat 16 ((i 1).val % 16))) else R0 i

def inv11 (d : Dev nD) (L : grid0.Coords) (den : F .f32) (R0 : Buf (Elt F) (b3Loc d L)) (k : ℕ) (_ : BitVec 32) : sProp 𝕄 :=
  iprop(b3Loc d L ↦{fullShare} (fixRow den R0 k : Buf (Elt F) (b3Loc d L)))

def RegionT11 : Prop :=
  ∀ (d : Dev nD) (L : grid0.Coords) (den : F .f32) (R0 : Buf (Elt F) (b3Loc d L)) (k : Fin k0_t11_loop.trips) (acc : BitVec 32),
    inv11 d L den R0 k.val acc
      ⊢ wp frame (wpE (D₀ (F := F)) 𝒱₀ (thrV d L) none) Set.univ
          (k0_t11_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 den k acc)
          (inv11 d L den R0 (k.val + 1))

variable (SH : (d : Dev nD) → (c : Fin τ.nSC) → Buf (Elt F) (shLoc d c))

def BarrierStep : Prop :=
  ∀ (d : Dev nD) (L : grid0.Coords) (O : CellTallies nD τ sig (HIx 1)) (W : Waits sig (HIx 1)), (∀ g, O g none = 0) →
    (∀ g ι, 0 < O g ι → 8 * (0 : Fin 1).val + 6 ≤ (K (F := F)).lev g ι) →
    ∀ {α : Type} (kk : PUnit → Prog (TpuEff nD τ sig (Elt F) Λ₀ (.scVector (cV L) (jV L))) α) (Q : α → sProp 𝕄),
    iprop(levAts (K (F := F)).L (K (F := F)).lev ∗ bkit SH d (cV L) (jV L) ∗ shBlkPts d (cV L) (jL L) (SH d (cV L))
        ∗ owesW (thrV d L) (O + oxV d (cV L)) W
        ∗ (iprop(owesW2 (thrV d L) O W ∗ (if (L 1).val = 0 then (shLoc d (cV L) ↦{fullShare} SH d (cV L)) else iprop(emp)))
            -∗ wp frame (wpE (D₀ (F := F)) 𝒱₀ (thrV d L) none) Set.univ (kk ⟨⟩) Q))
      ⊢ wp frame (wpE (D₀ (F := F)) 𝒱₀ (thrV d L) none) Set.univ (SparseCore.subcoreBarrier sc_bar0 (grid0.bound 1) hsub0 >>= kk) Q

end Cert.KernelIdeal.Sc

end
-- ==== Proof.KITile2.lean ====
import proofs.«212945_g29746943492489_cont_sun_c4_499_28_alg».proof.Proof.KITileSpec

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

abbrev b2Lo : Memref sig .scVector .vmem S72x256 .f32 :=
  (Memref.whole cc0_scratch2).slice (Rect.unit (s := S144x256) ![0, 0] S72x256.size inb_S144x256_S72x256_0_0) (fun _ => rfl)
abbrev b2Hi : Memref sig .scVector .vmem S72x256 .f32 :=
  (Memref.whole cc0_scratch2).slice (Rect.unit (s := S144x256) ![72, 0] S72x256.size inb_S144x256_S72x256_72_0) (fun _ => rfl)

theorem set_b2Lo : (b2Lo).view.set = loSet := by
  show ((View.whole (cc0_scratch2 : Ref sig .scVector)).slice _).set = _
  rw [View.set_slice_whole]
  ext x
  rw [Rect.mem_set_unit]
  simp only [loSet, Finset.mem_filter, Finset.mem_univ, true_and]
  constructor
  · intro h; have := h 0; simpa using this.2
  · intro h a
    have h1 : (x 1).val < 256 := (x 1).isLt
    match a with
    | ⟨0, _⟩ => exact ⟨Nat.zero_le _, by simpa using h⟩
    | ⟨1, _⟩ => exact ⟨Nat.zero_le _, by simpa using h1⟩

theorem set_b2Hi : (b2Hi).view.set = hiSet := by
  show ((View.whole (cc0_scratch2 : Ref sig .scVector)).slice _).set = _
  rw [View.set_slice_whole]
  ext x
  rw [Rect.mem_set_unit]
  simp only [hiSet, Finset.mem_filter, Finset.mem_univ, true_and]
  constructor
  · intro h; have := h 0; simpa using this.1
  · intro h a
    have h0 : (x 0).val < 144 := (x 0).isLt
    have h1 : (x 1).val < 256 := (x 1).isLt
    match a with
    | ⟨0, _⟩ => exact ⟨by simpa using h, by simpa using h0⟩
    | ⟨1, _⟩ => exact ⟨Nat.zero_le _, by simpa using h1⟩

theorem hi_eq_compl : (Finset.univ : Finset S144x256.Idx) \ loSet = hiSet := by
  ext x; simp [loSet, hiSet]

variable (m : (ℓ : Loc nD τ sig) → Buf (Elt F) ℓ)

def v46V (d : Dev nD) (L : grid0.Coords) : BitVec 32 := BitVec.ofNat 32 (beginN (m (lLoc d)) (pOf (L 0).val (L 1).val))

def v51V (d : Dev nD) (L : grid0.Coords) : BitVec 32 := lenW (m (lLoc d)) (pOf (L 0).val (L 1).val)

@[reducible] noncomputable def tailProg (i : grid0.Coords) (arg2 : Memref sig .scVector .hbm S4x2048x512 .f32) (harg2 : arg2.IsWhole) (arg3 : Memref sig .scVector .hbm S4x16 .i32) (harg3 : arg3.IsWhole) (arg4 : Memref sig .scVector .hbm S1x16x512 .f32) (harg4 : arg4.IsWhole) (arg5 : Memref sig .scVector .vmem S4x16 .i32) (harg5 : arg5.IsWhole) (arg6 : Memref sig .scVector .vmem S32 .i32) (harg6 : arg6.IsWhole) (arg7 : Memref sig .scVector .vmem S144x256 .f32) (harg7 : arg7.IsWhole) (arg8 : Memref sig .scVector .vmem S1x256 .f32) (harg8 : arg8.IsWhole) (arg9 : Memref sig .scVector .shared S8x512 .f32) (harg9 : arg9.IsWhole) (arg10 : DmaSems sig S_) (arg11 : DmaSems sig S_) (v234_r0 : DmaSems sig S_) (v234_r1 : DmaSems sig S_) (v236_r2 : DmaSems sig S_) (v162_4 v162_5 v162_6 v162_7 v162_8 v162_9 v162_10 v162_11 v162_12 v162_13 v162_14 v162_15 : FVec F S16 .f32) (v164 : F .f32) (v180 : FVec F S1x16 .f32) :
    Prog (TpuEff nD τ sig (Elt F) Λ₀ (.scVector ((i 0).castLE hcore0) ((i 1).castLE hsub0))) PUnit := do
  k0_part22 i arg2 harg2 arg3 harg3 arg4 harg4 arg5 harg5 arg6 harg6 arg7 harg7 arg8 harg8 arg9 harg9 arg10 arg11 v234_r0 v234_r1 v236_r2 v162_4 v162_5 v162_6 v162_7 v162_8 v162_9 v162_10 v162_11 v180
  let v214 : Vec F S1x16 .f32 ← Prog.lift (.load arg8 (Rect.unit (s := S1x256) ![0, 192] S1x16.size inb_S1x256_S1x16_0_192).toLoadRect (View.loadsAt_vmem h_S1x16))

  Prog.lift (.store arg8 (Rect.unit (s := S1x256) ![0, 192] S1x16.size inb_S1x256_S1x16_0_192) (k0_pay1 v162_12) Finset.univ (View.stores_vmem_bits_univ h_S1x16 rfl) (.inl rfl))

  let v218 : Vec F S1x16 .f32 ← Prog.lift (.load arg8 (Rect.unit (s := S1x256) ![0, 208] S1x16.size inb_S1x256_S1x16_0_208).toLoadRect (View.loadsAt_vmem h_S1x16))

  Prog.lift (.store arg8 (Rect.unit (s := S1x256) ![0, 208] S1x16.size inb_S1x256_S1x16_0_208) (k0_pay2 v162_13) Finset.univ (View.stores_vmem_bits_univ h_S1x16 rfl) (.inl rfl))

  let v222 : Vec F S1x16 .f32 ← Prog.lift (.load arg8 (Rect.unit (s := S1x256) ![0, 224] S1x16.size inb_S1x256_S1x16_0_224).toLoadRect (View.loadsAt_vmem h_S1x16))

  Prog.lift (.store arg8 (Rect.unit (s := S1x256) ![0, 224] S1x16.size inb_S1x256_S1x16_0_224) (k0_pay3 v162_14) Finset.univ (View.stores_vmem_bits_univ h_S1x16 rfl) (.inl rfl))

  let v226 : Vec F S1x16 .f32 ← Prog.lift (.load arg8 (Rect.unit (s := S1x256) ![0, 240] S1x16.size inb_S1x256_S1x16_0_240).toLoadRect (View.loadsAt_vmem h_S1x16))

  Prog.lift (.store arg8 (Rect.unit (s := S1x256) ![0, 240] S1x16.size inb_S1x256_S1x16_0_240) (k0_pay4 v162_15) Finset.univ (View.stores_vmem_bits_univ h_S1x16 rfl) (.inl rfl))

  let v230 : BitVec 32 ← Scf.Loop.for k0_t11_loop k0_t11_ok 0#32 (k0_t11_body i arg2 harg2 arg3 harg3 arg4 harg4 arg5 harg5 arg6 harg6 arg7 harg7 arg8 harg8 arg9 harg9 arg10 arg11 v234_r0 v234_r1 v236_r2 v164)

  let v236_r1 : Memref sig .scVector .shared S1x256 .f32 := arg9.slice (Rect.unit (s := S8x512) (k0_off201 i) S1x256.size (k0_off201_inb i)) (fun _ => rfl)
  Prog.lift (.enqueueDma arg8 (.here v236_r1) (.dma v234_r1.sem) harg8.wordExact (View.wordExact_bits rfl) ⟨Or.inl rfl, trivial⟩)

  let v238_r1 : Memref sig .scVector .shared S1x256 .f32 := arg9.slice (Rect.unit (s := S8x512) (k0_off201 i) S1x256.size (k0_off201_inb i)) (fun _ => rfl)
  Prog.lift (.waitDma2 v234_r1.sem arg8 v238_r1 harg8.wordExact (View.wordExact_bits rfl))

  SparseCore.subcoreBarrier sc_bar0 (grid0.bound 1) hsub0

  if k0_h3 : k0_cond3 i = 1#1 then do

    let v237_r2 : Memref sig .scVector .hbm S1x8x512 .f32 := arg4.slice (Rect.unit (s := S1x16x512) (k0_off202 i) S1x8x512.size (k0_off202_inb i k0_h3)) (fun _ => rfl)
    let v238_r2 : Memref sig .scVector .hbm S8x512 .f32 := v237_r2.squeeze S8x512 squeezes_S1x8x512_S8x512
    Prog.lift (.enqueueDma arg9 (.here v238_r2) (.dma v236_r2.sem) harg9.wordExact ((View.wordExact_bits rfl).reshape _ _) ⟨Or.inl rfl, trivial⟩)
    let v239_r2 : Memref sig .scVector .hbm S1x8x512 .f32 := arg4.slice (Rect.unit (s := S1x16x512) (k0_off202 i) S1x8x512.size (k0_off202_inb i k0_h3)) (fun _ => rfl)
    let v240_r2 : Memref sig .scVector .hbm S8x512 .f32 := v239_r2.squeeze S8x512 squeezes_S1x8x512_S8x512
    Prog.lift (.waitDma2 v236_r2.sem arg9 v240_r2 harg9.wordExact ((View.wordExact_bits rfl).reshape _ _))

    pure ⟨⟩
  else do
    pure ⟨⟩
  pure ⟨⟩

def rowOf (A : ℕ → FVec F S16 .f32) : S1x256.Idx → F .f32 := fun i => A ((i 1).val / 16) (ValueIdx.ix1 (Fin.ofNat 16 ((i 1).val % 16)))

def TailRun : Prop :=
  ∀ (d : Dev nD) (L : grid0.Coords) (O : CellTallies nD τ sig (HIx 1)) (W : Waits sig (HIx 1)), (∀ g, O g none = 0) →
    (∀ g ι, 0 < O g ι → 8 * (0 : Fin 1).val + 6 ≤ (K (F := F)).lev g ι) →
    ∀ (A : ℕ → FVec F S16 .f32) (den : F .f32) (v180 : FVec F S1x16 .f32) (R3 : Buf (Elt F) (b3Loc d L)) (fsh : Buf (Elt F) (shLoc d (cV L))),
    (∀ g, g < 16 → A g = accVal (m (xLoc d)) (m (lLoc d)) (L 0).val (L 1).val g) →
    den = Scalar.sitofp .f32 (Scalar.maxsi (v51V m d L) 1#32) →
    v180 = shapeCast S1x16 (A 3) shapeCasts_S16_S1x16 →
    (∀ g, g < 3 → rowPiece R3 g = A g) →
    iprop(levAts (K (F := F)).L (K (F := F)).lev ∗ bkit (scSH m) d (cV L) (jV L)
        ∗ (b3Loc d L ↦{fullShare} R3) ∗ shBlkPts d (cV L) (jL L) fsh
        ∗ (if (L 1).val = 0 then oRowsPts d (cL L) (m (oLoc d)) else iprop(emp))
        ∗ semVal (cP1 d (cV L) (jV L)) 0 ∗ semVal (cP2 d (cV L) (jV L)) 0
        ∗ owesW (thrV d L) (O + oxV d (cV L)) W)
      ⊢ wp frame (wpE (D₀ (F := F)) 𝒱₀ (thrV d L) none) Set.univ
          (tailProg L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2
            (A 4) (A 5) (A 6) (A 7) (A 8) (A 9) (A 10) (A 11) (A 12) (A 13) (A 14) (A 15) den v180)
          fun _ => iprop((∃ R, b3Loc d L ↦{fullShare} R)
            ∗ (if (L 1).val = 0 then iprop((∃ f, shLoc d (cV L) ↦{fullShare} f) ∗ oRowsPts d (cL L) (scOV m d)) else iprop(emp))
            ∗ semVal (cP1 d (cV L) (jV L)) 0 ∗ semVal (cP2 d (cV L) (jV L)) 0
            ∗ owesW2 (thrV d L) O W)

end Cert.KernelIdeal.Sc

end
-- ==== Proof.ScFacts.lean ====
import proofs.«212945_g29746943492489_cont_sun_c4_499_28_alg».proof.KernelIdeal
import proofs.«212945_g29746943492489_cont_sun_c4_499_28_alg».proof.Proof.Gen.KernelIdeal
import Idealize.ShloMosaic.Lib.Affine
import Idealize.ShloMosaic.Lib.StableHlo.Predicate

namespace Cert.KernelIdeal.ScFacts

open Idealize.ShloMosaic Cert.KernelIdeal

theorem isInt_of_toNat {x : BitVec 32} (h : x.toNat < 2 ^ 31) : Affine.IsInt x (x.toNat : Int) :=
  Affine.relit (Affine.word x) (StableHlo.Predicate.toInt_eq_toNat_of_lt h)

theorem toInt_of {x : BitVec 32} {e : Int} (h : Affine.IsInt x e) : x.toInt = e := by
  unfold Affine.IsInt at h; exact h

theorem trips_eq {lb ub st : BitVec 32} {el eu k : Int} (hlb : Affine.IsInt lb el) (hub : Affine.IsInt ub eu)
    (hst : Affine.IsInt st k) (n : Nat) (h : max ((eu - el + k - 1) / k) 0 = (n : Int)) : Scf.trips lb ub st = n := by
  rw [Scf.trips, toInt_of hlb, toInt_of hub, toInt_of hst]
  omega

abbrev fdiv2 (x : BitVec 32) : BitVec 32 :=
  Scalar.select (Scalar.andi (Scalar.cmpi .ne (Scalar.subi (Scalar.extui (Scalar.cmpi .sgt x 0#32))
    (Scalar.extui (Scalar.cmpi .slt x 0#32))) (Scalar.subi (Scalar.extui (Scalar.cmpi .sgt 2#32 0#32))
    (Scalar.extui (Scalar.cmpi .slt 2#32 0#32)))) (Scalar.cmpi .ne (Scalar.remsi x 2#32) 0#32))
    (Scalar.subi (Scalar.divsi x 2#32) 1#32) (Scalar.divsi x 2#32)

theorem floordiv2 {x : BitVec 32} {e : Int} (hx : Affine.IsInt x e) (h0 : 0 ≤ e ∧ e < 2 ^ 31) :
    Affine.IsInt (fdiv2 x) (e / 2) := by
  have h0' : Affine.IsInt 0#32 (0) := Affine.ofNat _ (by omega)
  have h2 : Affine.IsInt 2#32 (2) := Affine.ofNat _ (by omega)
  have h1 : Affine.IsInt 1#32 (1) := Affine.ofNat _ (by omega)
  have hd : Affine.IsInt (Scalar.divsi x 2#32) (e / 2) := Affine.divsi hx h2 (by omega)
  have hd1 : Affine.IsInt (Scalar.subi (Scalar.divsi x 2#32) 1#32) (e / 2 - 1) := Affine.subi hd h1 (by omega)
  have hf : Affine.Fails (Scalar.andi (Scalar.cmpi .ne (Scalar.subi (Scalar.extui (Scalar.cmpi .sgt x 0#32))
      (Scalar.extui (Scalar.cmpi .slt x 0#32))) (Scalar.subi (Scalar.extui (Scalar.cmpi .sgt 2#32 0#32))
      (Scalar.extui (Scalar.cmpi .slt 2#32 0#32)))) (Scalar.cmpi .ne (Scalar.remsi x 2#32) 0#32)) := by
    rcases (by omega : e = 0 ∨ 0 < e) with h | h
    · have hr : Affine.IsInt (Scalar.remsi x 2#32) (0) := Affine.remsi hx h2 (by omega)
      exact Affine.andi_fails_right trivial (Affine.ne_fails hr h0' rfl)
    · have hs : Affine.Holds (Scalar.cmpi .sgt x 0#32) := Affine.sgt_holds hx h0' h
      have hl : Affine.Fails (Scalar.cmpi .slt x 0#32) := Affine.slt_fails hx h0' (by omega)
      have h96 : Affine.IsInt (Scalar.subi (Scalar.extui (Scalar.cmpi .sgt x 0#32)) (Scalar.extui (Scalar.cmpi .slt x 0#32))) (1) :=
        Affine.subi (Affine.extui_holds hs rfl) (Affine.extui_fails hl rfl) (by omega)
      have h101 : Affine.IsInt (Scalar.subi (Scalar.extui (Scalar.cmpi .sgt 2#32 0#32)) (Scalar.extui (Scalar.cmpi .slt 2#32 0#32))) (1) :=
        Affine.subi (Affine.extui_holds (Affine.sgt_holds h2 h0' (by omega)) rfl)
          (Affine.extui_fails (Affine.slt_fails h2 h0' (by omega)) rfl) (by omega)
      exact Affine.andi_fails_left (Affine.ne_fails h96 h101 rfl) trivial
  exact Affine.select_fails hf hd1 hd rfl

theorem vec2 {f : Fin 2 → Nat} {r c : Nat} (h0 : f 0 = r) (h1 : f 1 = c) : f = ![r, c] := by
  funext a; fin_cases a
  · exact h0
  · exact h1

theorem off_of {g f : Fin 2 → ℕ} {r : ℕ} (hg : g = ![r, 0]) (h0 : f 0 = g 0) : f = ![r, f 1] :=
  vec2 (h0.trans (congrFun hg 0)) rfl

theorem inb_of_eq {f : Fin 2 → Nat} {r c : Nat} (h : f = ![r, c]) (hr : r < 144) (hc : c + 16 ≤ 256) :
    ∀ a, f a + S1x16.size a ≤ S144x256.size a := by
  subst h; intro a; fin_cases a
  · show r + 1 ≤ 144; omega
  · show c + 16 ≤ 256; exact hc

theorem vac {n : Nat} (h : n = 0) {P : Fin n → Prop} : ∀ t, P t := by
  subst h; exact fun t => t.elim0

theorem cst (n : Nat) (h : n < 2 ^ 31 := by omega) : Affine.IsInt (BitVec.ofNat 32 n) (n : Int) := Affine.ofNat n ⟨rfl, h⟩

abbrev w52 (v46 : BitVec 32) : BitVec 32 := Scalar.remsi v46 8#32
abbrev w55 (v46 v51 : BitVec 32) : BitVec 32 := Scalar.addi (w52 v46) v51
abbrev w88 (v46 v51 : BitVec 32) : BitVec 32 := Scalar.minsi (w55 v46 v51) 72#32
abbrev w89 (v46 v51 : BitVec 32) : BitVec 32 := Scalar.subi (w88 v46 v51) (w52 v46)
abbrev w127 (v46 v51 : BitVec 32) : BitVec 32 := Scalar.maxsi (w55 v46 v51) 72#32
abbrev w128 (v46 v51 : BitVec 32) : BitVec 32 := Scalar.subi (w127 v46 v51) 72#32

theorem i46 {v46 : BitVec 32} (hb : v46.toNat ≤ 1905) : Affine.IsInt v46 (v46.toNat : Int) := isInt_of_toNat (by omega)
theorem i51 {v51 : BitVec 32} (hl : v51.toNat ≤ 127) : Affine.IsInt v51 (v51.toNat : Int) := isInt_of_toNat (by omega)
theorem i52 {v46 : BitVec 32} (hb : v46.toNat ≤ 1905) : Affine.IsInt (w52 v46) ((v46.toNat : Int) % 8) := Affine.remsi (i46 hb) (cst 8) (by omega)
theorem i55 {v46 v51 : BitVec 32} (hb : v46.toNat ≤ 1905) (hl : v51.toNat ≤ 127) : Affine.IsInt (w55 v46 v51) (((v46.toNat : Int) % 8) + (v51.toNat : Int)) := Affine.addi (i52 hb) (i51 hl) (by omega)
theorem i88 {v46 v51 : BitVec 32} (hb : v46.toNat ≤ 1905) (hl : v51.toNat ≤ 127) : Affine.IsInt (w88 v46 v51) (min (((v46.toNat : Int) % 8) + (v51.toNat : Int)) 72) := Affine.minsi (i55 hb hl) (cst 72) (by omega)
theorem i89 {v46 v51 : BitVec 32} (hb : v46.toNat ≤ 1905) (hl : v51.toNat ≤ 127) : Affine.IsInt (w89 v46 v51) ((min (((v46.toNat : Int) % 8) + (v51.toNat : Int)) 72) - ((v46.toNat : Int) % 8)) := Affine.subi (i88 hb hl) (i52 hb) (by omega)
theorem i90 {v46 v51 : BitVec 32} (hb : v46.toNat ≤ 1905) (hl : v51.toNat ≤ 127) : Affine.IsInt (Scalar.maxsi (w89 v46 v51) 0#32) (max ((min (((v46.toNat : Int) % 8) + (v51.toNat : Int)) 72) - ((v46.toNat : Int) % 8)) 0) := Affine.maxsi (i89 hb hl) (cst 0) (by omega)
theorem i107 {v46 v51 : BitVec 32} (hb : v46.toNat ≤ 1905) (hl : v51.toNat ≤ 127) : Affine.IsInt (fdiv2 (Scalar.maxsi (w89 v46 v51) 0#32)) ((max ((min (((v46.toNat : Int) % 8) + (v51.toNat : Int)) 72) - ((v46.toNat : Int) % 8)) 0) / 2) := floordiv2 (i90 hb hl) (by omega)
theorem i127 {v46 v51 : BitVec 32} (hb : v46.toNat ≤ 1905) (hl : v51.toNat ≤ 127) : Affine.IsInt (w127 v46 v51) (max (((v46.toNat : Int) % 8) + (v51.toNat : Int)) 72) := Affine.maxsi (i55 hb hl) (cst 72) (by omega)
theorem i128 {v46 v51 : BitVec 32} (hb : v46.toNat ≤ 1905) (hl : v51.toNat ≤ 127) : Affine.IsInt (w128 v46 v51) ((max (((v46.toNat : Int) % 8) + (v51.toNat : Int)) 72) - 72) := Affine.subi (i127 hb hl) (cst 72) (by omega)
theorem i129 {v46 v51 : BitVec 32} (hb : v46.toNat ≤ 1905) (hl : v51.toNat ≤ 127) : Affine.IsInt (Scalar.maxsi (w128 v46 v51) 0#32) (max ((max (((v46.toNat : Int) % 8) + (v51.toNat : Int)) 72) - 72) 0) := Affine.maxsi (i128 hb hl) (cst 0) (by omega)
theorem i146 {v46 v51 : BitVec 32} (hb : v46.toNat ≤ 1905) (hl : v51.toNat ≤ 127) : Affine.IsInt (fdiv2 (Scalar.maxsi (w128 v46 v51) 0#32)) ((max ((max (((v46.toNat : Int) % 8) + (v51.toNat : Int)) 72) - 72) 0) / 2) := floordiv2 (i129 hb hl) (by omega)

theorem t3_abs {v46 v51 : BitVec 32} (hb : v46.toNat ≤ 1905) (hl : v51.toNat ≤ 127) :
    (k0_t3_loop v46 v51).OK ∧ (k0_t3_loop v46 v51).trips = (min (v46.toNat % 8 + v51.toNat) 72 - v46.toNat % 8) / 2 := by
  have h_v108 : Affine.IsInt _ ((max ((min (((v46.toNat : Int) % 8) + (v51.toNat : Int)) 72) - ((v46.toNat : Int) % 8)) 0) / 2) := Affine.subi (i107 hb hl) (cst 0) (by omega)
  have h_v110 : Affine.IsInt _ ((max ((min (((v46.toNat : Int) % 8) + (v51.toNat : Int)) 72) - ((v46.toNat : Int) % 8)) 0) / 2) := Affine.divsi_one h_v108 (cst 1) (by omega)
  have h_v111 : Affine.IsInt _ ((max ((min (((v46.toNat : Int) % 8) + (v51.toNat : Int)) 72) - ((v46.toNat : Int) % 8)) 0) / 2) := Affine.muli h_v110 (cst 1) (by omega)
  have h_v112 : Affine.IsInt _ ((max ((min (((v46.toNat : Int) % 8) + (v51.toNat : Int)) 72) - ((v46.toNat : Int) % 8)) 0) / 2) := Affine.addi (cst 0) h_v111 (by omega)
  exact ⟨Affine.ok (cst 0) h_v112 (cst 1) (by omega), trips_eq (cst 0) h_v112 (cst 1) _ (by omega)⟩

theorem t4_abs {v46 v51 : BitVec 32} (hb : v46.toNat ≤ 1905) (hl : v51.toNat ≤ 127) :
    (k0_t4_loop v46 v51).OK ∧ (k0_t4_loop v46 v51).trips = 0 := by
  have h_v108 : Affine.IsInt _ ((max ((min (((v46.toNat : Int) % 8) + (v51.toNat : Int)) 72) - ((v46.toNat : Int) % 8)) 0) / 2) := Affine.subi (i107 hb hl) (cst 0) (by omega)
  have h_v110 : Affine.IsInt _ ((max ((min (((v46.toNat : Int) % 8) + (v51.toNat : Int)) 72) - ((v46.toNat : Int) % 8)) 0) / 2) := Affine.divsi_one h_v108 (cst 1) (by omega)
  have h_v111 : Affine.IsInt _ ((max ((min (((v46.toNat : Int) % 8) + (v51.toNat : Int)) 72) - ((v46.toNat : Int) % 8)) 0) / 2) := Affine.muli h_v110 (cst 1) (by omega)
  have h_v112 : Affine.IsInt _ ((max ((min (((v46.toNat : Int) % 8) + (v51.toNat : Int)) 72) - ((v46.toNat : Int) % 8)) 0) / 2) := Affine.addi (cst 0) h_v111 (by omega)
  have h_v109 : Affine.IsInt _ ((max ((min (((v46.toNat : Int) % 8) + (v51.toNat : Int)) 72) - ((v46.toNat : Int) % 8)) 0) / 2) := Affine.addi (cst 0) h_v108 (by omega)
  exact ⟨Affine.ok h_v112 h_v109 (cst 1) (by omega), trips_eq h_v112 h_v109 (cst 1) _ (by omega)⟩

theorem t5_abs {v46 v51 : BitVec 32} (hb : v46.toNat ≤ 1905) (hl : v51.toNat ≤ 127) :
    (k0_t5_loop v46 v51).OK ∧ (k0_t5_loop v46 v51).trips = (min (v46.toNat % 8 + v51.toNat) 72 - v46.toNat % 8) % 2 := by
  have h_v115 : Affine.IsInt _ (2 * ((max ((min (((v46.toNat : Int) % 8) + (v51.toNat : Int)) 72) - ((v46.toNat : Int) % 8)) 0) / 2)) := Affine.muli (cst 2) (i107 hb hl) (by omega)
  have h_v116 : Affine.IsInt _ (((v46.toNat : Int) % 8) + (2 * ((max ((min (((v46.toNat : Int) % 8) + (v51.toNat : Int)) 72) - ((v46.toNat : Int) % 8)) 0) / 2))) := Affine.addi (i52 hb) h_v115 (by omega)
  have h_v117 : Affine.IsInt _ ((min (((v46.toNat : Int) % 8) + (v51.toNat : Int)) 72) - (((v46.toNat : Int) % 8) + (2 * ((max ((min (((v46.toNat : Int) % 8) + (v51.toNat : Int)) 72) - ((v46.toNat : Int) % 8)) 0) / 2)))) := Affine.subi (i88 hb hl) h_v116 (by omega)
  have h_v119 : Affine.IsInt _ ((min (((v46.toNat : Int) % 8) + (v51.toNat : Int)) 72) - (((v46.toNat : Int) % 8) + (2 * ((max ((min (((v46.toNat : Int) % 8) + (v51.toNat : Int)) 72) - ((v46.toNat : Int) % 8)) 0) / 2)))) := Affine.divsi_one h_v117 (cst 1) (by omega)
  have h_v120 : Affine.IsInt _ ((min (((v46.toNat : Int) % 8) + (v51.toNat : Int)) 72) - (((v46.toNat : Int) % 8) + (2 * ((max ((min (((v46.toNat : Int) % 8) + (v51.toNat : Int)) 72) - ((v46.toNat : Int) % 8)) 0) / 2)))) := Affine.muli h_v119 (cst 1) (by omega)
  have h_v121 : Affine.IsInt _ ((((v46.toNat : Int) % 8) + (2 * ((max ((min (((v46.toNat : Int) % 8) + (v51.toNat : Int)) 72) - ((v46.toNat : Int) % 8)) 0) / 2))) + ((min (((v46.toNat : Int) % 8) + (v51.toNat : Int)) 72) - (((v46.toNat : Int) % 8) + (2 * ((max ((min (((v46.toNat : Int) % 8) + (v51.toNat : Int)) 72) - ((v46.toNat : Int) % 8)) 0) / 2))))) := Affine.addi h_v116 h_v120 (by omega)
  exact ⟨Affine.ok h_v116 h_v121 (cst 1) (by omega), trips_eq h_v116 h_v121 (cst 1) _ (by omega)⟩

theorem t6_abs {v46 v51 : BitVec 32} (hb : v46.toNat ≤ 1905) (hl : v51.toNat ≤ 127) :
    (k0_t6_loop v46 v51).OK ∧ (k0_t6_loop v46 v51).trips = 0 := by
  have h_v115 : Affine.IsInt _ (2 * ((max ((min (((v46.toNat : Int) % 8) + (v51.toNat : Int)) 72) - ((v46.toNat : Int) % 8)) 0) / 2)) := Affine.muli (cst 2) (i107 hb hl) (by omega)
  have h_v116 : Affine.IsInt _ (((v46.toNat : Int) % 8) + (2 * ((max ((min (((v46.toNat : Int) % 8) + (v51.toNat : Int)) 72) - ((v46.toNat : Int) % 8)) 0) / 2))) := Affine.addi (i52 hb) h_v115 (by omega)
  have h_v117 : Affine.IsInt _ ((min (((v46.toNat : Int) % 8) + (v51.toNat : Int)) 72) - (((v46.toNat : Int) % 8) + (2 * ((max ((min (((v46.toNat : Int) % 8) + (v51.toNat : Int)) 72) - ((v46.toNat : Int) % 8)) 0) / 2)))) := Affine.subi (i88 hb hl) h_v116 (by omega)
  have h_v119 : Affine.IsInt _ ((min (((v46.toNat : Int) % 8) + (v51.toNat : Int)) 72) - (((v46.toNat : Int) % 8) + (2 * ((max ((min (((v46.toNat : Int) % 8) + (v51.toNat : Int)) 72) - ((v46.toNat : Int) % 8)) 0) / 2)))) := Affine.divsi_one h_v117 (cst 1) (by omega)
  have h_v120 : Affine.IsInt _ ((min (((v46.toNat : Int) % 8) + (v51.toNat : Int)) 72) - (((v46.toNat : Int) % 8) + (2 * ((max ((min (((v46.toNat : Int) % 8) + (v51.toNat : Int)) 72) - ((v46.toNat : Int) % 8)) 0) / 2)))) := Affine.muli h_v119 (cst 1) (by omega)
  have h_v121 : Affine.IsInt _ ((((v46.toNat : Int) % 8) + (2 * ((max ((min (((v46.toNat : Int) % 8) + (v51.toNat : Int)) 72) - ((v46.toNat : Int) % 8)) 0) / 2))) + ((min (((v46.toNat : Int) % 8) + (v51.toNat : Int)) 72) - (((v46.toNat : Int) % 8) + (2 * ((max ((min (((v46.toNat : Int) % 8) + (v51.toNat : Int)) 72) - ((v46.toNat : Int) % 8)) 0) / 2))))) := Affine.addi h_v116 h_v120 (by omega)
  have h_v118 : Affine.IsInt _ ((((v46.toNat : Int) % 8) + (2 * ((max ((min (((v46.toNat : Int) % 8) + (v51.toNat : Int)) 72) - ((v46.toNat : Int) % 8)) 0) / 2))) + ((min (((v46.toNat : Int) % 8) + (v51.toNat : Int)) 72) - (((v46.toNat : Int) % 8) + (2 * ((max ((min (((v46.toNat : Int) % 8) + (v51.toNat : Int)) 72) - ((v46.toNat : Int) % 8)) 0) / 2))))) := Affine.addi h_v116 h_v117 (by omega)
  exact ⟨Affine.ok h_v121 h_v118 (cst 1) (by omega), trips_eq h_v121 h_v118 (cst 1) _ (by omega)⟩

theorem t7_abs {v46 v51 : BitVec 32} (hb : v46.toNat ≤ 1905) (hl : v51.toNat ≤ 127) :
    (k0_t7_loop v46 v51).OK ∧ (k0_t7_loop v46 v51).trips = (max (v46.toNat % 8 + v51.toNat) 72 - 72) / 2 := by
  have h_v147 : Affine.IsInt _ ((max ((max (((v46.toNat : Int) % 8) + (v51.toNat : Int)) 72) - 72) 0) / 2) := Affine.subi (i146 hb hl) (cst 0) (by omega)
  have h_v149 : Affine.IsInt _ ((max ((max (((v46.toNat : Int) % 8) + (v51.toNat : Int)) 72) - 72) 0) / 2) := Affine.divsi_one h_v147 (cst 1) (by omega)
  have h_v150 : Affine.IsInt _ ((max ((max (((v46.toNat : Int) % 8) + (v51.toNat : Int)) 72) - 72) 0) / 2) := Affine.muli h_v149 (cst 1) (by omega)
  have h_v151 : Affine.IsInt _ ((max ((max (((v46.toNat : Int) % 8) + (v51.toNat : Int)) 72) - 72) 0) / 2) := Affine.addi (cst 0) h_v150 (by omega)
  exact ⟨Affine.ok (cst 0) h_v151 (cst 1) (by omega), trips_eq (cst 0) h_v151 (cst 1) _ (by omega)⟩

theorem t8_abs {v46 v51 : BitVec 32} (hb : v46.toNat ≤ 1905) (hl : v51.toNat ≤ 127) :
    (k0_t8_loop v46 v51).OK ∧ (k0_t8_loop v46 v51).trips = 0 := by
  have h_v147 : Affine.IsInt _ ((max ((max (((v46.toNat : Int) % 8) + (v51.toNat : Int)) 72) - 72) 0) / 2) := Affine.subi (i146 hb hl) (cst 0) (by omega)
  have h_v149 : Affine.IsInt _ ((max ((max (((v46.toNat : Int) % 8) + (v51.toNat : Int)) 72) - 72) 0) / 2) := Affine.divsi_one h_v147 (cst 1) (by omega)
  have h_v150 : Affine.IsInt _ ((max ((max (((v46.toNat : Int) % 8) + (v51.toNat : Int)) 72) - 72) 0) / 2) := Affine.muli h_v149 (cst 1) (by omega)
  have h_v151 : Affine.IsInt _ ((max ((max (((v46.toNat : Int) % 8) + (v51.toNat : Int)) 72) - 72) 0) / 2) := Affine.addi (cst 0) h_v150 (by omega)
  have h_v148 : Affine.IsInt _ ((max ((max (((v46.toNat : Int) % 8) + (v51.toNat : Int)) 72) - 72) 0) / 2) := Affine.addi (cst 0) h_v147 (by omega)
  exact ⟨Affine.ok h_v151 h_v148 (cst 1) (by omega), trips_eq h_v151 h_v148 (cst 1) _ (by omega)⟩

theorem t9_abs {v46 v51 : BitVec 32} (hb : v46.toNat ≤ 1905) (hl : v51.toNat ≤ 127) :
    (k0_t9_loop v46 v51).OK ∧ (k0_t9_loop v46 v51).trips = (max (v46.toNat % 8 + v51.toNat) 72 - 72) % 2 := by
  have h_v154 : Affine.IsInt _ (2 * ((max ((max (((v46.toNat : Int) % 8) + (v51.toNat : Int)) 72) - 72) 0) / 2)) := Affine.muli (cst 2) (i146 hb hl) (by omega)
  have h_v155 : Affine.IsInt _ (72 + (2 * ((max ((max (((v46.toNat : Int) % 8) + (v51.toNat : Int)) 72) - 72) 0) / 2))) := Affine.addi (cst 72) h_v154 (by omega)
  have h_v156 : Affine.IsInt _ ((max (((v46.toNat : Int) % 8) + (v51.toNat : Int)) 72) - (72 + (2 * ((max ((max (((v46.toNat : Int) % 8) + (v51.toNat : Int)) 72) - 72) 0) / 2)))) := Affine.subi (i127 hb hl) h_v155 (by omega)
  have h_v158 : Affine.IsInt _ ((max (((v46.toNat : Int) % 8) + (v51.toNat : Int)) 72) - (72 + (2 * ((max ((max (((v46.toNat : Int) % 8) + (v51.toNat : Int)) 72) - 72) 0) / 2)))) := Affine.divsi_one h_v156 (cst 1) (by omega)
  have h_v159 : Affine.IsInt _ ((max (((v46.toNat : Int) % 8) + (v51.toNat : Int)) 72) - (72 + (2 * ((max ((max (((v46.toNat : Int) % 8) + (v51.toNat : Int)) 72) - 72) 0) / 2)))) := Affine.muli h_v158 (cst 1) (by omega)
  have h_v160 : Affine.IsInt _ ((72 + (2 * ((max ((max (((v46.toNat : Int) % 8) + (v51.toNat : Int)) 72) - 72) 0) / 2))) + ((max (((v46.toNat : Int) % 8) + (v51.toNat : Int)) 72) - (72 + (2 * ((max ((max (((v46.toNat : Int) % 8) + (v51.toNat : Int)) 72) - 72) 0) / 2))))) := Affine.addi h_v155 h_v159 (by omega)
  exact ⟨Affine.ok h_v155 h_v160 (cst 1) (by omega), trips_eq h_v155 h_v160 (cst 1) _ (by omega)⟩

theorem t10_abs {v46 v51 : BitVec 32} (hb : v46.toNat ≤ 1905) (hl : v51.toNat ≤ 127) :
    (k0_t10_loop v46 v51).OK ∧ (k0_t10_loop v46 v51).trips = 0 := by
  have h_v154 : Affine.IsInt _ (2 * ((max ((max (((v46.toNat : Int) % 8) + (v51.toNat : Int)) 72) - 72) 0) / 2)) := Affine.muli (cst 2) (i146 hb hl) (by omega)
  have h_v155 : Affine.IsInt _ (72 + (2 * ((max ((max (((v46.toNat : Int) % 8) + (v51.toNat : Int)) 72) - 72) 0) / 2))) := Affine.addi (cst 72) h_v154 (by omega)
  have h_v156 : Affine.IsInt _ ((max (((v46.toNat : Int) % 8) + (v51.toNat : Int)) 72) - (72 + (2 * ((max ((max (((v46.toNat : Int) % 8) + (v51.toNat : Int)) 72) - 72) 0) / 2)))) := Affine.subi (i127 hb hl) h_v155 (by omega)
  have h_v158 : Affine.IsInt _ ((max (((v46.toNat : Int) % 8) + (v51.toNat : Int)) 72) - (72 + (2 * ((max ((max (((v46.toNat : Int) % 8) + (v51.toNat : Int)) 72) - 72) 0) / 2)))) := Affine.divsi_one h_v156 (cst 1) (by omega)
  have h_v159 : Affine.IsInt _ ((max (((v46.toNat : Int) % 8) + (v51.toNat : Int)) 72) - (72 + (2 * ((max ((max (((v46.toNat : Int) % 8) + (v51.toNat : Int)) 72) - 72) 0) / 2)))) := Affine.muli h_v158 (cst 1) (by omega)
  have h_v160 : Affine.IsInt _ ((72 + (2 * ((max ((max (((v46.toNat : Int) % 8) + (v51.toNat : Int)) 72) - 72) 0) / 2))) + ((max (((v46.toNat : Int) % 8) + (v51.toNat : Int)) 72) - (72 + (2 * ((max ((max (((v46.toNat : Int) % 8) + (v51.toNat : Int)) 72) - 72) 0) / 2))))) := Affine.addi h_v155 h_v159 (by omega)
  have h_v157 : Affine.IsInt _ ((72 + (2 * ((max ((max (((v46.toNat : Int) % 8) + (v51.toNat : Int)) 72) - 72) 0) / 2))) + ((max (((v46.toNat : Int) % 8) + (v51.toNat : Int)) 72) - (72 + (2 * ((max ((max (((v46.toNat : Int) % 8) + (v51.toNat : Int)) 72) - 72) 0) / 2))))) := Affine.addi h_v155 h_v156 (by omega)
  exact ⟨Affine.ok h_v160 h_v157 (cst 1) (by omega), trips_eq h_v160 h_v157 (cst 1) _ (by omega)⟩

theorem k0_off7_eq {v46 v51 : BitVec 32} (hb : v46.toNat ≤ 1905) (hl : v51.toNat ≤ 127) (k0_t3 : Fin (k0_t3_loop v46 v51).trips) :
    k0_off7 v46 v51 k0_t3 = ![v46.toNat % 8 + 2 * k0_t3.val, 0] := by
  have ht : k0_t3.val < (min (v46.toNat % 8 + v51.toNat) 72 - v46.toNat % 8) / 2 := Nat.lt_of_lt_of_eq k0_t3.isLt (t3_abs hb hl).2
  have h_arg12 : Affine.IsInt _ ((k0_t3.val : Int)) := Affine.iv (cst 0) (cst 1) k0_t3.val (by omega)
  have h_v234 : Affine.IsInt _ (2 * (k0_t3.val : Int)) := Affine.muli (cst 2) h_arg12 (by omega)
  have h_v235 : Affine.IsInt _ (((v46.toNat : Int) % 8) + (2 * (k0_t3.val : Int))) := Affine.addi (i52 hb) h_v234 (by omega)
  have h_v236 : Affine.IsInt _ (((v46.toNat : Int) % 8) + (2 * (k0_t3.val : Int))) := Affine.indexCast h_v235
  exact Affine.vec_cons h_v236 (by omega) rfl
theorem k0_off8_eq {v46 v51 : BitVec 32} (hb : v46.toNat ≤ 1905) (hl : v51.toNat ≤ 127) (k0_t3 : Fin (k0_t3_loop v46 v51).trips) :
    k0_off8 v46 v51 k0_t3 = ![v46.toNat % 8 + 2 * k0_t3.val + 1, 0] := by
  have ht : k0_t3.val < (min (v46.toNat % 8 + v51.toNat) 72 - v46.toNat % 8) / 2 := Nat.lt_of_lt_of_eq k0_t3.isLt (t3_abs hb hl).2
  have h_arg12 : Affine.IsInt _ ((k0_t3.val : Int)) := Affine.iv (cst 0) (cst 1) k0_t3.val (by omega)
  have h_v234 : Affine.IsInt _ (2 * (k0_t3.val : Int)) := Affine.muli (cst 2) h_arg12 (by omega)
  have h_v235 : Affine.IsInt _ (((v46.toNat : Int) % 8) + (2 * (k0_t3.val : Int))) := Affine.addi (i52 hb) h_v234 (by omega)
  have h_v240 : Affine.IsInt _ ((((v46.toNat : Int) % 8) + (2 * (k0_t3.val : Int))) + 1) := Affine.addi h_v235 (cst 1) (by omega)
  have h_v241 : Affine.IsInt _ ((((v46.toNat : Int) % 8) + (2 * (k0_t3.val : Int))) + 1) := Affine.indexCast h_v240
  exact Affine.vec_cons h_v241 (by omega) rfl
theorem k0_off71_eq {v46 v51 : BitVec 32} (hb : v46.toNat ≤ 1905) (hl : v51.toNat ≤ 127) (k0_t5 : Fin (k0_t5_loop v46 v51).trips) :
    k0_off71 v46 v51 k0_t5 = ![v46.toNat % 8 + 2 * ((min (v46.toNat % 8 + v51.toNat) 72 - v46.toNat % 8) / 2) + k0_t5.val, 0] := by
  have ht : k0_t5.val < (min (v46.toNat % 8 + v51.toNat) 72 - v46.toNat % 8) % 2 := Nat.lt_of_lt_of_eq k0_t5.isLt (t5_abs hb hl).2
  have h_v115 : Affine.IsInt _ (2 * ((max ((min (((v46.toNat : Int) % 8) + (v51.toNat : Int)) 72) - ((v46.toNat : Int) % 8)) 0) / 2)) := Affine.muli (cst 2) (i107 hb hl) (by omega)
  have h_v116 : Affine.IsInt _ (((v46.toNat : Int) % 8) + (2 * ((max ((min (((v46.toNat : Int) % 8) + (v51.toNat : Int)) 72) - ((v46.toNat : Int) % 8)) 0) / 2))) := Affine.addi (i52 hb) h_v115 (by omega)
  have h_arg12 : Affine.IsInt _ ((((v46.toNat : Int) % 8) + (2 * ((max ((min (((v46.toNat : Int) % 8) + (v51.toNat : Int)) 72) - ((v46.toNat : Int) % 8)) 0) / 2))) + (k0_t5.val : Int)) := Affine.iv h_v116 (cst 1) k0_t5.val (by omega)
  have h_v234 : Affine.IsInt _ ((((v46.toNat : Int) % 8) + (2 * ((max ((min (((v46.toNat : Int) % 8) + (v51.toNat : Int)) 72) - ((v46.toNat : Int) % 8)) 0) / 2))) + (k0_t5.val : Int)) := Affine.indexCast h_arg12
  exact Affine.vec_cons h_v234 (by omega) rfl
theorem k0_off104_eq {v46 v51 : BitVec 32} (hb : v46.toNat ≤ 1905) (hl : v51.toNat ≤ 127) (k0_t7 : Fin (k0_t7_loop v46 v51).trips) :
    k0_off104 v46 v51 k0_t7 = ![72 + 2 * k0_t7.val, 0] := by
  have ht : k0_t7.val < (max (v46.toNat % 8 + v51.toNat) 72 - 72) / 2 := Nat.lt_of_lt_of_eq k0_t7.isLt (t7_abs hb hl).2
  have h_arg12 : Affine.IsInt _ ((k0_t7.val : Int)) := Affine.iv (cst 0) (cst 1) k0_t7.val (by omega)
  have h_v234 : Affine.IsInt _ (2 * (k0_t7.val : Int)) := Affine.muli (cst 2) h_arg12 (by omega)
  have h_v235 : Affine.IsInt _ (72 + (2 * (k0_t7.val : Int))) := Affine.addi (cst 72) h_v234 (by omega)
  have h_v236 : Affine.IsInt _ (72 + (2 * (k0_t7.val : Int))) := Affine.indexCast h_v235
  exact Affine.vec_cons h_v236 (by omega) rfl
theorem k0_off105_eq {v46 v51 : BitVec 32} (hb : v46.toNat ≤ 1905) (hl : v51.toNat ≤ 127) (k0_t7 : Fin (k0_t7_loop v46 v51).trips) :
    k0_off105 v46 v51 k0_t7 = ![72 + 2 * k0_t7.val + 1, 0] := by
  have ht : k0_t7.val < (max (v46.toNat % 8 + v51.toNat) 72 - 72) / 2 := Nat.lt_of_lt_of_eq k0_t7.isLt (t7_abs hb hl).2
  have h_arg12 : Affine.IsInt _ ((k0_t7.val : Int)) := Affine.iv (cst 0) (cst 1) k0_t7.val (by omega)
  have h_v234 : Affine.IsInt _ (2 * (k0_t7.val : Int)) := Affine.muli (cst 2) h_arg12 (by omega)
  have h_v235 : Affine.IsInt _ (72 + (2 * (k0_t7.val : Int))) := Affine.addi (cst 72) h_v234 (by omega)
  have h_v240 : Affine.IsInt _ ((72 + (2 * (k0_t7.val : Int))) + 1) := Affine.addi h_v235 (cst 1) (by omega)
  have h_v241 : Affine.IsInt _ ((72 + (2 * (k0_t7.val : Int))) + 1) := Affine.indexCast h_v240
  exact Affine.vec_cons h_v241 (by omega) rfl
theorem k0_off168_eq {v46 v51 : BitVec 32} (hb : v46.toNat ≤ 1905) (hl : v51.toNat ≤ 127) (k0_t9 : Fin (k0_t9_loop v46 v51).trips) :
    k0_off168 v46 v51 k0_t9 = ![72 + 2 * ((max (v46.toNat % 8 + v51.toNat) 72 - 72) / 2) + k0_t9.val, 0] := by
  have ht : k0_t9.val < (max (v46.toNat % 8 + v51.toNat) 72 - 72) % 2 := Nat.lt_of_lt_of_eq k0_t9.isLt (t9_abs hb hl).2
  have h_v154 : Affine.IsInt _ (2 * ((max ((max (((v46.toNat : Int) % 8) + (v51.toNat : Int)) 72) - 72) 0) / 2)) := Affine.muli (cst 2) (i146 hb hl) (by omega)
  have h_v155 : Affine.IsInt _ (72 + (2 * ((max ((max (((v46.toNat : Int) % 8) + (v51.toNat : Int)) 72) - 72) 0) / 2))) := Affine.addi (cst 72) h_v154 (by omega)
  have h_arg12 : Affine.IsInt _ ((72 + (2 * ((max ((max (((v46.toNat : Int) % 8) + (v51.toNat : Int)) 72) - 72) 0) / 2))) + (k0_t9.val : Int)) := Affine.iv h_v155 (cst 1) k0_t9.val (by omega)
  have h_v234 : Affine.IsInt _ ((72 + (2 * ((max ((max (((v46.toNat : Int) % 8) + (v51.toNat : Int)) 72) - 72) 0) / 2))) + (k0_t9.val : Int)) := Affine.indexCast h_arg12
  exact Affine.vec_cons h_v234 (by omega) rfl

theorem mult1_isInt {v46 : BitVec 32} (hb : v46.toNat ≤ 1905) :
    Affine.IsInt (k0_mult1 v46) ((v46.toNat : Int) - (v46.toNat : Int) % 8) := by
  have h_v53 : Affine.IsInt _ ((v46.toNat : Int) - ((v46.toNat : Int) % 8)) := Affine.subi (i46 hb) (i52 hb) (by omega)
  exact h_v53

theorem slice_off4_inb (i : grid0.Coords) {v46 : BitVec 32} (hb : v46.toNat ≤ 1905) :
    ∀ a, (k0_off4 i v46) a + S1x72x256.size a ≤ S4x2048x512.size a := by
  have r_i0 : (i 0).val < 2 := (i 0).isLt
  have r_i1 : (i 1).val < 16 := (i 1).isLt
  have h_v53 : Affine.IsInt _ ((v46.toNat : Int) - ((v46.toNat : Int) % 8)) := Affine.subi (i46 hb) (i52 hb) (by omega)
  have h_arg1 : Affine.IsInt (BitVec.ofNat 32 (i 1).val) (((i 1).val : Int)) := Affine.ofNat _ (by omega)
  have h_v19 : Affine.Fails _ := Affine.eq_fails (cst 2) (cst 0) (by omega)
  have h_v20 : Affine.IsInt _ (2) := Affine.select_fails h_v19 (cst 1) (cst 2) (by omega)
  have h_v21 : Affine.IsInt _ (((i 1).val : Int) % 2) := Affine.remsi h_arg1 h_v20 (by omega)
  have h_v23 : Affine.Fails _ := Affine.slt_fails h_v21 (cst 0) (by omega)
  have h_v24 : Affine.Fails _ := Affine.slt_fails h_v20 (cst 0) (by omega)
  have h_v25 : Affine.Fails _ := Affine.xori_ff h_v23 h_v24
  have h_v22 : Affine.Term _ := Affine.cmpi_term .ne h_v21 (cst 0)
  have h_v26 : Affine.Fails _ := Affine.andi_fails_left h_v25 h_v22
  have h_v27 : Affine.IsInt _ ((((i 1).val : Int) % 2) + 2) := Affine.addi h_v21 h_v20 (by omega)
  have h_v28 : Affine.IsInt _ (((i 1).val : Int) % 2) := Affine.select_fails h_v26 h_v27 h_v21 (by omega)
  have h_v29 : Affine.IsInt _ (256 * (((i 1).val : Int) % 2)) := Affine.muli h_v28 (cst 256) (by omega)
  exact Affine.inb_cons (cst 3) (by omega) <| Affine.inb_cons h_v53 (by omega) <| Affine.inb_cons h_v29 (by omega) <| Affine.inb_nil

theorem slice_off5_inb (i : grid0.Coords) {v46 : BitVec 32} (hb : v46.toNat ≤ 1905) :
    ∀ a, (k0_off5 i v46) a + S1x72x256.size a ≤ S4x2048x512.size a := by
  have r_i0 : (i 0).val < 2 := (i 0).isLt
  have r_i1 : (i 1).val < 16 := (i 1).isLt
  have h_v53 : Affine.IsInt _ ((v46.toNat : Int) - ((v46.toNat : Int) % 8)) := Affine.subi (i46 hb) (i52 hb) (by omega)
  have h_v56 : Affine.IsInt _ (((v46.toNat : Int) - ((v46.toNat : Int) % 8)) + 72) := Affine.addi h_v53 (cst 72) (by omega)
  have h_arg1 : Affine.IsInt (BitVec.ofNat 32 (i 1).val) (((i 1).val : Int)) := Affine.ofNat _ (by omega)
  have h_v19 : Affine.Fails _ := Affine.eq_fails (cst 2) (cst 0) (by omega)
  have h_v20 : Affine.IsInt _ (2) := Affine.select_fails h_v19 (cst 1) (cst 2) (by omega)
  have h_v21 : Affine.IsInt _ (((i 1).val : Int) % 2) := Affine.remsi h_arg1 h_v20 (by omega)
  have h_v23 : Affine.Fails _ := Affine.slt_fails h_v21 (cst 0) (by omega)
  have h_v24 : Affine.Fails _ := Affine.slt_fails h_v20 (cst 0) (by omega)
  have h_v25 : Affine.Fails _ := Affine.xori_ff h_v23 h_v24
  have h_v22 : Affine.Term _ := Affine.cmpi_term .ne h_v21 (cst 0)
  have h_v26 : Affine.Fails _ := Affine.andi_fails_left h_v25 h_v22
  have h_v27 : Affine.IsInt _ ((((i 1).val : Int) % 2) + 2) := Affine.addi h_v21 h_v20 (by omega)
  have h_v28 : Affine.IsInt _ (((i 1).val : Int) % 2) := Affine.select_fails h_v26 h_v27 h_v21 (by omega)
  have h_v29 : Affine.IsInt _ (256 * (((i 1).val : Int) % 2)) := Affine.muli h_v28 (cst 256) (by omega)
  exact Affine.inb_cons (cst 3) (by omega) <| Affine.inb_cons h_v56 (by omega) <| Affine.inb_cons h_v29 (by omega) <| Affine.inb_nil

theorem slice_off6_inb (i : grid0.Coords) {v46 : BitVec 32} (hb : v46.toNat ≤ 1905) :
    ∀ a, (k0_off6 i v46) a + S1x72x256.size a ≤ S4x2048x512.size a := by
  have r_i0 : (i 0).val < 2 := (i 0).isLt
  have r_i1 : (i 1).val < 16 := (i 1).isLt
  have h_v53 : Affine.IsInt _ ((v46.toNat : Int) - ((v46.toNat : Int) % 8)) := Affine.subi (i46 hb) (i52 hb) (by omega)
  have h_arg1 : Affine.IsInt (BitVec.ofNat 32 (i 1).val) (((i 1).val : Int)) := Affine.ofNat _ (by omega)
  have h_v19 : Affine.Fails _ := Affine.eq_fails (cst 2) (cst 0) (by omega)
  have h_v20 : Affine.IsInt _ (2) := Affine.select_fails h_v19 (cst 1) (cst 2) (by omega)
  have h_v21 : Affine.IsInt _ (((i 1).val : Int) % 2) := Affine.remsi h_arg1 h_v20 (by omega)
  have h_v23 : Affine.Fails _ := Affine.slt_fails h_v21 (cst 0) (by omega)
  have h_v24 : Affine.Fails _ := Affine.slt_fails h_v20 (cst 0) (by omega)
  have h_v25 : Affine.Fails _ := Affine.xori_ff h_v23 h_v24
  have h_v22 : Affine.Term _ := Affine.cmpi_term .ne h_v21 (cst 0)
  have h_v26 : Affine.Fails _ := Affine.andi_fails_left h_v25 h_v22
  have h_v27 : Affine.IsInt _ ((((i 1).val : Int) % 2) + 2) := Affine.addi h_v21 h_v20 (by omega)
  have h_v28 : Affine.IsInt _ (((i 1).val : Int) % 2) := Affine.select_fails h_v26 h_v27 h_v21 (by omega)
  have h_v29 : Affine.IsInt _ (256 * (((i 1).val : Int) % 2)) := Affine.muli h_v28 (cst 256) (by omega)
  exact Affine.inb_cons (cst 3) (by omega) <| Affine.inb_cons h_v53 (by omega) <| Affine.inb_cons h_v29 (by omega) <| Affine.inb_nil

theorem slice_off103_inb (i : grid0.Coords) {v46 : BitVec 32} (hb : v46.toNat ≤ 1905) :
    ∀ a, (k0_off103 i v46) a + S1x72x256.size a ≤ S4x2048x512.size a := by
  have r_i0 : (i 0).val < 2 := (i 0).isLt
  have r_i1 : (i 1).val < 16 := (i 1).isLt
  have h_v53 : Affine.IsInt _ ((v46.toNat : Int) - ((v46.toNat : Int) % 8)) := Affine.subi (i46 hb) (i52 hb) (by omega)
  have h_v56 : Affine.IsInt _ (((v46.toNat : Int) - ((v46.toNat : Int) % 8)) + 72) := Affine.addi h_v53 (cst 72) (by omega)
  have h_arg1 : Affine.IsInt (BitVec.ofNat 32 (i 1).val) (((i 1).val : Int)) := Affine.ofNat _ (by omega)
  have h_v19 : Affine.Fails _ := Affine.eq_fails (cst 2) (cst 0) (by omega)
  have h_v20 : Affine.IsInt _ (2) := Affine.select_fails h_v19 (cst 1) (cst 2) (by omega)
  have h_v21 : Affine.IsInt _ (((i 1).val : Int) % 2) := Affine.remsi h_arg1 h_v20 (by omega)
  have h_v23 : Affine.Fails _ := Affine.slt_fails h_v21 (cst 0) (by omega)
  have h_v24 : Affine.Fails _ := Affine.slt_fails h_v20 (cst 0) (by omega)
  have h_v25 : Affine.Fails _ := Affine.xori_ff h_v23 h_v24
  have h_v22 : Affine.Term _ := Affine.cmpi_term .ne h_v21 (cst 0)
  have h_v26 : Affine.Fails _ := Affine.andi_fails_left h_v25 h_v22
  have h_v27 : Affine.IsInt _ ((((i 1).val : Int) % 2) + 2) := Affine.addi h_v21 h_v20 (by omega)
  have h_v28 : Affine.IsInt _ (((i 1).val : Int) % 2) := Affine.select_fails h_v26 h_v27 h_v21 (by omega)
  have h_v29 : Affine.IsInt _ (256 * (((i 1).val : Int) % 2)) := Affine.muli h_v28 (cst 256) (by omega)
  exact Affine.inb_cons (cst 3) (by omega) <| Affine.inb_cons h_v56 (by omega) <| Affine.inb_cons h_v29 (by omega) <| Affine.inb_nil

theorem k0_off4_eq (i : grid0.Coords) {v46 : BitVec 32} (hb : v46.toNat ≤ 1905) :
    k0_off4 i v46 = ![3, v46.toNat - v46.toNat % 8, 256 * ((i 1).val % 2)] := by
  have r_i0 : (i 0).val < 2 := (i 0).isLt
  have r_i1 : (i 1).val < 16 := (i 1).isLt
  have h_v53 : Affine.IsInt _ ((v46.toNat : Int) - ((v46.toNat : Int) % 8)) := Affine.subi (i46 hb) (i52 hb) (by omega)
  have h_arg1 : Affine.IsInt (BitVec.ofNat 32 (i 1).val) (((i 1).val : Int)) := Affine.ofNat _ (by omega)
  have h_v19 : Affine.Fails _ := Affine.eq_fails (cst 2) (cst 0) (by omega)
  have h_v20 : Affine.IsInt _ (2) := Affine.select_fails h_v19 (cst 1) (cst 2) (by omega)
  have h_v21 : Affine.IsInt _ (((i 1).val : Int) % 2) := Affine.remsi h_arg1 h_v20 (by omega)
  have h_v23 : Affine.Fails _ := Affine.slt_fails h_v21 (cst 0) (by omega)
  have h_v24 : Affine.Fails _ := Affine.slt_fails h_v20 (cst 0) (by omega)
  have h_v25 : Affine.Fails _ := Affine.xori_ff h_v23 h_v24
  have h_v22 : Affine.Term _ := Affine.cmpi_term .ne h_v21 (cst 0)
  have h_v26 : Affine.Fails _ := Affine.andi_fails_left h_v25 h_v22
  have h_v27 : Affine.IsInt _ ((((i 1).val : Int) % 2) + 2) := Affine.addi h_v21 h_v20 (by omega)
  have h_v28 : Affine.IsInt _ (((i 1).val : Int) % 2) := Affine.select_fails h_v26 h_v27 h_v21 (by omega)
  have h_v29 : Affine.IsInt _ (256 * (((i 1).val : Int) % 2)) := Affine.muli h_v28 (cst 256) (by omega)
  exact Affine.vec_cons (cst 3) (by omega) <| Affine.vec_cons h_v53 (by omega) <| Affine.vec_cons h_v29 (by omega) <| Affine.vec_nil

theorem k0_off5_eq (i : grid0.Coords) {v46 : BitVec 32} (hb : v46.toNat ≤ 1905) :
    k0_off5 i v46 = ![3, v46.toNat - v46.toNat % 8 + 72, 256 * ((i 1).val % 2)] := by
  have r_i0 : (i 0).val < 2 := (i 0).isLt
  have r_i1 : (i 1).val < 16 := (i 1).isLt
  have h_v53 : Affine.IsInt _ ((v46.toNat : Int) - ((v46.toNat : Int) % 8)) := Affine.subi (i46 hb) (i52 hb) (by omega)
  have h_v56 : Affine.IsInt _ (((v46.toNat : Int) - ((v46.toNat : Int) % 8)) + 72) := Affine.addi h_v53 (cst 72) (by omega)
  have h_arg1 : Affine.IsInt (BitVec.ofNat 32 (i 1).val) (((i 1).val : Int)) := Affine.ofNat _ (by omega)
  have h_v19 : Affine.Fails _ := Affine.eq_fails (cst 2) (cst 0) (by omega)
  have h_v20 : Affine.IsInt _ (2) := Affine.select_fails h_v19 (cst 1) (cst 2) (by omega)
  have h_v21 : Affine.IsInt _ (((i 1).val : Int) % 2) := Affine.remsi h_arg1 h_v20 (by omega)
  have h_v23 : Affine.Fails _ := Affine.slt_fails h_v21 (cst 0) (by omega)
  have h_v24 : Affine.Fails _ := Affine.slt_fails h_v20 (cst 0) (by omega)
  have h_v25 : Affine.Fails _ := Affine.xori_ff h_v23 h_v24
  have h_v22 : Affine.Term _ := Affine.cmpi_term .ne h_v21 (cst 0)
  have h_v26 : Affine.Fails _ := Affine.andi_fails_left h_v25 h_v22
  have h_v27 : Affine.IsInt _ ((((i 1).val : Int) % 2) + 2) := Affine.addi h_v21 h_v20 (by omega)
  have h_v28 : Affine.IsInt _ (((i 1).val : Int) % 2) := Affine.select_fails h_v26 h_v27 h_v21 (by omega)
  have h_v29 : Affine.IsInt _ (256 * (((i 1).val : Int) % 2)) := Affine.muli h_v28 (cst 256) (by omega)
  exact Affine.vec_cons (cst 3) (by omega) <| Affine.vec_cons h_v56 (by omega) <| Affine.vec_cons h_v29 (by omega) <| Affine.vec_nil

theorem chk1 (i : grid0.Coords) {v46 : BitVec 32} (hb : v46.toNat ≤ 1905) : k0_chk1 i v46 := by
  unfold k0_chk1
  exact ⟨Affine.dvd_of (mult1_isInt hb) 8 (by omega), slice_off4_inb i hb, slice_off6_inb i hb⟩

theorem cond1_iff {v46 v51 : BitVec 32} (hb : v46.toNat ≤ 1905) (hl : v51.toNat ≤ 127) :
    k0_cond1 v46 v51 = 1#1 ↔ 72 < v46.toNat % 8 + v51.toNat := by
  unfold k0_cond1; dsimp only
  rw [Scalar.guard_iff]
  constructor
  · intro h
    by_contra hn
    exact Affine.sgt_fails (i55 hb hl) (cst 72) (by omega) h
  · intro h
    exact Affine.sgt_holds (i55 hb hl) (cst 72) (by omega)

theorem cond2_iff {v46 v51 : BitVec 32} (hb : v46.toNat ≤ 1905) (hl : v51.toNat ≤ 127) :
    k0_cond2 v46 v51 = 1#1 ↔ 72 < v46.toNat % 8 + v51.toNat := by
  unfold k0_cond2; dsimp only
  rw [Scalar.guard_iff]
  constructor
  · intro h
    by_contra hn
    exact Affine.sgt_fails (i55 hb hl) (cst 72) (by omega) h
  · intro h
    exact Affine.sgt_holds (i55 hb hl) (cst 72) (by omega)

theorem t3_row_lt {v46 v51 : BitVec 32} (hb : v46.toNat ≤ 1905) (hl : v51.toNat ≤ 127) (k0_t3 : Fin (k0_t3_loop v46 v51).trips) :
    v46.toNat % 8 + 2 * k0_t3.val + 1 < 144 := by
  have ht : k0_t3.val < (min (v46.toNat % 8 + v51.toNat) 72 - v46.toNat % 8) / 2 := Nat.lt_of_lt_of_eq k0_t3.isLt (t3_abs hb hl).2
  omega

theorem t5_row_lt {v46 v51 : BitVec 32} (hb : v46.toNat ≤ 1905) (hl : v51.toNat ≤ 127) (k0_t5 : Fin (k0_t5_loop v46 v51).trips) :
    v46.toNat % 8 + 2 * ((min (v46.toNat % 8 + v51.toNat) 72 - v46.toNat % 8) / 2) + k0_t5.val < 144 := by
  have ht : k0_t5.val < (min (v46.toNat % 8 + v51.toNat) 72 - v46.toNat % 8) % 2 := Nat.lt_of_lt_of_eq k0_t5.isLt (t5_abs hb hl).2
  omega

theorem t7_row_lt {v46 v51 : BitVec 32} (hb : v46.toNat ≤ 1905) (hl : v51.toNat ≤ 127) (k0_t7 : Fin (k0_t7_loop v46 v51).trips) :
    72 + 2 * k0_t7.val + 1 < 144 := by
  have ht : k0_t7.val < (max (v46.toNat % 8 + v51.toNat) 72 - 72) / 2 := Nat.lt_of_lt_of_eq k0_t7.isLt (t7_abs hb hl).2
  omega

theorem t9_row_lt {v46 v51 : BitVec 32} (hb : v46.toNat ≤ 1905) (hl : v51.toNat ≤ 127) (k0_t9 : Fin (k0_t9_loop v46 v51).trips) :
    72 + 2 * ((max (v46.toNat % 8 + v51.toNat) 72 - 72) / 2) + k0_t9.val < 144 := by
  have ht : k0_t9.val < (max (v46.toNat % 8 + v51.toNat) 72 - 72) % 2 := Nat.lt_of_lt_of_eq k0_t9.isLt (t9_abs hb hl).2
  omega

theorem inbA {v46 v51 : BitVec 32} (hb : v46.toNat ≤ 1905) (hl : v51.toNat ≤ 127) (k : Fin (k0_t3_loop v46 v51).trips) {f : Fin 2 → ℕ}
    (h0 : f 0 = k0_off7 v46 v51 k 0) (hc : (f 1 + 16).ble 256 = true) : ∀ a, f a + S1x16.size a ≤ S144x256.size a :=
  inb_of_eq (off_of (k0_off7_eq hb hl k) h0) (Nat.lt_of_succ_lt (t3_row_lt hb hl k)) (Nat.le_of_ble_eq_true hc)

theorem inbB {v46 v51 : BitVec 32} (hb : v46.toNat ≤ 1905) (hl : v51.toNat ≤ 127) (k : Fin (k0_t3_loop v46 v51).trips) {f : Fin 2 → ℕ}
    (h0 : f 0 = k0_off8 v46 v51 k 0) (hc : (f 1 + 16).ble 256 = true) : ∀ a, f a + S1x16.size a ≤ S144x256.size a :=
  inb_of_eq (off_of (k0_off8_eq hb hl k) h0) (t3_row_lt hb hl k) (Nat.le_of_ble_eq_true hc)

theorem inbC {v46 v51 : BitVec 32} (hb : v46.toNat ≤ 1905) (hl : v51.toNat ≤ 127) (k : Fin (k0_t5_loop v46 v51).trips) {f : Fin 2 → ℕ}
    (h0 : f 0 = k0_off71 v46 v51 k 0) (hc : (f 1 + 16).ble 256 = true) : ∀ a, f a + S1x16.size a ≤ S144x256.size a :=
  inb_of_eq (off_of (k0_off71_eq hb hl k) h0) (t5_row_lt hb hl k) (Nat.le_of_ble_eq_true hc)

theorem inbD {v46 v51 : BitVec 32} (hb : v46.toNat ≤ 1905) (hl : v51.toNat ≤ 127) (k : Fin (k0_t7_loop v46 v51).trips) {f : Fin 2 → ℕ}
    (h0 : f 0 = k0_off104 v46 v51 k 0) (hc : (f 1 + 16).ble 256 = true) : ∀ a, f a + S1x16.size a ≤ S144x256.size a :=
  inb_of_eq (off_of (k0_off104_eq hb hl k) h0) (Nat.lt_of_succ_lt (t7_row_lt hb hl k)) (Nat.le_of_ble_eq_true hc)

theorem inbE {v46 v51 : BitVec 32} (hb : v46.toNat ≤ 1905) (hl : v51.toNat ≤ 127) (k : Fin (k0_t7_loop v46 v51).trips) {f : Fin 2 → ℕ}
    (h0 : f 0 = k0_off105 v46 v51 k 0) (hc : (f 1 + 16).ble 256 = true) : ∀ a, f a + S1x16.size a ≤ S144x256.size a :=
  inb_of_eq (off_of (k0_off105_eq hb hl k) h0) (t7_row_lt hb hl k) (Nat.le_of_ble_eq_true hc)

theorem inbF {v46 v51 : BitVec 32} (hb : v46.toNat ≤ 1905) (hl : v51.toNat ≤ 127) (k : Fin (k0_t9_loop v46 v51).trips) {f : Fin 2 → ℕ}
    (h0 : f 0 = k0_off168 v46 v51 k 0) (hc : (f 1 + 16).ble 256 = true) : ∀ a, f a + S1x16.size a ≤ S144x256.size a :=
  inb_of_eq (off_of (k0_off168_eq hb hl k) h0) (t9_row_lt hb hl k) (Nat.le_of_ble_eq_true hc)

theorem chk2_0 (i : grid0.Coords) {v46 v51 : BitVec 32} (hb : v46.toNat ≤ 1905) (hl : v51.toNat ≤ 127) : k0_chk2_0 i v46 v51 := by
  unfold k0_chk2_0
  exact ⟨fun _ => slice_off5_inb i hb,
    (t3_abs hb hl).1,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl,
    fun k => inbA hb hl k rfl rfl,
    fun k => inbB hb hl k rfl rfl⟩

theorem chk2_1 (i : grid0.Coords) {v46 v51 : BitVec 32} (hb : v46.toNat ≤ 1905) (hl : v51.toNat ≤ 127) : k0_chk2_1 i v46 v51 := by
  unfold k0_chk2_1
  exact ⟨fun k0_t3 => inb_of_eq (off_of (k0_off7_eq hb hl k0_t3) rfl) (Nat.lt_of_succ_lt (t3_row_lt hb hl k0_t3)) (Nat.le_of_ble_eq_true rfl),
    fun k => inbB hb hl k rfl rfl,
    (t4_abs hb hl).1,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2,
    vac (t4_abs hb hl).2⟩

theorem chk2_2 (i : grid0.Coords) {v46 v51 : BitVec 32} (hb : v46.toNat ≤ 1905) (hl : v51.toNat ≤ 127) : k0_chk2_2 i v46 v51 := by
  unfold k0_chk2_2
  exact ⟨vac (t4_abs hb hl).2,
    vac (t4_abs hb hl).2,
    vac (t4_abs hb hl).2,
    (t5_abs hb hl).1,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    fun k => inbC hb hl k rfl rfl,
    (t6_abs hb hl).1,
    vac (t6_abs hb hl).2,
    vac (t6_abs hb hl).2,
    vac (t6_abs hb hl).2,
    vac (t6_abs hb hl).2,
    vac (t6_abs hb hl).2,
    vac (t6_abs hb hl).2,
    vac (t6_abs hb hl).2,
    vac (t6_abs hb hl).2,
    vac (t6_abs hb hl).2,
    vac (t6_abs hb hl).2,
    vac (t6_abs hb hl).2⟩

theorem chk2_3 (i : grid0.Coords) {v46 v51 : BitVec 32} (hb : v46.toNat ≤ 1905) (hl : v51.toNat ≤ 127) : k0_chk2_3 i v46 v51 := by
  unfold k0_chk2_3
  exact ⟨vac (t6_abs hb hl).2,
    vac (t6_abs hb hl).2,
    vac (t6_abs hb hl).2,
    vac (t6_abs hb hl).2,
    vac (t6_abs hb hl).2,
    fun _ => slice_off103_inb i hb,
    (t7_abs hb hl).1,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    fun k => inbD hb hl k rfl rfl⟩

theorem chk2_4 (i : grid0.Coords) {v46 v51 : BitVec 32} (hb : v46.toNat ≤ 1905) (hl : v51.toNat ≤ 127) : k0_chk2_4 i v46 v51 := by
  unfold k0_chk2_4
  exact ⟨fun k0_t7 => inb_of_eq (off_of (k0_off105_eq hb hl k0_t7) rfl) (t7_row_lt hb hl k0_t7) (Nat.le_of_ble_eq_true rfl),
    fun k => inbD hb hl k rfl rfl,
    fun k => inbE hb hl k rfl rfl,
    fun k => inbD hb hl k rfl rfl,
    fun k => inbE hb hl k rfl rfl,
    fun k => inbD hb hl k rfl rfl,
    fun k => inbE hb hl k rfl rfl,
    (t8_abs hb hl).1,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2⟩

theorem chk2_5 (i : grid0.Coords) {v46 v51 : BitVec 32} (hb : v46.toNat ≤ 1905) (hl : v51.toNat ≤ 127) : k0_chk2_5 i v46 v51 := by
  unfold k0_chk2_5
  exact ⟨vac (t8_abs hb hl).2,
    vac (t8_abs hb hl).2,
    vac (t8_abs hb hl).2,
    vac (t8_abs hb hl).2,
    vac (t8_abs hb hl).2,
    vac (t8_abs hb hl).2,
    vac (t8_abs hb hl).2,
    vac (t8_abs hb hl).2,
    (t9_abs hb hl).1,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    fun k => inbF hb hl k rfl rfl,
    (t10_abs hb hl).1,
    vac (t10_abs hb hl).2,
    vac (t10_abs hb hl).2,
    vac (t10_abs hb hl).2,
    vac (t10_abs hb hl).2,
    vac (t10_abs hb hl).2,
    vac (t10_abs hb hl).2⟩

theorem chk2_6 (i : grid0.Coords) {v46 v51 : BitVec 32} (hb : v46.toNat ≤ 1905) (hl : v51.toNat ≤ 127) : k0_chk2_6 i v46 v51 := by
  unfold k0_chk2_6
  exact ⟨vac (t10_abs hb hl).2,
    vac (t10_abs hb hl).2,
    vac (t10_abs hb hl).2,
    vac (t10_abs hb hl).2,
    vac (t10_abs hb hl).2,
    vac (t10_abs hb hl).2,
    vac (t10_abs hb hl).2,
    vac (t10_abs hb hl).2,
    vac (t10_abs hb hl).2,
    vac (t10_abs hb hl).2⟩

theorem chk2 (i : grid0.Coords) {v46 v51 : BitVec 32} (hb : v46.toNat ≤ 1905) (hl : v51.toNat ≤ 127) : k0_chk2 i v46 v51 := by
  unfold k0_chk2
  exact ⟨chk2_0 i hb hl, chk2_1 i hb hl, chk2_2 i hb hl, chk2_3 i hb hl, chk2_4 i hb hl, chk2_5 i hb hl, chk2_6 i hb hl⟩

set_option synthInstance.maxSize 4096 in

theorem t1_trips : ∀ i : grid0.Coords, (k0_t1_loop i).trips = 8 * (i 0).val + (i 1).val / 2 := by decide +kernel
set_option synthInstance.maxSize 4096 in

theorem t2_trips : ∀ i : grid0.Coords, (k0_t2_loop i).trips = 0 := by decide +kernel
set_option synthInstance.maxSize 4096 in

theorem k0_off1_eq : ∀ (i : grid0.Coords) (k0_t1 : Fin (k0_t1_loop i).trips), k0_off1 i k0_t1 = ![k0_t1.val] := by decide +kernel
set_option synthInstance.maxSize 4096 in

theorem k0_off3_eq : ∀ i : grid0.Coords, k0_off3 i = ![8 * (i 0).val + (i 1).val / 2] := by decide +kernel

end Cert.KernelIdeal.ScFacts
-- ==== Proof.ScFacts2.lean ====
import proofs.«212945_g29746943492489_cont_sun_c4_499_28_alg».proof.Proof.Spec
import proofs.«212945_g29746943492489_cont_sun_c4_499_28_alg».proof.Proof.ScFacts
import Idealize.ShloMosaic.Lib.ValueIdx
import Mathlib.Algebra.BigOperators.Fin

open scoped BigOperators

namespace Cert.KernelIdeal.ScFacts

open Idealize.ShloMosaic Idealize.ShloMosaic.ValueIdx Cert.KernelIdeal Cert.Spec

def patchOf (i : grid0.Coords) : Fin 16 :=
  ⟨8 * (i 0).val + (i 1).val / 2, by
    have r0 : (i 0).val < 2 := (i 0).isLt
    have r1 : (i 1).val < 16 := (i 1).isLt
    omega⟩

theorem t1_trips_patch (i : grid0.Coords) : (k0_t1_loop i).trips = (patchOf i).val := t1_trips i

def pre (l : IVec Cert.Spec.S4x16 32) (b : Fin 4) (k : ℕ) : ℕ :=
  ∑ j : Fin 16, if j.val < k then lenAt l b j else 0

theorem pre_zero (l : IVec Cert.Spec.S4x16 32) (b : Fin 4) : pre l b 0 = 0 := by
  simp [pre]

theorem pre_succ (l : IVec Cert.Spec.S4x16 32) (b : Fin 4) (k : ℕ) (hk : k < 16) :
    pre l b (k + 1) = pre l b k + lenAt l b ⟨k, hk⟩ := by
  unfold pre
  have e : ∀ j : Fin 16, (if j.val < k + 1 then lenAt l b j else 0)
      = (if j.val < k then lenAt l b j else 0) + (if j = ⟨k, hk⟩ then lenAt l b j else 0) := by
    intro j
    by_cases h1 : j.val < k
    · have h2 : j ≠ ⟨k, hk⟩ := by
        intro e; rw [e] at h1; exact Nat.lt_irrefl _ h1
      have h3 : j.val < k + 1 := Nat.lt_succ_of_lt h1
      rw [if_pos h1, if_pos h3, if_neg h2, Nat.add_zero]
    · by_cases h2 : j = ⟨k, hk⟩
      · have h3 : j.val < k + 1 := by rw [h2]; exact Nat.lt_succ_self k
        rw [if_neg h1, if_pos h3, if_pos h2, Nat.zero_add]
      · have h3 : ¬ j.val < k + 1 := by
          intro h3; apply h2; apply Fin.ext; show j.val = k; omega
        rw [if_neg h1, if_neg h3, if_neg h2]
  simp only [e, Finset.sum_add_distrib, Finset.sum_ite_eq', Finset.mem_univ, if_true]

theorem pre_le {l : IVec Cert.Spec.S4x16 32} (h : InRange l) (b : Fin 4) : ∀ k, k ≤ 16 → pre l b k ≤ 127 * k
  | 0, _ => by rw [pre_zero]
  | k + 1, hk => by
    have hk' : k < 16 := hk
    have := pre_le h b k (Nat.le_of_lt hk')
    have hl := h b ⟨k, hk'⟩
    rw [pre_succ l b k hk']; omega

theorem addi_ofNat (S : ℕ) (x : BitVec 32) : Scalar.addi (BitVec.ofNat 32 S) x = BitVec.ofNat 32 (S + x.toNat) := by
  apply BitVec.eq_of_toNat_eq
  simp only [Scalar.addi, IntOp.addi, BitVec.toNat_add, BitVec.toNat_ofNat]
  omega

theorem pre_step (l : IVec Cert.Spec.S4x16 32) (b : Fin 4) (k : ℕ) (hk : k < 16) :
    Scalar.addi (BitVec.ofNat 32 (pre l b k)) (l (ix2 b ⟨k, hk⟩)) = BitVec.ofNat 32 (pre l b (k + 1)) := by
  rw [addi_ofNat, pre_succ l b k hk]; rfl

theorem fold_pre (l : IVec Cert.Spec.S4x16 32) (b : Fin 4) (g : ℕ → BitVec 32)
    (hg : ∀ k (hk : k < 16), g k = l (ix2 b ⟨k, hk⟩)) :
    ∀ k, k ≤ 16 → (List.range k).foldl (fun acc j => Scalar.addi acc (g j)) 0#32 = BitVec.ofNat 32 (pre l b k)
  | 0, _ => by rw [List.range_zero, List.foldl_nil, pre_zero]
  | k + 1, hk => by
    have hk' : k < 16 := hk
    rw [List.range_succ, List.foldl_append, fold_pre l b g hg k (Nat.le_of_lt hk'), List.foldl_cons, List.foldl_nil,
      hg k hk', pre_step]

theorem lane0 {α : Type} (v : S16.Idx → α) (h1 : S16.ShapeCasts S16) (h2 : S16.Slices ![0] S1)
    (h3 : ∀ a, (![0] : Fin 1 → Nat) a < S1.size a) :
    extractAt ![0] (extractStridedSlice S1 ![0] (shapeCast S16 v h1) h2) h3 = v (ix1 0) := by
  unfold extractAt extractStridedSlice shapeCast
  rw [Shape.reshapeEquiv_self]
  congr 1
  funext a
  match a with
  | ⟨0, _⟩ => rfl

def IsLenVec (l : IVec Cert.Spec.S4x16 32) (w : IVec S32 32) : Prop :=
  ∀ k (hk : k < 32), w (ix1 ⟨k, hk⟩) = if h : k < 16 then l (ix2 3 ⟨k, h⟩) else 0#32

theorem IsLenVec.lt {l : IVec Cert.Spec.S4x16 32} {w : IVec S32 32} (hw : IsLenVec l w) (k : ℕ) (hk : k < 16) :
    w (ix1 ⟨k, Nat.lt_of_lt_of_le hk (by decide)⟩) = l (ix2 3 ⟨k, hk⟩) := by
  rw [hw k (Nat.lt_of_lt_of_le hk (by decide)), dif_pos hk]

theorem IsLenVec.ge {l : IVec Cert.Spec.S4x16 32} {w : IVec S32 32} (hw : IsLenVec l w) (k : ℕ) (hk : 16 ≤ k) (hk' : k < 32) :
    w (ix1 ⟨k, hk'⟩) = 0#32 := by
  rw [hw k hk', dif_neg (Nat.not_lt.2 hk)]

theorem k0_off1_lt (i : grid0.Coords) (k0_t1 : Fin (k0_t1_loop i).trips) :
    (k0_off1 i k0_t1) 0 = k0_t1.val ∧ k0_t1.val < 15 := by
  have h : k0_t1.val < (patchOf i).val := Nat.lt_of_lt_of_eq k0_t1.isLt (t1_trips_patch i)
  have hp : (patchOf i).val < 16 := (patchOf i).isLt
  constructor
  · rw [k0_off1_eq i k0_t1]; rfl
  · omega

end Cert.KernelIdeal.ScFacts
-- ==== Proof.KITileHead.lean ====
import proofs.«212945_g29746943492489_cont_sun_c4_499_28_alg».proof.Proof.KITileSpec
import proofs.«212945_g29746943492489_cont_sun_c4_499_28_alg».proof.Proof.ScFacts2

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

variable (m : (ℓ : Loc nD τ sig) → Buf (Elt F) ℓ)

omit [FloatOps F] in

theorem b1_held (d : Dev nD) (L : grid0.Coords) (q : PosShare TreeShare) (w : Buf (Elt F) (b1Loc d L)) :
    (b1Loc d L ↦{q} w : sProp 𝕄) = ((Memref.whole cc0_scratch1).view.loc (thrV d L) ↦{q} w) := rfl

theorem ofNat16 (k : ℕ) (hk : k < 16) : (Fin.ofNat 16 k : Fin 16) = ⟨k, hk⟩ := Fin.ext (Nat.mod_eq_of_lt hk)

theorem pOf_lt (L : grid0.Coords) : pOf (L 0).val (L 1).val < 16 := by
  have r0 : (L 0).val < 2 := (L 0).isLt
  have r1 : (L 1).val < 16 := (L 1).isLt
  unfold pOf; omega

theorem preN_succ (l : IVec S4x16 32) (k : ℕ) : preN l (k + 1) = preN l k + lenN l k := by
  unfold preN; rw [Finset.sum_range_succ]

theorem preN_step (l : IVec S4x16 32) (k : ℕ) :
    Scalar.addi (BitVec.ofNat 32 (preN l k)) (lenW l k) = BitVec.ofNat 32 (preN l (k + 1)) := by
  rw [ScFacts.addi_ofNat, preN_succ]; rfl

theorem preN_trips (l : IVec S4x16 32) (L : grid0.Coords) :
    preN l (k0_t1_loop L).trips = beginN l (pOf (L 0).val (L 1).val) := by
  rw [ScFacts.t1_trips L]; rfl

theorem beginN_le (l : IVec S4x16 32) (hl : ∀ b p, (l (ValueIdx.ix2 b p)).toNat ≤ 127) : ∀ p, beginN l p ≤ 127 * p
  | 0 => by simp [beginN]
  | p + 1 => by
    have h := beginN_le l hl p
    have h1 : lenN l p ≤ 127 := hl _ _
    unfold beginN at h ⊢
    rw [Finset.sum_range_succ]; omega

theorem words_le (l : IVec S4x16 32) (hl : ∀ b p, (l (ValueIdx.ix2 b p)).toNat ≤ 127) (L : grid0.Coords) :
    beginN l (pOf (L 0).val (L 1).val) ≤ 1905 ∧ (lenW l (pOf (L 0).val (L 1).val)).toNat ≤ 127 := by
  have h := beginN_le l hl (pOf (L 0).val (L 1).val)
  have hp := pOf_lt L
  exact ⟨by omega, hl _ _⟩

theorem chk1_words (l : IVec S4x16 32) (hl : ∀ b p, (l (ValueIdx.ix2 b p)).toNat ≤ 127) (L : grid0.Coords) :
    k0_chk1 L (BitVec.ofNat 32 (beginN l (pOf (L 0).val (L 1).val))) := by
  have h := (words_le l hl L).1
  exact ScFacts.chk1 L (by rw [BitVec.toNat_ofNat]; omega)

theorem chk2_words (l : IVec S4x16 32) (hl : ∀ b p, (l (ValueIdx.ix2 b p)).toNat ≤ 127) (L : grid0.Coords) :
    k0_chk2 L (BitVec.ofNat 32 (beginN l (pOf (L 0).val (L 1).val))) (lenW l (pOf (L 0).val (L 1).val)) := by
  have h := words_le l hl L
  exact ScFacts.chk2 L (by rw [BitVec.toNat_ofNat]; omega) h.2

theorem begin_toNat (l : IVec S4x16 32) (hl : ∀ b p, (l (ValueIdx.ix2 b p)).toNat ≤ 127) (L : grid0.Coords) :
    (BitVec.ofNat 32 (beginN l (pOf (L 0).val (L 1).val))).toNat = beginN l (pOf (L 0).val (L 1).val) := by
  have h := (words_le l hl L).1
  rw [BitVec.toNat_ofNat]; omega

theorem load_lane0 (d : Dev nD) (L : grid0.Coords) (off : Fin 1 → Nat) (inb : ∀ a, off a + S16.size a ≤ S32.size a)
    (w : Buf (Elt F) (b1Loc d L)) (h1 : S16.ShapeCasts S16) (h2 : S16.Slices ![0] S1)
    (h3 : ∀ a, (![0] : Fin 1 → Nat) a < S1.size a) :
    extractAt ![0] (extractStridedSlice S1 ![0] (shapeCast S16
        (View.readAt (Elt F) (Memref.whole cc0_scratch1).view (Rect.unit (s := S32) off S16.size inb).toLoadRect w) h1) h2) h3
      = w (ValueIdx.ix1 ⟨off 0, by have := inb 0; have e : S16.size 0 = 16 := rfl; have e' : S32.size 0 = 32 := rfl; omega⟩) := by
  rw [ScFacts.lane0]
  show w _ = w _
  congr 1
  funext a
  match a with
  | ⟨0, _⟩ => exact Fin.ext (by show off 0 + 1 * 0 = off 0; omega)

theorem t1_load (d : Dev nD) (L : grid0.Coords) (w : Buf (Elt F) (b1Loc d L))
    (hw : ∀ k (hk : k < 16), w (ValueIdx.ix1 ⟨k, Nat.lt_of_lt_of_le hk (by decide)⟩) = m (lLoc d) (ValueIdx.ix2 (3 : Fin 4) ⟨k, hk⟩))
    (k : Fin (k0_t1_loop L).trips) :
    extractAt ![0] (k0_pay124 (View.readAt (Elt F) (Memref.whole cc0_scratch1).view
        (Rect.unit (s := S32) (k0_off1 L k) S16.size (k0_off1_inb L k)).toLoadRect w)) inpos_S1_p0 = lenW (m (lLoc d)) k.val := by
  obtain ⟨e, hk⟩ := ScFacts.k0_off1_lt L k
  have hk16 : k.val < 16 := by omega
  unfold k0_pay124
  rw [load_lane0]
  have ei : (⟨(k0_off1 L k) 0, by omega⟩ : Fin 32) = ⟨k.val, by omega⟩ := Fin.ext e
  rw [ei, hw k.val hk16]
  unfold lenW; rw [ofNat16 k.val hk16]

theorem len_load (d : Dev nD) (L : grid0.Coords) (w : Buf (Elt F) (b1Loc d L))
    (hw : ∀ k (hk : k < 16), w (ValueIdx.ix1 ⟨k, Nat.lt_of_lt_of_le hk (by decide)⟩) = m (lLoc d) (ValueIdx.ix2 (3 : Fin 4) ⟨k, hk⟩)) :
    extractAt ![0] (k0_pay126 (View.readAt (Elt F) (Memref.whole cc0_scratch1).view
        (Rect.unit (s := S32) (k0_off3 L) S16.size (k0_off3_inb L)).toLoadRect w)) inpos_S1_p0
      = lenW (m (lLoc d)) (pOf (L 0).val (L 1).val) := by
  have hp := pOf_lt L
  have e : (k0_off3 L) 0 = pOf (L 0).val (L 1).val := congrFun (ScFacts.k0_off3_eq L) 0
  unfold k0_pay126
  rw [load_lane0]
  have ei : (⟨(k0_off3 L) 0, by omega⟩ : Fin 32) = ⟨pOf (L 0).val (L 1).val, by omega⟩ := Fin.ext e
  rw [ei, hw _ hp]
  unfold lenW; rw [ofNat16 _ hp]

theorem regionT1 : RegionT1 m := by
  intro d L w hw v18 c0 k acc
  unfold inv1
  rw [b1_held]
  iintro ⟨H1, %hacc⟩
  unfold k0_t1_body
  sl_exec
  sl_step
  isplitl [H1]
  · iexact H1
  ipureintro
  sl_unfold_words
  show Scalar.addi acc (extractAt ![0] (k0_pay124 (View.readAt (Elt F) (Memref.whole cc0_scratch1).view
        (Rect.unit (s := S32) (k0_off1 L k) S16.size (k0_off1_inb L k)).toLoadRect w)) inpos_S1_p0) = _
  rw [t1_load m d L w hw k, hacc, preN_step]

omit [FloatOps F] in
theorem b0_held (d : Dev nD) (L : grid0.Coords) (q : PosShare TreeShare) (f : Buf (Elt F) (b0Loc d L)) :
    (b0Loc d L ↦{q} f : sProp 𝕄) = ((Memref.whole cc0_scratch0).view.loc (thrV d L) ↦{q} f) := rfl

theorem row3_store (d : Dev nD) (L : grid0.Coords) (f0 g : Buf (Elt F) (b0Loc d L)) (f1 : Buf (Elt F) (b1Loc d L))
    (k : ℕ) (hk : k < 16) :
    (Memref.whole cc0_scratch1).view.writes (Elt F) f1
        [⟨Rect.unit (s := S32) ![0] S16.size inb_S32_S16_0,
          k0_pay122 (View.readAt (Elt F) (Memref.whole cc0_scratch0).view
            (Rect.unit (s := S4x16) ![3, 0] S1x16.size inb_S4x16_S1x16_3_0).toLoadRect
            (View.write (Elt F) (Memref.whole cc0_scratch0).view f0 g Finset.univ))⟩]
        (ValueIdx.ix1 ⟨k, Nat.lt_of_lt_of_le hk (by decide)⟩)
      = g (ValueIdx.ix2 (3 : Fin 4) ⟨k, hk⟩) := by
  have e : (ValueIdx.ix1 ⟨k, Nat.lt_of_lt_of_le hk (by decide)⟩ : S32.Idx)
      = (Rect.unit (s := S32) ![0] S16.size inb_S32_S16_0).emb (ValueIdx.ix1 ⟨k, hk⟩) := by
    funext a
    match a with
    | ⟨0, _⟩ => exact Fin.ext (by show k = 0 + 1 * k; omega)
  rw [e]
  refine (View.read_writes_cons_emb (v := (Memref.whole cc0_scratch1).view) (Val := Elt F) (f := f1)
    (Rect.unit (s := S32) ![0] S16.size inb_S32_S16_0) _ [] (ValueIdx.ix1 ⟨k, hk⟩)).trans ?_
  unfold k0_pay122 shapeCast
  rw [Shape.reshapeEquiv_self, Shape.reshapeEquiv_cons_one, View.readAt_apply]
  simp only [Memref.view_whole, View.read_whole, View.write_whole_univ]
  congr 1
  funext a
  match a with
  | ⟨0, _⟩ => exact Fin.ext (by show 3 + 1 * 0 = 3; rfl)
  | ⟨1, _⟩ => exact Fin.ext (by show 0 + 1 * k = k; omega)

theorem stretch17 : Stretch17 m := by
  intro d L q O W f0 f1
  unfold owesW
  rw [b0_held, b1_held]
  iintro ⟨HMW, HL, H0, H1, HS, HOW⟩
  icases HOW with ⟨%W', %hW', HO⟩
  rw [k0_part17_eq_skeleton]
  unfold k0_part17_skel
  sl_exec
  sl_step
  isplitl [HL]
  · iexact HL
  isplitl [H0]
  · iexists _; iexact H0
  isplitl [H1]
  · iexists _
    isplitr
    on_goal 2 => iexact H1
    ipureintro
    intro k hk
    sl_unfold_words
    exact row3_store d L f0 _ f1 k hk
  isplitl [HS]
  · iexact HS
  iexists _
  isplitr
  on_goal 2 => iexact HO
  ipureintro
  intro p hp
  rcases Finset.mem_insert.1 hp with h | h
  · right; rw [h]; rfl
  · exact hW' p h

end Cert.KernelIdeal.Sc

end
-- ==== Proof.KITileDma.lean ====
import proofs.«212945_g29746943492489_cont_sun_c4_499_28_alg».proof.Proof.KITile2
import proofs.«212945_g29746943492489_cont_sun_c4_499_28_alg».proof.Proof.KITileHead

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

abbrev ECn : UEmb Counters (MT nD τ sig (HIx 1) (Elt F) ℕ UU ℕ) :=
  countersEmb (nD := nD) (τ := τ) (sig := sig) (Ix := HIx 1) (Val := Elt F) (Name := ℕ) (U := UU) (Lvl := ℕ)

abbrev XS0 (L : grid0.Coords) (v46 : BitVec 32) (hw1 : k0_chk1 L v46) : Memref sig .scVector .hbm S72x256 .f32 :=
  ((Memref.whole main_arg0_scv).slice (Rect.unit (s := S4x2048x512) (k0_off4 L v46) S1x72x256.size (k0_off4_inb L v46 hw1)) (fun _ => rfl)).squeeze
    S72x256 squeezes_S1x72x256_S72x256

abbrev XS1 (L : grid0.Coords) (v46 v51 : BitVec 32) (hw2 : k0_chk2 L v46 v51) (h1 : k0_cond1 v46 v51 = 1#1) :
    Memref sig .scVector .hbm S72x256 .f32 :=
  ((Memref.whole main_arg0_scv).slice (Rect.unit (s := S4x2048x512) (k0_off5 L v46) S1x72x256.size (k0_off5_inb L v46 v51 hw2 h1)) (fun _ => rfl)).squeeze
    S72x256 squeezes_S1x72x256_S72x256

variable (d : Dev nD) (L : grid0.Coords)

def Blo (v46 : BitVec 32) (hw1 : k0_chk1 L v46) (f2 : Buf (Elt F) (b2Loc d L)) (x0 : Buf (Elt F) (xLoc d)) : Buf (Elt F) (b2Loc d L) :=
  (b2Lo).view.write (Elt F) f2 ((XS0 L v46 hw1).view.read (Elt F) x0) Finset.univ

def Bhi (v46 v51 : BitVec 32) (hw2 : k0_chk2 L v46 v51) (h1 : k0_cond1 v46 v51 = 1#1) (f2 : Buf (Elt F) (b2Loc d L)) (x0 : Buf (Elt F) (xLoc d)) :
    Buf (Elt F) (b2Loc d L) :=
  (b2Hi).view.write (Elt F) f2 ((XS1 L v46 v51 hw2 h1).view.read (Elt F) x0) Finset.univ

def Fl0 (q : PosShare TreeShare) (v46 : BitVec 32) (hw1 : k0_chk1 L v46) (f2 : Buf (Elt F) (b2Loc d L)) (x0 : Buf (Elt F) (xLoc d)) : sProp 𝕄 :=
  Transfers.Flight ECn (V d (cV L) (jV L)) (.dma cc0_scratch5.sem) (default : HIx 1) ((b2Lo).view.amount (.dma cc0_scratch5.sem))
    iprop(((b2Lo).view.loc (V d (cV L) (jV L)) ↦[loSet]{fullShare} Blo d L v46 hw1 f2 x0)
      ∗ ((XS0 L v46 hw1).view.loc (V d (cV L) (jV L)) ↦[(XS0 L v46 hw1).view.set]{q} x0))

def Fl1 (q : PosShare TreeShare) (v46 v51 : BitVec 32) (hw2 : k0_chk2 L v46 v51) (h1 : k0_cond1 v46 v51 = 1#1) (f2 : Buf (Elt F) (b2Loc d L))
    (x0 : Buf (Elt F) (xLoc d)) : sProp 𝕄 :=
  Transfers.Flight ECn (V d (cV L) (jV L)) (.dma cc0_scratch6.sem) (default : HIx 1) ((b2Hi).view.amount (.dma cc0_scratch6.sem))
    iprop(((b2Hi).view.loc (V d (cV L) (jV L)) ↦[hiSet]{fullShare} Bhi d L v46 v51 hw2 h1 f2 x0)
      ∗ ((XS1 L v46 v51 hw2 h1).view.loc (V d (cV L) (jV L)) ↦[(XS1 L v46 v51 hw2 h1).view.set]{q} x0))

def D1 (q : PosShare TreeShare) (v46 v51 : BitVec 32) (hw2 : k0_chk2 L v46 v51) (f2 : Buf (Elt F) (b2Loc d L)) (x0 : Buf (Elt F) (xLoc d)) : sProp 𝕄 :=
  if h1 : k0_cond1 v46 v51 = 1#1 then
    iprop(Fl1 d L q v46 v51 hw2 h1 f2 x0 ∗ (xLoc d ↦[Finset.univ \ (XS1 L v46 v51 hw2 h1).view.set]{q} x0))
  else iprop((b2Loc d L ↦[hiSet]{fullShare} f2) ∗ semVal (cS6 d (cV L) (jV L)) 0 ∗ (xLoc d ↦{q} x0))

def D1' (q : PosShare TreeShare) (v46 v51 : BitVec 32) (hw2 : k0_chk2 L v46 v51) (f2 : Buf (Elt F) (b2Loc d L)) (x0 : Buf (Elt F) (xLoc d)) : sProp 𝕄 :=
  iprop((∃ B : Buf (Elt F) (b2Loc d L), ⌜∀ h1 : k0_cond1 v46 v51 = 1#1, B = Bhi d L v46 v51 hw2 h1 f2 x0⌝ ∗ (b2Loc d L ↦[hiSet]{fullShare} B))
    ∗ semVal (cS6 d (cV L) (jV L)) 0 ∗ (xLoc d ↦{q} x0))

section Issue

variable (m : (ℓ : Loc nD τ sig) → Buf (Elt F) ℓ) (hl : ∀ d b p, (m (lLoc d) (ValueIdx.ix2 b p)).toNat ≤ 127)

include hl in
theorem hc1 (d : Dev nD) (L : grid0.Coords) : k0_chk1 L (v46V m d L) := chk1_words (m (lLoc d)) (hl d) L
include hl in
theorem hc2 (d : Dev nD) (L : grid0.Coords) : k0_chk2 L (v46V m d L) (v51V m d L) := chk2_words (m (lLoc d)) (hl d) L

def Stretch18 : Prop :=
  ∀ (d : Dev nD) (L : grid0.Coords) (ql qr : PosShare TreeShare) (v18 c0 : BitVec 32) (w0 : Buf (Elt F) (b1Loc d L))
    (_hw0 : ∀ k (hk : k < 16), w0 (ValueIdx.ix1 ⟨k, Nat.lt_of_lt_of_le hk (by decide)⟩) = m (lLoc d) (ValueIdx.ix2 (3 : Fin 4) ⟨k, hk⟩))
    (f2 : Buf (Elt F) (b2Loc d L)),
    iprop((b1Loc d L ↦{fullShare} w0) ∗ (b2Loc d L ↦{fullShare} f2) ∗ (xLoc d ↦{ql} m (xLoc d)) ∗ (xLoc d ↦{qr} m (xLoc d))
        ∗ semVal (cS5 d (cV L) (jV L)) 0 ∗ semVal (cS6 d (cV L) (jV L)) 0)
      ⊢ wp frame (wpE (D₀ (F := F)) 𝒱₀ (thrV d L) none) Set.univ
          (k0_part18 L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v18 c0)
          fun r => iprop(⌜r = ⟨v46V m d L, hc1 m hl d L, v51V m d L, hc2 m hl d L, Scalar.remsi (v46V m d L) 8#32,
                Scalar.addi (Scalar.remsi (v46V m d L) 8#32) (v51V m d L), k0_pay127, k0_pay128, k0_pay129, k0_pay130, FloatOps.ofBits .f32 0#32⟩⌝
            ∗ (∃ w, b1Loc d L ↦{fullShare} w)
            ∗ Fl0 d L ql (v46V m d L) (hc1 m hl d L) f2 (m (xLoc d))
            ∗ (xLoc d ↦[Finset.univ \ (XS0 L (v46V m d L) (hc1 m hl d L)).view.set]{ql} m (xLoc d))
            ∗ D1 d L qr (v46V m d L) (v51V m d L) (hc2 m hl d L) f2 (m (xLoc d)))

end Issue

def Stretch19 : Prop :=
  ∀ (d : Dev nD) (L : grid0.Coords) (q : PosShare TreeShare) (O : CellTallies nD τ sig (HIx 1)) (W : Waits sig (HIx 1))
    (v46 : BitVec 32) (hw1 : k0_chk1 L v46) (v52 v55 : BitVec 32) (cst : F .f32) (f2 : Buf (Elt F) (b2Loc d L)) (x0 : Buf (Elt F) (xLoc d)),
    iprop(Transfers.MayWaits (thrV d L) (default : HIx 1) O ∗ Fl0 d L q v46 hw1 f2 x0 ∗ owesW (thrV d L) O W)
      ⊢ wp frame (wpE (D₀ (F := F)) 𝒱₀ (thrV d L) none) Set.univ
          (k0_part19 L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 hw1 v52 v55 cst)
          fun r => iprop(⌜∃ (a b : BitVec 32) (c e : BitVec 1), r = ⟨k0_pay131 cst, k0_pay132, k0_pay133, k0_pay134, k0_pay135, k0_pay136, k0_pay137,
                k0_pay138, k0_pay139, k0_pay140, k0_pay141, k0_pay142, a, b, c, e⟩⌝
            ∗ (b2Loc d L ↦[loSet]{fullShare} Blo d L v46 hw1 f2 x0)
            ∗ ((XS0 L v46 hw1).view.loc (V d (cV L) (jV L)) ↦[(XS0 L v46 hw1).view.set]{q} x0)
            ∗ semVal (cS5 d (cV L) (jV L)) 0 ∗ owesW (thrV d L) O W)

def Stretch20 : Prop :=
  ∀ (d : Dev nD) (L : grid0.Coords) (q : PosShare TreeShare) (O : CellTallies nD τ sig (HIx 1)) (W : Waits sig (HIx 1))
    (v46 v51 : BitVec 32) (hw2 : k0_chk2 L v46 v51) (hb : v46.toNat ≤ 1905) (hl : v51.toNat ≤ 127) (v52 v55 : BitVec 32)
    (a0 : ℕ → FVec F S16 .f32) (v88 v91 : BitVec 32) (v102 v104 : BitVec 1)
    (B : Buf (Elt F) (b2Loc d L)) (f2 : Buf (Elt F) (b2Loc d L)) (x0 : Buf (Elt F) (xLoc d)),
    iprop(Transfers.MayWaits (thrV d L) (default : HIx 1) O ∗ (b2Loc d L ↦[loSet]{fullShare} B) ∗ D1 d L q v46 v51 hw2 f2 x0 ∗ owesW (thrV d L) O W)
      ⊢ wp frame (wpE (D₀ (F := F)) 𝒱₀ (thrV d L) none) Set.univ
          (k0_part20 L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 v51 hw2 v52 v55
            (a0 0) (a0 1) (a0 2) (a0 3) (a0 4) (a0 5) (a0 6) (a0 7) (a0 8) (a0 9) (a0 10) (a0 11) (a0 12) (a0 13) (a0 14) (a0 15) v88 v91 v102 v104)
          fun r => iprop(⌜∃ (a b : BitVec 32) (c : BitVec 1) (e : BitVec 32), r = ⟨sumBuf B (16 * 0) (a0 0) (v46.toNat % 8) (cnt1 v46 v51),
                sumBuf B (16 * 1) (a0 1) (v46.toNat % 8) (cnt1 v46 v51),
                sumBuf B (16 * 2) (a0 2) (v46.toNat % 8) (cnt1 v46 v51),
                sumBuf B (16 * 3) (a0 3) (v46.toNat % 8) (cnt1 v46 v51),
                sumBuf B (16 * 4) (a0 4) (v46.toNat % 8) (cnt1 v46 v51),
                sumBuf B (16 * 5) (a0 5) (v46.toNat % 8) (cnt1 v46 v51),
                sumBuf B (16 * 6) (a0 6) (v46.toNat % 8) (cnt1 v46 v51),
                sumBuf B (16 * 7) (a0 7) (v46.toNat % 8) (cnt1 v46 v51),
                sumBuf B (16 * 8) (a0 8) (v46.toNat % 8) (cnt1 v46 v51),
                sumBuf B (16 * 9) (a0 9) (v46.toNat % 8) (cnt1 v46 v51),
                sumBuf B (16 * 10) (a0 10) (v46.toNat % 8) (cnt1 v46 v51),
                sumBuf B (16 * 11) (a0 11) (v46.toNat % 8) (cnt1 v46 v51),
                sumBuf B (16 * 12) (a0 12) (v46.toNat % 8) (cnt1 v46 v51),
                sumBuf B (16 * 13) (a0 13) (v46.toNat % 8) (cnt1 v46 v51),
                sumBuf B (16 * 14) (a0 14) (v46.toNat % 8) (cnt1 v46 v51),
                sumBuf B (16 * 15) (a0 15) (v46.toNat % 8) (cnt1 v46 v51),
                a, b, c, e, 0#32⟩⌝
            ∗ (b2Loc d L ↦[loSet]{fullShare} B) ∗ D1' d L q v46 v51 hw2 f2 x0 ∗ owesW (thrV d L) O W)

def Stretch21 : Prop :=
  ∀ (d : Dev nD) (L : grid0.Coords) (v46 v51 : BitVec 32) (hw2 : k0_chk2 L v46 v51) (hb : v46.toNat ≤ 1905) (hl : v51.toNat ≤ 127)
    (a0 : ℕ → FVec F S16 .f32) (v127 v130 : BitVec 32) (v141 : BitVec 1) (v142 c0 : BitVec 32)
    (B : Buf (Elt F) (b2Loc d L)) (f3 : Buf (Elt F) (b3Loc d L)),
    (iprop((b2Loc d L ↦[hiSet]{fullShare} B) ∗ (b3Loc d L ↦{fullShare} f3)) : sProp 𝕄)
      ⊢ wp frame (wpE (D₀ (F := F)) 𝒱₀ (thrV d L) none) Set.univ
          (k0_part21 L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 v51 hw2
            (a0 0) (a0 1) (a0 2) (a0 3) (a0 4) (a0 5) (a0 6) (a0 7) (a0 8) (a0 9) (a0 10) (a0 11) (a0 12) (a0 13) (a0 14) (a0 15) v127 v130 v141 v142 c0)
          fun r => iprop(⌜r = ⟨sumBuf B (16 * 4) (a0 4) 72 (cnt2 v46 v51),
                sumBuf B (16 * 5) (a0 5) 72 (cnt2 v46 v51),
                sumBuf B (16 * 6) (a0 6) 72 (cnt2 v46 v51),
                sumBuf B (16 * 7) (a0 7) 72 (cnt2 v46 v51),
                sumBuf B (16 * 8) (a0 8) 72 (cnt2 v46 v51),
                sumBuf B (16 * 9) (a0 9) 72 (cnt2 v46 v51),
                sumBuf B (16 * 10) (a0 10) 72 (cnt2 v46 v51),
                sumBuf B (16 * 11) (a0 11) 72 (cnt2 v46 v51),
                sumBuf B (16 * 12) (a0 12) 72 (cnt2 v46 v51),
                sumBuf B (16 * 13) (a0 13) 72 (cnt2 v46 v51),
                sumBuf B (16 * 14) (a0 14) 72 (cnt2 v46 v51),
                sumBuf B (16 * 15) (a0 15) 72 (cnt2 v46 v51),
                k0_pay171 v51, k0_pay175 (sumBuf B (16 * 3) (a0 3) 72 (cnt2 v46 v51))⟩⌝
            ∗ (b2Loc d L ↦[hiSet]{fullShare} B)
            ∗ (∃ R3 : Buf (Elt F) (b3Loc d L), ⌜∀ g, g < 3 → rowPiece R3 g = sumBuf B (16 * g) (a0 g) 72 (cnt2 v46 v51)⌝ ∗ (b3Loc d L ↦{fullShare} R3)))

end Cert.KernelIdeal.Sc

end
-- ==== Proof.KITile3.lean ====
import proofs.«212945_g29746943492489_cont_sun_c4_499_28_alg».proof.Proof.KITileDma

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

variable (m : (ℓ : Loc nD τ sig) → Buf (Elt F) ℓ)

omit [FloatOps F] in
theorem asm_pts_l (d : Dev nD) (L : grid0.Coords) (q : PosShare TreeShare) (f : Buf (Elt F) (lLoc d)) :
    ((Memref.whole main_arg1_scv).view.loc (thrV d L) ↦{q} f : sProp 𝕄) = lLoc d ↦{q} f := by
  simp only [Memref.view_whole, View.set_whole]

theorem asm_v46V_le (hl : ∀ d b p, (m (lLoc d) (ValueIdx.ix2 b p)).toNat ≤ 127) (d : Dev nD) (L : grid0.Coords) : (v46V m d L).toNat ≤ 1905 := by
  unfold v46V; rw [begin_toNat (m (lLoc d)) (hl d) L]; exact (words_le (m (lLoc d)) (hl d) L).1
theorem asm_v51V_le (hl : ∀ d b p, (m (lLoc d) (ValueIdx.ix2 b p)).toNat ≤ 127) (d : Dev nD) (L : grid0.Coords) : (v51V m d L).toNat ≤ 127 :=
  (words_le (m (lLoc d)) (hl d) L).2

omit [FloatOps F] in
theorem asm_lo_hi_disjoint : Disjoint loSet hiSet := by
  rw [Finset.disjoint_left]; intro x h1 h2
  simp only [loSet, hiSet, Finset.mem_filter, Finset.mem_univ, true_and] at h1 h2; omega
omit [FloatOps F] in
theorem asm_lo_hi_union : loSet ∪ hiSet = Finset.univ := by
  ext x; simp only [loSet, hiSet, Finset.mem_union, Finset.mem_filter, Finset.mem_univ, true_and, iff_true]; omega

omit [FloatOps F] in
theorem asm_b2_join (d : Dev nD) (L : grid0.Coords) (f g : Buf (Elt F) (b2Loc d L)) :
    iprop((b2Loc d L ↦[loSet]{fullShare} f) ∗ (b2Loc d L ↦[hiSet]{fullShare} g)) ⊢ (iprop(∃ h, (V d (cV L) (jV L)).loc cc0_scratch2 ↦{fullShare} h) : sProp 𝕄) := by
  refine (pointsTo_join asm_lo_hi_disjoint).trans ?_
  rw [asm_lo_hi_union]
  iintro H; iexists _; iexact H

theorem asm_x_join (hl : ∀ d b p, (m (lLoc d) (ValueIdx.ix2 b p)).toNat ≤ 127) (d : Dev nD) (L : grid0.Coords) :
    iprop(((XS0 L (v46V m d L) (hc1 m hl d L)).view.loc (V d (cV L) (jV L)) ↦[(XS0 L (v46V m d L) (hc1 m hl d L)).view.set]{(shT (cL L) (jL L)).left} m (xLoc d))
        ∗ (xLoc d ↦[Finset.univ \ (XS0 L (v46V m d L) (hc1 m hl d L)).view.set]{(shT (cL L) (jL L)).left} m (xLoc d))
        ∗ (xLoc d ↦{(shT (cL L) (jL L)).right} m (xLoc d)))
      ⊢ (xSh m d (shT (cL L) (jL L)) : sProp 𝕄) := by
  iintro ⟨H0, H1, Hr⟩
  ihave Hl := (pointsTo_split_subset (ℓ := xLoc d) (I := (XS0 L (v46V m d L) (hc1 m hl d L)).view.set) (S := Finset.univ) (q := (shT (cL L) (jL L)).left)
      (f := m (xLoc d)) (Finset.subset_univ _)).2 $$ [H0 H1]
  · isplitl [H0]; · iexact H0
    iexact H1
  iapply (pointsTo_share (PosShare.mem_left_op_right (shT (cL L) (jL L)))).2
  isplitl [Hl]; · iexact Hl
  iexact Hr

def AccFinal (hl : ∀ d b p, (m (lLoc d) (ValueIdx.ix2 b p)).toNat ≤ 127) : Prop :=
  ∀ (d : Dev nD) (L : grid0.Coords) (f2 : Buf (Elt F) (b2Loc d L)) (B2 : Buf (Elt F) (b2Loc d L)),
    (∀ h1 : k0_cond1 (v46V m d L) (v51V m d L) = 1#1, B2 = Bhi d L (v46V m d L) (v51V m d L) (hc2 m hl d L) h1 f2 (m (xLoc d))) →
    ∀ g, g < 16 →
      sumBuf B2 (16 * g) (sumBuf (Blo d L (v46V m d L) (hc1 m hl d L) f2 (m (xLoc d))) (16 * g) zeroPiece ((v46V m d L).toNat % 8)
          (cnt1 (v46V m d L) (v51V m d L))) 72 (cnt2 (v46V m d L) (v51V m d L))
        = accVal (m (xLoc d)) (m (lLoc d)) (L 0).val (L 1).val g

set_option maxHeartbeats 4000000 in
theorem tile_body_of (hF : (K (F := F)).Facts) (hl : ∀ d b p, (m (lLoc d) (ValueIdx.ix2 b p)).toNat ≤ 127)
    (h17 : Stretch17 m) (h18 : Stretch18 m hl) (h19 : Stretch19 (F := F)) (h20 : Stretch20 (F := F)) (h21 : Stretch21 (F := F))
    (hTail : TailRun m) (hAcc : AccFinal m hl) : TileBody (scSH m) m (scOV m) := by
  intro d L O W hO hOlev
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, Hkit, ⟨Hx, Hl, ⟨%fsh, Hsh⟩, Hor⟩, ⟨⟨%f0, Hb0⟩, ⟨%f1, Hb1⟩, ⟨%f2, Hb2⟩, ⟨%f3, Hb3⟩, Hbufs⟩, ⟨Hs5, Hs6, Hp0, Hp1, Hp2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hl' := (Entails.of_eq (asm_pts_l (F := F) d L _ _).symm) $$ Hl
  ihave Hx := (pointsTo_share (PosShare.mem_left_op_right (shT (cL L) (jL L)))).1 $$ Hx
  icases Hx with ⟨Hxl, Hxr⟩
  ihave HO := (show (owes (V d (cV L) (jV L)) (O + oxV d (cV L)) W : sProp 𝕄) ⊢ owesW (thrV d L) (O + oxV d (cV L)) W from by
    unfold owesW; iintro HO; iexists W; isplitr
    · ipureintro; exact fun p hp => .inl hp
    · iexact HO) $$ HO

  rw [wp_bind]
  iapply (wp_wand_r _ _ _)
  isplitl [Hl' Hb0 Hb1 Hp0 HO]
  · iapply (h17 d L _ (O + oxV d (cV L)) W f0 f1)
    isplitr; · iexact Hmw1
    isplitl [Hl']; · iexact Hl'
    isplitl [Hb0]; · iexact Hb0
    isplitl [Hb1]; · iexact Hb1
    isplitl [Hp0]; · iexact Hp0
    iexact HO
  iintro %r ⟨Hl', ⟨%f0', Hb0⟩, ⟨%w0, %hw0, Hb1⟩, Hp0, HO⟩
  obtain ⟨arg0, arg1, v18, c0⟩ := r
  dsimp only

  rw [wp_bind]
  iapply (wp_wand_r _ _ _)
  isplitl [Hb1 Hb2 Hxl Hxr Hs5 Hs6]
  · iapply (h18 d L _ _ v18 c0 w0 hw0 f2)
    isplitl [Hb1]; · iexact Hb1
    isplitl [Hb2]; · iexact Hb2
    isplitl [Hxl]; · iexact Hxl
    isplitl [Hxr]; · iexact Hxr
    isplitl [Hs5]; · iexact Hs5
    iexact Hs6
  iintro %r ⟨%hr, ⟨%w1, Hb1⟩, Hfl0, Hxl', HD1⟩
  subst hr
  dsimp only

  rw [wp_bind]
  iapply (wp_wand_r _ _ _)
  isplitl [Hfl0 HO]
  · iapply (h19 d L _ (O + oxV d (cV L)) W (v46V m d L) (hc1 m hl d L) _ _ _ f2 (m (xLoc d)))
    isplitr; · iexact Hmw1
    isplitl [Hfl0]; · iexact Hfl0
    iexact HO
  iintro %r ⟨%hr, Hlo, Hxs0, Hs5, HO⟩
  obtain ⟨a19, b19, c19, e19, rfl⟩ := hr
  dsimp only

  rw [wp_bind]
  iapply (wp_wand_r _ _ _)
  isplitl [Hlo HD1 HO]
  · iapply (h20 d L _ (O + oxV d (cV L)) W (v46V m d L) (v51V m d L) (hc2 m hl d L) (asm_v46V_le m hl d L) (asm_v51V_le m hl d L) _ _
      (fun _ => zeroPiece) _ _ _ _ (Blo d L (v46V m d L) (hc1 m hl d L) f2 (m (xLoc d))) f2 (m (xLoc d)))
    isplitr; · iexact Hmw1
    isplitl [Hlo]; · iexact Hlo
    isplitl [HD1]; · iexact HD1
    iexact HO
  iintro %r ⟨%hr, Hlo, HD1, HO⟩
  obtain ⟨a20, b20, c20, e20, rfl⟩ := hr
  dsimp only
  unfold D1'
  icases HD1 with ⟨⟨%B2, %hB2, Hhi⟩, Hs6, Hxr⟩

  rw [wp_bind]
  iapply (wp_wand_r _ _ _)
  isplitl [Hhi Hb3]
  · iapply (h21 d L (v46V m d L) (v51V m d L) (hc2 m hl d L) (asm_v46V_le m hl d L) (asm_v51V_le m hl d L)
      (fun g => sumBuf (Blo d L (v46V m d L) (hc1 m hl d L) f2 (m (xLoc d))) (16 * g) zeroPiece ((v46V m d L).toNat % 8) (cnt1 (v46V m d L) (v51V m d L)))
      _ _ _ _ _ B2 f3)
    isplitl [Hhi]; · iexact Hhi
    iexact Hb3
  iintro %r ⟨%hr, Hhi, ⟨%R3, %hR3, Hb3⟩⟩
  subst hr
  dsimp only

  iapply (wp_wand_r _ _ _)
  isplitl [Hkit Hb3 Hsh Hor Hp1 Hp2 HO]
  · iapply (hTail d L O W hO hOlev (fun g => sumBuf B2 (16 * g) (sumBuf (Blo d L (v46V m d L) (hc1 m hl d L) f2 (m (xLoc d))) (16 * g) zeroPiece ((v46V m d L).toNat % 8) (cnt1 (v46V m d L) (v51V m d L))) 72 (cnt2 (v46V m d L) (v51V m d L)))
      (k0_pay171 (v51V m d L)) _ R3 fsh (hAcc d L f2 B2 hB2) rfl rfl hR3)
    isplitr; · iexact Hlv
    isplitl [Hkit]; · iexact Hkit
    isplitl [Hb3]; · iexact Hb3
    isplitl [Hsh]; · iexact Hsh
    isplitl [Hor]; · iexact Hor
    isplitl [Hp1]; · iexact Hp1
    isplitl [Hp2]; · iexact Hp2
    iexact HO
  iintro %_ ⟨⟨%R, Hb3⟩, Hfin, Hp1, Hp2, HO⟩

  isplitl [Hxs0 Hxl' Hxr Hl' Hfin]
  · isplitl [Hxs0 Hxl' Hxr]
    · iapply (asm_x_join (F := F) m hl d L)
      isplitl [Hxs0]; · iexact Hxs0
      isplitl [Hxl']; · iexact Hxl'
      iexact Hxr
    isplitl [Hl']
    · iapply (Entails.of_eq (asm_pts_l (F := F) d L _ _)); iexact Hl'
    iexact Hfin
  isplitl [Hb0 Hb1 Hlo Hhi Hb3 Hbufs]
  · isplitl [Hb0]; · iexists _; iexact Hb0
    isplitl [Hb1]; · iexists _; iexact Hb1
    isplitl [Hlo Hhi]
    · iapply (asm_b2_join (F := F) d L _ _)
      isplitl [Hlo]; · iexact Hlo
      iexact Hhi
    isplitl [Hb3]; · iexists _; iexact Hb3
    iexact Hbufs
  isplitl [Hs5 Hs6 Hp0 Hp1 Hp2 Hsems]
  · isplitl [Hs5]; · iexact Hs5
    isplitl [Hs6]; · iexact Hs6
    isplitl [Hp0]; · iexact Hp0
    isplitl [Hp1]; · iexact Hp1
    isplitl [Hp2]; · iexact Hp2
    iexact Hsems
  unfold owesW2; iexact HO

end Cert.KernelIdeal.Sc

end
-- ==== Proof.KITileP18.lean ====
import proofs.«212945_g29746943492489_cont_sun_c4_499_28_alg».proof.Proof.KITileDma

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

variable (m : (ℓ : Loc nD τ sig) → Buf (Elt F) ℓ) (hl : ∀ d b p, (m (lLoc d) (ValueIdx.ix2 b p)).toNat ≤ 127)

theorem zeros_keep (d : Dev nD) (L : grid0.Coords) (w0 : Buf (Elt F) (b1Loc d L)) (pay : IVec S16 32) (k : ℕ) (hk : k < 16) :
    ((Memref.whole cc0_scratch1).view.writes (Elt F) w0 [⟨Rect.unit (s := S32) ![16] S16.size inb_S32_S16_16, pay⟩])
        (ValueIdx.ix1 ⟨k, Nat.lt_of_lt_of_le hk (by decide)⟩)
      = w0 (ValueIdx.ix1 ⟨k, Nat.lt_of_lt_of_le hk (by decide)⟩) := by
  have h := View.read_writes_apply_of_forall_not_mem (v := (Memref.whole cc0_scratch1).view) (Val := Elt F) (f := w0)
    (ValueIdx.ix1 ⟨k, Nat.lt_of_lt_of_le hk (by decide)⟩) [⟨Rect.unit (s := S32) ![16] S16.size inb_S32_S16_16, pay⟩] (by
      intro p hp
      rw [List.mem_singleton] at hp
      subst hp
      rw [Rect.mem_set_unit]
      intro h
      have h16 : 16 ≤ k := (h 0).1
      omega)
  exact h

theorem part18_tuple (L : grid0.Coords) (v46 : BitVec 32) (p p' : k0_chk1 L v46) (v v' : BitVec 32) (hv : v = v')
    (q : k0_chk2 L v46 v) (q' : k0_chk2 L v46 v') (a b c e : FVec F S16 .f32) (z : F .f32) :
    (⟨v46, p, v, q, Scalar.remsi v46 8#32, Scalar.addi (Scalar.remsi v46 8#32) v, a, b, c, e, z⟩ :
        Σ' (v46 : BitVec 32) (_ : k0_chk1 L v46) (v51 : BitVec 32) (_ : k0_chk2 L v46 v51) (_ : BitVec 32) (_ : BitVec 32)
          (_ : FVec F S16 .f32) (_ : FVec F S16 .f32) (_ : FVec F S16 .f32) (_ : FVec F S16 .f32), F .f32)
      = ⟨v46, p', v', q', Scalar.remsi v46 8#32, Scalar.addi (Scalar.remsi v46 8#32) v', a, b, c, e, z⟩ := by
  subst hv; rfl

include hl in
theorem stretch18 : Stretch18 m hl := by
  intro d L ql qr v18 c0 w0 hw0 f2
  rw [b1_held]
  iintro ⟨H1, H2, HXl, HXr, HS5, HS6⟩
  rw [k0_part18_eq_skeleton]
  unfold k0_part18_skel
  sl_exec
  have hw1 : ∀ k (hk : k < 16), ((Memref.whole cc0_scratch1).view.writes (Elt F) w0
        [⟨Rect.unit (s := S32) ![16] S16.size inb_S32_S16_16, k0_pay123 c0⟩]) (ValueIdx.ix1 ⟨k, Nat.lt_of_lt_of_le hk (by decide)⟩)
      = m (lLoc d) (ValueIdx.ix2 (3 : Fin 4) ⟨k, hk⟩) := fun k hk => (zeros_keep d L w0 _ k hk).trans (hw0 k hk)
  generalize (Memref.whole cc0_scratch1).view.writes (Elt F) w0
        [⟨Rect.unit (s := S32) ![16] S16.size inb_S32_S16_16, k0_pay123 c0⟩] = w1 at hw1 ⊢
  sl_for (fun k acc => iprop((View.loc (thrV d L) (Memref.whole cc0_scratch1).view ↦{fullShare} w1)
      ∗ ⌜acc = BitVec.ofNat 32 (preN (m (lLoc d)) k)⌝)) $$ [H1]
  case region => intro k acc; exact regionT1 m d L w1 hw1 v18 c0 k acc
  · isplitl [H1]
    · iexact H1
    · ipureintro; simp [preN]
  iintro %acc HI
  icases HI with ⟨H1, %hacc⟩
  rw [preN_trips] at hacc
  subst hacc
  sl_for0 (ScFacts.t2_trips L)
  have hq1 : k0_chk1 L (BitVec.ofNat 32 (beginN (m (lLoc d)) (pOf (L 0).val (L 1).val))) := hc1 m hl d L
  sl_exec
  have e51 : stretch18.sl.v51 L w1 = lenW (m (lLoc d)) (pOf (L 0).val (L 1).val) := by
    unfold stretch18.sl.v51
    exact len_load m d L w1 hw1
  have hq2 : k0_chk2 L (BitVec.ofNat 32 (beginN (m (lLoc d)) (pOf (L 0).val (L 1).val))) (stretch18.sl.v51 L w1) := by
    rw [e51]; exact hc2 m hl d L
  sl_exec

  ihave H2s := (pointsTo_split_subset (ℓ := b2Loc d L) (I := loSet) (S := Finset.univ) (q := fullShare) (f := f2)
      (Finset.subset_univ _)).1 $$ H2
  icases H2s with ⟨Hlo, Hhi⟩
  rw [hi_eq_compl]
  ihave HXs := (pointsTo_split_subset (ℓ := xLoc d)
      (I := (XS0 L (BitVec.ofNat 32 (beginN (m (lLoc d)) (pOf (L 0).val (L 1).val))) hq1).view.set) (S := Finset.univ) (q := ql)
      (f := m (xLoc d)) (Finset.subset_univ _)).1 $$ HXl
  icases HXs with ⟨Hxs, Hxrest⟩
  iapply (Transfers.wp_dmaLocal ECn 𝒱₀ (V d (cV L) (jV L)) none (default : HIx 1) _ rfl (View.amount_pos _ _ (by decide))
      (by rw [set_b2Lo])) $$ [Hxs Hlo HS5]
  · isplitl [Hxs]; · iexact Hxs
    isplitl [Hlo]; · iexact Hlo
    iexact HS5
  iintro HF0
  by_cases h1 : k0_cond1 (BitVec.ofNat 32 (beginN (m (lLoc d)) (pOf (L 0).val (L 1).val))) (stretch18.sl.v51 L w1) = 1#1
  ·
    sl_exec
    ihave HXs := (pointsTo_split_subset (ℓ := xLoc d)
        (I := (XS1 L (BitVec.ofNat 32 (beginN (m (lLoc d)) (pOf (L 0).val (L 1).val))) (stretch18.sl.v51 L w1) hq2 h1).view.set)
        (S := Finset.univ) (q := qr) (f := m (xLoc d)) (Finset.subset_univ _)).1 $$ HXr
    icases HXs with ⟨Hxs, Hxrest1⟩
    iapply (Transfers.wp_dmaLocal ECn 𝒱₀ (V d (cV L) (jV L)) none (default : HIx 1) _ rfl (View.amount_pos _ _ (by decide))
        (by rw [set_b2Hi])) $$ [Hxs Hhi HS6]
    · isplitl [Hxs]; · iexact Hxs
      isplitl [Hhi]; · iexact Hhi
      iexact HS6
    iintro HF1
    sl_exec
    sl_step
    isplitr
    · ipureintro
      exact part18_tuple L _ _ _ _ _ e51 _ _ _ _ _ _ _
    isplitl [H1]
    · iexists _; iexact H1
    isplitl [HF0]
    · unfold Fl0 Blo; iexact HF0
    isplitl [Hxrest]
    · iexact Hxrest
    have h1' : k0_cond1 (v46V m d L) (v51V m d L) = 1#1 := by
      unfold v46V v51V; rw [← e51]; exact h1
    unfold D1
    rw [dif_pos h1']
    isplitl [HF1]
    · unfold Fl1 Bhi; iexact HF1
    · iexact Hxrest1
  · sl_exec
    sl_step
    isplitr
    · ipureintro
      exact part18_tuple L _ _ _ _ _ e51 _ _ _ _ _ _ _
    isplitl [H1]
    · iexists _; iexact H1
    isplitl [HF0]
    · unfold Fl0 Blo; iexact HF0
    isplitl [Hxrest]
    · iexact Hxrest
    have h1' : ¬ k0_cond1 (v46V m d L) (v51V m d L) = 1#1 := by
      unfold v46V v51V; rw [← e51]; exact h1
    unfold D1
    rw [dif_neg h1']
    isplitl [Hhi]
    · iexact Hhi
    isplitl [HS6]
    · iexact HS6
    iexact HXr

end Cert.KernelIdeal.Sc

end
-- ==== Proof.KITileP19.lean ====
import proofs.«212945_g29746943492489_cont_sun_c4_499_28_alg».proof.Proof.KITileSpec
import proofs.«212945_g29746943492489_cont_sun_c4_499_28_alg».proof.Proof.ScFacts

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

abbrev lowerHalf : Memref sig .scVector .vmem S72x256 .f32 :=
  (Memref.whole cc0_scratch2).slice (Rect.unit (s := S144x256) ![0, 0] S72x256.size inb_S144x256_S72x256_0_0) (fun _ => rfl)

theorem part19 (d : Dev nD) (L : grid0.Coords) (v46 : BitVec 32) (hw1 : k0_chk1 L v46) (v52 v55 : BitVec 32) (cst : F .f32)
    (O : CellTallies nD τ sig (HIx 1)) (W : Waits sig (HIx 1)) (N : ℕ) (hN : (lowerHalf).view.dmaCredit = N) (D : sProp 𝕄) :
    iprop(Transfers.MayWaits (thrV d L) (none : HIx 1) O
        ∗ Transfers.Flight (countersEmb (U := UU)) (thrV d L) (.dma cc0_scratch5.sem) (none : HIx 1) N D
        ∗ owesW (thrV d L) O W)
      ⊢ wp frame (wpE (D₀ (F := F)) 𝒱₀ (thrV d L) none) Set.univ
          (k0_part19 L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 hw1 v52 v55 cst)
          fun r => iprop(⌜∃ (v88 v91 : BitVec 32) (v102 v104 : BitVec 1), r = ⟨k0_pay131 cst, k0_pay132 (F := F), k0_pay133 (F := F), k0_pay134 (F := F),
              k0_pay135 (F := F), k0_pay136 (F := F), k0_pay137 (F := F), k0_pay138 (F := F), k0_pay139 (F := F), k0_pay140 (F := F),
              k0_pay141 (F := F), k0_pay142 (F := F), v88, v91, v102, v104⟩⌝
            ∗ D ∗ semVal (cS5 d (cV L) (jV L)) 0 ∗ owesW (thrV d L) O W) := by
  unfold owesW
  iintro ⟨#HMW, HF, ⟨%W', %hW', HO⟩⟩
  rw [k0_part19_eq_skeleton]
  unfold k0_part19_skel
  sl_exec
  iapply (Transfers.wp_waitLocalO (countersEmb (U := UU)) 𝒱₀ (thrV d L) none (none : HIx 1) hN) $$ [HF HO]
  · isplitl [HF]; · iexact HF
    isplitl [HO]; · iexact HO
    iapply (Transfers.MayWaits.elim (SemLoc.dma cc0_scratch5.sem))
    iexact HMW
  iintro ⟨HD, HS, HO⟩
  sl_exec
  sl_step
  isplitr
  · ipureintro; exact ⟨_, _, _, _, rfl⟩
  isplitl [HD]; · iexact HD
  isplitl [HS]; · iexact HS
  iexists _
  isplitr
  on_goal 2 => iexact HO
  ipureintro
  intro p hp
  rcases Finset.mem_insert.1 hp with h | h
  · right; rw [h]
  · exact hW' p h

end Cert.KernelIdeal.Sc

end
-- ==== Proof.KITileAcc.lean ====
import proofs.«212945_g29746943492489_cont_sun_c4_499_28_alg».proof.Proof.KITileSpec
import proofs.«212945_g29746943492489_cont_sun_c4_499_28_alg».proof.Proof.ScFacts
import Idealize.ShloMosaic.Lib.ValueIdx
import Idealize.ShloMosaic.Lib.Pipeline.Value

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

def rowVec (B : S144x256.Idx → F .f32) (r c : ℕ) : Vec F S1x16 .f32 := fun j =>
  B (ValueIdx.ix2 (Fin.ofNat 144 r) (Fin.ofNat 256 (c + (j 1).val)))

theorem shapeCast_rowVec (B : S144x256.Idx → F .f32) (r c : ℕ) (h : S1x16.ShapeCasts S16) :
    shapeCast S16 (rowVec B r c) h = bufPiece B r c := by
  funext k
  unfold bufPiece rowVec
  rw [shapeCast_apply _ h k (ValueIdx.ix2 (0 : Fin 1) (k 0))
    (by rw [Shape.rowMajor_val_two, Shape.rowMajor_val_one]; show 0 * 16 + (k 0).val = (k 0).val; omega)]

theorem readAt_row (d : Dev nD) (L : grid0.Coords) (B : Buf (Elt F) (b2Loc d L)) (r col : ℕ) (hr : r < 144) (hc : col + 16 ≤ 256)
    (inb : ∀ a, (![r, col] : Fin 2 → ℕ) a + S1x16.size a ≤ S144x256.size a) :
    (Memref.whole cc0_scratch2 : Memref sig .scVector _ _ _).view.readAt (Elt F) (Rect.unit (s := S144x256) ![r, col] S1x16.size inb).toLoadRect B
      = rowVec B r col := by
  funext j
  show B ((Rect.unit (s := S144x256) ![r, col] S1x16.size inb).toLoadRect.idx j) = _
  unfold rowVec
  refine congrArg B (funext fun a => ?_)
  have h0 : (j 0).val < 1 := (j 0).isLt
  have h1 : (j 1).val < 16 := (j 1).isLt
  match a with
  | ⟨0, _⟩ =>
    refine Fin.ext ?_
    show r + 1 * (j 0).val = r % 144
    rw [Nat.mod_eq_of_lt hr]; omega
  | ⟨1, _⟩ =>
    refine Fin.ext ?_
    show col + 1 * (j 1).val = (col + (j 1).val) % 256
    rw [Nat.mod_eq_of_lt (by omega)]; omega

theorem load_row {α : Type} (d : Dev nD) (L : grid0.Coords) (S : Finset S144x256.Idx) (B : Buf (Elt F) (b2Loc d L))
    (off : Fin 2 → ℕ) (r col : ℕ) (hoff : off = ![r, col]) (hr : r < 144) (hc : col + 16 ≤ 256)
    (inb : ∀ a, off a + S1x16.size a ≤ S144x256.size a)
    (hl : (Memref.whole cc0_scratch2 : Memref sig .scVector _ _ _).view.LoadsAt (Rect.unit (s := S144x256) off S1x16.size inb).toLoadRect)
    (hS : ∀ x : S144x256.Idx, (x 0).val = r → x ∈ S)
    (k : Vec F S1x16 .f32 → Prog (TpuEff nD τ sig (Elt F) Λ₀ (.scVector (cV L) (jV L))) α) (Q : α → sProp 𝕄) :
    (b2Loc d L ↦[S]{fullShare} B)
      ⊢ iprop(((b2Loc d L ↦[S]{fullShare} B) -∗ wp frame (wpE (D₀ (F := F)) 𝒱₀ (thrV d L) none) Set.univ (k (rowVec B r col)) Q)
        -∗ wp frame (wpE (D₀ (F := F)) 𝒱₀ (thrV d L) none) Set.univ
            (.op (.load (Memref.whole cc0_scratch2) (Rect.unit (s := S144x256) off S1x16.size inb).toLoadRect hl) k) Q) := by
  subst hoff
  have hS' : (Memref.whole cc0_scratch2 : Memref sig .scVector _ _ _).view.setOn
      (Rect.unit (s := S144x256) ![r, col] S1x16.size inb).toLoadRect.set ⊆ S := by
    intro x hx
    obtain ⟨y, hy, rfl⟩ := Finset.mem_map.mp hx
    have hy' := (Rect.mem_set_unit.mp hy) ⟨0, by decide⟩
    refine hS _ ?_
    have h1 : (y ⟨0, by decide⟩ : ℕ) < r + 1 := hy'.2
    have h2 : r ≤ (y ⟨0, by decide⟩ : ℕ) := hy'.1
    show (y 0 : ℕ) = r
    exact le_antisymm (Nat.lt_succ_iff.mp h1) h2
  have h := wp_load (defs := D₀ (F := F)) 𝒱₀ (thrV d L) none (Γ := .empty) Set.univ (m := Memref.whole cc0_scratch2)
    (r := (Rect.unit (s := S144x256) ![r, col] S1x16.size inb).toLoadRect) (hl := hl) (k := k) (S := S) (q := fullShare) (f := B) (Q := Q) hS'
  rw [readAt_row d L B r col hr hc inb] at h
  exact h

theorem sumBuf_succ (B : S144x256.Idx → F .f32) (c : ℕ) (a : FVec F S16 .f32) (r0 n : ℕ) :
    sumBuf B c a r0 (n + 1) = addf (sumBuf B c a r0 n) (bufPiece B (r0 + n) c) := by
  unfold sumBuf
  rw [List.range'_1_concat, List.foldl_append]
  rfl

theorem acc_one (B : S144x256.Idx → F .f32) (c : ℕ) (a : FVec F S16 .f32) (r0 n : ℕ) (h : S1x16.ShapeCasts S16) :
    addf (sumBuf B c a r0 n) (shapeCast S16 (rowVec B (r0 + n) c) h) = sumBuf B c a r0 (n + 1) := by
  rw [shapeCast_rowVec, sumBuf_succ]

theorem acc_two (B : S144x256.Idx → F .f32) (c : ℕ) (a : FVec F S16 .f32) (r0 n : ℕ) (h h' : S1x16.ShapeCasts S16) :
    addf (addf (sumBuf B c a r0 n) (shapeCast S16 (rowVec B (r0 + n) c) h)) (shapeCast S16 (rowVec B (r0 + n + 1) c) h')
      = sumBuf B c a r0 (n + 2) := by
  rw [shapeCast_rowVec, shapeCast_rowVec, sumBuf_succ B c a r0 (n + 1), sumBuf_succ B c a r0 n]
  rfl

theorem mem_loSet_of_row (r : ℕ) (h : r < 72) : ∀ x : S144x256.Idx, (x 0).val = r → x ∈ loSet := fun x hx => by
  simp only [loSet, Finset.mem_filter, Finset.mem_univ, true_and]; omega

theorem mem_hiSet_of_row (r : ℕ) (h : 72 ≤ r) : ∀ x : S144x256.Idx, (x 0).val = r → x ∈ hiSet := fun x hx => by
  simp only [hiSet, Finset.mem_filter, Finset.mem_univ, true_and]; omega

set_option maxHeartbeats 4000000 in

theorem regionT3 : RegionT3 (F := F) := by
  intro d L v46 v51 hw2 hb hl B a0 v52 v55 u0 u1 u2 u3 u4 u5 u6 u7 u8 u9 u10 u11 u12 u13 u14 u15 v88 v91 v102 v104 k acc
  have ht : k.val < (min (v46.toNat % 8 + v51.toNat) 72 - v46.toNat % 8) / 2 := Nat.lt_of_lt_of_eq k.isLt (ScFacts.t3_abs hb hl).2
  unfold accInv
  iintro ⟨H, %hacc⟩
  subst hacc
  simp only [k0_t3_body, accs16, k0_part1_eq_skeleton, k0_part1_skel, k0_part2_eq_skeleton, k0_part2_skel, k0_part3_eq_skeleton, k0_part3_skel,
    Prog.lift, Prog.bind_op, Prog.bind_ret, Prog.pure_eq_ret, Prog.bind_assoc]
  iterate 16 (
    iapply (load_row d L loSet B _ _ _ (by exact ScFacts.off_of (ScFacts.k0_off7_eq hb hl k) rfl) (by omega) (by exact Nat.le_of_ble_eq_true rfl) _ _ (mem_loSet_of_row _ (by omega)) _ _) $$ H; iintro H
    iapply (load_row d L loSet B _ _ _ (by exact ScFacts.off_of (ScFacts.k0_off8_eq hb hl k) rfl) (by omega) (by exact Nat.le_of_ble_eq_true rfl) _ _ (mem_loSet_of_row _ (by omega)) _ _) $$ H; iintro H)
  rw [wp_ret]; imodintro
  iframe H
  ipureintro
  rw [Nat.mul_add_one]
  simp only [Prod.mk.injEq]
  exact ⟨acc_two B (16 * 0) (a0 0) (v46.toNat % 8) (2 * k.val) _ _,
    acc_two B (16 * 1) (a0 1) (v46.toNat % 8) (2 * k.val) _ _,
    acc_two B (16 * 2) (a0 2) (v46.toNat % 8) (2 * k.val) _ _,
    acc_two B (16 * 3) (a0 3) (v46.toNat % 8) (2 * k.val) _ _,
    acc_two B (16 * 4) (a0 4) (v46.toNat % 8) (2 * k.val) _ _,
    acc_two B (16 * 5) (a0 5) (v46.toNat % 8) (2 * k.val) _ _,
    acc_two B (16 * 6) (a0 6) (v46.toNat % 8) (2 * k.val) _ _,
    acc_two B (16 * 7) (a0 7) (v46.toNat % 8) (2 * k.val) _ _,
    acc_two B (16 * 8) (a0 8) (v46.toNat % 8) (2 * k.val) _ _,
    acc_two B (16 * 9) (a0 9) (v46.toNat % 8) (2 * k.val) _ _,
    acc_two B (16 * 10) (a0 10) (v46.toNat % 8) (2 * k.val) _ _,
    acc_two B (16 * 11) (a0 11) (v46.toNat % 8) (2 * k.val) _ _,
    acc_two B (16 * 12) (a0 12) (v46.toNat % 8) (2 * k.val) _ _,
    acc_two B (16 * 13) (a0 13) (v46.toNat % 8) (2 * k.val) _ _,
    acc_two B (16 * 14) (a0 14) (v46.toNat % 8) (2 * k.val) _ _,
    acc_two B (16 * 15) (a0 15) (v46.toNat % 8) (2 * k.val) _ _⟩

set_option maxHeartbeats 4000000 in

theorem regionT5 : RegionT5 (F := F) := by
  intro d L v46 v51 hw2 hb hl B a0 v52 v55 u0 u1 u2 u3 u4 u5 u6 u7 u8 u9 u10 u11 u12 u13 u14 u15 v88 v91 v102 v104 v116 k acc
  have ht : k.val < (min (v46.toNat % 8 + v51.toNat) 72 - v46.toNat % 8) % 2 := Nat.lt_of_lt_of_eq k.isLt (ScFacts.t5_abs hb hl).2
  unfold accInv cnt1
  iintro ⟨H, %hacc⟩
  subst hacc
  simp only [k0_t5_body, accs16, k0_part7_eq_skeleton, k0_part7_skel,
    Prog.lift, Prog.bind_op, Prog.bind_ret, Prog.pure_eq_ret, Prog.bind_assoc]
  iterate 16 (iapply (load_row d L loSet B _ _ _ (by exact ScFacts.off_of (ScFacts.k0_off71_eq hb hl k) rfl) (by omega) (by exact Nat.le_of_ble_eq_true rfl) _ _ (mem_loSet_of_row _ (by omega)) _ _) $$ H; iintro H)
  rw [wp_ret]; imodintro
  iframe H
  ipureintro
  simp only [Nat.one_mul, Prod.mk.injEq]
  exact ⟨acc_one B (16 * 0) (a0 0) (v46.toNat % 8 + 2 * ((min (v46.toNat % 8 + v51.toNat) 72 - v46.toNat % 8) / 2)) (k.val) _,
    acc_one B (16 * 1) (a0 1) (v46.toNat % 8 + 2 * ((min (v46.toNat % 8 + v51.toNat) 72 - v46.toNat % 8) / 2)) (k.val) _,
    acc_one B (16 * 2) (a0 2) (v46.toNat % 8 + 2 * ((min (v46.toNat % 8 + v51.toNat) 72 - v46.toNat % 8) / 2)) (k.val) _,
    acc_one B (16 * 3) (a0 3) (v46.toNat % 8 + 2 * ((min (v46.toNat % 8 + v51.toNat) 72 - v46.toNat % 8) / 2)) (k.val) _,
    acc_one B (16 * 4) (a0 4) (v46.toNat % 8 + 2 * ((min (v46.toNat % 8 + v51.toNat) 72 - v46.toNat % 8) / 2)) (k.val) _,
    acc_one B (16 * 5) (a0 5) (v46.toNat % 8 + 2 * ((min (v46.toNat % 8 + v51.toNat) 72 - v46.toNat % 8) / 2)) (k.val) _,
    acc_one B (16 * 6) (a0 6) (v46.toNat % 8 + 2 * ((min (v46.toNat % 8 + v51.toNat) 72 - v46.toNat % 8) / 2)) (k.val) _,
    acc_one B (16 * 7) (a0 7) (v46.toNat % 8 + 2 * ((min (v46.toNat % 8 + v51.toNat) 72 - v46.toNat % 8) / 2)) (k.val) _,
    acc_one B (16 * 8) (a0 8) (v46.toNat % 8 + 2 * ((min (v46.toNat % 8 + v51.toNat) 72 - v46.toNat % 8) / 2)) (k.val) _,
    acc_one B (16 * 9) (a0 9) (v46.toNat % 8 + 2 * ((min (v46.toNat % 8 + v51.toNat) 72 - v46.toNat % 8) / 2)) (k.val) _,
    acc_one B (16 * 10) (a0 10) (v46.toNat % 8 + 2 * ((min (v46.toNat % 8 + v51.toNat) 72 - v46.toNat % 8) / 2)) (k.val) _,
    acc_one B (16 * 11) (a0 11) (v46.toNat % 8 + 2 * ((min (v46.toNat % 8 + v51.toNat) 72 - v46.toNat % 8) / 2)) (k.val) _,
    acc_one B (16 * 12) (a0 12) (v46.toNat % 8 + 2 * ((min (v46.toNat % 8 + v51.toNat) 72 - v46.toNat % 8) / 2)) (k.val) _,
    acc_one B (16 * 13) (a0 13) (v46.toNat % 8 + 2 * ((min (v46.toNat % 8 + v51.toNat) 72 - v46.toNat % 8) / 2)) (k.val) _,
    acc_one B (16 * 14) (a0 14) (v46.toNat % 8 + 2 * ((min (v46.toNat % 8 + v51.toNat) 72 - v46.toNat % 8) / 2)) (k.val) _,
    acc_one B (16 * 15) (a0 15) (v46.toNat % 8 + 2 * ((min (v46.toNat % 8 + v51.toNat) 72 - v46.toNat % 8) / 2)) (k.val) _⟩

set_option maxHeartbeats 4000000 in

theorem regionT7 : RegionT7 (F := F) := by
  intro d L v46 v51 hw2 hb hl B a0 u0 u1 u2 u3 u4 u5 u6 u7 u8 u9 u10 u11 u12 u13 u14 u15 v127 v130 v141 v142 c0 k acc
  have ht : k.val < (max (v46.toNat % 8 + v51.toNat) 72 - 72) / 2 := Nat.lt_of_lt_of_eq k.isLt (ScFacts.t7_abs hb hl).2
  unfold accInv
  iintro ⟨H, %hacc⟩
  subst hacc
  simp only [k0_t7_body, accs16, k0_part9_eq_skeleton, k0_part9_skel, k0_part10_eq_skeleton, k0_part10_skel, k0_part11_eq_skeleton, k0_part11_skel,
    Prog.lift, Prog.bind_op, Prog.bind_ret, Prog.pure_eq_ret, Prog.bind_assoc]
  iterate 16 (
    iapply (load_row d L hiSet B _ _ _ (by exact ScFacts.off_of (ScFacts.k0_off104_eq hb hl k) rfl) (by omega) (by exact Nat.le_of_ble_eq_true rfl) _ _ (mem_hiSet_of_row _ (by omega)) _ _) $$ H; iintro H
    iapply (load_row d L hiSet B _ _ _ (by exact ScFacts.off_of (ScFacts.k0_off105_eq hb hl k) rfl) (by omega) (by exact Nat.le_of_ble_eq_true rfl) _ _ (mem_hiSet_of_row _ (by omega)) _ _) $$ H; iintro H)
  rw [wp_ret]; imodintro
  iframe H
  ipureintro
  rw [Nat.mul_add_one]
  simp only [Prod.mk.injEq]
  exact ⟨acc_two B (16 * 0) (a0 0) (72) (2 * k.val) _ _,
    acc_two B (16 * 1) (a0 1) (72) (2 * k.val) _ _,
    acc_two B (16 * 2) (a0 2) (72) (2 * k.val) _ _,
    acc_two B (16 * 3) (a0 3) (72) (2 * k.val) _ _,
    acc_two B (16 * 4) (a0 4) (72) (2 * k.val) _ _,
    acc_two B (16 * 5) (a0 5) (72) (2 * k.val) _ _,
    acc_two B (16 * 6) (a0 6) (72) (2 * k.val) _ _,
    acc_two B (16 * 7) (a0 7) (72) (2 * k.val) _ _,
    acc_two B (16 * 8) (a0 8) (72) (2 * k.val) _ _,
    acc_two B (16 * 9) (a0 9) (72) (2 * k.val) _ _,
    acc_two B (16 * 10) (a0 10) (72) (2 * k.val) _ _,
    acc_two B (16 * 11) (a0 11) (72) (2 * k.val) _ _,
    acc_two B (16 * 12) (a0 12) (72) (2 * k.val) _ _,
    acc_two B (16 * 13) (a0 13) (72) (2 * k.val) _ _,
    acc_two B (16 * 14) (a0 14) (72) (2 * k.val) _ _,
    acc_two B (16 * 15) (a0 15) (72) (2 * k.val) _ _⟩

set_option maxHeartbeats 4000000 in

theorem regionT9 : RegionT9 (F := F) := by
  intro d L v46 v51 hw2 hb hl B a0 u0 u1 u2 u3 u4 u5 u6 u7 u8 u9 u10 u11 u12 u13 u14 u15 v127 v130 v141 v142 c0 v155 k acc
  have ht : k.val < (max (v46.toNat % 8 + v51.toNat) 72 - 72) % 2 := Nat.lt_of_lt_of_eq k.isLt (ScFacts.t9_abs hb hl).2
  unfold accInv cnt2
  iintro ⟨H, %hacc⟩
  subst hacc
  simp only [k0_t9_body, accs16, k0_part15_eq_skeleton, k0_part15_skel,
    Prog.lift, Prog.bind_op, Prog.bind_ret, Prog.pure_eq_ret, Prog.bind_assoc]
  iterate 16 (iapply (load_row d L hiSet B _ _ _ (by exact ScFacts.off_of (ScFacts.k0_off168_eq hb hl k) rfl) (by omega) (by exact Nat.le_of_ble_eq_true rfl) _ _ (mem_hiSet_of_row _ (by omega)) _ _) $$ H; iintro H)
  rw [wp_ret]; imodintro
  iframe H
  ipureintro
  simp only [Nat.one_mul, Prod.mk.injEq]
  exact ⟨acc_one B (16 * 0) (a0 0) (72 + 2 * ((max (v46.toNat % 8 + v51.toNat) 72 - 72) / 2)) (k.val) _,
    acc_one B (16 * 1) (a0 1) (72 + 2 * ((max (v46.toNat % 8 + v51.toNat) 72 - 72) / 2)) (k.val) _,
    acc_one B (16 * 2) (a0 2) (72 + 2 * ((max (v46.toNat % 8 + v51.toNat) 72 - 72) / 2)) (k.val) _,
    acc_one B (16 * 3) (a0 3) (72 + 2 * ((max (v46.toNat % 8 + v51.toNat) 72 - 72) / 2)) (k.val) _,
    acc_one B (16 * 4) (a0 4) (72 + 2 * ((max (v46.toNat % 8 + v51.toNat) 72 - 72) / 2)) (k.val) _,
    acc_one B (16 * 5) (a0 5) (72 + 2 * ((max (v46.toNat % 8 + v51.toNat) 72 - 72) / 2)) (k.val) _,
    acc_one B (16 * 6) (a0 6) (72 + 2 * ((max (v46.toNat % 8 + v51.toNat) 72 - 72) / 2)) (k.val) _,
    acc_one B (16 * 7) (a0 7) (72 + 2 * ((max (v46.toNat % 8 + v51.toNat) 72 - 72) / 2)) (k.val) _,
    acc_one B (16 * 8) (a0 8) (72 + 2 * ((max (v46.toNat % 8 + v51.toNat) 72 - 72) / 2)) (k.val) _,
    acc_one B (16 * 9) (a0 9) (72 + 2 * ((max (v46.toNat % 8 + v51.toNat) 72 - 72) / 2)) (k.val) _,
    acc_one B (16 * 10) (a0 10) (72 + 2 * ((max (v46.toNat % 8 + v51.toNat) 72 - 72) / 2)) (k.val) _,
    acc_one B (16 * 11) (a0 11) (72 + 2 * ((max (v46.toNat % 8 + v51.toNat) 72 - 72) / 2)) (k.val) _,
    acc_one B (16 * 12) (a0 12) (72 + 2 * ((max (v46.toNat % 8 + v51.toNat) 72 - 72) / 2)) (k.val) _,
    acc_one B (16 * 13) (a0 13) (72 + 2 * ((max (v46.toNat % 8 + v51.toNat) 72 - 72) / 2)) (k.val) _,
    acc_one B (16 * 14) (a0 14) (72 + 2 * ((max (v46.toNat % 8 + v51.toNat) 72 - 72) / 2)) (k.val) _,
    acc_one B (16 * 15) (a0 15) (72 + 2 * ((max (v46.toNat % 8 + v51.toNat) 72 - 72) / 2)) (k.val) _⟩

end Cert.KernelIdeal.Sc

end
-- ==== Proof.KITileP20.lean ====
import proofs.«212945_g29746943492489_cont_sun_c4_499_28_alg».proof.Proof.KITileSpec
import proofs.«212945_g29746943492489_cont_sun_c4_499_28_alg».proof.Proof.ScFacts
import proofs.«212945_g29746943492489_cont_sun_c4_499_28_alg».proof.Proof.KITileAcc
import proofs.«212945_g29746943492489_cont_sun_c4_499_28_alg».proof.Proof.KITileDma

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

abbrev upperHalf : Memref sig .scVector .vmem S72x256 .f32 :=
  (Memref.whole cc0_scratch2).slice (Rect.unit (s := S144x256) ![72, 0] S72x256.size inb_S144x256_S72x256_72_0) (fun _ => rfl)

def lowSum (B : S144x256.Idx → F .f32) (a0 : ℕ → FVec F S16 .f32) (v46 v51 : BitVec 32) (g : ℕ) : FVec F S16 .f32 :=
  sumBuf B (16 * g) (a0 g) (v46.toNat % 8) (cnt1 v46 v51)

theorem sumBuf_add (B : S144x256.Idx → F .f32) (c : ℕ) (a : FVec F S16 .f32) (r0 n1 n2 : ℕ) :
    sumBuf B c (sumBuf B c a r0 n1) (r0 + n1) n2 = sumBuf B c a r0 (n1 + n2) := by
  induction n2 with
  | zero => rfl
  | succ n ih => rw [sumBuf_succ, ih, ← Nat.add_assoc, sumBuf_succ, Nat.add_assoc]

set_option maxHeartbeats 4000000 in

theorem part20 (hT3 : RegionT3 (F := F)) (hT5 : RegionT5 (F := F))
    (d : Dev nD) (L : grid0.Coords) (v46 v51 : BitVec 32) (hw2 : k0_chk2 L v46 v51) (hb : v46.toNat ≤ 1905) (hl : v51.toNat ≤ 127)
    (v52 v55 : BitVec 32) (a0 : ℕ → FVec F S16 .f32) (v88 v91 : BitVec 32) (v102 v104 : BitVec 1)
    (Blo : Buf (Elt F) (b2Loc d L)) (O : CellTallies nD τ sig (HIx 1)) (W : Waits sig (HIx 1))
    (N : ℕ) (hN : (upperHalf).view.dmaCredit = N) (R Post Dp Fp : sProp 𝕄)
    (hpos : k0_cond2 v46 v51 = 1#1 → R ⊢ iprop(Transfers.Flight (countersEmb (U := UU)) (thrV d L) (.dma cc0_scratch6.sem) (none : HIx 1) N Dp ∗ Fp))
    (hpos' : k0_cond2 v46 v51 = 1#1 → iprop(Dp ∗ Fp) ⊢ Post)
    (hneg : ¬ k0_cond2 v46 v51 = 1#1 → R ⊢ iprop(Post ∗ semVal (cS6 d (cV L) (jV L)) 0)) :
    iprop(Transfers.MayWaits (thrV d L) (none : HIx 1) O
        ∗ (b2Loc d L ↦[loSet]{fullShare} Blo) ∗ R ∗ owesW (thrV d L) O W)
      ⊢ wp frame (wpE (D₀ (F := F)) 𝒱₀ (thrV d L) none) Set.univ
          (k0_part20 L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1 cc0_scoped2 v46 v51 hw2 v52 v55 (a0 0) (a0 1) (a0 2) (a0 3) (a0 4) (a0 5) (a0 6) (a0 7) (a0 8) (a0 9) (a0 10) (a0 11) (a0 12) (a0 13) (a0 14) (a0 15) v88 v91 v102 v104)
          fun r => iprop(⌜∃ (v127 v130 : BitVec 32) (v141 : BitVec 1) (v142 : BitVec 32), r = ⟨lowSum Blo a0 v46 v51 0, lowSum Blo a0 v46 v51 1, lowSum Blo a0 v46 v51 2, lowSum Blo a0 v46 v51 3, lowSum Blo a0 v46 v51 4, lowSum Blo a0 v46 v51 5, lowSum Blo a0 v46 v51 6, lowSum Blo a0 v46 v51 7, lowSum Blo a0 v46 v51 8, lowSum Blo a0 v46 v51 9, lowSum Blo a0 v46 v51 10, lowSum Blo a0 v46 v51 11, lowSum Blo a0 v46 v51 12, lowSum Blo a0 v46 v51 13, lowSum Blo a0 v46 v51 14, lowSum Blo a0 v46 v51 15, v127, v130, v141, v142, 0#32⟩⌝
            ∗ (b2Loc d L ↦[loSet]{fullShare} Blo)
            ∗ Post ∗ semVal (cS6 d (cV L) (jV L)) 0 ∗ owesW (thrV d L) O W) := by
  unfold owesW
  iintro ⟨#HMW, Hlo, H1, ⟨%W', %hW', HO⟩⟩
  rw [k0_part20_eq_skeleton]
  unfold k0_part20_skel
  sl_exec
  sl_for (accInv d L loSet Blo a0 (v46.toNat % 8) 2) $$ [Hlo]
  · intro k acc
    exact hT3 d L v46 v51 hw2 hb hl Blo a0 v52 v55 (a0 0) (a0 1) (a0 2) (a0 3) (a0 4) (a0 5) (a0 6) (a0 7) (a0 8) (a0 9) (a0 10) (a0 11) (a0 12) (a0 13) (a0 14) (a0 15) v88 v91 v102 v104 k acc
  · unfold accInv
    isplitl [Hlo]; · iexact Hlo
    ipureintro; rfl
  iintro %acc HI
  unfold accInv
  icases HI with ⟨Hlo, %hacc⟩
  subst hacc
  sl_exec
  sl_for0 (ScFacts.t4_abs hb hl).2
  sl_exec
  sl_for (accInv d L loSet Blo (fun g => sumBuf Blo (16 * g) (a0 g) (v46.toNat % 8) (2 * (k0_t3_loop v46 v51).trips))
      (v46.toNat % 8 + 2 * (cnt1 v46 v51 / 2)) 1) $$ [Hlo]
  · intro k acc
    exact hT5 d L v46 v51 hw2 hb hl Blo _ v52 v55 (a0 0) (a0 1) (a0 2) (a0 3) (a0 4) (a0 5) (a0 6) (a0 7) (a0 8) (a0 9) (a0 10) (a0 11) (a0 12) (a0 13) (a0 14) (a0 15) v88 v91 v102 v104 _ k acc
  · unfold accInv
    isplitl [Hlo]; · iexact Hlo
    ipureintro; rfl
  iintro %acc HI
  unfold accInv
  icases HI with ⟨Hlo, %hacc⟩
  subst hacc
  sl_exec
  sl_for0 (ScFacts.t6_abs hb hl).2
  sl_exec
  have hsum : ∀ g, sumBuf Blo (16 * g) (sumBuf Blo (16 * g) (a0 g) (v46.toNat % 8) (2 * (k0_t3_loop v46 v51).trips))
        (v46.toNat % 8 + 2 * (cnt1 v46 v51 / 2)) (1 * Scf.trips (k0_t5_loop v46 v51).lb (k0_t5_loop v46 v51).ub (k0_t5_loop v46 v51).st) = lowSum Blo a0 v46 v51 g := by
    intro g
    show sumBuf Blo (16 * g) (sumBuf Blo (16 * g) (a0 g) (v46.toNat % 8) (2 * (k0_t3_loop v46 v51).trips))
        (v46.toNat % 8 + 2 * (cnt1 v46 v51 / 2)) (1 * (k0_t5_loop v46 v51).trips) = lowSum Blo a0 v46 v51 g
    have e3 : (k0_t3_loop v46 v51).trips = cnt1 v46 v51 / 2 := (ScFacts.t3_abs hb hl).2
    have e5 : (k0_t5_loop v46 v51).trips = cnt1 v46 v51 % 2 := (ScFacts.t5_abs hb hl).2
    rw [e3, e5, sumBuf_add]
    unfold lowSum
    congr 1
    have := Nat.div_add_mod (cnt1 v46 v51) 2
    omega
  by_cases h2 : k0_cond2 v46 v51 = 1#1
  · ihave H := (hpos h2) $$ H1
    icases H with ⟨HF, HFp⟩
    sl_exec
    iapply (Transfers.wp_waitLocalO (countersEmb (U := UU)) 𝒱₀ (thrV d L) none (none : HIx 1) hN) $$ [HF HO]
    · isplitl [HF]; · iexact HF
      isplitl [HO]; · iexact HO
      iapply (Transfers.MayWaits.elim (SemLoc.dma cc0_scratch6.sem))
      iexact HMW
    iintro ⟨HD, HS, HO⟩
    sl_exec
    sl_step
    isplitr
    · ipureintro
      simp only [hsum]
      exact ⟨_, _, _, _, rfl⟩
    isplitl [Hlo]; · iexact Hlo
    isplitl [HD HFp]
    · iapply (hpos' h2)
      isplitl [HD]; · iexact HD
      iexact HFp
    isplitl [HS]; · iexact HS
    iexists _
    isplitr
    on_goal 2 => iexact HO
    ipureintro
    intro p hp
    rcases Finset.mem_insert.1 hp with h | h
    · right; rw [h]
    · exact hW' p h
  · ihave H := (hneg h2) $$ H1
    icases H with ⟨HP, HS⟩
    sl_exec
    sl_step
    isplitr
    · ipureintro
      simp only [hsum]
      exact ⟨_, _, _, _, rfl⟩
    isplitl [Hlo]; · iexact Hlo
    isplitl [HP]; · iexact HP
    isplitl [HS]; · iexact HS
    iexists _
    isplitr
    on_goal 2 => iexact HO
    ipureintro
    exact hW'

theorem stretch20 (hT3 : RegionT3 (F := F)) (hT5 : RegionT5 (F := F)) : Stretch20 (F := F) := by
  intro d L q O W v46 v51 hw2 hb hl v52 v55 a0 v88 v91 v102 v104 B f2 x0
  have hc : k0_cond2 v46 v51 = 1#1 ↔ k0_cond1 v46 v51 = 1#1 := (ScFacts.cond2_iff hb hl).trans (ScFacts.cond1_iff hb hl).symm
  by_cases h1 : k0_cond1 v46 v51 = 1#1
  · have h2 : k0_cond2 v46 v51 = 1#1 := hc.mpr h1
    refine (part20 hT3 hT5 d L v46 v51 hw2 hb hl v52 v55 a0 v88 v91 v102 v104 B O W _ rfl
      (D1 d L q v46 v51 hw2 f2 x0)
      iprop((∃ B' : Buf (Elt F) (b2Loc d L), ⌜∀ h1 : k0_cond1 v46 v51 = 1#1, B' = Bhi d L v46 v51 hw2 h1 f2 x0⌝ ∗ (b2Loc d L ↦[hiSet]{fullShare} B'))
        ∗ (xLoc d ↦{q} x0))
      iprop(((b2Hi).view.loc (V d (cV L) (jV L)) ↦[hiSet]{fullShare} Bhi d L v46 v51 hw2 h1 f2 x0)
        ∗ ((XS1 L v46 v51 hw2 h1).view.loc (V d (cV L) (jV L)) ↦[(XS1 L v46 v51 hw2 h1).view.set]{q} x0))
      (xLoc d ↦[Finset.univ \ (XS1 L v46 v51 hw2 h1).view.set]{q} x0)
      (fun _ => ?_) (fun _ => ?_) (fun hn => absurd h2 hn)).trans (wp_mono _ _ _ fun r => ?_)
    · unfold D1 Fl1; rw [dif_pos h1]; exact .rfl
    · iintro ⟨⟨Hhi, Hsrc⟩, Hrest⟩
      isplitl [Hhi]
      · iexists (Bhi d L v46 v51 hw2 h1 f2 x0); isplitr; · ipureintro; intro _; rfl
        iexact Hhi
      iapply (pointsTo_split_subset (Finset.subset_univ (XS1 L v46 v51 hw2 h1).view.set)).2
      isplitl [Hsrc]; · iexact Hsrc
      iexact Hrest
    · unfold D1'
      iintro ⟨%hr, Hlo, ⟨HB, Hx⟩, HS, HO⟩
      isplitr; · ipureintro; exact hr
      isplitl [Hlo]; · iexact Hlo
      isplitr [HO]
      · isplitl [HB]; · iexact HB
        isplitl [HS]; · iexact HS
        iexact Hx
      · iexact HO
  · have h2 : ¬ k0_cond2 v46 v51 = 1#1 := fun h => h1 (hc.mp h)
    refine (part20 hT3 hT5 d L v46 v51 hw2 hb hl v52 v55 a0 v88 v91 v102 v104 B O W _ rfl
      (D1 d L q v46 v51 hw2 f2 x0)
      iprop((∃ B' : Buf (Elt F) (b2Loc d L), ⌜∀ h1 : k0_cond1 v46 v51 = 1#1, B' = Bhi d L v46 v51 hw2 h1 f2 x0⌝ ∗ (b2Loc d L ↦[hiSet]{fullShare} B'))
        ∗ (xLoc d ↦{q} x0))
      iprop(emp) iprop(emp)
      (fun h => absurd h h2) (fun h => absurd h h2) (fun _ => ?_)).trans (wp_mono _ _ _ fun r => ?_)
    · unfold D1; rw [dif_neg h1]
      iintro ⟨Hhi, HS, Hx⟩
      isplitr [HS]
      · isplitl [Hhi]
        · iexists f2; isplitr; · ipureintro; intro h; exact absurd h h1
          iexact Hhi
        iexact Hx
      · iexact HS
    · unfold D1'
      iintro ⟨%hr, Hlo, ⟨HB, Hx⟩, HS, HO⟩
      isplitr; · ipureintro; exact hr
      isplitl [Hlo]; · iexact Hlo
      isplitr [HO]
      · isplitl [HB]; · iexact HB
        isplitl [HS]; · iexact HS
        iexact Hx
      · iexact HO

end Cert.KernelIdeal.Sc

end
-- ==== Proof.KITileP21.lean ====
import proofs.«212945_g29746943492489_cont_sun_c4_499_28_alg».proof.Proof.KITileAcc
import proofs.«212945_g29746943492489_cont_sun_c4_499_28_alg».proof.Proof.KITileDma
import Idealize.ShloMosaic.Lib.WritesUnit
import proofs.«212945_g29746943492489_cont_sun_c4_499_28_alg».proof.Proof.ScFacts
import Idealize.ShloMosaic.Lib.ValueIdx
import Idealize.ShloMosaic.Lib.Pipeline.Value

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

omit [FloatOps F] in
theorem b3_held (d : Dev nD) (L : grid0.Coords) (q : PosShare TreeShare) (f : Buf (Elt F) (b3Loc d L)) :
    (b3Loc d L ↦{q} f : sProp 𝕄) = ((Memref.whole cc0_scratch3).view.loc (thrV d L) ↦{q} f) := rfl

variable {d : Dev nD} {L : grid0.Coords}

theorem accInv_zero (d : Dev nD) (L : grid0.Coords) (S : Finset S144x256.Idx) (B : Buf (Elt F) (b2Loc d L)) (a0 : ℕ → FVec F S16 .f32)
    (r0 w : ℕ) : (b2Loc d L ↦[S]{fullShare} B : sProp 𝕄) ⊢ accInv d L S B a0 r0 w 0 (accs16 a0) := by
  unfold accInv
  iintro H
  iframe H
  ipureintro
  simp [sumBuf]

theorem piece_read (f : Buf (Elt F) (b3Loc d L)) (Ls : List (View.Piece (Elt F) S1x256 .f32)) (c : ℕ) (hc : c + 16 ≤ 256)
    (inb : ∀ a, (![0, c] : Fin 2 → ℕ) a + S1x16.size a ≤ S1x256.size a) (X : FVec F S16 .f32) (h : S16.ShapeCasts S1x16) (k : S16.Idx) :
    (Memref.whole cc0_scratch3 : Memref sig .scVector _ _ _).view.writes (Elt F) f
        ((⟨Rect.unit (s := S1x256) ![0, c] S1x16.size inb, shapeCast S1x16 X h⟩ : View.Piece (Elt F) S1x256 .f32) :: Ls)
        (ValueIdx.ix2 (0 : Fin 1) (Fin.ofNat 256 (c + (k 0).val)))
      = X k := by
  have hk : (k 0).val < 16 := (k 0).isLt
  refine (View.read_writes_cons_unit_of_mem (v := (Memref.whole cc0_scratch3 : Memref sig .scVector _ _ _).view) (Val := Elt F) f inb
    (shapeCast S1x16 X h) Ls (ValueIdx.ix2 (0 : Fin 1) (Fin.ofNat 256 (c + (k 0).val))) (ValueIdx.ix2 (0 : Fin 1) (k 0)) rfl
    (fun a => ?_)).trans ?_
  · match a with
    | ⟨0, _⟩ => show 0 = 0 + 0; rfl
    | ⟨1, _⟩ => show (c + (k 0).val) % 256 = c + (k 0).val; exact Nat.mod_eq_of_lt (by omega)
  · rw [shapeCast_apply X h (ValueIdx.ix2 (0 : Fin 1) (k 0)) k
      (by rw [Shape.rowMajor_val_two, Shape.rowMajor_val_one]; show (k 0).val = 0 * 16 + (k 0).val; omega)]

theorem piece_skip (f : Buf (Elt F) (b3Loc d L)) (Ls : List (View.Piece (Elt F) S1x256 .f32)) (c c' : ℕ) (hc' : c' + 16 ≤ 256)
    (hne : c' + 16 ≤ c ∨ c + 16 ≤ c')
    (inb : ∀ a, (![0, c] : Fin 2 → ℕ) a + S1x16.size a ≤ S1x256.size a) (w : (Rect.unit (s := S1x256) ![0, c] S1x16.size inb).shape.Idx → F .f32)
    (k : S16.Idx) :
    (Memref.whole cc0_scratch3 : Memref sig .scVector _ _ _).view.writes (Elt F) f
        ((⟨Rect.unit (s := S1x256) ![0, c] S1x16.size inb, w⟩ : View.Piece (Elt F) S1x256 .f32) :: Ls)
        (ValueIdx.ix2 (0 : Fin 1) (Fin.ofNat 256 (c' + (k 0).val)))
      = (Memref.whole cc0_scratch3 : Memref sig .scVector _ _ _).view.writes (Elt F) f Ls
        (ValueIdx.ix2 (0 : Fin 1) (Fin.ofNat 256 (c' + (k 0).val))) := by
  have hk : (k 0).val < 16 := (k 0).isLt
  refine View.read_writes_cons_unit_of_not_mem (v := (Memref.whole cc0_scratch3 : Memref sig .scVector _ _ _).view) (Val := Elt F) f inb
    w Ls (ValueIdx.ix2 (0 : Fin 1) (Fin.ofNat 256 (c' + (k 0).val))) rfl ⟨1, by decide⟩ ?_
  show (c' + (k 0).val) % 256 < c ∨ c + 16 ≤ (c' + (k 0).val) % 256
  rw [Nat.mod_eq_of_lt (by omega)]; omega

theorem sumBuf_append (B : S144x256.Idx → F .f32) (c : ℕ) (a : FVec F S16 .f32) (r0 n1 n2 : ℕ) :
    sumBuf B c (sumBuf B c a r0 n1) (r0 + n1) n2 = sumBuf B c a r0 (n1 + n2) := by
  unfold sumBuf
  rw [← List.foldl_append, List.range'_append_1]

set_option maxHeartbeats 4000000 in
theorem stretch21 : Stretch21 (F := F) := by
  intro d L v46 v51 hw2 hb hl a0 v127 v130 v141 v142 c0 B f3
  have h7 : Scf.trips (k0_t7_loop v46 v51).lb (k0_t7_loop v46 v51).ub (k0_t7_loop v46 v51).st = cnt2 v46 v51 / 2 :=
    (ScFacts.t7_abs hb hl).2
  have h9 : Scf.trips (k0_t9_loop v46 v51).lb (k0_t9_loop v46 v51).ub (k0_t9_loop v46 v51).st = cnt2 v46 v51 % 2 :=
    (ScFacts.t9_abs hb hl).2
  rw [k0_part21_eq_skeleton]
  unfold k0_part21_skel
  dsimp only
  rw [b3_held]
  iintro ⟨Hhi, H3⟩
  sl_for (accInv d L hiSet B a0 72 2) $$ [Hhi]
  case region => exact regionT7 d L v46 v51 hw2 hb hl B a0 (a0 0) (a0 1) (a0 2) (a0 3) (a0 4) (a0 5) (a0 6) (a0 7) (a0 8) (a0 9) (a0 10) (a0 11) (a0 12) (a0 13) (a0 14) (a0 15) v127 v130 v141 v142 c0
  · iapply (accInv_zero d L hiSet B a0 72 2) $$ Hhi
  iintro %acc HI
  unfold accInv
  icases HI with ⟨Hhi, %hacc⟩
  subst hacc
  rw [h7]
  generalize hA1 : (fun g => sumBuf B (16 * g) (a0 g) 72 (2 * (cnt2 v46 v51 / 2))) = A1
  unfold accs16
  sl_for0 (ScFacts.t8_abs hb hl).2
  sl_for (accInv d L hiSet B A1 (72 + 2 * (cnt2 v46 v51 / 2)) 1) $$ [Hhi]
  case region =>
    exact regionT9 d L v46 v51 hw2 hb hl B A1 (a0 0) (a0 1) (a0 2) (a0 3) (a0 4) (a0 5) (a0 6) (a0 7) (a0 8) (a0 9) (a0 10) (a0 11) (a0 12) (a0 13) (a0 14) (a0 15) v127 v130 v141 v142 c0 _
  · iapply (accInv_zero d L hiSet B A1 (72 + 2 * (cnt2 v46 v51 / 2)) 1) $$ Hhi
  iintro %acc HI
  unfold accInv
  icases HI with ⟨Hhi, %hacc⟩
  subst hacc
  rw [h9]
  generalize hA2 : (fun g => sumBuf B (16 * g) (A1 g) (72 + 2 * (cnt2 v46 v51 / 2)) (1 * (cnt2 v46 v51 % 2))) = A2
  unfold accs16
  sl_for0 (ScFacts.t10_abs hb hl).2
  sl_exec
  have hA : ∀ g, A2 g = sumBuf B (16 * g) (a0 g) 72 (cnt2 v46 v51) := by
    intro g
    rw [← hA2, ← hA1]
    show sumBuf B (16 * g) (sumBuf B (16 * g) (a0 g) 72 (2 * (cnt2 v46 v51 / 2))) (72 + 2 * (cnt2 v46 v51 / 2)) (1 * (cnt2 v46 v51 % 2)) = _
    rw [sumBuf_append]
    congr 1
    omega
  rw [wp_ret]; imodintro
  isplitr [Hhi H3]
  · ipureintro
    simp only [hA]
  isplitl [Hhi]
  · iexact Hhi
  iexists _
  iframe H3
  ipureintro
  intro g hg
  rw [← hA]
  funext k
  unfold rowPiece
  interval_cases g
  · exact (piece_skip f3 _ 32 (16 * 0) (by decide) (by decide) _ _ k).trans
      ((piece_skip f3 _ 16 (16 * 0) (by decide) (by decide) _ _ k).trans (piece_read f3 _ (16 * 0) (by decide) _ _ _ k))
  · exact (piece_skip f3 _ 32 (16 * 1) (by decide) (by decide) _ _ k).trans (piece_read f3 _ (16 * 1) (by decide) _ _ _ k)
  · exact piece_read f3 _ (16 * 2) (by decide) _ _ _ k

end Cert.KernelIdeal.Sc

end
-- ==== Proof.KITileFix.lean ====
import Idealize.ShloMosaic.Lib.Pipeline.Value
import Idealize.ShloMosaic.Lib.Writes
import proofs.«212945_g29746943492489_cont_sun_c4_499_28_alg».proof.Proof.KITileSpec

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

omit [FloatOps F] in

theorem trips11 : k0_t11_loop.trips = 16 := by decide +kernel

theorem pay5_apply (den : F .f32) (v : Vec F S1x16 .f32) (x : S1x16.Idx) :
    k0_pay5 den v x = fixS den (shapeCast S16 v shapeCasts_S1x16_S16) (fun a => x a.succ) := by
  unfold k0_pay5 fixS
  exact shapeCast_addUnit_apply (n := 1) ![16] _ _ x

theorem fixRow_lt (den : F .f32) (R0 : S1x256.Idx → F .f32) (k : ℕ) (i : S1x256.Idx) (h : (i 1).val / 16 < k) :
    fixRow den R0 k i = fixS den (rowPiece R0 ((i 1).val / 16)) (ValueIdx.ix1 (Fin.ofNat 16 ((i 1).val % 16))) := if_pos h
theorem fixRow_ge (den : F .f32) (R0 : S1x256.Idx → F .f32) (k : ℕ) (i : S1x256.Idx) (h : ¬ (i 1).val / 16 < k) :
    fixRow den R0 k i = R0 i := if_neg h

theorem fix_step' (den : F .f32) (R0 : S1x256.Idx → F .f32) (k : ℕ) (hk : k < 16) (off : Fin 2 → ℕ) (hoff : off = ![0, 16 * k])
    (inb : ∀ a, off a + S1x16.size a ≤ S1x256.size a) :
    (Memref.whole cc0_scratch3 : Memref sig .scVector _ _ _).view.writes (Elt F) (fixRow den R0 k)
      [⟨Rect.unit (s := S1x256) off S1x16.size inb,
        k0_pay5 den ((Memref.whole cc0_scratch3 : Memref sig .scVector _ _ _).view.readAt (Elt F) (Rect.unit (s := S1x256) off S1x16.size inb).toLoadRect (fixRow den R0 k))⟩]
      = fixRow den R0 (k + 1) := by
  subst hoff
  rw [View.writes_singleton]
  refine (View.write_whole_slice_unit (Val := Elt F) cc0_scratch3 ![0, 16 * k] S1x16.size inb _ _).trans ?_
  funext (i : S1x256.Idx)
  have hi0 : (i 0).val = 0 := by have h := (i 0).isLt; change (i 0).val < 1 at h; omega
  have hi1 : (i 1).val < 256 := (i 1).isLt
  unfold updateSlice
  split
  · next hin =>
    have h1 : 16 * k ≤ (i 1).val ∧ (i 1).val < 16 * k + 16 := hin 1
    rw [pay5_apply, fixRow_lt _ _ _ _ (by omega)]
    congr 1
    · congr 1
      funext j
      rw [shapeCast_dropUnit_apply (n := 1) ![16], View.readAt_apply]
      have hj : (j 0).val < 16 := (j 0).isLt
      have key : ∀ y : S1x256.Idx, (y 0).val = 0 → (y 1).val = 16 * k + (j 0).val → fixRow den R0 k y = rowPiece R0 ((i 1).val / 16) j := by
        intro y hy0 hy1
        rw [fixRow_ge _ _ _ _ (by rw [hy1]; omega)]
        unfold rowPiece
        congr 1
        refine Shape.idx_ext₂ hy0 ?_
        rw [hy1]
        show _ = (16 * ((i 1).val / 16) + (j 0).val) % 256
        omega
      change fixRow den R0 k _ = _
      refine key _ ?_ ?_
      · show 0 + 1 * 0 = 0; rfl
      · show 16 * k + 1 * (j 0).val = _; omega
    · funext a
      match a with
      | ⟨0, _⟩ =>
        apply Fin.ext
        show (i 1).val - 16 * k = ((i 1).val % 16) % 16
        omega
  · next hout =>
    have h1 : ¬ (16 * k ≤ (i 1).val ∧ (i 1).val < 16 * k + 16) := fun h => hout (fun a => match a with
      | ⟨0, _⟩ => ⟨Nat.zero_le _, by show (i 0).val < 0 + 1; omega⟩
      | ⟨1, _⟩ => h)
    by_cases hlt : (i 1).val / 16 < k
    · rw [fixRow_lt _ _ _ _ hlt, fixRow_lt _ _ _ _ (by omega)]
    · rw [fixRow_ge _ _ _ _ hlt, fixRow_ge _ _ _ _ (by omega)]

theorem regionT11 : RegionT11 (F := F) := by
  intro d L den R0 k acc
  unfold inv11
  show ((Memref.whole cc0_scratch3).view.loc (V d (cV L) (jV L)) ↦{fullShare} (fixRow den R0 k.val : Buf (Elt F) (b3Loc d L)) : sProp 𝕄) ⊢ _
  unfold k0_t11_body
  iintro H
  sl_exec
  sl_step
  rw [← fix_step' den R0 k.val (lt_of_lt_of_eq k.isLt trips11) (k0_off200 k) (k0_off200_eq k) (k0_off200_inb k)]
  iexact H

end Cert.KernelIdeal.Sc

end
-- ==== Proof.KITileBar.lean ====
import proofs.«212945_g29746943492489_cont_sun_c4_499_28_alg».proof.Proof.KITileSpec

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

variable (SH : (d : Dev nD) → (c : Fin τ.nSC) → Buf (Elt F) (shLoc d c))

omit [FloatOps F] in

theorem shPts_blocks (d : Dev nD) (c : Fin τ.nSC) (f : Buf (Elt F) (shLoc d c)) :
    (shLoc d c ↦{fullShare} f : sProp 𝕄) = bigSep Finset.univ fun j : Fin 16 => shBlkPts d c j f := by
  unfold shBlkPts
  rw [← pointsTo_biUnion Finset.univ (ℓ := shLoc d c) shBlk shBlk_disjoint, shBlk_cover]; try rfl

theorem pays_intro (d : Dev nD) (L : grid0.Coords) : shBlkPts d (cV L) (jL L) (SH d (cV L))
    ⊢ (bigSep Finset.univ fun j : Fin (grid0.bound 1) => (bRd (F := F) SH).payload (bcell d (cV L) (j.castLE hsub0)) 0 (jV L).val : sProp 𝕄) := by
  let j₀ : Fin (grid0.bound 1) := ⟨0, by decide⟩
  rw [SparseCore.bigSep_erase' (Finset.mem_univ j₀),
    show (bigSep (Finset.univ.erase j₀) fun j : Fin (grid0.bound 1) => (bRd (F := F) SH).payload (bcell d (cV L) (j.castLE hsub0)) 0 (jV L).val)
      = bigSep (Finset.univ.erase j₀) fun _ => (iprop(emp) : sProp 𝕄) from
      bigSep_congr fun j hj => if_neg fun h => (Finset.mem_erase.mp hj).1 (Fin.ext h), bigSep_emp']
  have h0 : shBlkPts d (cV L) (jL L) (SH d (cV L)) ⊢ ((bRd (F := F) SH).payload (bcell d (cV L) (j₀.castLE hsub0)) 0 (jV L).val : sProp 𝕄) := by
    show _ ⊢ bPay SH (bcell d (cV L) (j₀.castLE hsub0)) (jV L).val
    unfold bPay; dsimp only
    rw [if_pos (show (j₀.castLE hsub0).val = 0 from rfl), dif_pos (show (jV L).val < 16 from (jV L).isLt)]
    exact BI.Entails.refl _
  iintro H
  isplitl [H]
  · iapply h0; iexact H
  · iempintro

theorem pays_elim (d : Dev nD) (L : grid0.Coords) :
    (bigSep ((bRd (F := F) SH).duties (bcell d (cV L) (jV L)) 0 \ ∅) fun n => (bRd (F := F) SH).payload (bcell d (cV L) (jV L)) 0 n)
    ⊢ (if (L 1).val = 0 then (shLoc d (cV L) ↦{fullShare} SH d (cV L)) else iprop(emp) : sProp 𝕄) := by
  rw [Finset.sdiff_empty, bRd_duties₀]
  split
  · next h0 =>
    rw [SparseCore.bigSep_image_of_injOn (fun a _ b _ e => Fin.val_injective e), shPts_blocks]
    refine bigSep_mono (s := (Finset.univ : Finset (Fin 16))) fun j _ => ?_
    show bPay SH (bcell d (cV L) (jV L)) j.val ⊢ _
    unfold bPay; dsimp only
    rw [if_pos (show (jV L).val = 0 from h0), dif_pos j.isLt]
  · iintro -; iempintro

theorem barrierStep : BarrierStep (F := F) SH := by
  intro d L O W hO hOlev α kk Q
  unfold bkit owesW
  iintro ⟨#Hlv, ⟨⟨%κ, #Hinv⟩, Htoks, #Hrch, Hat, Hcred⟩, Hblk, ⟨%W', %hW', HO⟩, Hk⟩
  ihave Hpays := (pays_intro (F := F) SH d L) $$ Hblk
  iapply (SparseCore.wp_subcoreBarrier 𝒱₀ none EB (bRd (F := F) SH) d (sc := cV L) (i := jV L) sc_bar0 (grid0.bound 1) hsub0 (L 1) rfl κ (fun _ => 0) (jV L).val
      (fun j => bRd_mem₀ SH d _ _ _) (fun _ => rfl) (bRd_expect SH d _ _) (some 0) O W') $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, -, -, Hgot⟩
  ihave Hsh := (pays_elim (F := F) SH d L) $$ Hgot
  iapply Hk
  isplitl [HO]
  · unfold owesW2
    iexists _; isplitr
    swap; · iexact HO
    ipureintro; intro p hp
    rcases Finset.mem_insert.mp hp with hp | hp; · exact .inr (.inr (hp ▸ rfl))
    rcases hW' p hp with h | h
    · exact .inl h
    · exact .inr (.inl h)
  · iexact Hsh

end Cert.KernelIdeal.Sc

end
-- ==== Proof.KITileOut.lean ====
import proofs.«212945_g29746943492489_cont_sun_c4_499_28_alg».proof.Proof.KITileSpec
import Idealize.ShloMosaic.Lib.Writes
import Idealize.ShloMosaic.Lib.Pipeline.Value

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in

theorem cond3_iff : ∀ i : grid0.Coords, k0_cond3 i = 1#1 ↔ (i 1).val = 0 := by decide +kernel

abbrev oRowsK (L : grid0.Coords) (h : k0_cond3 L = 1#1) : Memref sig .scVector .hbm S8x512 .f32 :=
  ((Memref.whole main_v0_scv).slice (Rect.unit (s := S1x16x512) (k0_off202 L) S1x8x512.size (k0_off202_inb L h)) (fun _ => rfl)).squeeze S8x512 squeezes_S1x8x512_S8x512

omit [FloatOps F] in

theorem emb_oRowsK (L : grid0.Coords) (h : k0_cond3 L = 1#1) (y : S8x512.Idx) :
    ((oRowsK L h).view.emb y : S1x16x512.Idx)
      = ValueIdx.ix3 (0 : Fin 1) (⟨8 * (L 0).val + (y 0).val, by have := (L 0).isLt; have h0 : (y 0).val < 8 := (y 0).isLt; have h2 : (L 0).val < 2 := (L 0).isLt; omega⟩ : Fin 16) (y 1) := by
  simp only [Memref.view_squeeze, Memref.view_slice, Memref.view_whole, View.emb_reshape, View.emb_slice, View.emb_whole,
    Function.Embedding.trans_apply, Function.Embedding.refl_apply, Equiv.coe_toEmbedding]
  rw [Shape.reshapeEquiv_cons_one]
  have e := k0_off202_eq L
  funext a; apply Fin.ext
  rw [Rect.emb_apply]
  show (k0_off202 L) a + 1 * ((Fin.cons ⟨0, Nat.one_pos⟩ y : S1x8x512.Idx) a).val = _
  rw [e]
  match a with
  | ⟨0, _⟩ => rfl
  | ⟨1, _⟩ => show 8 * (L 0).val + 1 * (y 0).val = 8 * (L 0).val + (y 0).val; omega
  | ⟨2, _⟩ => show 0 + 1 * (y 1).val = (y 1).val; omega

omit [FloatOps F] in

theorem set_oRowsK (L : grid0.Coords) (h : k0_cond3 L = 1#1) : (oRowsK L h).view.set = oRows (cL L) := by
  simp only [Memref.view_squeeze, Memref.view_slice, Memref.view_whole]
  rw [View.set_reshape, View.set_slice_whole]
  ext x
  rw [Rect.mem_set_unit]
  have e := k0_off202_eq L
  have h2 : (L 0).val < 2 := (L 0).isLt
  simp only [oRows, Finset.mem_filter, Finset.mem_univ, true_and]
  constructor
  · intro hx
    have h1 := hx 1
    rw [e] at h1
    have h1' : 8 * (L 0).val ≤ (x 1).val ∧ (x 1).val < 8 * (L 0).val + 8 := h1
    show (x 1).val / 8 = (L 0).val
    omega
  · intro hx a
    have hx' : (x 1).val / 8 = (L 0).val := hx
    rw [e]
    have x0 : (x 0).val < 1 := (x 0).isLt
    have x2 : (x 2).val < 512 := (x 2).isLt
    match a with
    | ⟨0, _⟩ => exact ⟨Nat.zero_le _, by show (x 0).val < 0 + 1; omega⟩
    | ⟨1, _⟩ => exact ⟨by show 8 * (L 0).val ≤ (x 1).val; omega, by show (x 1).val < 8 * (L 0).val + 8; omega⟩
    | ⟨2, _⟩ => exact ⟨Nat.zero_le _, by show (x 2).val < 0 + 512; omega⟩

omit [FloatOps F] in

theorem pts_oRowsK (d : Dev nD) (L : grid0.Coords) (h : k0_cond3 L = 1#1) (f : Buf (Elt F) (oLoc d)) :
    ((oRowsK L h).view.loc (V d (cV L) (jV L)) ↦[(oRowsK L h).view.set]{fullShare} f : sProp 𝕄) = oRowsPts d (cL L) f := by
  rw [set_oRowsK]

variable (m : (ℓ : Loc nD τ sig) → Buf (Elt F) ℓ)

theorem out_value (d : Dev nD) (L : grid0.Coords) (h : k0_cond3 L = 1#1) (f0 : Buf (Elt F) (oLoc d)) (w : S8x512.Idx → F .f32)
    (hw : w = scSH m d (cV L)) :
    ∀ i ∈ oRows (cL L), (oRowsK L h).view.writes (Elt F) f0 [⟨Rect.whole S8x512, w⟩] i = scOV m d i := by
  intro i hi
  obtain ⟨y, rfl⟩ := View.exists_emb_of_mem_set (oRowsK L h).view (by rw [set_oRowsK]; exact hi)
  rw [View.writes_singleton]
  have e : ((oRowsK L h).view.slice (Rect.whole S8x512)).emb y = (oRowsK L h).view.emb y := by
    rw [View.emb_slice]
    show (oRowsK L h).view.emb ((Rect.whole S8x512).emb y) = _
    rw [Rect.emb_whole_apply]
  rw [← e, View.write_emb_of_mem _ _ (Finset.mem_univ y)]
  refine (cast_eq _ _).trans ?_
  subst hw
  rw [e, emb_oRowsK]
  have h0 : (y 0).val < 8 := (y 0).isLt
  have h2 : (L 0).val < 2 := (L 0).isLt
  have a1 : ((8 * (L 0).val + (y 0).val) / 8) % 2 = (L 0).val := by omega
  have a2 : (8 * (L 0).val + (y 0).val) % 8 % 8 = (y 0).val := by omega
  unfold scOV scSH
  show rowValN _ _ (L 0).val (2 * (y 0).val + (y 1).val / 256) _
    = rowValN _ _ (((8 * (L 0).val + (y 0).val) / 8) % 2) (2 * ((8 * (L 0).val + (y 0).val) % 8 % 8) + (y 1).val / 256) _
  rw [a1, a2]
  rfl

end Cert.KernelIdeal.Sc

end
-- ==== Proof.KITileTail.lean ====
import proofs.«212945_g29746943492489_cont_sun_c4_499_28_alg».proof.Proof.KITileFix
import proofs.«212945_g29746943492489_cont_sun_c4_499_28_alg».proof.Proof.KITileBar
import proofs.«212945_g29746943492489_cont_sun_c4_499_28_alg».proof.Proof.KITileOut
import proofs.«212945_g29746943492489_cont_sun_c4_499_28_alg».proof.Proof.KITile2

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

variable (m : (ℓ : Loc nD τ sig) → Buf (Elt F) ℓ)

omit [FloatOps F] in

theorem mem_piece (c : ℕ) (inb : ∀ a, (![0, c] : Fin 2 → ℕ) a + S1x16.size a ≤ S1x256.size a) {y : S1x256.Idx} :
    y ∈ (Rect.unit (s := S1x256) ![0, c] S1x16.size inb).set ↔ c ≤ (y 1).val ∧ (y 1).val < c + 16 := by
  rw [Rect.mem_set_unit]
  constructor
  · intro h; exact h 1
  · intro h a
    have h0 : (y 0).val < 1 := (y 0).isLt
    match a with
    | ⟨0, _⟩ => exact ⟨Nat.zero_le _, by show (y 0).val < 0 + 1; omega⟩
    | ⟨1, _⟩ => exact h

omit [FloatOps F] in

theorem piece_rowOf (A : ℕ → FVec F S16 .f32) (g : ℕ) (inb : ∀ a, (![0, 16 * g] : Fin 2 → ℕ) a + S1x16.size a ≤ S1x256.size a)
    (x : (Rect.unit (s := S1x256) ![0, 16 * g] S1x16.size inb).shape.Idx) :
    shapeCast S1x16 (A g) shapeCasts_S16_S1x16 x = rowOf A ((Rect.unit (s := S1x256) ![0, 16 * g] S1x16.size inb).emb x) := by
  rw [shapeCast_addUnit_apply (n := 1) ![16]]
  unfold rowOf
  have hx : (x 1).val < 16 := (x 1).isLt
  have e1 : (((Rect.unit (s := S1x256) ![0, 16 * g] S1x16.size inb).emb x) 1).val = 16 * g + (x 1).val := by
    show 16 * g + 1 * (x 1).val = _; omega
  rw [e1, show (16 * g + (x 1).val) / 16 = g by omega]
  congr 1
  funext a
  match a with
  | ⟨0, _⟩ =>
    apply Fin.ext
    show (x 1).val = ((16 * g + (x 1).val) % 16) % 16
    omega

omit [FloatOps F] in

theorem row_of_piece (A : ℕ → FVec F S16 .f32) (R : S1x256.Idx → F .f32) (y : S1x256.Idx) (h : rowPiece R ((y 1).val / 16) = A ((y 1).val / 16)) :
    R y = rowOf A y := by
  unfold rowOf
  rw [← h]
  unfold rowPiece
  congr 1
  have h0 : (y 0).val < 1 := (y 0).isLt
  have h1 : (y 1).val < 256 := (y 1).isLt
  refine Shape.idx_ext₂ (by show (y 0).val = 0; omega) ?_
  show (y 1).val = (16 * ((y 1).val / 16) + ((y 1).val % 16) % 16) % 256
  omega

omit [FloatOps F] in
theorem rowPiece_rowOf (A : ℕ → FVec F S16 .f32) (g : ℕ) (hg : g < 16) : rowPiece (rowOf A) g = A g := by
  funext k
  unfold rowPiece rowOf
  have hk : (k 0).val < 16 := (k 0).isLt
  have e : ((ValueIdx.ix2 (0 : Fin 1) (Fin.ofNat 256 (16 * g + (k 0).val)) : S1x256.Idx) 1).val = 16 * g + (k 0).val := by
    show (16 * g + (k 0).val) % 256 = _; omega
  rw [e, show (16 * g + (k 0).val) / 16 = g by omega]
  congr 1
  funext a
  match a with
  | ⟨0, _⟩ =>
    apply Fin.ext
    show ((16 * g + (k 0).val) % 16) % 16 = (k 0).val
    omega

omit [FloatOps F] in
theorem ex_cons_head {p : View.Piece (Elt F) S1x256 .f32} {Lst : List (View.Piece (Elt F) S1x256 .f32)} {y : S1x256.Idx} (h : y ∈ p.1.set) :
    ∃ q ∈ p :: Lst, y ∈ q.1.set := ⟨p, List.mem_cons_self, h⟩
omit [FloatOps F] in
theorem ex_cons_tail {p : View.Piece (Elt F) S1x256 .f32} {Lst : List (View.Piece (Elt F) S1x256 .f32)} {y : S1x256.Idx} (h : ∃ q ∈ Lst, y ∈ q.1.set) :
    ∃ q ∈ p :: Lst, y ∈ q.1.set := let ⟨q, hq, h⟩ := h; ⟨q, List.mem_cons_of_mem _ hq, h⟩
omit [FloatOps F] in
theorem all_cons {p : View.Piece (Elt F) S1x256 .f32} {Lst : List (View.Piece (Elt F) S1x256 .f32)} {y : S1x256.Idx} (h : y ∉ p.1.set)
    (hL : ∀ q ∈ Lst, y ∉ q.1.set) : ∀ q ∈ p :: Lst, y ∉ q.1.set := List.forall_mem_cons.mpr ⟨h, hL⟩

theorem writes_eq_of_pieces (R3 G : S1x256.Idx → F .f32) (Lst : List (View.Piece (Elt F) S1x256 .f32))
    (hp : ∀ p ∈ Lst, ∀ x : p.1.shape.Idx, p.2 x = G (p.1.emb x))
    (hc : ∀ y : S1x256.Idx, (∃ p ∈ Lst, y ∈ p.1.set) ∨ ((∀ p ∈ Lst, y ∉ p.1.set) ∧ R3 y = G y)) :
    (Memref.whole cc0_scratch3 : Memref sig .scVector _ _ _).view.writes (Elt F) R3 Lst = G := by
  funext (y : S1x256.Idx)
  show View.read (Elt F) (Memref.whole cc0_scratch3 : Memref sig .scVector _ _ _).view
    ((Memref.whole cc0_scratch3 : Memref sig .scVector _ _ _).view.writes (Elt F) R3 Lst) y = G y
  rcases hc y with h | ⟨h, e⟩
  · exact View.read_writes_apply_of_pieces _ _ G Lst hp y h
  · exact (View.read_writes_apply_of_forall_not_mem _ _ y Lst h).trans e

theorem row13 (A : ℕ → FVec F S16 .f32) (R3 : S1x256.Idx → F .f32) (v180 : FVec F S1x16 .f32)
    (hv180 : v180 = shapeCast S1x16 (A 3) shapeCasts_S16_S1x16) (hR3 : ∀ g, g < 3 → rowPiece R3 g = A g) :
    (Memref.whole cc0_scratch3 : Memref sig .scVector _ _ _).view.writes (Elt F) R3
      [⟨Rect.unit ![0, 240] S1x16.size inb_S1x256_S1x16_0_240, k0_pay4 (A 15)⟩,
        ⟨Rect.unit ![0, 224] S1x16.size inb_S1x256_S1x16_0_224, k0_pay3 (A 14)⟩,
        ⟨Rect.unit ![0, 208] S1x16.size inb_S1x256_S1x16_0_208, k0_pay2 (A 13)⟩,
        ⟨Rect.unit ![0, 192] S1x16.size inb_S1x256_S1x16_0_192, k0_pay1 (A 12)⟩,
        ⟨Rect.unit ![0, 176] S1x16.size inb_S1x256_S1x16_0_176, k0_pay183 (A 11)⟩,
        ⟨Rect.unit ![0, 160] S1x16.size inb_S1x256_S1x16_0_160, k0_pay182 (A 10)⟩,
        ⟨Rect.unit ![0, 144] S1x16.size inb_S1x256_S1x16_0_144, k0_pay181 (A 9)⟩,
        ⟨Rect.unit ![0, 128] S1x16.size inb_S1x256_S1x16_0_128, k0_pay180 (A 8)⟩,
        ⟨Rect.unit ![0, 112] S1x16.size inb_S1x256_S1x16_0_112, k0_pay179 (A 7)⟩,
        ⟨Rect.unit ![0, 96] S1x16.size inb_S1x256_S1x16_0_96, k0_pay178 (A 6)⟩,
        ⟨Rect.unit ![0, 80] S1x16.size inb_S1x256_S1x16_0_80, k0_pay177 (A 5)⟩,
        ⟨Rect.unit ![0, 64] S1x16.size inb_S1x256_S1x16_0_64, k0_pay176 (A 4)⟩,
        ⟨Rect.unit ![0, 48] S1x16.size inb_S1x256_S1x16_0_48, v180⟩]
      = rowOf A := by
  subst hv180
  refine writes_eq_of_pieces R3 (rowOf A) _ ?_ ?_
  · simp only [List.forall_mem_cons, List.not_mem_nil, false_imp_iff, implies_true, _root_.and_true]
    exact ⟨piece_rowOf A 15 _, piece_rowOf A 14 _, piece_rowOf A 13 _, piece_rowOf A 12 _, piece_rowOf A 11 _, piece_rowOf A 10 _, piece_rowOf A 9 _,
      piece_rowOf A 8 _, piece_rowOf A 7 _, piece_rowOf A 6 _, piece_rowOf A 5 _, piece_rowOf A 4 _, piece_rowOf A 3 _⟩
  · intro y
    have h1 : (y 1).val < 256 := (y 1).isLt
    by_cases hy : 48 ≤ (y 1).val
    · left
      by_cases h240 : 240 ≤ (y 1).val
      · exact ex_cons_head ((mem_piece 240 inb_S1x256_S1x16_0_240).mpr ⟨h240, by omega⟩)
      refine ex_cons_tail ?_
      by_cases h224 : 224 ≤ (y 1).val
      · exact ex_cons_head ((mem_piece 224 inb_S1x256_S1x16_0_224).mpr ⟨h224, by omega⟩)
      refine ex_cons_tail ?_
      by_cases h208 : 208 ≤ (y 1).val
      · exact ex_cons_head ((mem_piece 208 inb_S1x256_S1x16_0_208).mpr ⟨h208, by omega⟩)
      refine ex_cons_tail ?_
      by_cases h192 : 192 ≤ (y 1).val
      · exact ex_cons_head ((mem_piece 192 inb_S1x256_S1x16_0_192).mpr ⟨h192, by omega⟩)
      refine ex_cons_tail ?_
      by_cases h176 : 176 ≤ (y 1).val
      · exact ex_cons_head ((mem_piece 176 inb_S1x256_S1x16_0_176).mpr ⟨h176, by omega⟩)
      refine ex_cons_tail ?_
      by_cases h160 : 160 ≤ (y 1).val
      · exact ex_cons_head ((mem_piece 160 inb_S1x256_S1x16_0_160).mpr ⟨h160, by omega⟩)
      refine ex_cons_tail ?_
      by_cases h144 : 144 ≤ (y 1).val
      · exact ex_cons_head ((mem_piece 144 inb_S1x256_S1x16_0_144).mpr ⟨h144, by omega⟩)
      refine ex_cons_tail ?_
      by_cases h128 : 128 ≤ (y 1).val
      · exact ex_cons_head ((mem_piece 128 inb_S1x256_S1x16_0_128).mpr ⟨h128, by omega⟩)
      refine ex_cons_tail ?_
      by_cases h112 : 112 ≤ (y 1).val
      · exact ex_cons_head ((mem_piece 112 inb_S1x256_S1x16_0_112).mpr ⟨h112, by omega⟩)
      refine ex_cons_tail ?_
      by_cases h96 : 96 ≤ (y 1).val
      · exact ex_cons_head ((mem_piece 96 inb_S1x256_S1x16_0_96).mpr ⟨h96, by omega⟩)
      refine ex_cons_tail ?_
      by_cases h80 : 80 ≤ (y 1).val
      · exact ex_cons_head ((mem_piece 80 inb_S1x256_S1x16_0_80).mpr ⟨h80, by omega⟩)
      refine ex_cons_tail ?_
      by_cases h64 : 64 ≤ (y 1).val
      · exact ex_cons_head ((mem_piece 64 inb_S1x256_S1x16_0_64).mpr ⟨h64, by omega⟩)
      refine ex_cons_tail ?_
      exact ex_cons_head ((mem_piece 48 inb_S1x256_S1x16_0_48).mpr ⟨by omega, by omega⟩)
    · right
      refine ⟨?_, row_of_piece A R3 y (hR3 _ (by omega))⟩
      exact all_cons (fun h => by have := (mem_piece 240 inb_S1x256_S1x16_0_240).mp h; omega) (all_cons (fun h => by have := (mem_piece 224 inb_S1x256_S1x16_0_224).mp h; omega) (all_cons (fun h => by have := (mem_piece 208 inb_S1x256_S1x16_0_208).mp h; omega) (all_cons (fun h => by have := (mem_piece 192 inb_S1x256_S1x16_0_192).mp h; omega) (all_cons (fun h => by have := (mem_piece 176 inb_S1x256_S1x16_0_176).mp h; omega) (all_cons (fun h => by have := (mem_piece 160 inb_S1x256_S1x16_0_160).mp h; omega) (all_cons (fun h => by have := (mem_piece 144 inb_S1x256_S1x16_0_144).mp h; omega) (all_cons (fun h => by have := (mem_piece 128 inb_S1x256_S1x16_0_128).mp h; omega) (all_cons (fun h => by have := (mem_piece 112 inb_S1x256_S1x16_0_112).mp h; omega) (all_cons (fun h => by have := (mem_piece 96 inb_S1x256_S1x16_0_96).mp h; omega) (all_cons (fun h => by have := (mem_piece 80 inb_S1x256_S1x16_0_80).mp h; omega) (all_cons (fun h => by have := (mem_piece 64 inb_S1x256_S1x16_0_64).mp h; omega) (all_cons (fun h => by have := (mem_piece 48 inb_S1x256_S1x16_0_48).mp h; omega) (fun _ h => absurd h List.not_mem_nil)))))))))))))

theorem fixS_eq_fixPiece (len : BitVec 32) (v : FVec F S16 .f32) :
    fixS (Scalar.sitofp .f32 (Scalar.maxsi len 1#32)) v = fixPiece len v := rfl

theorem finalRow (d : Dev nD) (L : grid0.Coords) (A : ℕ → FVec F S16 .f32) (den : F .f32)
    (hA : ∀ g, g < 16 → A g = accVal (m (xLoc d)) (m (lLoc d)) (L 0).val (L 1).val g)
    (hden : den = Scalar.sitofp .f32 (Scalar.maxsi (v51V m d L) 1#32)) :
    fixRow den (rowOf A) 16 = rowValN (m (xLoc d)) (m (lLoc d)) (L 0).val (L 1).val := by
  subst hden
  funext (i : S1x256.Idx)
  have h1 : (i 1).val < 256 := (i 1).isLt
  rw [fixRow_lt _ _ _ _ (by omega), rowPiece_rowOf A _ (by omega), hA _ (by omega), fixS_eq_fixPiece]
  rfl

abbrev shBlkK (L : grid0.Coords) : Memref sig .scVector .shared S1x256 .f32 :=
  (Memref.whole cc0_scratch4).slice (Rect.unit (s := S8x512) (k0_off201 L) S1x256.size (k0_off201_inb L)) (fun _ => rfl)

omit [FloatOps F] in
theorem k0_off201_eq : ∀ i : grid0.Coords, k0_off201 i = ![(i 1).val / 2, 256 * ((i 1).val % 2)] := by decide +kernel

omit [FloatOps F] in
theorem set_shBlkK (L : grid0.Coords) : (shBlkK L).view.set = shBlk (jL L) := by
  show ((View.whole (cc0_scratch4 : Ref sig .scVector)).slice _).set = _
  rw [View.set_slice_whole]
  ext x
  rw [Rect.mem_set_unit]
  simp only [shBlk, Finset.mem_filter, Finset.mem_univ, true_and]
  have e0 : k0_off201 L 0 = (L 1).val / 2 := by rw [k0_off201_eq]; rfl
  have e1 : k0_off201 L 1 = 256 * ((L 1).val % 2) := by rw [k0_off201_eq]; rfl
  have hx0 : (x 0).val < 8 := (x 0).isLt
  have hx1 : (x 1).val < 512 := (x 1).isLt
  have hL : (L 1).val < 16 := (L 1).isLt
  constructor
  · intro h
    have h0 : (L 1).val / 2 ≤ (x 0).val ∧ (x 0).val < (L 1).val / 2 + 1 := by have := h 0; rw [e0] at this; exact this
    have h1 : 256 * ((L 1).val % 2) ≤ (x 1).val ∧ (x 1).val < 256 * ((L 1).val % 2) + 256 := by have := h 1; rw [e1] at this; exact this
    show (x 0).val = (L 1).val / 2 ∧ (x 1).val / 256 = (L 1).val % 2
    omega
  · intro h a
    have h' : (x 0).val = (L 1).val / 2 ∧ (x 1).val / 256 = (L 1).val % 2 := h
    match a with
    | ⟨0, _⟩ => show k0_off201 L 0 ≤ (x 0).val ∧ (x 0).val < k0_off201 L 0 + 1; rw [e0]; omega
    | ⟨1, _⟩ => show k0_off201 L 1 ≤ (x 1).val ∧ (x 1).val < k0_off201 L 1 + 256; rw [e1]; omega

omit [FloatOps F] in
theorem pts_shBlkK (d : Dev nD) (L : grid0.Coords) (f : Buf (Elt F) (shLoc d (cV L))) :
    ((shBlkK L).view.loc (V d (cV L) (jV L)) ↦[(shBlkK L).view.set]{fullShare} f : sProp 𝕄) = shBlkPts d (cV L) (jL L) f := by
  unfold shBlkPts; rw [set_shBlkK]; rfl

theorem blk_value (d : Dev nD) (L : grid0.Coords) (fsh : Buf (Elt F) (shLoc d (cV L))) (w : S1x256.Idx → F .f32)
    (hw : w = rowValN (m (xLoc d)) (m (lLoc d)) (L 0).val (L 1).val) :
    ∀ i ∈ shBlk (jL L), (shBlkK L).view.writes (Elt F) fsh [⟨Rect.whole S1x256, w⟩] i = scSH m d (cV L) i := by
  intro i hi
  rw [← set_shBlkK] at hi
  obtain ⟨y, -, rfl⟩ := Finset.mem_map.mp hi
  have hr := View.read_writes_cons_emb (Val := Elt F) (shBlkK L).view fsh (Rect.whole S1x256) w [] y
  rw [Rect.emb_whole_apply] at hr
  have hr' : (shBlkK L).view.writes (Elt F) fsh [⟨Rect.whole S1x256, w⟩] ((shBlkK L).view.emb y) = w y := hr
  rw [hr', hw]
  unfold scSH
  have hy0 : (y 0).val < 1 := (y 0).isLt
  have hy1 : (y 1).val < 256 := (y 1).isLt
  have hL : (L 1).val < 16 := (L 1).isLt
  have e0 : (((shBlkK L).view.emb y) 0).val = (L 1).val / 2 + (y 0).val := by
    show k0_off201 L 0 + 1 * (y 0).val = _
    rw [k0_off201_eq]; show (L 1).val / 2 + 1 * (y 0).val = _; omega
  have e1 : (((shBlkK L).view.emb y) 1).val = 256 * ((L 1).val % 2) + (y 1).val := by
    show k0_off201 L 1 + 1 * (y 1).val = _
    rw [k0_off201_eq]; show 256 * ((L 1).val % 2) + 1 * (y 1).val = _; omega
  rw [e0, e1, show 2 * ((L 1).val / 2 + (y 0).val) + (256 * ((L 1).val % 2) + (y 1).val) / 256 = (L 1).val by omega]
  show rowValN (m (xLoc d)) (m (lLoc d)) (L 0).val (L 1).val y = rowValN (m (xLoc d)) (m (lLoc d)) (L 0).val (L 1).val _
  congr 1
  exact Shape.idx_ext₂ (by show (y 0).val = 0; omega) (by show (y 1).val = ((256 * ((L 1).val % 2) + (y 1).val) % 256) % 256; omega)

theorem tailRun : TailRun (F := F) m := by
  intro d L O W hO hOlev A den v180 R3 fsh hA hden hv180 hR3
  unfold owesW tailProg
  rw [k0_part22_eq_skeleton]; unfold k0_part22_skel
  iintro ⟨#Hlv, Hkit, Hrow, Hblk, Hout, Hs1, Hs2, %W', %hW', HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hrow' := (show (b3Loc d L ↦{fullShare} R3 : sProp 𝕄) ⊢ ((Memref.whole cc0_scratch3).view.loc (V d (cV L) (jV L)) ↦{fullShare} R3) from .rfl) $$ Hrow

  sl_exec
  rw [row13 A R3 v180 hv180 hR3]

  sl_for (inv11 d L den (rowOf A)) $$ [Hrow']
  case region => exact fun k acc => regionT11 d L den (rowOf A) k acc
  · unfold inv11; iexact Hrow'
  iintro %acc HI
  unfold inv11
  rw [show Scf.trips k0_t11_loop.lb k0_t11_loop.ub k0_t11_loop.st = 16 from trips11, finalRow m d L A den hA hden]

  ihave Hrow2 := (show (b3Loc d L ↦{fullShare} (rowValN (m (xLoc d)) (m (lLoc d)) (L 0).val (L 1).val : Buf (Elt F) (b3Loc d L)) : sProp 𝕄)
    ⊢ ((Memref.whole cc0_scratch3).view.loc (V d (cV L) (jV L)) ↦{fullShare} (rowValN (m (xLoc d)) (m (lLoc d)) (L 0).val (L 1).val : Buf (Elt F) (b3Loc d L))) from .rfl) $$ HI
  ihave Hblk' := (Entails.of_eq (pts_shBlkK (F := F) d L _).symm) $$ Hblk
  sl_exec

  ihave Hblk2 := (Entails.of_eq ((pts_shBlkK (F := F) d L _).trans (pointsTo_congr (blk_value m d L fsh (tailRun.sl.dma0 m d L) rfl)))) $$ Hblk'
  iapply (barrierStep (scSH m) d L O W hO hOlev)
  isplitr; · iexact Hlv
  isplitl [Hkit]; · iexact Hkit
  isplitl [Hblk2]; · iexact Hblk2
  isplitl [HO]
  · unfold owesW
    iexists _; isplitr
    swap; · iexact HO
    ipureintro; intro p hp
    rcases Finset.mem_insert.mp hp with hp | hp; · exact .inr (hp ▸ rfl)
    exact hW' p hp
  iintro ⟨HO2, Hsh⟩
  unfold owesW2
  icases HO2 with ⟨%W2, %hW2, HO⟩
  by_cases h0 : (L 1).val = 0
  ·
    have k0_h3 : k0_cond3 L = 1#1 := (cond3_iff L).mpr h0
    ihave Hout' := (show (if (L 1).val = 0 then oRowsPts d (cL L) (m (oLoc d)) else iprop(emp) : sProp 𝕄) ⊢ oRowsPts d (cL L) (m (oLoc d)) from by rw [if_pos h0]) $$ Hout
    ihave Hsh' := (show (if (L 1).val = 0 then (shLoc d (cV L) ↦{fullShare} scSH m d (cV L)) else iprop(emp) : sProp 𝕄)
      ⊢ ((Memref.whole cc0_scratch4).view.loc (V d (cV L) (jV L)) ↦{fullShare} scSH m d (cV L)) from by rw [if_pos h0]; exact .rfl) $$ Hsh
    ihave Hout2 := (Entails.of_eq (pts_oRowsK (F := F) d L k0_h3 _).symm) $$ Hout'
    sl_exec
    sl_step
    ihave Hout3 := (Entails.of_eq ((pts_oRowsK (F := F) d L k0_h3 _).trans
      (pointsTo_congr (out_value m d L k0_h3 (m (oLoc d)) (tailRun.sl.dma0_1 m d L) rfl)))) $$ Hout2
    isplitl [Hrow2]; · iexists _; iexact Hrow2
    isplitl [Hsh' Hout3]
    · rw [if_pos h0]
      isplitl [Hsh']; · iexists _; iexact Hsh'
      iexact Hout3
    isplitl [Hs1]; · iexact Hs1
    isplitl [Hs2]; · iexact Hs2
    iexists _; isplitr
    swap; · iexact HO
    ipureintro; intro p hp
    rcases Finset.mem_insert.mp hp with hp | hp; · exact .inr (.inl (hp ▸ rfl))
    exact hW2 p hp
  ·
    have k0_h3 : ¬ k0_cond3 L = 1#1 := fun h => h0 ((cond3_iff L).mp h)
    sl_exec
    sl_step
    iclear Hout Hsh
    isplitl [Hrow2]; · iexists _; iexact Hrow2
    isplitr
    · rw [if_neg h0]; iempintro
    isplitl [Hs1]; · iexact Hs1
    isplitl [Hs2]; · iexact Hs2
    iexists W2; isplitr
    · ipureintro; exact hW2
    iexact HO

end Cert.KernelIdeal.Sc

end
-- ==== Proof.KITileVal.lean ====
import proofs.«212945_g29746943492489_cont_sun_c4_499_28_alg».proof.Proof.KITileDma
import proofs.«212945_g29746943492489_cont_sun_c4_499_28_alg».proof.Proof.ScFacts
import Mathlib.Algebra.Order.BigOperators.Group.Finset

noncomputable section

namespace Cert.KernelIdeal.Sc

open Cert.KernelIdeal Cert.KernelIdeal.Gen
open Idealize.ShloMosaic
open Idealize.ShloMosaic.SparseCore (S V T)

variable {F : FTy → Type} [FloatOps F]

theorem sumBuf_eq_sumRows (B : S144x256.Idx → F .f32) (x : FVec F S4x2048x512 .f32) (cB col sh r0 n : ℕ)
    (h : ∀ r, r0 ≤ r → r < r0 + n → bufPiece B r cB = xPiece x (sh + r) col) (a : FVec F S16 .f32) :
    sumBuf B cB a r0 n = sumRows x col a (sh + r0) n := by
  induction n with
  | zero => rfl
  | succ n ih =>
    unfold sumBuf sumRows at ih ⊢
    rw [List.range'_concat, List.foldl_append, List.range'_concat, List.foldl_append,
      ih (fun r h1 h2 => h r h1 (by omega))]
    show addf _ (bufPiece B (r0 + 1 * n) cB) = addf _ (xPiece x (sh + r0 + 1 * n) col)
    rw [h (r0 + 1 * n) (by omega) (by omega), Nat.add_assoc]

theorem sumRows_split (x : FVec F S4x2048x512 .f32) (col : ℕ) (a : FVec F S16 .f32) (t0 n1 n2 : ℕ) :
    sumRows x col a t0 (n1 + n2) = sumRows x col (sumRows x col a t0 n1) (t0 + n1) n2 := by
  unfold sumRows
  rw [← List.foldl_append]
  congr 1
  rw [List.range'_append_1]

section Words
variable (m : (ℓ : Loc nD τ sig) → Buf (Elt F) ℓ) (hl : ∀ d b p, (m (lLoc d) (ValueIdx.ix2 b p)).toNat ≤ 127)
include hl

theorem v46V_toNat (d : Dev nD) (L : grid0.Coords) : (v46V m d L).toNat = beginN (m (lLoc d)) (pOf (L 0).val (L 1).val) :=
  begin_toNat (m (lLoc d)) (hl d) L

theorem v46V_le (d : Dev nD) (L : grid0.Coords) : (v46V m d L).toNat ≤ 1905 := by
  rw [v46V_toNat m hl]; exact (words_le (m (lLoc d)) (hl d) L).1

theorem v51V_le (d : Dev nD) (L : grid0.Coords) : (v51V m d L).toNat ≤ 127 := (words_le (m (lLoc d)) (hl d) L).2

end Words

theorem XS0_read (d : Dev nD) (L : grid0.Coords) (v46 : BitVec 32) (hw1 : k0_chk1 L v46) (hb : v46.toNat ≤ 1905)
    (x0 : Buf (Elt F) (xLoc d)) (y : S72x256.Idx) :
    (XS0 L v46 hw1).view.read (Elt F) x0 y
      = x0 (ValueIdx.ix3 (3 : Fin 4) (Fin.ofNat 2048 (v46.toNat - v46.toNat % 8 + (y 0).val)) (Fin.ofNat 512 (256 * ((L 1).val % 2) + (y 1).val))) := by
  rw [View.read_apply]
  refine (cast_eq _ _).trans ?_
  congr 1
  simp only [Memref.view_squeeze, Memref.view_slice, Memref.view_whole, View.emb_reshape, View.emb_slice, View.emb_whole,
    Function.Embedding.trans_apply, Function.Embedding.refl_apply, Equiv.coe_toEmbedding]
  rw [Shape.reshapeEquiv_cons_one]
  have e := ScFacts.k0_off4_eq L hb
  have h0 : (y 0).val < 72 := (y 0).isLt
  have h1 : (y 1).val < 256 := (y 1).isLt
  funext a; apply Fin.ext
  rw [Rect.emb_apply]
  show (k0_off4 L v46) a + 1 * ((Fin.cons ⟨0, Nat.one_pos⟩ y : S1x72x256.Idx) a).val = _
  rw [e]
  match a with
  | ⟨0, _⟩ => rfl
  | ⟨1, _⟩ => show (v46.toNat - v46.toNat % 8) + 1 * (y 0).val = (v46.toNat - v46.toNat % 8 + (y 0).val) % 2048; omega
  | ⟨2, _⟩ => show 256 * ((L 1).val % 2) + 1 * (y 1).val = (256 * ((L 1).val % 2) + (y 1).val) % 512; omega

theorem XS1_read (d : Dev nD) (L : grid0.Coords) (v46 v51 : BitVec 32) (hw2 : k0_chk2 L v46 v51) (h1 : k0_cond1 v46 v51 = 1#1)
    (hb : v46.toNat ≤ 1905) (x0 : Buf (Elt F) (xLoc d)) (y : S72x256.Idx) :
    (XS1 L v46 v51 hw2 h1).view.read (Elt F) x0 y
      = x0 (ValueIdx.ix3 (3 : Fin 4) (Fin.ofNat 2048 (v46.toNat - v46.toNat % 8 + 72 + (y 0).val)) (Fin.ofNat 512 (256 * ((L 1).val % 2) + (y 1).val))) := by
  rw [View.read_apply]
  refine (cast_eq _ _).trans ?_
  congr 1
  simp only [Memref.view_squeeze, Memref.view_slice, Memref.view_whole, View.emb_reshape, View.emb_slice, View.emb_whole,
    Function.Embedding.trans_apply, Function.Embedding.refl_apply, Equiv.coe_toEmbedding]
  rw [Shape.reshapeEquiv_cons_one]
  have e := ScFacts.k0_off5_eq L hb
  have hin := k0_off5_inb L v46 v51 hw2 h1 1
  rw [e] at hin
  have hin' : v46.toNat - v46.toNat % 8 + 72 + 72 ≤ 2048 := hin
  have h0 : (y 0).val < 72 := (y 0).isLt
  have h1' : (y 1).val < 256 := (y 1).isLt
  funext a; apply Fin.ext
  rw [Rect.emb_apply]
  show (k0_off5 L v46) a + 1 * ((Fin.cons ⟨0, Nat.one_pos⟩ y : S1x72x256.Idx) a).val = _
  rw [e]
  match a with
  | ⟨0, _⟩ => rfl
  | ⟨1, _⟩ => show (v46.toNat - v46.toNat % 8 + 72) + 1 * (y 0).val = (v46.toNat - v46.toNat % 8 + 72 + (y 0).val) % 2048; omega
  | ⟨2, _⟩ => show 256 * ((L 1).val % 2) + 1 * (y 1).val = (256 * ((L 1).val % 2) + (y 1).val) % 512; omega

theorem Blo_apply (d : Dev nD) (L : grid0.Coords) (v46 : BitVec 32) (hw1 : k0_chk1 L v46) (hb : v46.toNat ≤ 1905)
    (f2 : Buf (Elt F) (b2Loc d L)) (x0 : Buf (Elt F) (xLoc d)) (r c : ℕ) (hr : r < 72) (hc : c < 256) :
    (Blo d L v46 hw1 f2 x0 : S144x256.Idx → F .f32) (ValueIdx.ix2 (Fin.ofNat 144 r) (Fin.ofNat 256 c))
      = x0 (ValueIdx.ix3 (3 : Fin 4) (Fin.ofNat 2048 (v46.toNat - v46.toNat % 8 + r)) (Fin.ofNat 512 (256 * ((L 1).val % 2) + c))) := by
  have hidx : (ValueIdx.ix2 (Fin.ofNat 144 r) (Fin.ofNat 256 c) : S144x256.Idx)
      = (b2Lo).view.emb (ValueIdx.ix2 (⟨r, hr⟩ : Fin 72) (⟨c, hc⟩ : Fin 256)) := by
    simp only [Memref.view_slice, Memref.view_whole, View.emb_slice, View.emb_whole, Function.Embedding.trans_apply, Function.Embedding.refl_apply]
    funext a; apply Fin.ext
    rw [Rect.emb_apply]
    match a with
    | ⟨0, _⟩ => show r % 144 = 0 + 1 * r; omega
    | ⟨1, _⟩ => show c % 256 = 0 + 1 * c; omega
  unfold Blo
  rw [hidx, View.write_emb_of_mem _ _ (Finset.mem_univ _)]
  refine (cast_eq _ _).trans ?_
  rw [XS0_read d L v46 hw1 hb x0]

theorem Bhi_apply (d : Dev nD) (L : grid0.Coords) (v46 v51 : BitVec 32) (hw2 : k0_chk2 L v46 v51) (h1 : k0_cond1 v46 v51 = 1#1)
    (hb : v46.toNat ≤ 1905) (f2 : Buf (Elt F) (b2Loc d L)) (x0 : Buf (Elt F) (xLoc d)) (r c : ℕ) (hr0 : 72 ≤ r) (hr : r < 144) (hc : c < 256) :
    (Bhi d L v46 v51 hw2 h1 f2 x0 : S144x256.Idx → F .f32) (ValueIdx.ix2 (Fin.ofNat 144 r) (Fin.ofNat 256 c))
      = x0 (ValueIdx.ix3 (3 : Fin 4) (Fin.ofNat 2048 (v46.toNat - v46.toNat % 8 + r)) (Fin.ofNat 512 (256 * ((L 1).val % 2) + c))) := by
  have hidx : (ValueIdx.ix2 (Fin.ofNat 144 r) (Fin.ofNat 256 c) : S144x256.Idx)
      = (b2Hi).view.emb (ValueIdx.ix2 (⟨r - 72, by omega⟩ : Fin 72) (⟨c, hc⟩ : Fin 256)) := by
    simp only [Memref.view_slice, Memref.view_whole, View.emb_slice, View.emb_whole, Function.Embedding.trans_apply, Function.Embedding.refl_apply]
    funext a; apply Fin.ext
    rw [Rect.emb_apply]
    match a with
    | ⟨0, _⟩ => show r % 144 = 72 + 1 * (r - 72); omega
    | ⟨1, _⟩ => show c % 256 = 0 + 1 * c; omega
  unfold Bhi
  rw [hidx, View.write_emb_of_mem _ _ (Finset.mem_univ _)]
  refine (cast_eq _ _).trans ?_
  rw [XS1_read d L v46 v51 hw2 h1 hb x0]
  show x0 (ValueIdx.ix3 (3 : Fin 4) (Fin.ofNat 2048 (v46.toNat - v46.toNat % 8 + 72 + (r - 72))) _) = _
  rw [show v46.toNat - v46.toNat % 8 + 72 + (r - 72) = v46.toNat - v46.toNat % 8 + r by omega]

theorem lo_rows (d : Dev nD) (L : grid0.Coords) (v46 : BitVec 32) (hw1 : k0_chk1 L v46) (hb : v46.toNat ≤ 1905)
    (f2 : Buf (Elt F) (b2Loc d L)) (x0 : Buf (Elt F) (xLoc d)) (r c : ℕ) (hr : r < 72) (hc : c + 16 ≤ 256) :
    bufPiece (Blo d L v46 hw1 f2 x0) r c = xPiece x0 (v46.toNat - v46.toNat % 8 + r) (colOf (L 1).val + c) := by
  funext k
  have hk : (k 0).val < 16 := (k 0).isLt
  unfold bufPiece xPiece colOf
  rw [Blo_apply d L v46 hw1 hb f2 x0 r (c + (k 0).val) hr (by omega), Nat.add_assoc]

theorem hi_rows (d : Dev nD) (L : grid0.Coords) (v46 v51 : BitVec 32) (hw2 : k0_chk2 L v46 v51) (h1 : k0_cond1 v46 v51 = 1#1)
    (hb : v46.toNat ≤ 1905) (f2 : Buf (Elt F) (b2Loc d L)) (x0 : Buf (Elt F) (xLoc d)) (r c : ℕ) (hr0 : 72 ≤ r) (hr : r < 144) (hc : c + 16 ≤ 256) :
    bufPiece (Bhi d L v46 v51 hw2 h1 f2 x0) r c = xPiece x0 (v46.toNat - v46.toNat % 8 + r) (colOf (L 1).val + c) := by
  funext k
  have hk : (k 0).val < 16 := (k 0).isLt
  unfold bufPiece xPiece colOf
  rw [Bhi_apply d L v46 v51 hw2 h1 hb f2 x0 r (c + (k 0).val) hr0 hr (by omega), Nat.add_assoc]

theorem acc_final_gen (d : Dev nD) (L : grid0.Coords) (x0 : Buf (Elt F) (xLoc d)) (v46 v51 : BitVec 32)
    (hw1 : k0_chk1 L v46) (hw2 : k0_chk2 L v46 v51) (hb : v46.toNat ≤ 1905) (hl : v51.toNat ≤ 127)
    (f2 f2' B2 : Buf (Elt F) (b2Loc d L)) (hB2 : ∀ h1 : k0_cond1 v46 v51 = 1#1, B2 = Bhi d L v46 v51 hw2 h1 f2' x0)
    (a : FVec F S16 .f32) (g : ℕ) (hg : g < 16) :
    sumBuf B2 (16 * g) (sumBuf (Blo d L v46 hw1 f2 x0) (16 * g) a (v46.toNat % 8) (cnt1 v46 v51)) 72 (cnt2 v46 v51)
      = sumRows x0 (colOf (L 1).val + 16 * g) a v46.toNat v51.toNat := by
  have hal : v46.toNat - v46.toNat % 8 + v46.toNat % 8 = v46.toNat := by omega
  have e1 : sumBuf (Blo d L v46 hw1 f2 x0) (16 * g) a (v46.toNat % 8) (cnt1 v46 v51)
      = sumRows x0 (colOf (L 1).val + 16 * g) a v46.toNat (cnt1 v46 v51) := by
    rw [sumBuf_eq_sumRows (Blo d L v46 hw1 f2 x0) x0 (16 * g) (colOf (L 1).val + 16 * g) (v46.toNat - v46.toNat % 8) (v46.toNat % 8) (cnt1 v46 v51)
      (fun r _ h2 => lo_rows d L v46 hw1 hb f2 x0 r (16 * g) (by unfold cnt1 at h2; omega) (by omega)) a, hal]
  by_cases hc : 72 < v46.toNat % 8 + v51.toNat
  · have h1 : k0_cond1 v46 v51 = 1#1 := (ScFacts.cond1_iff hb hl).mpr hc
    have c1 : cnt1 v46 v51 = 72 - v46.toNat % 8 := by unfold cnt1; omega
    have c2 : cnt2 v46 v51 = v46.toNat % 8 + v51.toNat - 72 := by unfold cnt2; omega
    rw [e1, hB2 h1, sumBuf_eq_sumRows (Bhi d L v46 v51 hw2 h1 f2' x0) x0 (16 * g) (colOf (L 1).val + 16 * g) (v46.toNat - v46.toNat % 8) 72 (cnt2 v46 v51)
      (fun r h0 h2 => hi_rows d L v46 v51 hw2 h1 hb f2' x0 r (16 * g) h0 (by rw [c2] at h2; omega) (by omega)),
      show v51.toNat = cnt1 v46 v51 + cnt2 v46 v51 by omega, sumRows_split,
      show v46.toNat - v46.toNat % 8 + 72 = v46.toNat + cnt1 v46 v51 by omega]
  · have c1 : cnt1 v46 v51 = v51.toNat := by unfold cnt1; omega
    have c2 : cnt2 v46 v51 = 0 := by unfold cnt2; omega
    rw [e1, c1, c2]
    rfl

theorem acc_final (m : (ℓ : Loc nD τ sig) → Buf (Elt F) ℓ) (hl : ∀ d b p, (m (lLoc d) (ValueIdx.ix2 b p)).toNat ≤ 127)
    (d : Dev nD) (L : grid0.Coords) (hw1 : k0_chk1 L (v46V m d L)) (hw2 : k0_chk2 L (v46V m d L) (v51V m d L))
    (f2 f2' B2 : Buf (Elt F) (b2Loc d L))
    (hB2 : ∀ h1 : k0_cond1 (v46V m d L) (v51V m d L) = 1#1, B2 = Bhi d L (v46V m d L) (v51V m d L) hw2 h1 f2' (m (xLoc d)))
    (g : ℕ) (hg : g < 16) :
    sumBuf B2 (16 * g) (sumBuf (Blo d L (v46V m d L) hw1 f2 (m (xLoc d))) (16 * g) zeroPiece ((v46V m d L).toNat % 8) (cnt1 (v46V m d L) (v51V m d L)))
        72 (cnt2 (v46V m d L) (v51V m d L))
      = accVal (m (xLoc d)) (m (lLoc d)) (L 0).val (L 1).val g := by
  rw [acc_final_gen d L (m (xLoc d)) (v46V m d L) (v51V m d L) hw1 hw2 (v46V_le m hl d L) (v51V_le m hl d L) f2 f2' B2 hB2 zeroPiece g hg,
    v46V_toNat m hl d L]
  rfl

end Cert.KernelIdeal.Sc

end
-- ==== Proof.KITile4.lean ====
import proofs.«212945_g29746943492489_cont_sun_c4_499_28_alg».proof.Proof.KITile3
import proofs.«212945_g29746943492489_cont_sun_c4_499_28_alg».proof.Proof.KITileP18
import proofs.«212945_g29746943492489_cont_sun_c4_499_28_alg».proof.Proof.KITileP19
import proofs.«212945_g29746943492489_cont_sun_c4_499_28_alg».proof.Proof.KITileP20
import proofs.«212945_g29746943492489_cont_sun_c4_499_28_alg».proof.Proof.KITileP21
import proofs.«212945_g29746943492489_cont_sun_c4_499_28_alg».proof.Proof.KITileTail
import proofs.«212945_g29746943492489_cont_sun_c4_499_28_alg».proof.Proof.KITileVal

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [TileDefs F]

local notation "𝕄" => MT nD τ sig (HIx 1) (Elt F) ℕ UU ℕ

variable (m : (ℓ : Loc nD τ sig) → Buf (Elt F) ℓ)

theorem stretch19 : Stretch19 (F := F) := by
  intro d L q O W v46 hw1 v52 v55 cst f2 x0
  unfold Fl0
  refine (part19 d L v46 hw1 v52 v55 cst O W _ rfl _).trans (wp_mono _ _ _ fun r => ?_)
  iintro ⟨%h, ⟨HA, HB⟩, HC, HE⟩
  isplitr; · ipureintro; exact h
  isplitl [HA]; · iexact HA
  isplitl [HB]; · iexact HB
  isplitl [HC]; · iexact HC
  iexact HE

theorem tile_body (hF : (K (F := F)).Facts) (hl : ∀ d b p, (m (lLoc d) (ValueIdx.ix2 b p)).toNat ≤ 127) : TileBody (scSH m) m (scOV m) :=
  tile_body_of m hF hl (stretch17 m) (stretch18 m hl) stretch19 (stretch20 regionT3 regionT5) stretch21 (tailRun m) (fun d L f2 B2 hB2 g hg => acc_final m hl d L (hc1 m hl d L) (hc2 m hl d L) f2 f2 B2 hB2 g hg)

end Cert.KernelIdeal.Sc

end
-- ==== Proof.TcBody.lean ====
import proofs.«212945_g29746943492489_cont_sun_c4_499_28_alg».proof.Proof.Gen.KernelIdeal.Skeleton
import proofs.«212945_g29746943492489_cont_sun_c4_499_28_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.TcBody

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

def wd (x0 : S1x1x16.Idx → Elt F .i32) (off : Fin 3 → Nat) (inb : ∀ a, off a + S1x1x1.size a ≤ S1x1x16.size a) : Elt F .i32 :=
  View.ld x0 (Rect.unit (s := S1x1x16) off S1x1x1.size inb) (Shape.Idx.first (numel1_S1x1x1.symm ▸ Nat.one_pos))

def tcQ (w0 w1 w2 w3 w4 w5 w6 w7 w8 w9 w10 w11 w12 w13 w14 w15 : Elt F .i32) (v213 : Vec F S1x2048x512 .f32) :
    FVec F S16x512 .f32 × IVec S16x512 1 :=
  let v0 : IVec S1x2048 32 := iota .tc S1x2048 32 [1] iota_S1x2048_d1_w32
  let v1 : FVec F S1x1 .f32 := k1_pay2 (F := F)
  let v3 : BitVec 32 := Scalar.addi 0#32 w0
  let v16 : BitVec 32 := Scalar.addi v3 w1
  let v29 : BitVec 32 := Scalar.addi v16 w2
  let v42 : BitVec 32 := Scalar.addi v29 w3
  let v55 : BitVec 32 := Scalar.addi v42 w4
  let v68 : BitVec 32 := Scalar.addi v55 w5
  let v81 : BitVec 32 := Scalar.addi v68 w6
  let v94 : BitVec 32 := Scalar.addi v81 w7
  let v107 : BitVec 32 := Scalar.addi v94 w8
  let v120 : BitVec 32 := Scalar.addi v107 w9
  let v133 : BitVec 32 := Scalar.addi v120 w10
  let v146 : BitVec 32 := Scalar.addi v133 w11
  let v159 : BitVec 32 := Scalar.addi v146 w12
  let v172 : BitVec 32 := Scalar.addi v159 w13
  (k1_pay30 v0 v1 (k1_pay3 w0) (k1_pay4 w0) (k1_pay5 w0 w1) (k1_pay6 w1) (k1_pay7 w0 w1 w2) (k1_pay8 w2)
      (k1_pay9 v0 v29 w3) (k1_pay10 v1 w3) (k1_pay11 v0 v29 w3 w4) (k1_pay12 v1 w4) (k1_pay13 v0 v29 w3 w4 w5) (k1_pay14 v1 w5)
      (k1_pay15 v0 v29 w3 w4 w5 w6) (k1_pay16 v1 w6) (k1_pay17 v0 v81 w7) (k1_pay18 v1 w7) (k1_pay19 v0 v81 w7 w8) (k1_pay20 v1 w8)
      (k1_pay21 v0 v81 w7 w8 w9) (k1_pay22 v1 w9) (k1_pay23 v0 v120 w10) (k1_pay24 v1 w10) (k1_pay25 v0 v120 w10 w11) (k1_pay26 v1 w11)
      (k1_pay27 v0 v120 w10 w11 w12) (k1_pay28 v1 w12) w13 v172 (k1_pay29 v0 v120 w10 w11 w12 w13) 1#32 w14 w15 v213,
   k1_pay31 v0 v1 (k1_pay3 w0) (k1_pay4 w0) (k1_pay5 w0 w1) (k1_pay6 w1) (k1_pay7 w0 w1 w2) (k1_pay8 w2)
      (k1_pay9 v0 v29 w3) (k1_pay10 v1 w3) (k1_pay11 v0 v29 w3 w4) (k1_pay12 v1 w4) (k1_pay13 v0 v29 w3 w4 w5) (k1_pay14 v1 w5)
      (k1_pay15 v0 v29 w3 w4 w5 w6) (k1_pay16 v1 w6) (k1_pay17 v0 v81 w7) (k1_pay18 v1 w7) (k1_pay19 v0 v81 w7 w8) (k1_pay20 v1 w8)
      (k1_pay21 v0 v81 w7 w8 w9) (k1_pay22 v1 w9) (k1_pay23 v0 v120 w10) (k1_pay24 v1 w10) (k1_pay25 v0 v120 w10 w11) (k1_pay26 v1 w11)
      (k1_pay27 v0 v120 w10 w11 w12) (k1_pay28 v1 w12) w13 v172 (k1_pay29 v0 v120 w10 w11 w12 w13) 1#32 w14 w15 v213)

def onWords {α : Type} (x0 : S1x1x16.Idx → Elt F .i32)
    (k : (w0 w1 w2 w3 w4 w5 w6 w7 w8 w9 w10 w11 w12 w13 w14 w15 : Elt F .i32) → α) : α :=
  k (wd x0 ![0, 0, 0] inb_S1x1x16_S1x1x1_0_0_0) (wd x0 ![0, 0, 1] inb_S1x1x16_S1x1x1_0_0_1) (wd x0 ![0, 0, 2] inb_S1x1x16_S1x1x1_0_0_2)
    (wd x0 ![0, 0, 3] inb_S1x1x16_S1x1x1_0_0_3) (wd x0 ![0, 0, 4] inb_S1x1x16_S1x1x1_0_0_4) (wd x0 ![0, 0, 5] inb_S1x1x16_S1x1x1_0_0_5)
    (wd x0 ![0, 0, 6] inb_S1x1x16_S1x1x1_0_0_6) (wd x0 ![0, 0, 7] inb_S1x1x16_S1x1x1_0_0_7) (wd x0 ![0, 0, 8] inb_S1x1x16_S1x1x1_0_0_8)
    (wd x0 ![0, 0, 9] inb_S1x1x16_S1x1x1_0_0_9) (wd x0 ![0, 0, 10] inb_S1x1x16_S1x1x1_0_0_10) (wd x0 ![0, 0, 11] inb_S1x1x16_S1x1x1_0_0_11)
    (wd x0 ![0, 0, 12] inb_S1x1x16_S1x1x1_0_0_12) (wd x0 ![0, 0, 13] inb_S1x1x16_S1x1x1_0_0_13) (wd x0 ![0, 0, 14] inb_S1x1x16_S1x1x1_0_0_14)
    (wd x0 ![0, 0, 15] inb_S1x1x16_S1x1x1_0_0_15)

abbrev rIn : Rect S1x2048x512 := Rect.unit (s := S1x2048x512) ![0, 0, 0] S1x2048x512.size inb_S1x2048x512_S1x2048x512_0_0_0
abbrev rOut : Rect S1x16x512 := Rect.unit (s := S1x16x512) ![0, 0, 0] S1x16x512.size inb_S1x16x512_S1x16x512_0_0_0

def tcOutRun (x0 : S1x1x16.Idx → Elt F .i32) (x1 : Vec F S1x2048x512 .f32) : Vec F S1x16x512 .f32 :=
  View.canon [⟨rOut, onWords x0 fun w0 w1 w2 w3 w4 w5 w6 w7 w8 w9 w10 w11 w12 w13 w14 w15 =>
    k1_pay1 (tcQ w0 w1 w2 w3 w4 w5 w6 w7 w8 w9 w10 w11 w12 w13 w14 w15 (View.ld x1 rIn)).1
      (tcQ w0 w1 w2 w3 w4 w5 w6 w7 w8 w9 w10 w11 w12 w13 w14 w15 (View.ld x1 rIn)).2⟩]

def tcOut (x0 : S1x1x16.Idx → Elt F .i32) (x1 : Vec F S1x2048x512 .f32) : Vec F S1x16x512 .f32 :=
  onWords x0 fun w0 w1 w2 w3 w4 w5 w6 w7 w8 w9 w10 w11 w12 w13 w14 w15 =>
    k1_pay1 (tcQ w0 w1 w2 w3 w4 w5 w6 w7 w8 w9 w10 w11 w12 w13 w14 w15 x1).1
      (tcQ w0 w1 w2 w3 w4 w5 w6 w7 w8 w9 w10 w11 w12 w13 w14 w15 x1).2

theorem tcOutRun_eq [∀ e, Nonempty (Elt F e)] (x0 : S1x1x16.Idx → Elt F .i32) (x1 : Vec F S1x2048x512 .f32) :
    tcOutRun x0 x1 = tcOut x0 x1 := by
  unfold tcOutRun tcOut
  rw [View.canon_unit_zero (by funext a; fin_cases a <;> rfl), View.ld_unit_zero (by funext a; fin_cases a <;> rfl)]

theorem cover_out (p0 : Vec F S1x16x512 .f32) (y : S1x16x512.Idx) :
    ∃ pc ∈ ([⟨rOut, p0⟩] : List (View.Piece (Elt F) S1x16x512 .f32)), y ∈ pc.1.set :=
  ⟨_, List.mem_singleton_self _, View.mem_set_unit_zero (by funext a; fin_cases a <;> rfl) inb_S1x16x512_S1x16x512_0_0_0 y⟩

variable {Ix : Type} [DecidableEq Ix] {Name : Type} [DecidableEq Name] {U : Type} [URA U] {Lvl : Type} [Preorder Lvl]

local notation "𝕄" => MT nD τ sig Ix (Elt F) Name U Lvl

set_option maxHeartbeats 4000000 in

theorem sound_kernel [∀ e, Nonempty (Elt F e)] (𝒱₀ : Variants) (c : Dev nD) (E : Set Name) (i : grid1.Coords)
    (arg1 : Memref sig .tc .smem S1x1x16 .i32) (harg1 : arg1.IsWhole) (arg2 : Memref sig .tc .vmem S1x2048x512 .f32) (harg2 : arg2.IsWhole)
    (arg3 : Memref sig .tc .vmem S1x16x512 .f32) (harg3 : arg3.IsWhole)
    (x0 : S1x1x16.Idx → Elt F .i32) (x1 : Vec F S1x2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tcOut x0 x1)) -∗ K ⟨⟩))
      ⊢ wp frame (wpE (defs₀ (F := F)) 𝒱₀ c none) E (cc1__lambda_ i arg1 harg1 arg2 harg2 arg3 harg3) K := by
  unfold owns
  iintro ⟨⟨%f0, %hf0, H0⟩, ⟨%f1, %hf1, H1⟩, ⟨%d2, %f2, -, H2⟩, Hk⟩
  subst hf0 hf1
  sl_exec_parts!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [← tcOutRun_eq]
  exact View.read_writes_eq_canon _ _ _ (cover_out _)

end Cert.KernelIdeal.TcBody

end
-- ==== Proof.TcValue.lean ====
import proofs.«212945_g29746943492489_cont_sun_c4_499_28_alg».proof.Proof.TcBody
import proofs.«212945_g29746943492489_cont_sun_c4_499_28_alg».proof.Proof.Spec
import Idealize.ShloMosaic.Lib.Pipeline.Value
import Idealize.ShloMosaic.Lib.ValueIdx
import Idealize.ShloMosaic.PureOps.Ideal.Laws
import Mathlib.Algebra.BigOperators.Intervals
import Mathlib.Algebra.BigOperators.Fin
import Mathlib.Algebra.Order.BigOperators.Group.Finset

noncomputable section

open scoped BigOperators

namespace Cert.KernelIdeal.TcValue

open Cert.KernelIdeal Cert.KernelIdeal.Gen
open Idealize.ShloMosaic Idealize.ShloMosaic.ValueIdx

section Form
variable {F : FTy → Type} [FloatOps F]

def maskRow (v0 : IVec S1x2048 32) (b c : BitVec 32) : FVec F S1x2048 .f32 :=
  sitofp .f32 (extui 32 (andi (cmpi .sge v0 (broadcast S1x2048 b)) (cmpi .slt v0 (broadcast S1x2048 c))) natLt_1_32)

def denOf (v1 : FVec F S1x1 .f32) (w : BitVec 32) : FVec F S1x1 .f32 :=
  mulf v1 (broadcast S1x1 (Scalar.sitofp .f32 (Scalar.maxsi w 1#32)))

def wAt (x0 : S1x1x16.Idx → BitVec 32) (p : ℕ) : BitVec 32 := x0 (ix3 (0 : Fin 1) (0 : Fin 1) (Fin.ofNat 16 p))

def cumAt (x0 : S1x1x16.Idx → BitVec 32) : ℕ → BitVec 32
  | 0 => 0#32
  | p + 1 => Scalar.addi (cumAt x0 p) (wAt x0 p)

def quotOf (rows : Fin 16 → FVec F S1x2048 .f32) (dens : Fin 16 → FVec F S1x1 .f32) (x1 : Vec F S1x2048x512 .f32) : FVec F S16x512 .f32 :=
  let M : FVec F S16x2048 .bf16 := truncf .bf16 (concatenate S16x2048 0 (List.ofFn fun r : Fin 16 => (⟨S1x2048, rows r⟩ : (s : Shape) × (s.Idx → F .f32)))
    concatenates_S1x2048_S1x2048_S1x2048_S1x2048_S1x2048_S1x2048_S1x2048_S1x2048_S1x2048_S1x2048_S1x2048_S1x2048_S1x2048_S1x2048_S1x2048_S1x2048_S16x2048_d0) bitsLt_bf16_f32
  let D : FVec F S16x1 .f32 := concatenate S16x1 0 (List.ofFn fun r : Fin 16 => (⟨S1x1, dens r⟩ : (s : Shape) × (s.Idx → F .f32)))
    concatenates_S1x1_S1x1_S1x1_S1x1_S1x1_S1x1_S1x1_S1x1_S1x1_S1x1_S1x1_S1x1_S1x1_S1x1_S1x1_S1x1_S16x1_d0
  let xs : FVec F S2048x512 .f32 := shapeCast S2048x512 x1 shapeCasts_S1x2048x512_S2048x512
  divf (addf (matmul dot_S16x2048_S2048x512_S16x512_1_0_0_1_n_n none M (truncf .bf16 xs bitsLt_bf16_f32) (constant S16x512 .f32 0x00000000#32))
      (matmul dot_S16x2048_S2048x512_S16x512_1_0_0_1_n_n none M (truncf .bf16 (subf xs xs) bitsLt_bf16_f32) (constant S16x512 .f32 0x00000000#32)))
    (broadcastTo S16x512 D broadcasts_S16x1_S16x512)

theorem wd_eq (x0 : S1x1x16.Idx → BitVec 32) (p : ℕ) (hp : p < 16) (off : Fin 3 → Nat)
    (inb : ∀ a, off a + S1x1x1.size a ≤ S1x1x16.size a) (h : off = ![0, 0, p]) :
    TcBody.wd (F := F) x0 off inb = wAt x0 p := by
  subst h
  unfold TcBody.wd wAt
  show x0 _ = x0 _
  congr 1
  funext a
  apply Fin.ext
  match a with
  | ⟨0, _⟩ => rfl
  | ⟨1, _⟩ => rfl
  | ⟨2, _⟩ => show p + 1 * 0 = p % 16; omega

theorem tcOut_form (x0 : S1x1x16.Idx → BitVec 32) (x1 : Vec F S1x2048x512 .f32) :
    TcBody.tcOut (F := F) x0 x1 =
      (let Q := quotOf (fun r => maskRow (iota .tc S1x2048 32 [1] iota_S1x2048_d1_w32) (cumAt x0 r.val) (cumAt x0 (r.val + 1)))
          (fun r => denOf (k1_pay2 (F := F)) (wAt x0 r.val)) x1
       shapeCast S1x16x512 (select (cmpf .oeq Q (broadcast S16x512 (Scalar.ofBits .f32 0x00000000#32))) (broadcast S16x512 (Scalar.ofBits .f32 0xBF800000#32)) Q)
         shapeCasts_S16x512_S1x16x512) := by
  unfold TcBody.tcOut TcBody.onWords
  rw [wd_eq x0 0 (by decide) _ _ rfl, wd_eq x0 1 (by decide) _ _ rfl, wd_eq x0 2 (by decide) _ _ rfl, wd_eq x0 3 (by decide) _ _ rfl,
    wd_eq x0 4 (by decide) _ _ rfl, wd_eq x0 5 (by decide) _ _ rfl, wd_eq x0 6 (by decide) _ _ rfl, wd_eq x0 7 (by decide) _ _ rfl,
    wd_eq x0 8 (by decide) _ _ rfl, wd_eq x0 9 (by decide) _ _ rfl, wd_eq x0 10 (by decide) _ _ rfl, wd_eq x0 11 (by decide) _ _ rfl,
    wd_eq x0 12 (by decide) _ _ rfl, wd_eq x0 13 (by decide) _ _ rfl, wd_eq x0 14 (by decide) _ _ rfl, wd_eq x0 15 (by decide) _ _ rfl]
  rfl

end Form

section Words

theorem ofBool_and (p q : Bool) : BitVec.ofBool p &&& BitVec.ofBool q = BitVec.ofBool (p && q) := by
  cases p <;> cases q <;> decide

theorem bit_toInt (t : Bool) : ((BitVec.ofBool t).setWidth 32).toInt = if t then 1 else 0 := by
  cases t <;> decide

theorem sle_small (a b : BitVec 32) (ha : a.toNat < 2 ^ 31) (hb : b.toNat < 2 ^ 31) : a.sle b = decide (a.toNat ≤ b.toNat) := by
  have h1 : a.toInt = a.toNat := BitVec.toInt_eq_toNat_of_lt (by omega)
  have h2 : b.toInt = b.toNat := BitVec.toInt_eq_toNat_of_lt (by omega)
  simp only [BitVec.sle, h1, h2, Nat.cast_le]

theorem slt_small (a b : BitVec 32) (ha : a.toNat < 2 ^ 31) (hb : b.toNat < 2 ^ 31) : a.slt b = decide (a.toNat < b.toNat) := by
  have h1 : a.toInt = a.toNat := BitVec.toInt_eq_toNat_of_lt (by omega)
  have h2 : b.toInt = b.toNat := BitVec.toInt_eq_toNat_of_lt (by omega)
  simp only [BitVec.slt, h1, h2, Nat.cast_lt]

theorem maxsi_one_toInt (len : BitVec 32) (h : len.toNat ≤ 127) :
    (Scalar.maxsi len 1#32).toInt = ((max len.toNat 1 : ℕ) : ℤ) := by
  have h1 : len.toInt = (len.toNat : ℤ) := BitVec.toInt_eq_toNat_of_lt (by omega)
  unfold Scalar.maxsi IntOp.maxsi
  by_cases hc : (1#32).slt len = true
  · rw [if_pos hc, h1]
    have : (1 : ℤ) < len.toInt := by simpa [BitVec.slt] using hc
    omega
  · rw [if_neg hc]
    have : ¬ (1 : ℤ) < len.toInt := by simpa [BitVec.slt] using hc
    have e : (1#32).toInt = 1 := by decide
    rw [e]; omega

theorem maskRow_apply (b e : BitVec 32) (hb : b.toNat < 2 ^ 31) (he : e.toNat < 2 ^ 31) (c : Fin 2048) :
    maskRow (F := Ideal) (iota .tc S1x2048 32 [1] iota_S1x2048_d1_w32) b e (ix2 (0 : Fin 1) c)
      = if b.toNat ≤ c.val ∧ c.val < e.toNat then (1 : EReal) else 0 := by
  have hi : iota .tc S1x2048 32 [1] iota_S1x2048_d1_w32 (ix2 (0 : Fin 1) c) = BitVec.ofNat 32 c.val :=
    iota_single_apply .tc S1x2048 32 1 iota_S1x2048_d1_w32 _
  have hc : (BitVec.ofNat 32 c.val).toNat = c.val := by
    rw [BitVec.toNat_ofNat]; exact Nat.mod_eq_of_lt (by have := c.isLt; omega)
  show ((((BitVec.ofBool (b.sle (iota .tc S1x2048 32 [1] iota_S1x2048_d1_w32 (ix2 (0 : Fin 1) c)))
      &&& BitVec.ofBool ((iota .tc S1x2048 32 [1] iota_S1x2048_d1_w32 (ix2 (0 : Fin 1) c)).slt e)).setWidth 32).toInt : ℝ) : EReal) = _
  have hc' : (BitVec.ofNat 32 c.val).toNat < 2 ^ 31 := by rw [hc]; have := c.isLt; omega
  rw [hi, ofBool_and, bit_toInt, sle_small b _ hb hc', slt_small _ e hc' he, hc]
  by_cases h : b.toNat ≤ c.val ∧ c.val < e.toNat
  · rw [if_pos h]; simp [h.1, h.2]
  · rw [if_neg h]
    have : (decide (b.toNat ≤ c.val) && decide (c.val < e.toNat)) = false := by
      rw [Bool.and_eq_false_iff]; simp only [decide_eq_false_iff_not]; tauto
    rw [this]; simp

theorem denOf_apply (w : BitVec 32) (hw : w.toNat ≤ 127) :
    denOf (F := Ideal) (k1_pay2 (F := Ideal)) w (ix2 (0 : Fin 1) (0 : Fin 1)) = (((max w.toNat 1 : ℕ) : ℝ) : EReal) := by
  show Ideal.ofBits .f32 0x3F800000#32 * (((Scalar.maxsi w 1#32).toInt : ℝ) : EReal) = _
  have h1 : Ideal.ofBits .f32 0x3F800000#32 = 1 := by simp [Ideal.ofBits, Ideal.ieee, -EReal.coe_mul]; norm_num
  rw [h1, one_mul, maxsi_one_toInt w hw, Int.cast_natCast]

theorem fix_apply (q : EReal) :
    Scalar.select (FloatOps.cmpf .oeq q (Scalar.ofBits (F := Ideal) .f32 0x00000000#32)) (Scalar.ofBits (F := Ideal) .f32 0xBF800000#32) q
      = if q = 0 then (-1 : EReal) else q := by
  have h0 : (Scalar.ofBits (F := Ideal) .f32 0x00000000#32) = (0 : EReal) := Ideal.ofBits_zero_f32
  have hm1 : (Scalar.ofBits (F := Ideal) .f32 0xBF800000#32) = (-1 : EReal) := by
    show Ideal.ofBits .f32 0xBF800000#32 = -1
    simp [Ideal.ofBits, Ideal.ieee, -EReal.coe_mul]; norm_num
  rw [h0, hm1]
  show Scalar.select (Ideal.cmp .oeq q 0) (-1) q = _
  by_cases hq : q = 0 <;> simp [Ideal.cmp, Scalar.select, hq]

end Words

section Reads

theorem matmul_zero_apply {φ₁ φ₂ : FTy} (A : FVec Ideal S16x2048 φ₁) (B : FVec Ideal S2048x512 φ₂) (a : Fin 16) (b : Fin 512) :
    matmul dot_S16x2048_S2048x512_S16x512_1_0_0_1_n_n none A B (constant (F := Ideal) S16x512 .f32 0x00000000#32) (ix2 a b)
      = ∑ c : Fin 2048, A (ix2 a c) * B (ix2 c b) := by
  show FloatOps.matmul dot_S16x2048_S2048x512_S16x512_1_0_0_1_n_n none A B (constant (F := Ideal) S16x512 .f32 0x00000000#32) (ix2 a b) = _
  rw [Ideal.matmul_constant_zero_apply, ← Equiv.sum_comp (contrEquiv1 dot_S16x2048_S2048x512_S16x512_1_0_0_1_n_n 2048 rfl rfl).symm]
  refine Finset.sum_congr rfl fun c _ => ?_
  have c2 := contrEquiv1_symm_val dot_S16x2048_S2048x512_S16x512_1_0_0_1_n_n 2048 rfl rfl c
  have l2 : dot_S16x2048_S2048x512_S16x512_1_0_0_1_n_n.lhsIdx (ix2 a b) ((contrEquiv1 _ 2048 rfl rfl).symm c) = ix2 a c := by
    funext ax; apply Fin.ext
    match ax with
    | ⟨0, _⟩ => simp [DotDims.lhsIdx, dot_S16x2048_S2048x512_S16x512_1_0_0_1_n_n]; rfl
    | ⟨1, _⟩ => simp [DotDims.lhsIdx, dot_S16x2048_S2048x512_S16x512_1_0_0_1_n_n]; exact c2
  have r2 : dot_S16x2048_S2048x512_S16x512_1_0_0_1_n_n.rhsIdx (ix2 a b) ((contrEquiv1 _ 2048 rfl rfl).symm c) = ix2 c b := by
    funext ax; apply Fin.ext
    match ax with
    | ⟨0, _⟩ => simp [DotDims.rhsIdx, dot_S16x2048_S2048x512_S16x512_1_0_0_1_n_n]; exact c2
    | ⟨1, _⟩ => simp [DotDims.rhsIdx, dot_S16x2048_S2048x512_S16x512_1_0_0_1_n_n]; rfl
  rw [l2, r2]

theorem block_apply {α : Type} (x1 : S1x2048x512.Idx → α) (c : Fin 2048) (dd : Fin 512) :
    shapeCast S2048x512 x1 shapeCasts_S1x2048x512_S2048x512 (ix2 c dd) = x1 (ix3 (0 : Fin 1) c dd) := by
  rw [shapeCast_dropUnit_apply ![2048, 512] x1 shapeCasts_S1x2048x512_S2048x512 (ix2 c dd)]
  congr 1
  funext a
  match a with
  | ⟨0, _⟩ => rfl
  | ⟨1, _⟩ => rfl
  | ⟨2, _⟩ => rfl

theorem out_apply {α : Type} (v : S16x512.Idx → α) (p : Fin 16) (dd : Fin 512) :
    shapeCast S1x16x512 v shapeCasts_S16x512_S1x16x512 (ix3 (0 : Fin 1) p dd) = v (ix2 p dd) := by
  rw [shapeCast_addUnit_apply ![16, 512] v shapeCasts_S16x512_S1x16x512 (ix3 (0 : Fin 1) p dd)]
  congr 1
  funext a
  match a with
  | ⟨0, _⟩ => rfl
  | ⟨1, _⟩ => rfl

theorem rows_apply {α : Type} (rows : Fin 16 → S1x2048.Idx → α) (p : Fin 16) (c : Fin 2048) :
    concatenate S16x2048 0 (List.ofFn fun r : Fin 16 => (⟨S1x2048, rows r⟩ : (s : Shape) × (s.Idx → α)))
      concatenates_S1x2048_S1x2048_S1x2048_S1x2048_S1x2048_S1x2048_S1x2048_S1x2048_S1x2048_S1x2048_S1x2048_S1x2048_S1x2048_S1x2048_S1x2048_S1x2048_S16x2048_d0
      (ix2 p c) = rows p (ix2 (0 : Fin 1) c) :=
  concatenate_ofFn_unit_apply (0 : Fin S16x2048.rank) rows _ rfl rfl (ix2 p c) p rfl (ix2 (0 : Fin 1) c)
    (fun b => match b with | ⟨0, _⟩ => fun h => absurd rfl h | ⟨1, _⟩ => fun _ => rfl)

theorem dens_apply {α : Type} (dens : Fin 16 → S1x1.Idx → α) (p : Fin 16) :
    concatenate S16x1 0 (List.ofFn fun r : Fin 16 => (⟨S1x1, dens r⟩ : (s : Shape) × (s.Idx → α)))
      concatenates_S1x1_S1x1_S1x1_S1x1_S1x1_S1x1_S1x1_S1x1_S1x1_S1x1_S1x1_S1x1_S1x1_S1x1_S1x1_S1x1_S16x1_d0
      (ix2 p (0 : Fin 1)) = dens p (ix2 (0 : Fin 1) (0 : Fin 1)) :=
  concatenate_ofFn_unit_apply (0 : Fin S16x1.rank) dens _ rfl rfl (ix2 p (0 : Fin 1)) p rfl (ix2 (0 : Fin 1) (0 : Fin 1))
    (fun b => match b with | ⟨0, _⟩ => fun h => absurd rfl h | ⟨1, _⟩ => fun _ => rfl)

theorem spread_apply {α : Type} (D : S16x1.Idx → α) (p : Fin 16) (dd : Fin 512) :
    broadcastTo S16x512 D broadcasts_S16x1_S16x512 (ix2 p dd) = D (ix2 p (0 : Fin 1)) :=
  broadcastTo_apply D broadcasts_S16x1_S16x512 (ix2 p dd) (ix2 p (0 : Fin 1))
    (fun a => match a with | ⟨0, _⟩ => rfl | ⟨1, _⟩ => rfl)

theorem quotOf_apply (rows : Fin 16 → FVec Ideal S1x2048 .f32) (dens : Fin 16 → FVec Ideal S1x1 .f32)
    (x1 : Vec Ideal S1x2048x512 .f32) (p : Fin 16) (dd : Fin 512) :
    quotOf (F := Ideal) rows dens x1 (ix2 p dd)
      = Ideal.div ((∑ c : Fin 2048, rows p (ix2 (0 : Fin 1) c) * x1 (ix3 (0 : Fin 1) c dd))
          + ∑ c : Fin 2048, rows p (ix2 (0 : Fin 1) c) * (x1 (ix3 (0 : Fin 1) c dd) - x1 (ix3 (0 : Fin 1) c dd)))
        (dens p (ix2 (0 : Fin 1) (0 : Fin 1))) := by
  unfold quotOf
  rw [divf_apply, addf_apply, matmul_zero_apply, matmul_zero_apply, spread_apply, dens_apply]
  congr 2
  · refine Finset.sum_congr rfl fun c _ => ?_
    rw [truncf_apply, truncf_apply, rows_apply, block_apply]
  · refine Finset.sum_congr rfl fun c _ => ?_
    rw [truncf_apply, truncf_apply, rows_apply, subf_apply, block_apply]

end Reads

section Value

theorem wAt_toNat (l : IVec Cert.Spec.S4x16 32) (bb : Fin 4) (x0 : S1x1x16.Idx → BitVec 32)
    (hx0 : ∀ p : Fin 16, x0 (ix3 (0 : Fin 1) (0 : Fin 1) p) = l (ix2 bb p)) (j : ℕ) :
    (wAt x0 j).toNat = Cert.Spec.lenAt l bb (Fin.ofNat 16 j) := by
  unfold wAt Cert.Spec.lenAt; rw [hx0]

theorem cumAt_toNat (x0 : S1x1x16.Idx → BitVec 32) (hw : ∀ j, (wAt x0 j).toNat ≤ 127) (p : ℕ) (hp : p ≤ 16) :
    (cumAt x0 p).toNat = ∑ j ∈ Finset.range p, (wAt x0 j).toNat := by
  induction p with
  | zero => rfl
  | succ p ih =>
    have ih' := ih (by omega)
    have hs : ∑ j ∈ Finset.range p, (wAt x0 j).toNat ≤ 127 * p := by
      have := Finset.sum_le_card_nsmul (Finset.range p) (fun j => (wAt x0 j).toNat) 127 (fun j _ => hw j)
      simpa [Nat.mul_comm] using this
    rw [Finset.sum_range_succ, ← ih']
    show (cumAt x0 p + wAt x0 p).toNat = _
    rw [BitVec.toNat_add, Nat.mod_eq_of_lt]
    have := hw p
    omega

theorem beginAt_eq (l : IVec Cert.Spec.S4x16 32) (bb : Fin 4) (x0 : S1x1x16.Idx → BitVec 32)
    (hx0 : ∀ p : Fin 16, x0 (ix3 (0 : Fin 1) (0 : Fin 1) p) = l (ix2 bb p)) (p : Fin 16) :
    Cert.Spec.beginAt l bb p = ∑ j ∈ Finset.range p.val, (wAt x0 j).toNat := by
  unfold Cert.Spec.beginAt
  have e : ∀ j : Fin 16, (if j < p then Cert.Spec.lenAt l bb j else 0) = (fun j : ℕ => if j < p.val then (wAt x0 j).toNat else 0) j.val := by
    intro j; simp only [wAt_toNat l bb x0 hx0, Fin.ofNat_val_eq_self, Fin.lt_def]
  rw [Finset.sum_congr rfl (fun j _ => e j), Fin.sum_univ_eq_sum_range (fun j : ℕ => if j < p.val then (wAt x0 j).toNat else 0) 16, ← Finset.sum_filter]
  congr 1
  ext t; simp only [Finset.mem_filter, Finset.mem_range]; omega

theorem tcOut_eq_ix (x : FVec Ideal Cert.Spec.S4x2048x512 .f32) (l : IVec Cert.Spec.S4x16 32) (hl : Cert.Spec.InRange l) (hx : Cert.Spec.Finite x)
    (bb : Fin 4) (x0 : S1x1x16.Idx → BitVec 32) (hx0 : ∀ p : Fin 16, x0 (ix3 (0 : Fin 1) (0 : Fin 1) p) = l (ix2 bb p))
    (x1 : FVec Ideal S1x2048x512 .f32) (hx1 : ∀ (t : Fin 2048) (dd : Fin 512), x1 (ix3 (0 : Fin 1) t dd) = x (ix3 bb t dd))
    (q : Fin 16) (e : Fin 512) :
    TcBody.tcOut (F := Ideal) x0 x1 (ix3 (0 : Fin 1) q e) = Cert.Spec.G x l (ix3 bb q e) := by
  rw [tcOut_form]
  dsimp only
  rw [out_apply, select_apply, cmpf_apply, broadcast_apply, broadcast_apply, fix_apply, quotOf_apply]
  have hw : ∀ j, (wAt x0 j).toNat ≤ 127 := fun j => by rw [wAt_toNat l bb x0 hx0]; exact hl bb _
  have hp : q.val < 16 := q.isLt
  have hB : (cumAt x0 q.val).toNat = Cert.Spec.beginAt l bb q := by
    rw [cumAt_toNat x0 hw _ (by omega), beginAt_eq l bb x0 hx0]
  have hE : (cumAt x0 (q.val + 1)).toNat = Cert.Spec.beginAt l bb q + Cert.Spec.lenAt l bb q := by
    rw [cumAt_toNat x0 hw _ (by omega), Finset.sum_range_succ, ← beginAt_eq l bb x0 hx0, wAt_toNat l bb x0 hx0, Fin.ofNat_val_eq_self]
  have hBle : Cert.Spec.beginAt l bb q ≤ 127 * q.val := by
    rw [beginAt_eq l bb x0 hx0]
    have := Finset.sum_le_card_nsmul (Finset.range q.val) (fun j => (wAt x0 j).toNat) 127 (fun j _ => hw j)
    simpa [Nat.mul_comm] using this
  have hL : Cert.Spec.lenAt l bb q ≤ 127 := hl bb q
  have s1 : (∑ c : Fin 2048, maskRow (F := Ideal) (iota .tc S1x2048 32 [1] iota_S1x2048_d1_w32) (cumAt x0 q.val) (cumAt x0 (q.val + 1)) (ix2 (0 : Fin 1) c)
      * x1 (ix3 (0 : Fin 1) c e)) = Cert.Spec.patchSum x l bb q e := by
    unfold Cert.Spec.patchSum
    refine Finset.sum_congr rfl fun c _ => ?_
    rw [maskRow_apply _ _ (by omega) (by omega) c, hB, hE, hx1]
    split_ifs <;> simp
  have s2 : (∑ c : Fin 2048, maskRow (F := Ideal) (iota .tc S1x2048 32 [1] iota_S1x2048_d1_w32) (cumAt x0 q.val) (cumAt x0 (q.val + 1)) (ix2 (0 : Fin 1) c)
      * (x1 (ix3 (0 : Fin 1) c e) - x1 (ix3 (0 : Fin 1) c e))) = 0 := by
    refine Finset.sum_eq_zero fun c _ => ?_
    obtain ⟨r, hr⟩ := hx (ix3 bb c e)
    rw [hx1, hr, ← EReal.coe_sub, sub_self, EReal.coe_zero, mul_zero]
  rw [s1, s2, add_zero, denOf_apply _ (hw _), wAt_toNat l bb x0 hx0, Fin.ofNat_val_eq_self]
  rfl

end Value

end Cert.KernelIdeal.TcValue

end
-- ==== Proof.TcRegion.lean ====
import proofs.«212945_g29746943492489_cont_sun_c4_499_28_alg».proof.Proof.TcBody
import proofs.«212945_g29746943492489_cont_sun_c4_499_28_alg».proof.Proof.Gen.KernelIdeal.Launch
import Idealize.ShloMosaic.Lib.Pipeline.Regions
import Idealize.ShloMosaic.Lib.Pipeline.Value
import Idealize.ShloMosaic.Lib.Pipeline.FrameBody
import Idealize.ShloMosaic.Lib.ValueIdx

noncomputable section

namespace Cert.KernelIdeal.TcRegion

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

abbrev adm : (p : Fin 1) → (pcfgs (F := F) p).Adm := fun p => (cfgs p).toPCfg_adm

abbrev TL : Type := (⟨S4x1x16, .i32⟩ : BufTy).Contents (Elt F)
abbrev TX : Type := (⟨S4x2048x512, .f32⟩ : BufTy).Contents (Elt F)
abbrev TY : Type := (⟨S3x16x512, .f32⟩ : BufTy).Contents (Elt F)

def lblk (lr : TL (F := F)) (t : Fin cfg1.N) : S1x1x16.Idx → Elt F .i32 :=
  ((cfg1.win 0).blk t).view.read (Elt F) lr
def xblk (x : TX (F := F)) (t : Fin cfg1.N) : Vec F S1x2048x512 .f32 :=
  ((cfg1.win 1).blk t).view.read (Elt F) x

variable (ι : Ix) (W : Waits sig Ix) (lr : TL (F := F)) (x : TX (F := F)) (y0 : TY (F := F))

def dats (_ : Fin 1) (c : Dev nD) : Dat τ (Elt F) Ix Name U Lvl cfg1 c where
  A w := match w with
    | ⟨0, _⟩ => lr
    | ⟨1, _⟩ => x
    | ⟨2, _⟩ => y0
  after w t := match w with
    | ⟨0, _⟩ => lblk lr t
    | ⟨1, _⟩ => xblk x t
    | ⟨2, _⟩ => TcBody.tcOut (lblk lr t) (xblk x t)
  Φ _ := Pipeline.scopedRest (Ix := Ix) (Name := Name) (U := U) (Lvl := Lvl) (Val := Elt F) spec1 c
  q _ := fullShare
  owed _ := 0
  recorded _ := (↑W : Set (SemLoc sig × Ix))

theorem A_0 (c : Dev nD) : (dats (Name := Name) (U := U) (Lvl := Lvl) W lr x y0 0 c).A 0 = lr := by dsimp only [dats]
theorem A_1 (c : Dev nD) : (dats (Name := Name) (U := U) (Lvl := Lvl) W lr x y0 0 c).A 1 = x := by dsimp only [dats]
theorem A_2 (c : Dev nD) : (dats (Name := Name) (U := U) (Lvl := Lvl) W lr x y0 0 c).A 2 = y0 := by dsimp only [dats]
theorem after_0 (c : Dev nD) (t : Fin cfg1.N) : (dats (Name := Name) (U := U) (Lvl := Lvl) W lr x y0 0 c).after 0 t = lblk lr t := by dsimp only [dats]
theorem after_1 (c : Dev nD) (t : Fin cfg1.N) : (dats (Name := Name) (U := U) (Lvl := Lvl) W lr x y0 0 c).after 1 t = xblk x t := by dsimp only [dats]
theorem after_2 (c : Dev nD) (t : Fin cfg1.N) :
    (dats (Name := Name) (U := U) (Lvl := Lvl) W lr x y0 0 c).after 2 t = TcBody.tcOut (lblk lr t) (xblk x t) := by dsimp only [dats]

theorem before_0 (c : Dev nD) (t : Fin cfg1.N) (d) :
    (dats (Name := Name) (U := U) (Lvl := Lvl) W lr x y0 0 c).before 0 t d = lblk lr t := by
  unfold Dat.before; rw [if_pos (fetch1_0 t)]; unfold Dat.fetched Dat.blockOf lblk; rw [A_0]; rfl
theorem before_1 (c : Dev nD) (t : Fin cfg1.N) (d) :
    (dats (Name := Name) (U := U) (Lvl := Lvl) W lr x y0 0 c).before 1 t d = xblk x t := by
  unfold Dat.before; rw [if_pos (fetch1_1 t)]; unfold Dat.fetched Dat.blockOf xblk; rw [A_1]; rfl

set_option maxHeartbeats 1000000 in
theorem body_obligation [∀ e, Nonempty (Elt F e)] (𝒱₀ : Variants) (c : Dev nD) :
    BodyObligation (dats (Name := Name) (U := U) (Lvl := Lvl) W lr x y0 0 c) (defs₀ (F := F)) 𝒱₀ ι Set.univ := fun t => by
  rw [bigSep_W1, bigSep_W1]
  simp only [before_0, before_1]
  rw [show (dats (Name := Name) (U := U) (Lvl := Lvl) W lr x y0 0 c).Φ t.succ = (dats W lr x y0 0 c).Φ t.castSucc from rfl,
    show (dats (Name := Name) (U := U) (Lvl := Lvl) W lr x y0 0 c).owesAt ι t.succ = (dats W lr x y0 0 c).owesAt ι t.castSucc from rfl,
    after_0, after_1, after_2]
  iintro ⟨HΦ, Ho, ⟨%d0, H0⟩, ⟨%d1, H1⟩, ⟨%d2, H2⟩⟩
  iapply (TcBody.sound_kernel 𝒱₀ c Set.univ (grid1.coords t) _ _ _ _ _ _ (lblk lr t) (xblk x t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

def tcVal (x : TX (F := F)) (lr : TL (F := F)) : TY (F := F) := fun i =>
  TcBody.tcOut (lblk lr (i 0)) (xblk x (i 0)) (ix3 (0 : Fin 1) (i 1) (i 2))

theorem index_2 : ∀ t : Fin grid1.N, (win1 2).index t 0 = t.val ∧ (win1 2).index t 1 = 0 ∧ (win1 2).index t 2 = 0 := by
  decide +kernel

theorem read_blk_tcVal (t : Fin cfg1.N) :
    ((cfg1.win 2).blk t).view.read (Elt F) (tcVal x lr) = TcBody.tcOut (lblk lr t) (xblk x t) := by
  funext y
  rw [View.read_apply]
  simp only [Memref.view_slice, Memref.view_whole, View.emb_slice, View.emb_whole, Function.Embedding.trans_apply, Function.Embedding.refl_apply]
  have key : ∀ (i : S3x16x512.Idx) (h0 : (i 0).val = t.val) (h1 : (i 1).val = (y 1).val) (h2 : (i 2).val = (y 2).val),
      tcVal x lr i = TcBody.tcOut (lblk lr t) (xblk x t) y := by
    intro i h0 h1 h2
    unfold tcVal
    have e0 : i 0 = t := Fin.ext h0
    rw [e0]
    congr 1
    funext a
    match a with
    | ⟨0, _⟩ => exact Fin.ext (by have h : (y 0).val < 1 := (y 0).isLt; show 0 = (y 0).val; omega)
    | ⟨1, _⟩ => exact Fin.ext h1
    | ⟨2, _⟩ => exact Fin.ext h2
  obtain ⟨i0, i1, i2⟩ := index_2 t
  refine (cast_eq _ _).trans (key _ ?_ ?_ ?_)
  · rw [Pipeline.Window.rect_emb_val, i0]; have h : (y 0).val < 1 := (y 0).isLt; show t.val * 1 + (y 0).val = t.val; omega
  · rw [Pipeline.Window.rect_emb_val, i1]; show 0 * 16 + (y 1).val = (y 1).val; omega
  · rw [Pipeline.Window.rect_emb_val, i2]; show 0 * 512 + (y 2).val = (y 2).val; omega

theorem mem_blk_2 (i : S3x16x512.Idx) : i ∈ ((cfg1.win 2).blk (i 0)).view.set := by
  simp only [Memref.view_slice, Memref.view_whole, View.set_slice, View.emb_whole, Finset.map_refl]
  rw [Rect.mem_set_unit]
  obtain ⟨i0, i1, i2⟩ := index_2 (i 0)
  intro a
  match a with
  | ⟨0, _⟩ => rw [show (win1 2).index (i 0) (⟨0, by decide⟩ : Fin 3) = (i 0).val from i0]; exact ⟨by show (i 0).val * 1 ≤ (i 0).val; omega, by show (i 0).val < (i 0).val * 1 + 1; omega⟩
  | ⟨1, _⟩ => rw [show (win1 2).index (i 0) (⟨1, by decide⟩ : Fin 3) = 0 from i1]; exact ⟨by show 0 * 16 ≤ (i 1).val; omega, by have h : (i 1).val < 16 := (i 1).isLt; show (i 1).val < 0 * 16 + 16; omega⟩
  | ⟨2, _⟩ => rw [show (win1 2).index (i 0) (⟨2, by decide⟩ : Fin 3) = 0 from i2]; exact ⟨by show 0 * 512 ≤ (i 2).val; omega, by have h : (i 2).val < 512 := (i 2).isLt; show (i 2).val < 0 * 512 + 512; omega⟩

theorem arrAt_2 (c : Dev nD) : (dats (Name := Name) (U := U) (Lvl := Lvl) W lr x y0 0 c).arrAt 2 cfg1.N = tcVal x lr :=
  (dats W lr x y0 0 c).arrAt_eq_of_cover 2 (tcVal x lr)
    (fun t _ => by rw [read_blk_tcVal]; exact after_2 W lr x y0 c t)
    (fun i => ⟨i 0, flush1_2 _, mem_blk_2 i⟩)

theorem arrAt_0 (c : Dev nD) (n : Nat) : (dats (Name := Name) (U := U) (Lvl := Lvl) W lr x y0 0 c).arrAt 0 n = lr :=
  ((dats W lr x y0 0 c).arrAt_in 0 rfl n).trans (A_0 W lr x y0 c)
theorem arrAt_1 (c : Dev nD) (n : Nat) : (dats (Name := Name) (U := U) (Lvl := Lvl) W lr x y0 0 c).arrAt 1 n = x :=
  ((dats W lr x y0 0 c).arrAt_in 1 rfl n).trans (A_1 W lr x y0 c)

theorem index_0 : ∀ t : Fin grid1.N, (win1 0).index t 0 = t.val ∧ (win1 0).index t 1 = 0 ∧ (win1 0).index t 2 = 0 := by
  decide +kernel
theorem index_1 : ∀ t : Fin grid1.N, (win1 1).index t 0 = t.val ∧ (win1 1).index t 1 = 0 ∧ (win1 1).index t 2 = 0 := by
  decide +kernel

abbrev bOf (t : Fin cfg1.N) : Fin 4 := ⟨t.val, by have h : t.val < 3 := N_1 ▸ t.isLt; omega⟩

theorem lblk_apply (t : Fin cfg1.N) (y : S1x1x16.Idx) : lblk lr t y = lr (ix3 (bOf t) (0 : Fin 1) (y 2)) := by
  unfold lblk
  rw [View.read_apply]
  simp only [Memref.view_slice, Memref.view_whole, View.emb_slice, View.emb_whole, Function.Embedding.trans_apply, Function.Embedding.refl_apply]
  obtain ⟨i0, i1, i2⟩ := index_0 t
  refine (cast_eq _ _).trans (congrArg lr (funext fun a => Fin.ext ?_))
  match a with
  | ⟨0, _⟩ => rw [Pipeline.Window.rect_emb_val]; rw [show (win1 0).index t (⟨0, by decide⟩ : Fin 3) = t.val from i0]; have h : (y 0).val < 1 := (y 0).isLt; show t.val * 1 + (y 0).val = t.val; omega
  | ⟨1, _⟩ => rw [Pipeline.Window.rect_emb_val]; rw [show (win1 0).index t (⟨1, by decide⟩ : Fin 3) = 0 from i1]; have h : (y 1).val < 1 := (y 1).isLt; show 0 * 1 + (y 1).val = 0; omega
  | ⟨2, _⟩ => rw [Pipeline.Window.rect_emb_val]; rw [show (win1 0).index t (⟨2, by decide⟩ : Fin 3) = 0 from i2]; show 0 * 16 + (y 2).val = (y 2).val; omega

theorem xblk_apply (t : Fin cfg1.N) (y : S1x2048x512.Idx) : xblk x t y = x (ix3 (bOf t) (y 1) (y 2)) := by
  unfold xblk
  rw [View.read_apply]
  simp only [Memref.view_slice, Memref.view_whole, View.emb_slice, View.emb_whole, Function.Embedding.trans_apply, Function.Embedding.refl_apply]
  obtain ⟨i0, i1, i2⟩ := index_1 t
  refine (cast_eq _ _).trans (congrArg x (funext fun a => Fin.ext ?_))
  match a with
  | ⟨0, _⟩ => rw [Pipeline.Window.rect_emb_val]; rw [show (win1 1).index t (⟨0, by decide⟩ : Fin 3) = t.val from i0]; have h : (y 0).val < 1 := (y 0).isLt; show t.val * 1 + (y 0).val = t.val; omega
  | ⟨1, _⟩ => rw [Pipeline.Window.rect_emb_val]; rw [show (win1 1).index t (⟨1, by decide⟩ : Fin 3) = 0 from i1]; show 0 * 2048 + (y 1).val = (y 1).val; omega
  | ⟨2, _⟩ => rw [Pipeline.Window.rect_emb_val]; rw [show (win1 1).index t (⟨2, by decide⟩ : Fin 3) = 0 from i2]; show 0 * 512 + (y 2).val = (y 2).val; omega

variable (L : GSem nD τ sig → Finset Ix) (lv : GSem nD τ sig → Ix → Lvl) (𝒱₀ : Variants)

abbrev held (c : Dev nD) (lr : TL (F := F)) (x : TX (F := F)) (y : TY (F := F)) : sProp 𝕄 :=
  iprop((((c.tc : Thread nD τ).loc main_v1) ↦{fullShare} lr) ∗ (((c.tc : Thread nD τ).loc main_arg0) ↦{fullShare} x)
    ∗ (((c.tc : Thread nD τ).loc main_v2) ↦{fullShare} y))

set_option backward.isDefEq.respectTransparency.types false in

def reg [∀ e, Nonempty (Elt F e)] :
    Pipeline.RegionSeg (pcfgs (F := F)) adm (dats (Name := Name) (U := U) (Lvl := Lvl) W lr x y0) ι defs₀ 𝒱₀ L lv 0 where
  win := launch1.win.to₀
  block_pos := launch1.block_pos
  stage_whole := launch1.stage_whole
  K := PEmpty
  osem := fun k => k.elim
  ho := Pipeline.OwnSemFacts.none _
  hbody c := (body_obligation ι W lr x y0 𝒱₀ c).loose
  hwaits := Pipeline.hwaits_of_owed_zero _ _ _ _ L lv 0 fun _ _ => rfl
  pre c := iprop(held c lr x y0 ∗ owes (c.tc : Thread nD τ) (0 : CellTallies nD τ sig Ix) W)
  post c := iprop(held c lr x (tcVal x lr) ∗ ∃ W', ⌜∀ p ∈ W', p ∈ W ∨ p.2 = ι⌝ ∗ owes (c.tc : Thread nD τ) (0 : CellTallies nD τ sig Ix) W')
  X _ := iprop(emp)
  Y _ := iprop(emp)
  Z _ := iprop(emp)
  hentry c := by
    rw [Pipeline.arrays_eq (Pipeline.pin (pcfgs (F := F)) adm) (dats W lr x y0) 0 c launch1.arr_whole ((dats W lr x y0 0 c).share_full fun _ => rfl), bigSep_W1]
    iintro ⟨⟨⟨H0, H1, H2⟩, HO⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr <;> iempintro
  hin c := by
    rw [show (dats (Name := Name) (U := U) (Lvl := Lvl) W lr x y0 0 c).Φ 0 = Pipeline.scopedRest spec1 c from rfl]
    iintro ⟨-, -, Hr⟩; iexact Hr
  hout c := by
    rw [show (dats (Name := Name) (U := U) (Lvl := Lvl) W lr x y0 0 c).Φ (Fin.last _) = Pipeline.scopedRest spec1 c from rfl]
    iintro Hr
    isplitr; · iempintro
    isplitr; · unfold Pipeline.ownSems0; rw [show (Finset.univ : Finset PEmpty) = ∅ from rfl, BI.bigSep_empty]; iempintro
    iexact Hr
  hexit c := by
    rw [Pipeline.arrays_eq (Pipeline.pin (pcfgs (F := F)) adm) (dats W lr x y0) 0 c launch1.arr_whole ((dats W lr x y0 0 c).share_full fun _ => rfl), bigSep_W1]
    dsimp only
    rw [arrAt_0, arrAt_1, arrAt_2]
    iintro ⟨⟨H0, H1, H2⟩, HO, -, -⟩
    imodintro
    isplitl [H0 H1 H2]
    · isplitl [H0]; · iexact H0
      isplitl [H1]; · iexact H1
      iexact H2
    unfold Pipeline.Dat.owesAt Pipeline.owesWithin
    icases HO with ⟨%W', %hW', HO⟩
    iexists W'; isplitr
    · ipureintro; intro p hp
      rcases hW' (Finset.mem_coe.mpr hp) with h | ⟨w, s, rfl⟩
      · exact Or.inl (Finset.mem_coe.mp h)
      · exact Or.inr rfl
    iexact HO

theorem cellOf_inj' : Function.Injective (Pipeline.cellOf (nD := nD) (τ := τ) (Pipeline.pin (pcfgs (F := F)) adm)) := Gen.cellOf_inj

set_option backward.isDefEq.respectTransparency.types false in

theorem tc_region [∀ e, Nonempty (Elt F e)] [Infinite Name]
    (EP : Emb (URounds (GSem nD τ sig) Unit) (MT nD τ sig Ix (Elt F) Name U Lvl)) [EP.LandsIn (upEmb : UEmb _ 𝕄)]
    (c : Dev nD)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ (((c.tc : Thread nD τ).loc main_v1) ↦{fullShare} lr)
              ∗ (((c.tc : Thread nD τ).loc main_arg0) ↦{fullShare} x) ∗ (((c.tc : Thread nD τ).loc main_v2) ↦{fullShare} tcVal x lr)
              ∗ ∃ W', ⌜∀ p ∈ W', p ∈ W ∨ p.2 = ι⌝ ∗ owes (c.tc : Thread nD τ) (0 : CellTallies nD τ sig Ix) W')
            -∗ wp frame (wpE (Pipeline.defs pcfgs defs₀) (Variants.lift 𝒱₀) (c.tc : Thread nD τ) none) Set.univ (k ⟨⟩) Q)
        ∗ boundary (c.tc : Thread nD τ)
        ∗ (((c.tc : Thread nD τ).loc main_v1) ↦{fullShare} lr) ∗ (((c.tc : Thread nD τ).loc main_arg0) ↦{fullShare} x)
        ∗ (((c.tc : Thread nD τ).loc main_v2) ↦{fullShare} y0)
        ∗ owes (c.tc : Thread nD τ) (0 : CellTallies nD τ sig Ix) W
        ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs pcfgs defs₀) (Variants.lift 𝒱₀) (c.tc : Thread nD τ) none) Set.univ
          (.op (.customCall (Pipeline.entry 0) ()) k) Q := by
  have h := Pipeline.RegionSeg.wp (pcfgs (F := F)) adm (dats W lr x y0) ι cellOf_inj' EP defs₀ 𝒱₀ L lv (reg ι W lr x y0 L lv 𝒱₀) c none
    (fun u hu => absurd hu (by simp)) k Q
  rw [show (reg (Name := Name) (U := U) ι W lr x y0 L lv 𝒱₀).pre c
        = iprop(held c lr x y0 ∗ owes (c.tc : Thread nD τ) (0 : CellTallies nD τ sig Ix) W) from rfl,
    show (reg (Name := Name) (U := U) ι W lr x y0 L lv 𝒱₀).post c
        = iprop(held c lr x (tcVal x lr) ∗ ∃ W', ⌜∀ p ∈ W', p ∈ W ∨ p.2 = ι⌝ ∗ owes (c.tc : Thread nD τ) (0 : CellTallies nD τ sig Ix) W') from rfl] at h
  iintro ⟨Hk, Hb, H0, H1, H2, HO, Hlv, Hg, Ht⟩
  iapply h
  isplitl [Hk]
  · iintro ⟨Hb, ⟨H0, H1, H2⟩, HO⟩
    iapply Hk
    isplitl [Hb]; · iexact Hb
    isplitl [H0]; · iexact H0
    isplitl [H1]; · iexact H1
    isplitl [H2]; · iexact H2
    iexact HO
  isplitl [Hb]; · iexact Hb
  isplitl [H0 H1 H2 HO]
  · isplitr [HO]
    · isplitl [H0]; · iexact H0
      isplitl [H1]; · iexact H1
      iexact H2
    · iexact HO
  isplitl [Hlv]; · iexact Hlv
  isplitl [Hg]; · iexact Hg
  iexact Ht

end Cert.KernelIdeal.TcRegion

end
-- ==== Proof.TcValue2.lean ====
import proofs.«212945_g29746943492489_cont_sun_c4_499_28_alg».proof.Proof.TcValue
import proofs.«212945_g29746943492489_cont_sun_c4_499_28_alg».proof.Proof.TcRegion
import proofs.«212945_g29746943492489_cont_sun_c4_499_28_alg».proof.Proof.KILaunch3

noncomputable section

namespace Cert.KernelIdeal.TcValue

open Cert.KernelIdeal Cert.KernelIdeal.Gen
open Idealize.ShloMosaic Idealize.ShloMosaic.ValueIdx

theorem reshape_apply {α : Type} (l : S4x16.Idx → α) (bb : Fin 4) (p : Fin 16) :
    shapeCast S4x1x16 l shapeCasts_S4x16_S4x1x16 (ix3 bb (0 : Fin 1) p) = l (ix2 bb p) := by
  refine shapeCast_apply l shapeCasts_S4x16_S4x1x16 _ _ ?_
  rw [Shape.rowMajor_val_two, Shape.rowMajor_val_three]
  show bb.val * 16 + p.val = (bb.val * 1 + 0) * 16 + p.val
  omega

theorem tcVal_eq (x : FVec Ideal S4x2048x512 .f32) (l : IVec S4x16 32) (hl : Cert.Spec.InRange l) (hx : Cert.Spec.Finite x)
    (i : S3x16x512.Idx) :
    TcRegion.tcVal (F := Ideal) x (fun j => shapeCast S4x1x16 l shapeCasts_S4x16_S4x1x16 j) i
      = Cert.Spec.G x l (ix3 (⟨(i 0).val, Nat.lt_trans (i 0).isLt (by decide)⟩ : Fin 4) (i 1) (i 2)) := by
  unfold TcRegion.tcVal
  exact tcOut_eq_ix x l hl hx (TcRegion.bOf (i 0)) _
    (fun p => (TcRegion.lblk_apply _ (i 0) _).trans (reshape_apply l (TcRegion.bOf (i 0)) p)) _
    (fun t dd => TcRegion.xblk_apply (F := Ideal) x (i 0) (ix3 (0 : Fin 1) t dd)) (i 1) (i 2)

theorem lrOf_eq (m : (ℓ : Loc nD τ sig) → Buf (Elt Ideal) ℓ) (d : Dev nD) :
    Sc.lrOf (F := Ideal) m d = fun i => shapeCast S4x1x16 (m (Sc.lLoc d)) shapeCasts_S4x16_S4x1x16 i :=
  StableHlo.reshape_result main_arg1 main_v1 rfl shapeCasts_S4x16_S4x1x16 _ _ (Sc.V0 m d)

theorem tcValOK : ∀ (m : (ℓ : Loc nD τ sig) → Buf (Elt Ideal) ℓ) (d : Dev nD), Cert.Spec.InRange (m (Sc.lLoc d)) → Cert.Spec.Finite (m (Sc.xLoc d)) →
    ∀ i : S3x16x512.Idx, Cert.KernelIdeal.TcRegion.tcVal (F := Ideal) (m (Sc.xLoc d)) (Sc.lrOf m d) i
      = Cert.Spec.G (m (Sc.xLoc d)) (m (Sc.lLoc d)) (ix3 (⟨(i 0).val, Nat.lt_trans (i 0).isLt (by decide)⟩ : Fin 4) (i 1) (i 2)) := by
  intro m d hl hx i
  rw [lrOf_eq]
  exact tcVal_eq (m (Sc.xLoc d)) (m (Sc.lLoc d)) hl hx i

end Cert.KernelIdeal.TcValue

end
-- ==== Proof.KIScValue.lean ====
import proofs.«212945_g29746943492489_cont_sun_c4_499_28_alg».proof.Proof.KIScVal
import proofs.«212945_g29746943492489_cont_sun_c4_499_28_alg».proof.Proof.Spec
import Mathlib.Algebra.BigOperators.Intervals
import Mathlib.Algebra.BigOperators.Fin
import Mathlib.Algebra.Order.BigOperators.Group.Finset

noncomputable section

open scoped BigOperators

namespace Cert.KernelIdeal.ScValue

open Cert.KernelIdeal Cert.KernelIdeal.Gen
open Idealize.ShloMosaic Idealize.ShloMosaic.ValueIdx

theorem foldl_range'_add {M : Type*} [AddCommMonoid M] (f : ℕ → M) (a : M) (b n : ℕ) :
    (List.range' b n).foldl (fun a t => a + f t) a = a + ∑ t ∈ Finset.Ico b (b + n), f t := by
  induction n with
  | zero => simp
  | succ n ih =>
    rw [List.range'_concat, List.foldl_append, ih, ← Nat.add_assoc, Finset.sum_Ico_succ_top (Nat.le_add_right b n), ← add_assoc,
      Nat.one_mul]
    rfl

theorem sum_fin_window {M : Type*} [AddCommMonoid M] (N : ℕ) (f : ℕ → M) (b n : ℕ) (h : b + n ≤ N) :
    (∑ t : Fin N, if b ≤ t.val ∧ t.val < b + n then f t.val else 0) = ∑ t ∈ Finset.Ico b (b + n), f t := by
  rw [Fin.sum_univ_eq_sum_range (fun t => if b ≤ t ∧ t < b + n then f t else 0) N, ← Finset.sum_filter]
  congr 1
  ext t; simp only [Finset.mem_filter, Finset.mem_range, Finset.mem_Ico]; omega

theorem foldl_addf_apply {s : Shape} (g : ℕ → FVec Ideal s .f32) (L : List ℕ) (a : FVec Ideal s .f32) (k : s.Idx) :
    (L.foldl (fun a t => addf a (g t)) a) k = L.foldl (fun a t => a + g t k) (a k) := by
  induction L generalizing a with
  | nil => rfl
  | cons t L ih => rw [List.foldl_cons, List.foldl_cons, ih]; rfl

theorem maxsi_one_toInt (len : BitVec 32) (h : len.toNat ≤ 127) :
    (Scalar.maxsi len 1#32).toInt = ((max len.toNat 1 : ℕ) : ℤ) := by
  have h1 : len.toInt = (len.toNat : ℤ) := BitVec.toInt_eq_toNat_of_lt (by omega)
  unfold Scalar.maxsi IntOp.maxsi
  by_cases hc : (1#32).slt len = true
  · rw [if_pos hc, h1]
    have : (1 : ℤ) < len.toInt := by simpa [BitVec.slt] using hc
    omega
  · rw [if_neg hc]
    have : ¬ (1 : ℤ) < len.toInt := by simpa [BitVec.slt] using hc
    have e : (1#32).toInt = 1 := by decide
    rw [e]; omega

theorem fixPiece_apply (len : BitVec 32) (h : len.toNat ≤ 127) (v : FVec Ideal S16 .f32) (k : S16.Idx) :
    Sc.fixPiece len v k =
      (let q : EReal := Ideal.div (v k) (((max len.toNat 1 : ℕ) : ℝ) : EReal); if q = 0 then (-1 : EReal) else q) := by
  have hden : (Scalar.sitofp (F := Ideal) .f32 (Scalar.maxsi len 1#32)) = ((((max len.toNat 1 : ℕ) : ℝ)) : EReal) := by
    rw [Ideal.scalar_sitofp_def, maxsi_one_toInt len h, Int.cast_natCast]
  have h0 : (Scalar.ofBits (F := Ideal) .f32 0x00000000#32) = (0 : EReal) := by
    show Ideal.ofBits .f32 0x00000000#32 = 0
    simp [Ideal.ofBits, Ideal.ieee]
  have hm1 : (Scalar.ofBits (F := Ideal) .f32 0xBF800000#32) = (-1 : EReal) := by
    show Ideal.ofBits .f32 0xBF800000#32 = -1
    simp [Ideal.ofBits, Ideal.ieee, -EReal.coe_mul]; norm_num
  show Scalar.select (Ideal.cmp .oeq (Ideal.div (v k) (Scalar.sitofp (F := Ideal) .f32 (Scalar.maxsi len 1#32))) (Scalar.ofBits (F := Ideal) .f32 0x00000000#32))
      (Scalar.ofBits (F := Ideal) .f32 0xBF800000#32) (Ideal.div (v k) (Scalar.sitofp (F := Ideal) .f32 (Scalar.maxsi len 1#32))) = _
  rw [hden, h0, hm1]
  generalize Ideal.div (v k) (((max len.toNat 1 : ℕ) : ℝ) : EReal) = q
  by_cases hq : q = 0 <;> simp [Ideal.cmp, Scalar.select, hq]

theorem lenN_eq (l : IVec S4x16 32) (p : Fin 16) : Sc.lenN l p.val = Cert.Spec.lenAt l 3 p := by
  unfold Sc.lenN Sc.lenW Cert.Spec.lenAt
  rw [Fin.ofNat_val_eq_self]

theorem lenN_le (l : IVec S4x16 32) (hl : Cert.Spec.InRange l) (j : ℕ) : Sc.lenN l j ≤ 127 := hl 3 (Fin.ofNat 16 j)

theorem beginN_le (l : IVec S4x16 32) (hl : Cert.Spec.InRange l) (p : ℕ) : Sc.beginN l p ≤ 127 * p := by
  unfold Sc.beginN
  have := Finset.sum_le_card_nsmul (Finset.range p) (fun j => Sc.lenN l j) 127 (fun j _ => lenN_le l hl j)
  simpa [Nat.mul_comm] using this

theorem beginN_eq (l : IVec S4x16 32) (p : Fin 16) : Sc.beginN l p.val = Cert.Spec.beginAt l 3 p := by
  unfold Sc.beginN Cert.Spec.beginAt
  have e : ∀ j : Fin 16, (if j < p then Cert.Spec.lenAt l 3 j else 0) = (fun j : ℕ => if j < p.val then Sc.lenN l j else 0) j.val := by
    intro j; simp only [lenN_eq, Fin.lt_def]
  rw [Finset.sum_congr rfl (fun j _ => e j), Fin.sum_univ_eq_sum_range (fun j : ℕ => if j < p.val then Sc.lenN l j else 0) 16, ← Finset.sum_filter]
  congr 1
  ext t; simp only [Finset.mem_filter, Finset.mem_range]; omega

theorem sumRows_apply (x : FVec Ideal S4x2048x512 .f32) (col : ℕ) (a : FVec Ideal S16 .f32) (t0 n : ℕ) (k : S16.Idx) :
    Sc.sumRows x col a t0 n k
      = a k + ∑ t ∈ Finset.Ico t0 (t0 + n), x (ix3 (3 : Fin 4) (Fin.ofNat 2048 t) (Fin.ofNat 512 (col + (k 0).val))) := by
  unfold Sc.sumRows
  rw [foldl_addf_apply (fun t => Sc.xPiece x t col)]
  exact foldl_range'_add (fun t => Sc.xPiece x t col k) (a k) t0 n

theorem patchSum_eq (x : FVec Ideal S4x2048x512 .f32) (l : IVec S4x16 32) (hl : Cert.Spec.InRange l) (p : Fin 16) (dc : Fin 512) :
    Cert.Spec.patchSum x l 3 p dc
      = ∑ t ∈ Finset.Ico (Sc.beginN l p.val) (Sc.beginN l p.val + Sc.lenN l p.val), x (ix3 (3 : Fin 4) (Fin.ofNat 2048 t) dc) := by
  unfold Cert.Spec.patchSum
  rw [← beginN_eq, ← lenN_eq]
  have hb := beginN_le l hl p.val
  have hn := lenN_le l hl p.val
  have hp := p.isLt
  rw [← sum_fin_window 2048 (fun t => x (ix3 (3 : Fin 4) (Fin.ofNat 2048 t) dc)) _ _ (by omega)]
  refine Finset.sum_congr rfl fun t _ => ?_
  simp only [Fin.ofNat_val_eq_self]

theorem tile_value (x : FVec Ideal S4x2048x512 .f32) (l : IVec S4x16 32) (hl : Cert.Spec.InRange l)
    (c s g k : ℕ) (p : Fin 16) (dc : Fin 512) (hp : Sc.pOf c s = p.val) (hk : k < 16) (hd : Sc.colOf s + 16 * g + k = dc.val) :
    Sc.fixPiece (Sc.lenW l (Sc.pOf c s)) (Sc.accVal x l c s g) (ix1 (Fin.ofNat 16 k)) = Cert.Spec.G x l (ix3 (3 : Fin 4) p dc) := by
  rw [fixPiece_apply _ (lenN_le l hl _)]
  show _ = (let q : EReal := Ideal.div (Cert.Spec.patchSum x l 3 p dc) (((max (Cert.Spec.lenAt l 3 p) 1 : ℕ) : ℝ) : EReal); if q = 0 then (-1 : EReal) else q)
  rw [patchSum_eq x l hl p dc, ← lenN_eq]
  unfold Sc.accVal
  rw [sumRows_apply, hp]
  have hz : (Sc.zeroPiece (F := Ideal)) (ix1 (Fin.ofNat 16 k)) = (0 : EReal) := by
    show Ideal.ofBits .f32 0x00000000#32 = 0
    simp [Ideal.ofBits, Ideal.ieee]
  have hcol : Fin.ofNat 512 (Sc.colOf s + 16 * g + ((ix1 (Fin.ofNat 16 k) : S16.Idx) 0).val) = dc := by
    apply Fin.ext
    show (Sc.colOf s + 16 * g + k % 16) % 512 = dc.val
    have := dc.isLt
    rw [Nat.mod_eq_of_lt hk, hd, Nat.mod_eq_of_lt this]
  rw [hz, zero_add, hcol]
  rfl

theorem scOV_eq (m : (ℓ : Loc nD τ sig) → Buf (Elt Ideal) ℓ) (d : Dev nD)
    (hl : Cert.Spec.InRange (m (Sc.lLoc d))) (hx : Cert.Spec.Finite (m (Sc.xLoc d))) (i : S1x16x512.Idx) :
    Sc.scOV (F := Ideal) m d i = Cert.Spec.G (m (Sc.xLoc d)) (m (Sc.lLoc d)) (ix3 (3 : Fin 4) (i 1) (i 2)) := by
  have h1 : (i 1).val < 16 := (i 1).isLt
  have h2 : (i 2).val < 512 := (i 2).isLt
  unfold Sc.scOV Sc.scSH Sc.rowValN
  refine tile_value _ _ hl _ _ _ _ (i 1) (i 2) ?_ ?_ ?_
  · show 8 * (((i 1).val / 8) % 2) + (2 * (((i 1).val % 8) % 8) + (i 2).val / 256) / 2 = (i 1).val
    omega
  · show ((i 2).val % 256 % 256) % 16 < 16
    omega
  · show 256 * ((2 * (((i 1).val % 8) % 8) + (i 2).val / 256) % 2) + 16 * (((i 2).val % 256 % 256) / 16) + ((i 2).val % 256 % 256) % 16 = (i 2).val
    omega

end Cert.KernelIdeal.ScValue

end
-- ==== Proof.KIScValue2.lean ====
import proofs.«212945_g29746943492489_cont_sun_c4_499_28_alg».proof.Proof.Gen.KernelIdeal
import proofs.«212945_g29746943492489_cont_sun_c4_499_28_alg».proof.Proof.Spec
import Idealize.ShloMosaic.Lib.Pipeline.Value
import Idealize.ShloMosaic.Lib.ValueIdx

noncomputable section

namespace Cert.KernelIdeal.ScValue

open Cert.KernelIdeal Cert.KernelIdeal.Gen
open Idealize.ShloMosaic Idealize.ShloMosaic.ValueIdx

theorem concat_eq_of (h : Shape.Concatenates [S3x16x512, S1x16x512] S4x16x512 0)
    (x : FVec Ideal S4x2048x512 .f32) (l : IVec S4x16 32)
    (tc : FVec Ideal S3x16x512 .f32)
    (htc : ∀ i : S3x16x512.Idx, tc i = Cert.Spec.G x l (ix3 (⟨(i 0).val, Nat.lt_trans (i 0).isLt (by decide)⟩ : Fin 4) (i 1) (i 2)))
    (sc : FVec Ideal S1x16x512 .f32)
    (hsc : ∀ i : S1x16x512.Idx, sc i = Cert.Spec.G x l (ix3 (3 : Fin 4) (i 1) (i 2))) :
    concatenate S4x16x512 0 [⟨S3x16x512, tc⟩, ⟨S1x16x512, sc⟩] h = Cert.Spec.G x l := by
  funext j
  have hj : (j 0).val < 4 := (j 0).isLt
  by_cases h3 : (j 0).val < 3
  · rw [concatenate_pair_apply_left 0 tc sc h j rfl (ix3 (⟨(j 0).val, h3⟩ : Fin 3) (j 1) (j 2))
      (fun b => match b with | ⟨0, _⟩ => rfl | ⟨1, _⟩ => rfl | ⟨2, _⟩ => rfl), htc]
    exact congrArg (Cert.Spec.G x l) (eq_ix3 j).symm
  · have e3 : j 0 = (3 : Fin 4) := Fin.ext (by show (j 0).val = 3; omega)
    rw [concatenate_pair_apply_right 0 tc sc h j rfl rfl (ix3 (0 : Fin 1) (j 1) (j 2))
      (fun b => match b with | ⟨0, _⟩ => fun hb => absurd rfl hb | ⟨1, _⟩ => fun _ => rfl | ⟨2, _⟩ => fun _ => rfl)
      (by show 0 + 3 = (j 0).val; omega), hsc]
    have e : ix3 (j 0) (j 1) (j 2) = j := (eq_ix3 j).symm
    rw [e3] at e
    exact congrArg (Cert.Spec.G x l) e

end Cert.KernelIdeal.ScValue

end
-- ==== Proof.ClaimsKI.lean ====
import proofs.«212945_g29746943492489_cont_sun_c4_499_28_alg».proof.Defs
import proofs.«212945_g29746943492489_cont_sun_c4_499_28_alg».proof.Proof.KILaunch3
import proofs.«212945_g29746943492489_cont_sun_c4_499_28_alg».proof.Proof.KITile4
import proofs.«212945_g29746943492489_cont_sun_c4_499_28_alg».proof.Proof.TcValue2
import proofs.«212945_g29746943492489_cont_sun_c4_499_28_alg».proof.Proof.KIScValue
import proofs.«212945_g29746943492489_cont_sun_c4_499_28_alg».proof.Proof.KIScValue2
import proofs.«212945_g29746943492489_cont_sun_c4_499_28_alg».proof.Proof.PreFacts
import proofs.«212945_g29746943492489_cont_sun_c4_499_28_alg».proof.Proof.ClaimsRef

noncomputable section

namespace Cert.Proof.KI

open Cert.KernelIdeal Cert.KernelIdeal.Gen Cert.KernelIdeal.Sc
open Idealize.ShloMosaic Idealize.ShloMosaic.ValueIdx Idealize.SL.Sem

local instance : TileDefs Ideal := ⟨defs₀⟩

abbrev tcV : (d : Dev nD) → Buf (Elt Ideal) (xLoc d) → Buf (Elt Ideal) (v1Loc d) → Buf (Elt Ideal) (v2Loc d) :=
  fun _ x lr => Cert.KernelIdeal.TcRegion.tcVal (F := Ideal) x lr

theorem tcRegion : TcRegionAt (F := Ideal) tcV := by
  intro L lv ι c W lr x y0 α k Q
  exact Cert.KernelIdeal.TcRegion.tc_region ι W lr x y0 L lv 𝒱₀ ER c k Q

theorem len_ok (m : (ℓ : Loc nD τ sig) → Buf (Elt Ideal) ℓ) (hpre : Cert.Pre_KernelIdeal (hPre_input_domain := Cert.Pre_input_domain.Gen.facts) m) :
    ∀ d b p, (m (lLoc d) (ix2 b p)).toNat ≤ 127 :=
  fun d b p => Cert.PreFacts.len_le (hP := Cert.Pre_input_domain.Gen.facts) _ _ (hpre d) b p

theorem run_ki (m : (ℓ : Loc nD τ sig) → Buf (Elt Ideal) ℓ) (ρ : Dev nD → PrngReg) (hl : ∀ d b p, (m (lLoc d) (ix2 b p)).toNat ≤ 127) :
    θ_run (Cert.KernelIdeal.defs (F := Ideal)) (Cert.KernelIdeal.threads (F := Ideal)) ⟨m, fun _ => 0, ρ⟩ (QC m (scOV m) tcV) :=
  run_main (scSH m) m ρ (scOV m) tcV (fun _ _ => rfl) (tile_body m facts hl) tcRegion

theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => ⟨(h c).2.1, (h c).2.2⟩) (run_ki m ρ (len_ok m hpre))

theorem res_eq (m : (ℓ : Loc nD τ sig) → Buf (Elt Ideal) ℓ) (d : Dev nD) (hl : Cert.Spec.InRange (m (lLoc d))) (hx : Cert.Spec.Finite (m (xLoc d))) :
    RES m (scOV m) tcV d = Cert.Spec.G (m (xLoc d)) (m (lLoc d)) :=
  Cert.KernelIdeal.ScValue.concat_eq_of concatenates_S3x16x512_S1x16x512_S4x16x512_d0 (m (xLoc d)) (m (lLoc d)) _
    (Cert.KernelIdeal.TcValue.tcValOK m d hl hx) _ (fun i => Cert.KernelIdeal.ScValue.scOV_eq m d hl hx i)

theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  have hl : ∀ d : Dev nD, Cert.Spec.InRange (m (lLoc d)) := fun d => Cert.PreFacts.inRange (hP := Cert.Pre_input_domain.Gen.facts) _ _ (hpre d)
  have hx : ∀ d : Dev nD, Cert.Spec.Finite (m (xLoc d)) := fun d => Cert.PreFacts.finite' (hP := Cert.Pre_input_domain.Gen.facts) _ _ (hpre d)
  refine ⟨fun c => Cert.Spec.G (m (xLoc c)) (m (lLoc c)), ?_, ?_⟩
  · exact (θ_run Cert.KernelIdeal.defs _ _).mono (fun _ h c => ⟨(h c).1.trans (res_eq m c (hl c) (hx c)), (h c).2.1, (h c).2.2⟩)
      (run_ki m ρ (len_ok m hpre))
  · exact Cert.Proof.Ref.alg_ref_of_agree m' ρ' _ _ (fun c => (hagree c).1) (fun c => (hagree c).2) (fun c => hl c)

end Cert.Proof.KI

end
-- ==== Proof.TcBodyB.lean ====
import proofs.«212945_g29746943492489_cont_sun_c4_499_28_alg».proof.Proof.Gen.Kernel.Skeleton
import proofs.«212945_g29746943492489_cont_sun_c4_499_28_alg».proof.Proof.Gen.Kernel.Points
import Idealize.ShloMosaic.Lib.Pipeline.FrameBody
import Idealize.ShloMosaic.Lib.Pipeline.Value
import Idealize.ShloMosaic.Lib.Tactic

noncomputable section

namespace Cert.Kernel.TcBody

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

def wd (x0 : S1x1x16.Idx → Elt F .i32) (off : Fin 3 → Nat) (inb : ∀ a, off a + S1x1x1.size a ≤ S1x1x16.size a) : Elt F .i32 :=
  View.ld x0 (Rect.unit (s := S1x1x16) off S1x1x1.size inb) (Shape.Idx.first (numel1_S1x1x1.symm ▸ Nat.one_pos))

def tcQ (w0 w1 w2 w3 w4 w5 w6 w7 w8 w9 w10 w11 w12 w13 w14 w15 : Elt F .i32) (v213 : Vec F S1x2048x512 .f32) :
    FVec F S16x512 .f32 × IVec S16x512 1 :=
  let v0 : IVec S1x2048 32 := iota .tc S1x2048 32 [1] iota_S1x2048_d1_w32
  let v1 : FVec F S1x1 .f32 := k1_pay2 (F := F)
  let v3 : BitVec 32 := Scalar.addi 0#32 w0
  let v16 : BitVec 32 := Scalar.addi v3 w1
  let v29 : BitVec 32 := Scalar.addi v16 w2
  let v42 : BitVec 32 := Scalar.addi v29 w3
  let v55 : BitVec 32 := Scalar.addi v42 w4
  let v68 : BitVec 32 := Scalar.addi v55 w5
  let v81 : BitVec 32 := Scalar.addi v68 w6
  let v94 : BitVec 32 := Scalar.addi v81 w7
  let v107 : BitVec 32 := Scalar.addi v94 w8
  let v120 : BitVec 32 := Scalar.addi v107 w9
  let v133 : BitVec 32 := Scalar.addi v120 w10
  let v146 : BitVec 32 := Scalar.addi v133 w11
  let v159 : BitVec 32 := Scalar.addi v146 w12
  let v172 : BitVec 32 := Scalar.addi v159 w13
  (k1_pay30 v0 v1 (k1_pay3 w0) (k1_pay4 w0) (k1_pay5 w0 w1) (k1_pay6 w1) (k1_pay7 w0 w1 w2) (k1_pay8 w2)
      (k1_pay9 v0 v29 w3) (k1_pay10 v1 w3) (k1_pay11 v0 v29 w3 w4) (k1_pay12 v1 w4) (k1_pay13 v0 v29 w3 w4 w5) (k1_pay14 v1 w5)
      (k1_pay15 v0 v29 w3 w4 w5 w6) (k1_pay16 v1 w6) (k1_pay17 v0 v81 w7) (k1_pay18 v1 w7) (k1_pay19 v0 v81 w7 w8) (k1_pay20 v1 w8)
      (k1_pay21 v0 v81 w7 w8 w9) (k1_pay22 v1 w9) (k1_pay23 v0 v120 w10) (k1_pay24 v1 w10) (k1_pay25 v0 v120 w10 w11) (k1_pay26 v1 w11)
      (k1_pay27 v0 v120 w10 w11 w12) (k1_pay28 v1 w12) w13 v172 (k1_pay29 v0 v120 w10 w11 w12 w13) 1#32 w14 w15 v213,
   k1_pay31 v0 v1 (k1_pay3 w0) (k1_pay4 w0) (k1_pay5 w0 w1) (k1_pay6 w1) (k1_pay7 w0 w1 w2) (k1_pay8 w2)
      (k1_pay9 v0 v29 w3) (k1_pay10 v1 w3) (k1_pay11 v0 v29 w3 w4) (k1_pay12 v1 w4) (k1_pay13 v0 v29 w3 w4 w5) (k1_pay14 v1 w5)
      (k1_pay15 v0 v29 w3 w4 w5 w6) (k1_pay16 v1 w6) (k1_pay17 v0 v81 w7) (k1_pay18 v1 w7) (k1_pay19 v0 v81 w7 w8) (k1_pay20 v1 w8)
      (k1_pay21 v0 v81 w7 w8 w9) (k1_pay22 v1 w9) (k1_pay23 v0 v120 w10) (k1_pay24 v1 w10) (k1_pay25 v0 v120 w10 w11) (k1_pay26 v1 w11)
      (k1_pay27 v0 v120 w10 w11 w12) (k1_pay28 v1 w12) w13 v172 (k1_pay29 v0 v120 w10 w11 w12 w13) 1#32 w14 w15 v213)

def onWords {α : Type} (x0 : S1x1x16.Idx → Elt F .i32)
    (k : (w0 w1 w2 w3 w4 w5 w6 w7 w8 w9 w10 w11 w12 w13 w14 w15 : Elt F .i32) → α) : α :=
  k (wd x0 ![0, 0, 0] inb_S1x1x16_S1x1x1_0_0_0) (wd x0 ![0, 0, 1] inb_S1x1x16_S1x1x1_0_0_1) (wd x0 ![0, 0, 2] inb_S1x1x16_S1x1x1_0_0_2)
    (wd x0 ![0, 0, 3] inb_S1x1x16_S1x1x1_0_0_3) (wd x0 ![0, 0, 4] inb_S1x1x16_S1x1x1_0_0_4) (wd x0 ![0, 0, 5] inb_S1x1x16_S1x1x1_0_0_5)
    (wd x0 ![0, 0, 6] inb_S1x1x16_S1x1x1_0_0_6) (wd x0 ![0, 0, 7] inb_S1x1x16_S1x1x1_0_0_7) (wd x0 ![0, 0, 8] inb_S1x1x16_S1x1x1_0_0_8)
    (wd x0 ![0, 0, 9] inb_S1x1x16_S1x1x1_0_0_9) (wd x0 ![0, 0, 10] inb_S1x1x16_S1x1x1_0_0_10) (wd x0 ![0, 0, 11] inb_S1x1x16_S1x1x1_0_0_11)
    (wd x0 ![0, 0, 12] inb_S1x1x16_S1x1x1_0_0_12) (wd x0 ![0, 0, 13] inb_S1x1x16_S1x1x1_0_0_13) (wd x0 ![0, 0, 14] inb_S1x1x16_S1x1x1_0_0_14)
    (wd x0 ![0, 0, 15] inb_S1x1x16_S1x1x1_0_0_15)

abbrev rIn : Rect S1x2048x512 := Rect.unit (s := S1x2048x512) ![0, 0, 0] S1x2048x512.size inb_S1x2048x512_S1x2048x512_0_0_0
abbrev rOut : Rect S1x16x512 := Rect.unit (s := S1x16x512) ![0, 0, 0] S1x16x512.size inb_S1x16x512_S1x16x512_0_0_0

def tcOutRun (x0 : S1x1x16.Idx → Elt F .i32) (x1 : Vec F S1x2048x512 .f32) : Vec F S1x16x512 .f32 :=
  View.canon [⟨rOut, onWords x0 fun w0 w1 w2 w3 w4 w5 w6 w7 w8 w9 w10 w11 w12 w13 w14 w15 =>
    k1_pay1 (tcQ w0 w1 w2 w3 w4 w5 w6 w7 w8 w9 w10 w11 w12 w13 w14 w15 (View.ld x1 rIn)).1
      (tcQ w0 w1 w2 w3 w4 w5 w6 w7 w8 w9 w10 w11 w12 w13 w14 w15 (View.ld x1 rIn)).2⟩]

def tcOut (x0 : S1x1x16.Idx → Elt F .i32) (x1 : Vec F S1x2048x512 .f32) : Vec F S1x16x512 .f32 :=
  onWords x0 fun w0 w1 w2 w3 w4 w5 w6 w7 w8 w9 w10 w11 w12 w13 w14 w15 =>
    k1_pay1 (tcQ w0 w1 w2 w3 w4 w5 w6 w7 w8 w9 w10 w11 w12 w13 w14 w15 x1).1
      (tcQ w0 w1 w2 w3 w4 w5 w6 w7 w8 w9 w10 w11 w12 w13 w14 w15 x1).2

theorem tcOutRun_eq [∀ e, Nonempty (Elt F e)] (x0 : S1x1x16.Idx → Elt F .i32) (x1 : Vec F S1x2048x512 .f32) :
    tcOutRun x0 x1 = tcOut x0 x1 := by
  unfold tcOutRun tcOut
  rw [View.canon_unit_zero (by funext a; fin_cases a <;> rfl), View.ld_unit_zero (by funext a; fin_cases a <;> rfl)]

theorem cover_out (p0 : Vec F S1x16x512 .f32) (y : S1x16x512.Idx) :
    ∃ pc ∈ ([⟨rOut, p0⟩] : List (View.Piece (Elt F) S1x16x512 .f32)), y ∈ pc.1.set :=
  ⟨_, List.mem_singleton_self _, View.mem_set_unit_zero (by funext a; fin_cases a <;> rfl) inb_S1x16x512_S1x16x512_0_0_0 y⟩

variable {Ix : Type} [DecidableEq Ix] {Name : Type} [DecidableEq Name] {U : Type} [URA U] {Lvl : Type} [Preorder Lvl]

local notation "𝕄" => MT nD τ sig Ix (Elt F) Name U Lvl

set_option maxHeartbeats 4000000 in

theorem sound_kernel [∀ e, Nonempty (Elt F e)] (𝒱₀ : Variants) (c : Dev nD) (E : Set Name) (i : grid1.Coords)
    (arg1 : Memref sig .tc .smem S1x1x16 .i32) (harg1 : arg1.IsWhole) (arg2 : Memref sig .tc .vmem S1x2048x512 .f32) (harg2 : arg2.IsWhole)
    (arg3 : Memref sig .tc .vmem S1x16x512 .f32) (harg3 : arg3.IsWhole)
    (x0 : S1x1x16.Idx → Elt F .i32) (x1 : Vec F S1x2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tcOut x0 x1)) -∗ K ⟨⟩))
      ⊢ wp frame (wpE (defs₀ (F := F)) 𝒱₀ c none) E (cc1__lambda_ i arg1 harg1 arg2 harg2 arg3 harg3) K := by
  unfold owns
  iintro ⟨⟨%f0, %hf0, H0⟩, ⟨%f1, %hf1, H1⟩, ⟨%d2, %f2, -, H2⟩, Hk⟩
  subst hf0 hf1
  sl_exec_parts!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [← tcOutRun_eq]
  exact View.read_writes_eq_canon _ _ _ (cover_out _)

end Cert.Kernel.TcBody

end
-- ==== Proof.TcRegionB.lean ====
import proofs.«212945_g29746943492489_cont_sun_c4_499_28_alg».proof.Proof.TcBodyB
import proofs.«212945_g29746943492489_cont_sun_c4_499_28_alg».proof.Proof.Gen.Kernel.Launch
import Idealize.ShloMosaic.Lib.Pipeline.Regions
import Idealize.ShloMosaic.Lib.Pipeline.Value
import Idealize.ShloMosaic.Lib.Pipeline.FrameBody
import Idealize.ShloMosaic.Lib.ValueIdx

noncomputable section

namespace Cert.Kernel.TcRegion

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

abbrev adm : (p : Fin 1) → (pcfgs (F := F) p).Adm := fun p => (cfgs p).toPCfg_adm

abbrev TL : Type := (⟨S4x1x16, .i32⟩ : BufTy).Contents (Elt F)
abbrev TX : Type := (⟨S4x2048x512, .f32⟩ : BufTy).Contents (Elt F)
abbrev TY : Type := (⟨S3x16x512, .f32⟩ : BufTy).Contents (Elt F)

def lblk (lr : TL (F := F)) (t : Fin cfg1.N) : S1x1x16.Idx → Elt F .i32 :=
  ((cfg1.win 0).blk t).view.read (Elt F) lr
def xblk (x : TX (F := F)) (t : Fin cfg1.N) : Vec F S1x2048x512 .f32 :=
  ((cfg1.win 1).blk t).view.read (Elt F) x

variable (ι : Ix) (W : Waits sig Ix) (lr : TL (F := F)) (x : TX (F := F)) (y0 : TY (F := F))

def dats (_ : Fin 1) (c : Dev nD) : Dat τ (Elt F) Ix Name U Lvl cfg1 c where
  A w := match w with
    | ⟨0, _⟩ => lr
    | ⟨1, _⟩ => x
    | ⟨2, _⟩ => y0
  after w t := match w with
    | ⟨0, _⟩ => lblk lr t
    | ⟨1, _⟩ => xblk x t
    | ⟨2, _⟩ => TcBody.tcOut (lblk lr t) (xblk x t)
  Φ _ := Pipeline.scopedRest (Ix := Ix) (Name := Name) (U := U) (Lvl := Lvl) (Val := Elt F) spec1 c
  q _ := fullShare
  owed _ := 0
  recorded _ := (↑W : Set (SemLoc sig × Ix))

theorem A_0 (c : Dev nD) : (dats (Name := Name) (U := U) (Lvl := Lvl) W lr x y0 0 c).A 0 = lr := by dsimp only [dats]
theorem A_1 (c : Dev nD) : (dats (Name := Name) (U := U) (Lvl := Lvl) W lr x y0 0 c).A 1 = x := by dsimp only [dats]
theorem A_2 (c : Dev nD) : (dats (Name := Name) (U := U) (Lvl := Lvl) W lr x y0 0 c).A 2 = y0 := by dsimp only [dats]
theorem after_0 (c : Dev nD) (t : Fin cfg1.N) : (dats (Name := Name) (U := U) (Lvl := Lvl) W lr x y0 0 c).after 0 t = lblk lr t := by dsimp only [dats]
theorem after_1 (c : Dev nD) (t : Fin cfg1.N) : (dats (Name := Name) (U := U) (Lvl := Lvl) W lr x y0 0 c).after 1 t = xblk x t := by dsimp only [dats]
theorem after_2 (c : Dev nD) (t : Fin cfg1.N) :
    (dats (Name := Name) (U := U) (Lvl := Lvl) W lr x y0 0 c).after 2 t = TcBody.tcOut (lblk lr t) (xblk x t) := by dsimp only [dats]

theorem before_0 (c : Dev nD) (t : Fin cfg1.N) (d) :
    (dats (Name := Name) (U := U) (Lvl := Lvl) W lr x y0 0 c).before 0 t d = lblk lr t := by
  unfold Dat.before; rw [if_pos (fetch1_0 t)]; unfold Dat.fetched Dat.blockOf lblk; rw [A_0]; rfl
theorem before_1 (c : Dev nD) (t : Fin cfg1.N) (d) :
    (dats (Name := Name) (U := U) (Lvl := Lvl) W lr x y0 0 c).before 1 t d = xblk x t := by
  unfold Dat.before; rw [if_pos (fetch1_1 t)]; unfold Dat.fetched Dat.blockOf xblk; rw [A_1]; rfl

set_option maxHeartbeats 1000000 in
theorem body_obligation [∀ e, Nonempty (Elt F e)] (𝒱₀ : Variants) (c : Dev nD) :
    BodyObligation (dats (Name := Name) (U := U) (Lvl := Lvl) W lr x y0 0 c) (defs₀ (F := F)) 𝒱₀ ι Set.univ := fun t => by
  rw [bigSep_W1, bigSep_W1]
  simp only [before_0, before_1]
  rw [show (dats (Name := Name) (U := U) (Lvl := Lvl) W lr x y0 0 c).Φ t.succ = (dats W lr x y0 0 c).Φ t.castSucc from rfl,
    show (dats (Name := Name) (U := U) (Lvl := Lvl) W lr x y0 0 c).owesAt ι t.succ = (dats W lr x y0 0 c).owesAt ι t.castSucc from rfl,
    after_0, after_1, after_2]
  iintro ⟨HΦ, Ho, ⟨%d0, H0⟩, ⟨%d1, H1⟩, ⟨%d2, H2⟩⟩
  iapply (TcBody.sound_kernel 𝒱₀ c Set.univ (grid1.coords t) _ _ _ _ _ _ (lblk lr t) (xblk x t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

def tcVal (x : TX (F := F)) (lr : TL (F := F)) : TY (F := F) := fun i =>
  TcBody.tcOut (lblk lr (i 0)) (xblk x (i 0)) (ix3 (0 : Fin 1) (i 1) (i 2))

theorem index_2 : ∀ t : Fin grid1.N, (win1 2).index t 0 = t.val ∧ (win1 2).index t 1 = 0 ∧ (win1 2).index t 2 = 0 := by
  decide +kernel

theorem read_blk_tcVal (t : Fin cfg1.N) :
    ((cfg1.win 2).blk t).view.read (Elt F) (tcVal x lr) = TcBody.tcOut (lblk lr t) (xblk x t) := by
  funext y
  rw [View.read_apply]
  simp only [Memref.view_slice, Memref.view_whole, View.emb_slice, View.emb_whole, Function.Embedding.trans_apply, Function.Embedding.refl_apply]
  have key : ∀ (i : S3x16x512.Idx) (h0 : (i 0).val = t.val) (h1 : (i 1).val = (y 1).val) (h2 : (i 2).val = (y 2).val),
      tcVal x lr i = TcBody.tcOut (lblk lr t) (xblk x t) y := by
    intro i h0 h1 h2
    unfold tcVal
    have e0 : i 0 = t := Fin.ext h0
    rw [e0]
    congr 1
    funext a
    match a with
    | ⟨0, _⟩ => exact Fin.ext (by have h : (y 0).val < 1 := (y 0).isLt; show 0 = (y 0).val; omega)
    | ⟨1, _⟩ => exact Fin.ext h1
    | ⟨2, _⟩ => exact Fin.ext h2
  obtain ⟨i0, i1, i2⟩ := index_2 t
  refine (cast_eq _ _).trans (key _ ?_ ?_ ?_)
  · rw [Pipeline.Window.rect_emb_val, i0]; have h : (y 0).val < 1 := (y 0).isLt; show t.val * 1 + (y 0).val = t.val; omega
  · rw [Pipeline.Window.rect_emb_val, i1]; show 0 * 16 + (y 1).val = (y 1).val; omega
  · rw [Pipeline.Window.rect_emb_val, i2]; show 0 * 512 + (y 2).val = (y 2).val; omega

theorem mem_blk_2 (i : S3x16x512.Idx) : i ∈ ((cfg1.win 2).blk (i 0)).view.set := by
  simp only [Memref.view_slice, Memref.view_whole, View.set_slice, View.emb_whole, Finset.map_refl]
  rw [Rect.mem_set_unit]
  obtain ⟨i0, i1, i2⟩ := index_2 (i 0)
  intro a
  match a with
  | ⟨0, _⟩ => rw [show (win1 2).index (i 0) (⟨0, by decide⟩ : Fin 3) = (i 0).val from i0]; exact ⟨by show (i 0).val * 1 ≤ (i 0).val; omega, by show (i 0).val < (i 0).val * 1 + 1; omega⟩
  | ⟨1, _⟩ => rw [show (win1 2).index (i 0) (⟨1, by decide⟩ : Fin 3) = 0 from i1]; exact ⟨by show 0 * 16 ≤ (i 1).val; omega, by have h : (i 1).val < 16 := (i 1).isLt; show (i 1).val < 0 * 16 + 16; omega⟩
  | ⟨2, _⟩ => rw [show (win1 2).index (i 0) (⟨2, by decide⟩ : Fin 3) = 0 from i2]; exact ⟨by show 0 * 512 ≤ (i 2).val; omega, by have h : (i 2).val < 512 := (i 2).isLt; show (i 2).val < 0 * 512 + 512; omega⟩

theorem arrAt_2 (c : Dev nD) : (dats (Name := Name) (U := U) (Lvl := Lvl) W lr x y0 0 c).arrAt 2 cfg1.N = tcVal x lr :=
  (dats W lr x y0 0 c).arrAt_eq_of_cover 2 (tcVal x lr)
    (fun t _ => by rw [read_blk_tcVal]; exact after_2 W lr x y0 c t)
    (fun i => ⟨i 0, flush1_2 _, mem_blk_2 i⟩)

theorem arrAt_0 (c : Dev nD) (n : Nat) : (dats (Name := Name) (U := U) (Lvl := Lvl) W lr x y0 0 c).arrAt 0 n = lr :=
  ((dats W lr x y0 0 c).arrAt_in 0 rfl n).trans (A_0 W lr x y0 c)
theorem arrAt_1 (c : Dev nD) (n : Nat) : (dats (Name := Name) (U := U) (Lvl := Lvl) W lr x y0 0 c).arrAt 1 n = x :=
  ((dats W lr x y0 0 c).arrAt_in 1 rfl n).trans (A_1 W lr x y0 c)

theorem index_0 : ∀ t : Fin grid1.N, (win1 0).index t 0 = t.val ∧ (win1 0).index t 1 = 0 ∧ (win1 0).index t 2 = 0 := by
  decide +kernel
theorem index_1 : ∀ t : Fin grid1.N, (win1 1).index t 0 = t.val ∧ (win1 1).index t 1 = 0 ∧ (win1 1).index t 2 = 0 := by
  decide +kernel

abbrev bOf (t : Fin cfg1.N) : Fin 4 := ⟨t.val, by have h : t.val < 3 := N_1 ▸ t.isLt; omega⟩

theorem lblk_apply (t : Fin cfg1.N) (y : S1x1x16.Idx) : lblk lr t y = lr (ix3 (bOf t) (0 : Fin 1) (y 2)) := by
  unfold lblk
  rw [View.read_apply]
  simp only [Memref.view_slice, Memref.view_whole, View.emb_slice, View.emb_whole, Function.Embedding.trans_apply, Function.Embedding.refl_apply]
  obtain ⟨i0, i1, i2⟩ := index_0 t
  refine (cast_eq _ _).trans (congrArg lr (funext fun a => Fin.ext ?_))
  match a with
  | ⟨0, _⟩ => rw [Pipeline.Window.rect_emb_val]; rw [show (win1 0).index t (⟨0, by decide⟩ : Fin 3) = t.val from i0]; have h : (y 0).val < 1 := (y 0).isLt; show t.val * 1 + (y 0).val = t.val; omega
  | ⟨1, _⟩ => rw [Pipeline.Window.rect_emb_val]; rw [show (win1 0).index t (⟨1, by decide⟩ : Fin 3) = 0 from i1]; have h : (y 1).val < 1 := (y 1).isLt; show 0 * 1 + (y 1).val = 0; omega
  | ⟨2, _⟩ => rw [Pipeline.Window.rect_emb_val]; rw [show (win1 0).index t (⟨2, by decide⟩ : Fin 3) = 0 from i2]; show 0 * 16 + (y 2).val = (y 2).val; omega

theorem xblk_apply (t : Fin cfg1.N) (y : S1x2048x512.Idx) : xblk x t y = x (ix3 (bOf t) (y 1) (y 2)) := by
  unfold xblk
  rw [View.read_apply]
  simp only [Memref.view_slice, Memref.view_whole, View.emb_slice, View.emb_whole, Function.Embedding.trans_apply, Function.Embedding.refl_apply]
  obtain ⟨i0, i1, i2⟩ := index_1 t
  refine (cast_eq _ _).trans (congrArg x (funext fun a => Fin.ext ?_))
  match a with
  | ⟨0, _⟩ => rw [Pipeline.Window.rect_emb_val]; rw [show (win1 1).index t (⟨0, by decide⟩ : Fin 3) = t.val from i0]; have h : (y 0).val < 1 := (y 0).isLt; show t.val * 1 + (y 0).val = t.val; omega
  | ⟨1, _⟩ => rw [Pipeline.Window.rect_emb_val]; rw [show (win1 1).index t (⟨1, by decide⟩ : Fin 3) = 0 from i1]; show 0 * 2048 + (y 1).val = (y 1).val; omega
  | ⟨2, _⟩ => rw [Pipeline.Window.rect_emb_val]; rw [show (win1 1).index t (⟨2, by decide⟩ : Fin 3) = 0 from i2]; show 0 * 512 + (y 2).val = (y 2).val; omega

variable (L : GSem nD τ sig → Finset Ix) (lv : GSem nD τ sig → Ix → Lvl) (𝒱₀ : Variants)

abbrev held (c : Dev nD) (lr : TL (F := F)) (x : TX (F := F)) (y : TY (F := F)) : sProp 𝕄 :=
  iprop((((c.tc : Thread nD τ).loc main_v1) ↦{fullShare} lr) ∗ (((c.tc : Thread nD τ).loc main_arg0) ↦{fullShare} x)
    ∗ (((c.tc : Thread nD τ).loc main_v2) ↦{fullShare} y))

set_option backward.isDefEq.respectTransparency.types false in

def reg [∀ e, Nonempty (Elt F e)] :
    Pipeline.RegionSeg (pcfgs (F := F)) adm (dats (Name := Name) (U := U) (Lvl := Lvl) W lr x y0) ι defs₀ 𝒱₀ L lv 0 where
  win := launch1.win.to₀
  block_pos := launch1.block_pos
  stage_whole := launch1.stage_whole
  K := PEmpty
  osem := fun k => k.elim
  ho := Pipeline.OwnSemFacts.none _
  hbody c := (body_obligation ι W lr x y0 𝒱₀ c).loose
  hwaits := Pipeline.hwaits_of_owed_zero _ _ _ _ L lv 0 fun _ _ => rfl
  pre c := iprop(held c lr x y0 ∗ owes (c.tc : Thread nD τ) (0 : CellTallies nD τ sig Ix) W)
  post c := iprop(held c lr x (tcVal x lr) ∗ ∃ W', ⌜∀ p ∈ W', p ∈ W ∨ p.2 = ι⌝ ∗ owes (c.tc : Thread nD τ) (0 : CellTallies nD τ sig Ix) W')
  X _ := iprop(emp)
  Y _ := iprop(emp)
  Z _ := iprop(emp)
  hentry c := by
    rw [Pipeline.arrays_eq (Pipeline.pin (pcfgs (F := F)) adm) (dats W lr x y0) 0 c launch1.arr_whole ((dats W lr x y0 0 c).share_full fun _ => rfl), bigSep_W1]
    iintro ⟨⟨⟨H0, H1, H2⟩, HO⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr <;> iempintro
  hin c := by
    rw [show (dats (Name := Name) (U := U) (Lvl := Lvl) W lr x y0 0 c).Φ 0 = Pipeline.scopedRest spec1 c from rfl]
    iintro ⟨-, -, Hr⟩; iexact Hr
  hout c := by
    rw [show (dats (Name := Name) (U := U) (Lvl := Lvl) W lr x y0 0 c).Φ (Fin.last _) = Pipeline.scopedRest spec1 c from rfl]
    iintro Hr
    isplitr; · iempintro
    isplitr; · unfold Pipeline.ownSems0; rw [show (Finset.univ : Finset PEmpty) = ∅ from rfl, BI.bigSep_empty]; iempintro
    iexact Hr
  hexit c := by
    rw [Pipeline.arrays_eq (Pipeline.pin (pcfgs (F := F)) adm) (dats W lr x y0) 0 c launch1.arr_whole ((dats W lr x y0 0 c).share_full fun _ => rfl), bigSep_W1]
    dsimp only
    rw [arrAt_0, arrAt_1, arrAt_2]
    iintro ⟨⟨H0, H1, H2⟩, HO, -, -⟩
    imodintro
    isplitl [H0 H1 H2]
    · isplitl [H0]; · iexact H0
      isplitl [H1]; · iexact H1
      iexact H2
    unfold Pipeline.Dat.owesAt Pipeline.owesWithin
    icases HO with ⟨%W', %hW', HO⟩
    iexists W'; isplitr
    · ipureintro; intro p hp
      rcases hW' (Finset.mem_coe.mpr hp) with h | ⟨w, s, rfl⟩
      · exact Or.inl (Finset.mem_coe.mp h)
      · exact Or.inr rfl
    iexact HO

theorem cellOf_inj' : Function.Injective (Pipeline.cellOf (nD := nD) (τ := τ) (Pipeline.pin (pcfgs (F := F)) adm)) := Gen.cellOf_inj

set_option backward.isDefEq.respectTransparency.types false in

theorem tc_region [∀ e, Nonempty (Elt F e)] [Infinite Name]
    (EP : Emb (URounds (GSem nD τ sig) Unit) (MT nD τ sig Ix (Elt F) Name U Lvl)) [EP.LandsIn (upEmb : UEmb _ 𝕄)]
    (c : Dev nD)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ (((c.tc : Thread nD τ).loc main_v1) ↦{fullShare} lr)
              ∗ (((c.tc : Thread nD τ).loc main_arg0) ↦{fullShare} x) ∗ (((c.tc : Thread nD τ).loc main_v2) ↦{fullShare} tcVal x lr)
              ∗ ∃ W', ⌜∀ p ∈ W', p ∈ W ∨ p.2 = ι⌝ ∗ owes (c.tc : Thread nD τ) (0 : CellTallies nD τ sig Ix) W')
            -∗ wp frame (wpE (Pipeline.defs pcfgs defs₀) (Variants.lift 𝒱₀) (c.tc : Thread nD τ) none) Set.univ (k ⟨⟩) Q)
        ∗ boundary (c.tc : Thread nD τ)
        ∗ (((c.tc : Thread nD τ).loc main_v1) ↦{fullShare} lr) ∗ (((c.tc : Thread nD τ).loc main_arg0) ↦{fullShare} x)
        ∗ (((c.tc : Thread nD τ).loc main_v2) ↦{fullShare} y0)
        ∗ owes (c.tc : Thread nD τ) (0 : CellTallies nD τ sig Ix) W
        ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs pcfgs defs₀) (Variants.lift 𝒱₀) (c.tc : Thread nD τ) none) Set.univ
          (.op (.customCall (Pipeline.entry 0) ()) k) Q := by
  have h := Pipeline.RegionSeg.wp (pcfgs (F := F)) adm (dats W lr x y0) ι cellOf_inj' EP defs₀ 𝒱₀ L lv (reg ι W lr x y0 L lv 𝒱₀) c none
    (fun u hu => absurd hu (by simp)) k Q
  rw [show (reg (Name := Name) (U := U) ι W lr x y0 L lv 𝒱₀).pre c
        = iprop(held c lr x y0 ∗ owes (c.tc : Thread nD τ) (0 : CellTallies nD τ sig Ix) W) from rfl,
    show (reg (Name := Name) (U := U) ι W lr x y0 L lv 𝒱₀).post c
        = iprop(held c lr x (tcVal x lr) ∗ ∃ W', ⌜∀ p ∈ W', p ∈ W ∨ p.2 = ι⌝ ∗ owes (c.tc : Thread nD τ) (0 : CellTallies nD τ sig Ix) W') from rfl] at h
  iintro ⟨Hk, Hb, H0, H1, H2, HO, Hlv, Hg, Ht⟩
  iapply h
  isplitl [Hk]
  · iintro ⟨Hb, ⟨H0, H1, H2⟩, HO⟩
    iapply Hk
    isplitl [Hb]; · iexact Hb
    isplitl [H0]; · iexact H0
    isplitl [H1]; · iexact H1
    isplitl [H2]; · iexact H2
    iexact HO
  isplitl [Hb]; · iexact Hb
  isplitl [H0 H1 H2 HO]
  · isplitr [HO]
    · isplitl [H0]; · iexact H0
      isplitl [H1]; · iexact H1
      iexact H2
    · iexact HO
  isplitl [Hlv]; · iexact Hlv
  isplitl [Hg]; · iexact Hg
  iexact Ht

end Cert.Kernel.TcRegion

end
-- ==== Proof.ClaimsKB.lean ====
import proofs.«212945_g29746943492489_cont_sun_c4_499_28_alg».proof.Defs
import proofs.«212945_g29746943492489_cont_sun_c4_499_28_alg».proof.Proof.KILaunch3
import proofs.«212945_g29746943492489_cont_sun_c4_499_28_alg».proof.Proof.KITile4
import proofs.«212945_g29746943492489_cont_sun_c4_499_28_alg».proof.Proof.TcRegionB
import proofs.«212945_g29746943492489_cont_sun_c4_499_28_alg».proof.Proof.PreFacts
import proofs.«212945_g29746943492489_cont_sun_c4_499_28_alg».proof.Proof.Gen.Pre_input_domain
import proofs.«212945_g29746943492489_cont_sun_c4_499_28_alg».proof.Proof.Gen.Kernel

noncomputable section

namespace Cert.Proof.KB

open Cert.KernelIdeal Cert.KernelIdeal.Gen Cert.KernelIdeal.Sc
open Idealize.ShloMosaic Idealize.ShloMosaic.ValueIdx Idealize.SL.Sem

/- The program read at `Bits` is the idealized program's text over its own table of bodies: every other definition of the
   two printed texts is the same term, so the run below is the idealized program's run at that table. -/
local instance : TileDefs Bits := ⟨Cert.Kernel.defs₀⟩

abbrev tcV : (d : Dev nD) → Buf (Elt Bits) (xLoc d) → Buf (Elt Bits) (v1Loc d) → Buf (Elt Bits) (v2Loc d) :=
  fun _ x lr => Cert.Kernel.TcRegion.tcVal (F := Bits) x lr

theorem vecEntry : VecEntry (F := Bits) := fun c s =>
  (show Cert.Kernel.defs₀ (F := Bits) (.scVector c s) 0 () = Cert.KernelIdeal.defs₀ (F := Bits) (.scVector c s) 0 () from rfl).trans rfl

theorem defs_eq : Cert.Kernel.defs (F := Bits) = (K (F := Bits)).defs (D (F := Bits)) := rfl

theorem threads_eq : Cert.Kernel.threads (F := Bits) = Cert.KernelIdeal.threads (F := Bits) := rfl

set_option maxHeartbeats 1000000 in
theorem tcRegion : TcRegionAt (F := Bits) tcV := by
  intro L lv ι c W lr x y0 α k Q
  exact Cert.Kernel.TcRegion.tc_region ι W lr x y0 L lv 𝒱₀ ER c k Q

theorem len_ok (m : (ℓ : Loc nD τ sig) → Buf (Elt Bits) ℓ) (hpre : Cert.Pre_Kernel (hPre_input_domain := Cert.Pre_input_domain.Gen.facts) m) :
    ∀ d b p, (m (lLoc d) (ix2 b p)).toNat ≤ 127 :=
  fun d b p => Cert.PreFacts.len_le (hP := Cert.Pre_input_domain.Gen.facts) _ _ (hpre d) b p

theorem frame_k : Cert.frame_Kernel (hKernel := Cert.Kernel.Gen.facts) (hPre_input_domain := Cert.Pre_input_domain.Gen.facts) := by
  intro m ρ hpre
  have h := run_main (scSH m) m ρ (scOV m) tcV vecEntry (tile_body m facts (len_ok m hpre)) tcRegion
  rw [← defs_eq, ← threads_eq] at h
  exact (θ_run _ _ _).mono (fun _ h c => ⟨(h c).2.1, (h c).2.2⟩) h

end Cert.Proof.KB

end
-- ==== Proof.lean ====
import proofs.«212945_g29746943492489_cont_sun_c4_499_28_alg».proof.Defs
import proofs.«212945_g29746943492489_cont_sun_c4_499_28_alg».proof.Proof.Gen.Kernel
import proofs.«212945_g29746943492489_cont_sun_c4_499_28_alg».proof.Proof.Gen.Kernel.Skeleton
import proofs.«212945_g29746943492489_cont_sun_c4_499_28_alg».proof.Proof.Gen.Kernel.Launch
import proofs.«212945_g29746943492489_cont_sun_c4_499_28_alg».proof.Proof.Gen.Kernel.Points
import proofs.«212945_g29746943492489_cont_sun_c4_499_28_alg».proof.Proof.Gen.KernelIdeal
import proofs.«212945_g29746943492489_cont_sun_c4_499_28_alg».proof.Proof.Gen.KernelIdeal.Skeleton
import proofs.«212945_g29746943492489_cont_sun_c4_499_28_alg».proof.Proof.Gen.KernelIdeal.Launch
import proofs.«212945_g29746943492489_cont_sun_c4_499_28_alg».proof.Proof.Gen.KernelIdeal.Points
import proofs.«212945_g29746943492489_cont_sun_c4_499_28_alg».proof.Proof.Gen.ReferenceIdeal
import proofs.«212945_g29746943492489_cont_sun_c4_499_28_alg».proof.Proof.Gen.Pre_input_domain
import Idealize.ShloMosaic.Adequacy
import Idealize.ShloMosaic.Init
import proofs.«212945_g29746943492489_cont_sun_c4_499_28_alg».proof.Proof.ClaimsRef
import proofs.«212945_g29746943492489_cont_sun_c4_499_28_alg».proof.Proof.ClaimsKI
import proofs.«212945_g29746943492489_cont_sun_c4_499_28_alg».proof.Proof.ClaimsKB

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KB.frame_k,
    Cert.Proof.KI.frame_ki,
    Cert.Proof.Ref.frame_ri,
    Cert.Proof.Ref.preserves,
    Cert.Proof.KI.algebraic⟩

end Cert.Proof

end
